-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v141_0)) (v1 : (c : Dev Cert.KernelIdeal.nD) → Buf (Elt Ideal) ((c.tc : Thread Cert.KernelIdeal.nD Cert.KernelIdeal.τ).loc Cert.KernelIdeal.main_v141_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141_0) = v0 c
          ∧ r.2.mem ((c.tc : Thread Cert.KernelIdeal.nD Cert.KernelIdeal.τ).loc Cert.KernelIdeal.main_v141_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_v235) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg8 : FVec F S4x128 .f32) (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_cst_28 : FVec F S_ .f32 := constant S_ .f32 0x00000000#32
  let main_v74 : FVec F S4x128 .f32 := broadcastInDim S4x128 ![] bcast_S_S4x128 main_cst_28
  let main_v75 : IVec S4x128 1 := cmpf .oge main_arg8 main_v74
  let main_c_29 : IVec S_ 1 := constantI S_ 1 1#1
  let main_v76 : IVec S_ 1 := (fun x v => Host.reduce IntOp.andi x v reducesTo_S4x128_S_d0_1 h_S_) main_v75 main_c_29
  let main_v77 : IVec S_ 1 := andi main_v73 main_v76
  main_v77

def fn_part3 {F : FTy → Type} [FloatOps F] (main_arg8 : FVec F S4x128 .f32) (main_arg13 : FVec F S128x128 .f32) (main_arg14 : FVec F S128 .f32) (main_arg15 : FVec F S128x1 .f32) (main_arg16 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg8 main_arg16 main_v63 main_v67

def fn_part2 {F : FTy → Type} [FloatOps F] (main_arg8 : FVec F S4x128 .f32) (main_arg9 : FVec F S128x128 .f32) (main_arg10 : FVec F S128 .f32) (main_arg11 : FVec F S128x16 .f32) (main_arg12 : FVec F S16 .f32) (main_arg13 : FVec F S128x128 .f32) (main_arg14 : FVec F S128 .f32) (main_arg15 : FVec F S128x1 .f32) (main_arg16 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x16 .f32 := Host.absf main_arg11
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg8 main_arg13 main_arg14 main_arg15 main_arg16 main_v48 main_v49 main_v50

def fn_part1 {F : FTy → Type} [FloatOps F] (main_arg6 : FVec F S4x128 .f32) (main_arg7 : FVec F S4x128 .f32) (main_arg8 : FVec F S4x128 .f32) (main_arg9 : FVec F S128x128 .f32) (main_arg10 : FVec F S128 .f32) (main_arg11 : FVec F S128x16 .f32) (main_arg12 : FVec F S16 .f32) (main_arg13 : FVec F S128x128 .f32) (main_arg14 : FVec F S128 .f32) (main_arg15 : FVec F S128x1 .f32) (main_arg16 : FVec F S1 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S4x128x128 .f32) (main_arg4 : FVec F S4x128 .f32) (main_arg5 : FVec F S4x128 .f32) (main_arg6 : FVec F S4x128 .f32) (main_arg7 : FVec F S4x128 .f32) (main_arg8 : FVec F S4x128 .f32) (main_arg9 : FVec F S128x128 .f32) (main_arg10 : FVec F S128 .f32) (main_arg11 : FVec F S128x16 .f32) (main_arg12 : FVec F S16 .f32) (main_arg13 : FVec F S128x128 .f32) (main_arg14 : FVec F S128 .f32) (main_arg15 : FVec F S128x1 .f32) (main_arg16 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128x128 : Shape := ⟨3, ![1, 128, 128]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩
abbrev S64x128 : Shape := ⟨2, ![64, 128]⟩
abbrev S2000x64 : Shape := ⟨2, ![2000, 64]⟩
abbrev S1x16 : Shape := ⟨2, ![1, 16]⟩
abbrev S1x1 : Shape := ⟨2, ![1, 1]⟩
abbrev S64x16 : Shape := ⟨2, ![64, 16]⟩
abbrev S64x1 : Shape := ⟨2, ![64, 1]⟩

abbrev nBuf : Space → Nat
  | .hbm => 180
  | .vmem => 81
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S4x128, .f32⟩
  | 8 => ⟨S4x128, .f32⟩
  | 9 => ⟨S128x128, .f32⟩
  | 10 => ⟨S128, .f32⟩
  | 11 => ⟨S128x16, .f32⟩
  | 12 => ⟨S16, .f32⟩
  | 13 => ⟨S128x128, .f32⟩
  | 14 => ⟨S128, .f32⟩
  | 15 => ⟨S128x1, .f32⟩
  | 16 => ⟨S1, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000x1, .f32⟩
  | 51 => ⟨S100000, .f32⟩
  | 52 => ⟨S100000x1, .f32⟩
  | 53 => ⟨S_, .f32⟩
  | 54 => ⟨S4x128, .f32⟩
  | 55 => ⟨S4x128, .f32⟩
  | 56 => ⟨S4x128, .f32⟩
  | 57 => ⟨S4x128, .f32⟩
  | 58 => ⟨S4x128, .f32⟩
  | 59 => ⟨S4x128, .f32⟩
  | 60 => ⟨S1x128x128, .f32⟩
  | 61 => ⟨S128x128, .f32⟩
  | 62 => ⟨S100000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S1600000x128, .f32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S1x128, .f32⟩
  | 79 => ⟨S128, .f32⟩
  | 80 => ⟨S1x128, .f32⟩
  | 81 => ⟨S1x128, .f32⟩
  | 82 => ⟨S128, .f32⟩
  | 83 => ⟨S1x128, .f32⟩
  | 84 => ⟨S1x128, .f32⟩
  | 85 => ⟨S128, .f32⟩
  | 86 => ⟨S1x128, .f32⟩
  | 87 => ⟨S100000x128, .f32⟩
  | 88 => ⟨S1x128x128, .f32⟩
  | 89 => ⟨S128x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x128, .f32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S1x128, .f32⟩
  | 107 => ⟨S128, .f32⟩
  | 108 => ⟨S1x128, .f32⟩
  | 109 => ⟨S1x128, .f32⟩
  | 110 => ⟨S128, .f32⟩
  | 111 => ⟨S1x128, .f32⟩
  | 112 => ⟨S1x128, .f32⟩
  | 113 => ⟨S128, .f32⟩
  | 114 => ⟨S1x128, .f32⟩
  | 115 => ⟨S100000x128, .f32⟩
  | 116 => ⟨S1x128x128, .f32⟩
  | 117 => ⟨S128x128, .f32⟩
  | 118 => ⟨S100000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x128, .f32⟩

abbrev hbmTy0_1 (i : Nat) : BufTy := match i % 128 with
  | 0 => ⟨S1600000x128, .f32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S1x128, .f32⟩
  | 7 => ⟨S128, .f32⟩
  | 8 => ⟨S1x128, .f32⟩
  | 9 => ⟨S1x128, .f32⟩
  | 10 => ⟨S128, .f32⟩
  | 11 => ⟨S1x128, .f32⟩
  | 12 => ⟨S1x128, .f32⟩
  | 13 => ⟨S128, .f32⟩
  | 14 => ⟨S1x128, .f32⟩
  | 15 => ⟨S100000x128, .f32⟩
  | 16 => ⟨S1x128x128, .f32⟩
  | 17 => ⟨S128x128, .f32⟩
  | 18 => ⟨S100000x128, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S1600000x128, .f32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S1x128, .f32⟩
  | 35 => ⟨S128, .f32⟩
  | 36 => ⟨S1x128, .f32⟩
  | 37 => ⟨S1x128, .f32⟩
  | 38 => ⟨S128, .f32⟩
  | 39 => ⟨S1x128, .f32⟩
  | 40 => ⟨S1x128, .f32⟩
  | 41 => ⟨S128, .f32⟩
  | 42 => ⟨S1x128, .f32⟩
  | 43 => ⟨S100000x128, .f32⟩
  | 44 => ⟨S100000x1, .i32⟩
  | 45 => ⟨S64x128, .f32⟩
  | 46 => ⟨S1x128, .f32⟩
  | 47 => ⟨S1x16, .f32⟩
  | 48 => ⟨S1x128, .f32⟩
  | 49 => ⟨S1x1, .f32⟩
  | 50 => ⟨S64x16, .f32⟩
  | 51 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x1, .f32⟩
  | .local _ .vmem, ⟨42, _⟩ => ⟨S2000x1, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S128x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x1, .f32⟩
  | .local _ .vmem, ⟨58, _⟩ => ⟨S2000x1, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | .local _ .vmem, ⟨64, _⟩ => ⟨S2000x1, .i32⟩
  | .local _ .vmem, ⟨65, _⟩ => ⟨S2000x1, .i32⟩
  | .local _ .vmem, ⟨66, _⟩ => ⟨S2000x128, .f32⟩
  | .local _ .vmem, ⟨67, _⟩ => ⟨S2000x128, .f32⟩
  | .local _ .vmem, ⟨68, _⟩ => ⟨S64x128, .f32⟩
  | .local _ .vmem, ⟨69, _⟩ => ⟨S64x128, .f32⟩
  | .local _ .vmem, ⟨70, _⟩ => ⟨S64x128, .f32⟩
  | .local _ .vmem, ⟨71, _⟩ => ⟨S128x128, .f32⟩
  | .local _ .vmem, ⟨72, _⟩ => ⟨S1x128, .f32⟩
  | .local _ .vmem, ⟨73, _⟩ => ⟨S128x16, .f32⟩
  | .local _ .vmem, ⟨74, _⟩ => ⟨S1x16, .f32⟩
  | .local _ .vmem, ⟨75, _⟩ => ⟨S128x128, .f32⟩
  | .local _ .vmem, ⟨76, _⟩ => ⟨S1x128, .f32⟩
  | .local _ .vmem, ⟨77, _⟩ => ⟨S128x1, .f32⟩
  | .local _ .vmem, ⟨78, _⟩ => ⟨S1x1, .f32⟩
  | .local _ .vmem, ⟨79, _⟩ => ⟨S64x16, .f32⟩
  | .local _ .vmem, ⟨80, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_9 : Ref sig .tc := ⟨.hbm, 91, rfl⟩
abbrev main_v63 : Ref sig .tc := ⟨.hbm, 92, rfl⟩
abbrev main_v64 : Ref sig .tc := ⟨.hbm, 93, rfl⟩
abbrev main_c_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_11 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_12 : Ref sig .tc := ⟨.hbm, 119, rfl⟩
abbrev main_v88 : Ref sig .tc := ⟨.hbm, 120, rfl⟩
abbrev main_v89 : Ref sig .tc := ⟨.hbm, 121, rfl⟩
abbrev main_c_13 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_14 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_c_15 : Ref sig .tc := ⟨.hbm, 147, rfl⟩
abbrev main_v113 : Ref sig .tc := ⟨.hbm, 148, rfl⟩
abbrev main_v114 : Ref sig .tc := ⟨.hbm, 149, rfl⟩
abbrev main_c_16 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_17 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141_0 : Ref sig .tc := ⟨.hbm, 178, rfl⟩
abbrev main_v141_1 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg5_0 : Ref sig .tc := ⟨.vmem, 61, rfl⟩
abbrev cc7_stg6_0 : Ref sig .tc := ⟨.vmem, 62, rfl⟩
abbrev cc7_stg6_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_scratch0 : Ref sig .tc := ⟨.vmem, 69, rfl⟩
abbrev cc9_stg0_0 : Ref sig .tc := ⟨.vmem, 70, rfl⟩
abbrev cc9_stg1_0 : Ref sig .tc := ⟨.vmem, 71, rfl⟩
abbrev cc9_stg2_0 : Ref sig .tc := ⟨.vmem, 72, rfl⟩
abbrev cc9_stg3_0 : Ref sig .tc := ⟨.vmem, 73, rfl⟩
abbrev cc9_stg4_0 : Ref sig .tc := ⟨.vmem, 74, rfl⟩
abbrev cc9_stg5_0 : Ref sig .tc := ⟨.vmem, 75, rfl⟩
abbrev cc9_stg6_0 : Ref sig .tc := ⟨.vmem, 76, rfl⟩
abbrev cc9_stg7_0 : Ref sig .tc := ⟨.vmem, 77, rfl⟩
abbrev cc9_stg8_0 : Ref sig .tc := ⟨.vmem, 78, rfl⟩
abbrev cc9_stg9_0 : Ref sig .tc := ⟨.vmem, 79, rfl⟩
abbrev cc9_stg10_0 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem5_0 : DmaSem sig := 61
abbrev cc7_sem6_0 : DmaSem sig := 62
abbrev cc7_sem6_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc9_sem0_0 : DmaSem sig := 69
abbrev cc9_sem1_0 : DmaSem sig := 70
abbrev cc9_sem2_0 : DmaSem sig := 71
abbrev cc9_sem3_0 : DmaSem sig := 72
abbrev cc9_sem4_0 : DmaSem sig := 73
abbrev cc9_sem5_0 : DmaSem sig := 74
abbrev cc9_sem6_0 : DmaSem sig := 75
abbrev cc9_sem7_0 : DmaSem sig := 76
abbrev cc9_sem8_0 : DmaSem sig := 77
abbrev cc9_sem9_0 : DmaSem sig := 78
abbrev cc9_sem10_0 : DmaSem sig := 79

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x1 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S64x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x16 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x16 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S128x1 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x1 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S64x16 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S64x1 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S4x128 : S_.BroadcastsInDim S4x128 (![] : Fin 0 → Fin S4x128.rank)
  slices_S4x128x128_S1x128x128_0_0_0 : S4x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S100000_S100000x1 : S100000.ShapeCasts S100000x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S2000x64_d1_w32 : S2000x64.Iotas .tc 32 [1]
  broadcasts_S2000x1_S2000x64 : S2000x1.Broadcasts S2000x64
  natLt_1_32 : 1 < 32
  shapeCasts_S16_S1x16 : S16.ShapeCasts S1x16
  shapeCasts_S1_S1x1 : S1.ShapeCasts S1x1
  broadcasts_S1x128_S64x128 : S1x128.Broadcasts S64x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x64_S2000x128_S64x128_0_0_1_1_n_n_wf : DotDims.WF S2000x64 S2000x128 S64x128 [0] [0] [1] [1] [] []
  dot_S64x128_S128x128_S64x128_1_0_0_1_n_n_wf : DotDims.WF S64x128 S128x128 S64x128 [1] [0] [0] [1] [] []
  dot_S64x128_S128x16_S64x16_1_0_0_1_n_n_wf : DotDims.WF S64x128 S128x16 S64x16 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S100000x128.size a
  hwx5_6 : ∀ i : grid5.Coords, EltTy.bits .f32 = 32 ∨ (Rect.block (s := S100000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S100000x128.size a
  hwx6_2 : ∀ i : grid6.Coords, EltTy.bits .f32 = 32 ∨ (Rect.block (s := S100000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S100000x128.size a
  hwx7_1 : ∀ i : grid7.Coords, EltTy.bits .f32 = 32 ∨ (Rect.block (s := S100000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S100000x1.size a
  hwx7_2 : ∀ i : grid7.Coords, EltTy.bits .f32 = 32 ∨ (Rect.block (s := S100000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S100000x128.size a
  hwx7_6 : ∀ i : grid7.Coords, EltTy.bits .f32 = 32 ∨ (Rect.block (s := S100000x128) S2000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x1.size a ≤ S100000x1.size a
  hwx8_0 : ∀ i : grid8.Coords, EltTy.bits .i32 = 32 ∨ (Rect.block (s := S100000x1) S2000x1.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S100000x128.size a
  hwx8_1 : ∀ i : grid8.Coords, EltTy.bits .f32 = 32 ∨ (Rect.block (s := S100000x128) S2000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x128.size a ≤ S64x128.size a
  hwx8_2 : ∀ i : grid8.Coords, EltTy.bits .f32 = 32 ∨ (Rect.block (s := S64x128) S64x128.size (cc8_transform_2 i) (hinb8_2 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S64x128.size a ≤ S64x128.size a
  hwx9_0 : ∀ i : grid9.Coords, EltTy.bits .f32 = 32 ∨ (Rect.block (s := S64x128) S64x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x16.size a ≤ S128x16.size a
  hwx9_3 : ∀ i : grid9.Coords, EltTy.bits .f32 = 32 ∨ (Rect.block (s := S128x16) S128x16.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x16.size a ≤ S1x16.size a
  hwx9_4 : ∀ i : grid9.Coords, EltTy.bits .f32 = 32 ∨ (Rect.block (s := S1x16) S1x16.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S128x1.size a ≤ S128x1.size a
  hwx9_7 : ∀ i : grid9.Coords, EltTy.bits .f32 = 32 ∨ (Rect.block (s := S128x1) S128x1.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x1.size a ≤ S1x1.size a
  hwx9_8 : ∀ i : grid9.Coords, EltTy.bits .f32 = 32 ∨ (Rect.block (s := S1x1) S1x1.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S64x16.size a ≤ S64x16.size a
  hwx9_9 : ∀ i : grid9.Coords, EltTy.bits .f32 = 32 ∨ (Rect.block (s := S64x16) S64x16.size (cc9_transform_9 i) (hinb9_9 i)).WholeWords (EltTy.packing .f32)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S64x1.size a ≤ S64x1.size a
  hwx9_10 : ∀ i : grid9.Coords, EltTy.bits .f32 = 32 ∨ (Rect.block (s := S64x1) S64x1.size (cc9_transform_10 i) (hinb9_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v59) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v84) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v84) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v99) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v102) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v109) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v109) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v111) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v112) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v124) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v112) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v28) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v127) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v130) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v133) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v134) S2000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v135) S2000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v134) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v136) S64x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v136) S64x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg9) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v137) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg11) S128x16.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v138) S1x16.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg13) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v139) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_arg15) S128x1.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v140) S1x1.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v141_0) S64x16.size cc9_transform_9 reads9_9 true true 1 stage9_9 sem9_9
    hrank9 hreads9_9 hinb9_9 nbuf9_9 (Memref.isWhole_whole _) hwx9_9 hstage9_9

abbrev win9_10 : Pipeline.Window sig grid9 :=
  Pipeline.Window.ofSpec (Memref.whole main_v141_1) S64x1.size cc9_transform_10 reads9_10 true true 1 stage9_10 sem9_10
    hrank9 hreads9_10 hinb9_10 nbuf9_10 (Memref.isWhole_whole _) hwx9_10 hstage9_10

abbrev win9 : Fin 11 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | ⟨_ + 11, h⟩ => absurd h (Nat.not_lt.2 (Nat.le_add_left _ _))
abbrev spec9 : Fin 11 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128x128 : Shape := ⟨3, ![1, 128, 128]⟩
abbrev S1600000x128 : Shape := ⟨2, ![1600000, 128]⟩
abbrev S1x128 : Shape := ⟨2, ![1, 128]⟩
abbrev S64x128 : Shape := ⟨2, ![64, 128]⟩
abbrev S64x16 : Shape := ⟨2, ![64, 16]⟩
abbrev S1x16 : Shape := ⟨2, ![1, 16]⟩
abbrev S64x1 : Shape := ⟨2, ![64, 1]⟩
abbrev S1x1 : Shape := ⟨2, ![1, 1]⟩

abbrev nBuf : Space → Nat
  | .hbm => 291
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S4x128, .f32⟩
  | 8 => ⟨S4x128, .f32⟩
  | 9 => ⟨S128x128, .f32⟩
  | 10 => ⟨S128, .f32⟩
  | 11 => ⟨S128x16, .f32⟩
  | 12 => ⟨S16, .f32⟩
  | 13 => ⟨S128x128, .f32⟩
  | 14 => ⟨S128, .f32⟩
  | 15 => ⟨S128x1, .f32⟩
  | 16 => ⟨S1, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000x1, .f32⟩
  | 51 => ⟨S100000, .f32⟩
  | 52 => ⟨S100000x1, .f32⟩
  | 53 => ⟨S1x128x128, .f32⟩
  | 54 => ⟨S128x128, .f32⟩
  | 55 => ⟨S100000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x128, .f32⟩
  | 72 => ⟨S100000x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S128, .f32⟩
  | 86 => ⟨S1x128, .f32⟩
  | 87 => ⟨S128, .f32⟩
  | 88 => ⟨S_, .f32⟩
  | 89 => ⟨S128, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S1x128x128, .f32⟩
  | 105 => ⟨S128x128, .f32⟩
  | 106 => ⟨S100000x128, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S1600000x128, .f32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x128, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S128, .f32⟩
  | 4 => ⟨S1x128, .f32⟩
  | 5 => ⟨S100000x128, .f32⟩
  | 6 => ⟨S100000x128, .f32⟩
  | 7 => ⟨S1x128, .f32⟩
  | 8 => ⟨S128, .f32⟩
  | 9 => ⟨S1x128, .f32⟩
  | 10 => ⟨S128, .f32⟩
  | 11 => ⟨S_, .f32⟩
  | 12 => ⟨S128, .f32⟩
  | 13 => ⟨S128, .f32⟩
  | 14 => ⟨S128, .f32⟩
  | 15 => ⟨S128, .f32⟩
  | 16 => ⟨S1x128, .f32⟩
  | 17 => ⟨S100000x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S1600000x128, .f32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S100000x128, .f32⟩
  | 46 => ⟨S100000x128, .f32⟩
  | 47 => ⟨S100000x128, .f32⟩
  | 48 => ⟨S1x128, .f32⟩
  | 49 => ⟨S128, .f32⟩
  | 50 => ⟨S1x128, .f32⟩
  | 51 => ⟨S100000x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S1x128, .f32⟩
  | 59 => ⟨S128, .f32⟩
  | 60 => ⟨S1x128, .f32⟩
  | 61 => ⟨S128, .f32⟩
  | 62 => ⟨S_, .f32⟩
  | 63 => ⟨S128, .f32⟩
  | 64 => ⟨S128, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S1600000x128, .f32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S100000x128, .f32⟩
  | 97 => ⟨S100000x128, .f32⟩
  | 98 => ⟨S100000x128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S128, .f32⟩
  | 111 => ⟨S1x128, .f32⟩
  | 112 => ⟨S128, .f32⟩
  | 113 => ⟨S_, .f32⟩
  | 114 => ⟨S128, .f32⟩
  | 115 => ⟨S128, .f32⟩
  | 116 => ⟨S128, .f32⟩
  | 117 => ⟨S128, .f32⟩
  | 118 => ⟨S1x128, .f32⟩
  | 119 => ⟨S100000x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_2 (i : Nat) : BufTy := match i % 128 with
  | 0 => ⟨S100000x128, .f32⟩
  | 1 => ⟨S_, .f32⟩
  | 2 => ⟨S64x128, .f32⟩
  | 3 => ⟨S100000x1, .i32⟩
  | 4 => ⟨S64x128, .f32⟩
  | 5 => ⟨S64x128, .f32⟩
  | 6 => ⟨S1x128, .f32⟩
  | 7 => ⟨S64x128, .f32⟩
  | 8 => ⟨S64x128, .f32⟩
  | 9 => ⟨S_, .f32⟩
  | 10 => ⟨S64x128, .f32⟩
  | 11 => ⟨S64x128, .f32⟩
  | 12 => ⟨S64x16, .f32⟩
  | 13 => ⟨S1x16, .f32⟩
  | 14 => ⟨S64x16, .f32⟩
  | 15 => ⟨S64x16, .f32⟩
  | 16 => ⟨S64x128, .f32⟩
  | 17 => ⟨S1x128, .f32⟩
  | 18 => ⟨S64x128, .f32⟩
  | 19 => ⟨S64x128, .f32⟩
  | 20 => ⟨S_, .f32⟩
  | 21 => ⟨S64x128, .f32⟩
  | 22 => ⟨S64x128, .f32⟩
  | 23 => ⟨S64x1, .f32⟩
  | 24 => ⟨S1x1, .f32⟩
  | 25 => ⟨S64x1, .f32⟩
  | 26 => ⟨S64x1, .f32⟩
  | 27 => ⟨S64x1, .f32⟩
  | 28 => ⟨S64x1, .f32⟩
  | 29 => ⟨S_, .f32⟩
  | 30 => ⟨S64x1, .f32⟩
  | 31 => ⟨S64x1, .f32⟩
  | 32 => ⟨S_, .f32⟩
  | 33 => ⟨S64x1, .f32⟩
  | 34 => ⟨S64x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_8 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call0_cst : Ref sig .tc := ⟨.hbm, 101, rfl⟩
abbrev main_call0_v0 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_9 : Ref sig .tc := ⟨.hbm, 107, rfl⟩
abbrev main_v77 : Ref sig .tc := ⟨.hbm, 108, rfl⟩
abbrev main_v78 : Ref sig .tc := ⟨.hbm, 109, rfl⟩
abbrev main_c_10 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_11 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_12 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_call1_cst : Ref sig .tc := ⟨.hbm, 152, rfl⟩
abbrev main_call1_v0 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_c_13 : Ref sig .tc := ⟨.hbm, 158, rfl⟩
abbrev main_v122 : Ref sig .tc := ⟨.hbm, 159, rfl⟩
abbrev main_v123 : Ref sig .tc := ⟨.hbm, 160, rfl⟩
abbrev main_c_14 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_15 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_cst_16 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_call2_cst : Ref sig .tc := ⟨.hbm, 203, rfl⟩
abbrev main_call2_v0 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_c_17 : Ref sig .tc := ⟨.hbm, 209, rfl⟩
abbrev main_v167 : Ref sig .tc := ⟨.hbm, 210, rfl⟩
abbrev main_v168 : Ref sig .tc := ⟨.hbm, 211, rfl⟩
abbrev main_c_18 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_cst_19 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_cst_20 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_call3_cst : Ref sig .tc := ⟨.hbm, 254, rfl⟩
abbrev main_call3_v0 : Ref sig .tc := ⟨.hbm, 255, rfl⟩
abbrev main_v208 : Ref sig .tc := ⟨.hbm, 256, rfl⟩
abbrev main_cst_21 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_call4_cst : Ref sig .tc := ⟨.hbm, 265, rfl⟩
abbrev main_call4_v0 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_call5_cst : Ref sig .tc := ⟨.hbm, 276, rfl⟩
abbrev main_call5_v0 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_cst_22 : Ref sig .tc := ⟨.hbm, 285, rfl⟩
abbrev main_v232 : Ref sig .tc := ⟨.hbm, 286, rfl⟩
abbrev main_v233 : Ref sig .tc := ⟨.hbm, 287, rfl⟩
abbrev main_cst_23 : Ref sig .tc := ⟨.hbm, 288, rfl⟩
abbrev main_v234 : Ref sig .tc := ⟨.hbm, 289, rfl⟩
abbrev main_v235 : Ref sig .tc := ⟨.hbm, 290, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S4x128x128_S1x128x128_0_0_0 : S4x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S64x128 : S_.BroadcastsInDim S64x128 (![] : Fin 0 → Fin S64x128.rank)
  bcast_S1x128_S64x128_0_1 : S1x128.BroadcastsInDim S64x128 (![0, 1] : Fin 2 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  dot_S64x128_S128x16_S64x16_1_0_0_1_n_n_wf : DotDims.WF S64x128 S128x16 S64x16 [1] [0] [0] [1] [] []
  dot_S64x128_S128x1_S64x1_1_0_0_1_n_n_wf : DotDims.WF S64x128 S128x1 S64x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.Blk.lean ====
import proofs.«417545_j39908836114735_1_alg».proof.Proof.Gen.Kernel.Launch
import Idealize.ShloMosaic.Lib.Pipeline.FrameBody
noncomputable section
namespace Cert.Kernel.Hand
open Cert.Kernel Cert.Kernel.Gen
open Idealize.ShloMosaic Idealize.ShloMosaic.TcCoe
open Idealize.ShloMosaic.Pipeline (Dat Cfg)
variable {F : FTy → Type} [FloatOps F]
variable (V : (c : Dev nD) → (b : Ref sig .tc) → Buf (Elt F) ((c : Thread nD τ).loc b))

/-- Window `w`'s block at point `t` of its array as `V` gives it. -/
def blk (cfg : Cfg sig Λ₀) (c : Dev nD) (w : Fin cfg.W) (t : Fin cfg.N) :
    ((cfg.win w).xblock (cfg.grid.coords t)).Idx → Elt F (cfg.win w).elt :=
  ((cfg.win w).blk t).view.read (Elt F) (V c (Pipeline.arrRef cfg.spec w))

/-- An input window that the body leaves as found holds, at every point, its block of the array `V` gives. -/
theorem before_blk {cfg : Cfg sig Λ₀} {c : Dev nD} (dat : Dat τ (Elt F) Unit ℕ (UR sig nD τ) ℕ cfg c)
    (hA : ∀ w, dat.A w = V c (Pipeline.arrRef cfg.spec w)) (w : Fin cfg.W)
    (hw : (cfg.win w).isOut = false) (hlive : ∀ i, cfg.idle w i = false)
    (hclip : ∀ t t' : Fin cfg.N, (cfg.win w).index t = (cfg.win w).index t' →
      (cfg.win w).clip (cfg.grid.coords t) = (cfg.win w).clip (cfg.grid.coords t'))
    (hkeep : ∀ t, (cfg.win w).cut (cfg.grid.coords t) (dat.after w t) = blk V cfg c w t) (t : Fin cfg.N) (d) :
    dat.before w t d = (cfg.win w).fill (cfg.grid.coords t) d (blk V cfg c w t) := by
  have hb : ∀ t, dat.blockOf w t = blk V cfg c w t := fun t => by unfold Dat.blockOf blk; rw [hA]
  rw [dat.before_in_eq_fetched w hw hlive hclip (fun t => (hkeep t).trans (hb t).symm) t d, Dat.fetched, hb]

end Cert.Kernel.Hand
end
-- ==== Proof.K.B0.lean ====
import proofs.«417545_j39908836114735_1_alg».proof.Proof.Gen.Kernel.Launch
import proofs.«417545_j39908836114735_1_alg».proof.Proof.Gen.Kernel.Skeleton
import proofs.«417545_j39908836114735_1_alg».proof.Proof.Gen.Kernel.Points
import proofs.«417545_j39908836114735_1_alg».proof.Proof.K.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk0 (c : Dev nD) (w : Fin cfg0.W) (t : Fin cfg0.N) := blk V cfg0 c w t

abbrev rows0 : Rect S2000x128 := Rect.unit (s := S2000x128) ![0, 0] S2000x128.size inb_S2000x128_S2000x128_0_0
abbrev wgt0 : Rect S128x128 := Rect.unit (s := S128x128) ![0, 0] S128x128.size inb_S128x128_S128x128_0_0

def out0_2 (x0 : Vec F S2000x128 .f32) (x1 : Vec F S128x128 .f32) : Vec F S2000x128 .f32 :=
  View.canon [⟨rows0, k0_pay1 (View.ld x0 rows0) (View.ld x1 wgt0)⟩]

theorem cover0_2 (p0 : Vec F S2000x128 .f32) (y : S2000x128.Idx) :
    ∃ pc ∈ ([⟨rows0, p0⟩] : List (View.Piece (Elt F) S2000x128 .f32)), y ∈ pc.1.set :=
  View.cover_of_tiled [⟨rows0, p0⟩] S2000x128.size (by rfl) y

set_option maxHeartbeats 1000000 in
/-- The body stores once, over the whole result buffer, so what is read back there is the stored value; the inputs are only read. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) : ∀ k, (dat0 V c).owed k = 0 := fun k => by
  dsimp only [dat0]
theorem Phi_eq0 (c : Dev nD) (k) : (dat0 V c).Φ k = Pipeline.ΦA spec0 c := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) : ∀ t d, (dat0 V c).before 0 t d = iblk0 V c 0 t :=
  before_blk V _ (A_eq0 V c) 0 rfl (fun _ => rfl) (fun _ _ _ => rfl) (after0_0 V c)
theorem before0_1 (c : Dev nD) : ∀ t d, (dat0 V c).before 1 t d = iblk0 V c 1 t :=
  before_blk V _ (A_eq0 V c) 1 rfl (fun _ => rfl) (fun _ _ _ => rfl) (after0_1 V c)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- Each input holds its block at every point (`before_blk`), so `sound_kernel0` applies; the invariant and the owed tallies pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, Phi_eq0]
  rw [show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand
end
-- ==== Proof.K.B1.lean ====
import proofs.«417545_j39908836114735_1_alg».proof.Proof.Gen.Kernel.Launch
import proofs.«417545_j39908836114735_1_alg».proof.Proof.Gen.Kernel.Skeleton
import proofs.«417545_j39908836114735_1_alg».proof.Proof.Gen.Kernel.Points
import proofs.«417545_j39908836114735_1_alg».proof.Proof.K.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk1 (c : Dev nD) (w : Fin cfg1.W) (t : Fin cfg1.N) := blk V cfg1 c w t

abbrev featBox1 : Rect S2000x128 := Rect.unit (s := S2000x128) ![0, 0] S2000x128.size inb_S2000x128_S2000x128_0_0
abbrev nodeBox1 : Rect S2000x1 := Rect.unit (s := S2000x1) ![0, 0] S2000x1.size inb_S2000x1_S2000x1_0_0
abbrev chanBox1 : Rect S1x128 := Rect.unit (s := S1x128) ![0, 0] S1x128.size inb_S1x128_S1x128_0_0

def out1_6 (agg hw : Vec F S2000x128 .f32) (sn : Vec F S2000x1 .f32) (b sc sh : Vec F S1x128 .f32) : Vec F S2000x128 .f32 :=
  View.canon [⟨featBox1, k1_pay1 (View.ld agg featBox1) (View.ld hw featBox1) (View.ld sn nodeBox1)
    (View.ld b chanBox1) (View.ld sc chanBox1) (View.ld sh chanBox1)⟩]

theorem cover1_6 (p : Vec F S2000x128 .f32) (y : S2000x128.Idx) :
    ∃ pc ∈ ([⟨featBox1, p⟩] : List (View.Piece (Elt F) S2000x128 .f32)), y ∈ pc.1.set :=
  View.cover_of_tiled [⟨featBox1, p⟩] S2000x128.size (by rfl) y

set_option maxHeartbeats 1000000 in
/-- The body stores once, over the whole result buffer, so what is read back there is the stored value; the inputs are only read. -/
theorem sound_kernel1 (c : Dev nD) (E : Set ℕ) (i : grid1.Coords)
    (arg0 : Memref sig .tc .vmem S2000x128 .f32) (harg0 : arg0.IsWhole) (arg1 : Memref sig .tc .vmem S2000x128 .f32) (harg1 : arg1.IsWhole)
    (arg2 : Memref sig .tc .vmem S2000x1 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S2000x128 .f32) (harg6 : arg6.IsWhole)
    (x0 x1 : Vec F S2000x128 .f32) (x2 : Vec F S2000x1 .f32) (x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out1_6 x0 x1 x2 x3 x4 x5)) -∗ K ⟨⟩))
      ⊢ wp frame (wpE (defs₀ (F := F)) Variants.none c none) E (cc1__combine_kernel i arg0 harg0 arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) : ∀ x y, (dat1 V c).owed x y = 0 := by
  intro x y; dsimp only [dat1]; rfl
theorem Phi_eq1 (c : Dev nD) (k : Fin (cfg1.N + 1)) : (dat1 V c).Φ k = Pipeline.ΦA spec1 c := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) : ∀ t d, (dat1 V c).before 0 t d = iblk1 V c 0 t :=
  before_blk V _ (A_eq1 V c) 0 rfl (fun _ => rfl) (fun _ _ _ => rfl) (after1_0 V c)
theorem before1_1 (c : Dev nD) : ∀ t d, (dat1 V c).before 1 t d = iblk1 V c 1 t :=
  before_blk V _ (A_eq1 V c) 1 rfl (fun _ => rfl) (fun _ _ _ => rfl) (after1_1 V c)
theorem before1_2 (c : Dev nD) : ∀ t d, (dat1 V c).before 2 t d = iblk1 V c 2 t :=
  before_blk V _ (A_eq1 V c) 2 rfl (fun _ => rfl) (fun _ _ _ => rfl) (after1_2 V c)
theorem before1_3 (c : Dev nD) : ∀ t d, (dat1 V c).before 3 t d = iblk1 V c 3 t :=
  before_blk V _ (A_eq1 V c) 3 rfl (fun _ => rfl) (fun _ _ _ => rfl) (after1_3 V c)
theorem before1_4 (c : Dev nD) : ∀ t d, (dat1 V c).before 4 t d = iblk1 V c 4 t :=
  before_blk V _ (A_eq1 V c) 4 rfl (fun _ => rfl) (fun _ _ _ => rfl) (after1_4 V c)
theorem before1_5 (c : Dev nD) : ∀ t d, (dat1 V c).before 5 t d = iblk1 V c 5 t :=
  before_blk V _ (A_eq1 V c) 5 rfl (fun _ => rfl) (fun _ _ _ => rfl) (after1_5 V c)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- Each input holds its block at every point (`before_blk`), so `sound_kernel1` applies; the invariant and the owed tallies pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, Phi_eq1]
  rw [show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand
end
-- ==== Proof.K.B2.lean ====
import proofs.«417545_j39908836114735_1_alg».proof.Proof.Gen.Kernel.Launch
import proofs.«417545_j39908836114735_1_alg».proof.Proof.Gen.Kernel.Skeleton
import proofs.«417545_j39908836114735_1_alg».proof.Proof.Gen.Kernel.Points
import proofs.«417545_j39908836114735_1_alg».proof.Proof.K.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk2 (c : Dev nD) (w : Fin cfg2.W) (t : Fin cfg2.N) := blk V cfg2 c w t

abbrev rows2 : Rect S2000x128 := Rect.unit (s := S2000x128) ![0, 0] S2000x128.size inb_S2000x128_S2000x128_0_0
abbrev wgt2 : Rect S128x128 := Rect.unit (s := S128x128) ![0, 0] S128x128.size inb_S128x128_S128x128_0_0

def out2_2 (x0 : Vec F S2000x128 .f32) (x1 : Vec F S128x128 .f32) : Vec F S2000x128 .f32 :=
  View.canon [⟨rows2, k2_pay1 (View.ld x0 rows2) (View.ld x1 wgt2)⟩]

theorem cover2_2 (p0 : Vec F S2000x128 .f32) (y : S2000x128.Idx) :
    ∃ pc ∈ ([⟨rows2, p0⟩] : List (View.Piece (Elt F) S2000x128 .f32)), y ∈ pc.1.set :=
  View.cover_of_tiled [⟨rows2, p0⟩] S2000x128.size (by rfl) y

set_option maxHeartbeats 1000000 in
/-- The body stores once, over the whole result buffer, so what is read back there is the stored value; the inputs are only read. -/
theorem sound_kernel2 (c : Dev nD) (E : Set ℕ) (i : grid2.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) : ∀ k, (dat2 V c).owed k = 0 := fun k => by
  dsimp only [dat2]
theorem Phi_eq2 (c : Dev nD) (k) : (dat2 V c).Φ k = Pipeline.ΦA spec2 c := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) : ∀ t d, (dat2 V c).before 0 t d = iblk2 V c 0 t :=
  before_blk V _ (A_eq2 V c) 0 rfl (fun _ => rfl) (fun _ _ _ => rfl) (after2_0 V c)
theorem before2_1 (c : Dev nD) : ∀ t d, (dat2 V c).before 1 t d = iblk2 V c 1 t :=
  before_blk V _ (A_eq2 V c) 1 rfl (fun _ => rfl) (fun _ _ _ => rfl) (after2_1 V c)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- Each input holds its block at every point (`before_blk`), so `sound_kernel2` applies; the invariant and the owed tallies pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, Phi_eq2]
  rw [show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand
end
-- ==== Proof.K.B3.lean ====
import proofs.«417545_j39908836114735_1_alg».proof.Proof.Gen.Kernel.Launch
import proofs.«417545_j39908836114735_1_alg».proof.Proof.Gen.Kernel.Skeleton
import proofs.«417545_j39908836114735_1_alg».proof.Proof.Gen.Kernel.Points
import proofs.«417545_j39908836114735_1_alg».proof.Proof.K.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk3 (c : Dev nD) (w : Fin cfg3.W) (t : Fin cfg3.N) := blk V cfg3 c w t

abbrev featBox3 : Rect S2000x128 := Rect.unit (s := S2000x128) ![0, 0] S2000x128.size inb_S2000x128_S2000x128_0_0
abbrev nodeBox3 : Rect S2000x1 := Rect.unit (s := S2000x1) ![0, 0] S2000x1.size inb_S2000x1_S2000x1_0_0
abbrev chanBox3 : Rect S1x128 := Rect.unit (s := S1x128) ![0, 0] S1x128.size inb_S1x128_S1x128_0_0

def out3_6 (agg hw : Vec F S2000x128 .f32) (sn : Vec F S2000x1 .f32) (b sc sh : Vec F S1x128 .f32) : Vec F S2000x128 .f32 :=
  View.canon [⟨featBox3, k3_pay1 (View.ld agg featBox3) (View.ld hw featBox3) (View.ld sn nodeBox3)
    (View.ld b chanBox3) (View.ld sc chanBox3) (View.ld sh chanBox3)⟩]

theorem cover3_6 (p : Vec F S2000x128 .f32) (y : S2000x128.Idx) :
    ∃ pc ∈ ([⟨featBox3, p⟩] : List (View.Piece (Elt F) S2000x128 .f32)), y ∈ pc.1.set :=
  View.cover_of_tiled [⟨featBox3, p⟩] S2000x128.size (by rfl) y

set_option maxHeartbeats 1000000 in
/-- The body stores once, over the whole result buffer, so what is read back there is the stored value; the inputs are only read. -/
theorem sound_kernel3 (c : Dev nD) (E : Set ℕ) (i : grid3.Coords)
    (arg0 : Memref sig .tc .vmem S2000x128 .f32) (harg0 : arg0.IsWhole) (arg1 : Memref sig .tc .vmem S2000x128 .f32) (harg1 : arg1.IsWhole)
    (arg2 : Memref sig .tc .vmem S2000x1 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S2000x128 .f32) (harg6 : arg6.IsWhole)
    (x0 x1 : Vec F S2000x128 .f32) (x2 : Vec F S2000x1 .f32) (x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out3_6 x0 x1 x2 x3 x4 x5)) -∗ K ⟨⟩))
      ⊢ wp frame (wpE (defs₀ (F := F)) Variants.none c none) E (cc3__combine_kernel i arg0 harg0 arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) : ∀ x y, (dat3 V c).owed x y = 0 := by
  intro x y; dsimp only [dat3]; rfl
theorem Phi_eq3 (c : Dev nD) (k : Fin (cfg3.N + 1)) : (dat3 V c).Φ k = Pipeline.ΦA spec3 c := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

theorem before3_0 (c : Dev nD) : ∀ t d, (dat3 V c).before 0 t d = iblk3 V c 0 t :=
  before_blk V _ (A_eq3 V c) 0 rfl (fun _ => rfl) (fun _ _ _ => rfl) (after3_0 V c)
theorem before3_1 (c : Dev nD) : ∀ t d, (dat3 V c).before 1 t d = iblk3 V c 1 t :=
  before_blk V _ (A_eq3 V c) 1 rfl (fun _ => rfl) (fun _ _ _ => rfl) (after3_1 V c)
theorem before3_2 (c : Dev nD) : ∀ t d, (dat3 V c).before 2 t d = iblk3 V c 2 t :=
  before_blk V _ (A_eq3 V c) 2 rfl (fun _ => rfl) (fun _ _ _ => rfl) (after3_2 V c)
theorem before3_3 (c : Dev nD) : ∀ t d, (dat3 V c).before 3 t d = iblk3 V c 3 t :=
  before_blk V _ (A_eq3 V c) 3 rfl (fun _ => rfl) (fun _ _ _ => rfl) (after3_3 V c)
theorem before3_4 (c : Dev nD) : ∀ t d, (dat3 V c).before 4 t d = iblk3 V c 4 t :=
  before_blk V _ (A_eq3 V c) 4 rfl (fun _ => rfl) (fun _ _ _ => rfl) (after3_4 V c)
theorem before3_5 (c : Dev nD) : ∀ t d, (dat3 V c).before 5 t d = iblk3 V c 5 t :=
  before_blk V _ (A_eq3 V c) 5 rfl (fun _ => rfl) (fun _ _ _ => rfl) (after3_5 V c)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- Each input holds its block at every point (`before_blk`), so `sound_kernel3` applies; the invariant and the owed tallies pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, Phi_eq3]
  rw [show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  iintro ⟨H0, H1, H2, H3, H4, H5, H6⟩
  iframe

theorem body_obligation3 (c : Dev nD) : BodyObligation (dat3 (F := F) V c) (defs₀ (F := F)) Variants.none () Set.univ := fun t => by
  rw [bigSep_W3, bigSep_W3]
  exact sound_body3 V c t

end Cert.Kernel.Hand
end
-- ==== Proof.K.B4.lean ====
import proofs.«417545_j39908836114735_1_alg».proof.Proof.Gen.Kernel.Launch
import proofs.«417545_j39908836114735_1_alg».proof.Proof.Gen.Kernel.Skeleton
import proofs.«417545_j39908836114735_1_alg».proof.Proof.Gen.Kernel.Points
import proofs.«417545_j39908836114735_1_alg».proof.Proof.K.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk4 (c : Dev nD) (w : Fin cfg4.W) (t : Fin cfg4.N) := blk V cfg4 c w t

abbrev rows4 : Rect S2000x128 := Rect.unit (s := S2000x128) ![0, 0] S2000x128.size inb_S2000x128_S2000x128_0_0
abbrev wgt4 : Rect S128x128 := Rect.unit (s := S128x128) ![0, 0] S128x128.size inb_S128x128_S128x128_0_0

def out4_2 (x0 : Vec F S2000x128 .f32) (x1 : Vec F S128x128 .f32) : Vec F S2000x128 .f32 :=
  View.canon [⟨rows4, k4_pay1 (View.ld x0 rows4) (View.ld x1 wgt4)⟩]

theorem cover4_2 (p0 : Vec F S2000x128 .f32) (y : S2000x128.Idx) :
    ∃ pc ∈ ([⟨rows4, p0⟩] : List (View.Piece (Elt F) S2000x128 .f32)), y ∈ pc.1.set :=
  View.cover_of_tiled [⟨rows4, p0⟩] S2000x128.size (by rfl) y

set_option maxHeartbeats 1000000 in
/-- The body stores once, over the whole result buffer, so what is read back there is the stored value; the inputs are only read. -/
theorem sound_kernel4 (c : Dev nD) (E : Set ℕ) (i : grid4.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) : ∀ k, (dat4 V c).owed k = 0 := fun k => by
  dsimp only [dat4]
theorem Phi_eq4 (c : Dev nD) (k) : (dat4 V c).Φ k = Pipeline.ΦA spec4 c := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) : ∀ t d, (dat4 V c).before 0 t d = iblk4 V c 0 t :=
  before_blk V _ (A_eq4 V c) 0 rfl (fun _ => rfl) (fun _ _ _ => rfl) (after4_0 V c)
theorem before4_1 (c : Dev nD) : ∀ t d, (dat4 V c).before 1 t d = iblk4 V c 1 t :=
  before_blk V _ (A_eq4 V c) 1 rfl (fun _ => rfl) (fun _ _ _ => rfl) (after4_1 V c)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- Each input holds its block at every point (`before_blk`), so `sound_kernel4` applies; the invariant and the owed tallies pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, Phi_eq4]
  rw [show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe

theorem body_obligation4 (c : Dev nD) : BodyObligation (dat4 (F := F) V c) (defs₀ (F := F)) Variants.none () Set.univ := fun t => by
  rw [bigSep_W4, bigSep_W4]
  exact sound_body4 V c t

end Cert.Kernel.Hand
end
-- ==== Proof.K.B5.lean ====
import proofs.«417545_j39908836114735_1_alg».proof.Proof.Gen.Kernel.Launch
import proofs.«417545_j39908836114735_1_alg».proof.Proof.Gen.Kernel.Skeleton
import proofs.«417545_j39908836114735_1_alg».proof.Proof.Gen.Kernel.Points
import proofs.«417545_j39908836114735_1_alg».proof.Proof.K.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk5 (c : Dev nD) (w : Fin cfg5.W) (t : Fin cfg5.N) := blk V cfg5 c w t

abbrev featBox5 : Rect S2000x128 := Rect.unit (s := S2000x128) ![0, 0] S2000x128.size inb_S2000x128_S2000x128_0_0
abbrev nodeBox5 : Rect S2000x1 := Rect.unit (s := S2000x1) ![0, 0] S2000x1.size inb_S2000x1_S2000x1_0_0
abbrev chanBox5 : Rect S1x128 := Rect.unit (s := S1x128) ![0, 0] S1x128.size inb_S1x128_S1x128_0_0

def out5_6 (agg hw : Vec F S2000x128 .f32) (sn : Vec F S2000x1 .f32) (b sc sh : Vec F S1x128 .f32) : Vec F S2000x128 .f32 :=
  View.canon [⟨featBox5, k5_pay1 (View.ld agg featBox5) (View.ld hw featBox5) (View.ld sn nodeBox5)
    (View.ld b chanBox5) (View.ld sc chanBox5) (View.ld sh chanBox5)⟩]

theorem cover5_6 (p : Vec F S2000x128 .f32) (y : S2000x128.Idx) :
    ∃ pc ∈ ([⟨featBox5, p⟩] : List (View.Piece (Elt F) S2000x128 .f32)), y ∈ pc.1.set :=
  View.cover_of_tiled [⟨featBox5, p⟩] S2000x128.size (by rfl) y

set_option maxHeartbeats 1000000 in
/-- The body stores once, over the whole result buffer, so what is read back there is the stored value; the inputs are only read. -/
theorem sound_kernel5 (c : Dev nD) (E : Set ℕ) (i : grid5.Coords)
    (arg0 : Memref sig .tc .vmem S2000x128 .f32) (harg0 : arg0.IsWhole) (arg1 : Memref sig .tc .vmem S2000x128 .f32) (harg1 : arg1.IsWhole)
    (arg2 : Memref sig .tc .vmem S2000x1 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S2000x128 .f32) (harg6 : arg6.IsWhole)
    (x0 x1 : Vec F S2000x128 .f32) (x2 : Vec F S2000x1 .f32) (x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out5_6 x0 x1 x2 x3 x4 x5)) -∗ K ⟨⟩))
      ⊢ wp frame (wpE (defs₀ (F := F)) Variants.none c none) E (cc5__combine_kernel i arg0 harg0 arg1 harg1 arg2 harg2 arg3 harg3 arg4 harg4 arg5 harg5 arg6 harg6) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by
  dsimp only [dat5]
theorem owed_eq5 (c : Dev nD) : ∀ x y, (dat5 V c).owed x y = 0 := by
  intro x y; dsimp only [dat5]; rfl
theorem Phi_eq5 (c : Dev nD) (k : Fin (cfg5.N + 1)) : (dat5 V c).Φ k = Pipeline.ΦA spec5 c := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t
    = out5_6 (iblk5 V c 0 t) (iblk5 V c 1 t) (iblk5 V c 2 t) (iblk5 V c 3 t) (iblk5 V c 4 t) (iblk5 V c 5 t) := by dsimp only [dat5]

theorem before5_0 (c : Dev nD) : ∀ t d, (dat5 V c).before 0 t d = iblk5 V c 0 t :=
  before_blk V _ (A_eq5 V c) 0 rfl (fun _ => rfl) (fun _ _ _ => rfl) (after5_0 V c)
theorem before5_1 (c : Dev nD) : ∀ t d, (dat5 V c).before 1 t d = iblk5 V c 1 t :=
  before_blk V _ (A_eq5 V c) 1 rfl (fun _ => rfl) (fun _ _ _ => rfl) (after5_1 V c)
theorem before5_2 (c : Dev nD) : ∀ t d, (dat5 V c).before 2 t d = iblk5 V c 2 t :=
  before_blk V _ (A_eq5 V c) 2 rfl (fun _ => rfl) (fun _ _ _ => rfl) (after5_2 V c)
theorem before5_3 (c : Dev nD) : ∀ t d, (dat5 V c).before 3 t d = iblk5 V c 3 t :=
  before_blk V _ (A_eq5 V c) 3 rfl (fun _ => rfl) (fun _ _ _ => rfl) (after5_3 V c)
theorem before5_4 (c : Dev nD) : ∀ t d, (dat5 V c).before 4 t d = iblk5 V c 4 t :=
  before_blk V _ (A_eq5 V c) 4 rfl (fun _ => rfl) (fun _ _ _ => rfl) (after5_4 V c)
theorem before5_5 (c : Dev nD) : ∀ t d, (dat5 V c).before 5 t d = iblk5 V c 5 t :=
  before_blk V _ (A_eq5 V c) 5 rfl (fun _ => rfl) (fun _ _ _ => rfl) (after5_5 V c)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- Each input holds its block at every point (`before_blk`), so `sound_kernel5` applies; the invariant and the owed tallies pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, Phi_eq5]
  rw [show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _
    (iblk5 V c 0 t) (iblk5 V c 1 t) (iblk5 V c 2 t) (iblk5 V c 3 t) (iblk5 V c 4 t) (iblk5 V c 5 t) _)
  iframe H0 H1 H2 H3 H4 H5
  isplitl [H6]; · iexists _; iexact H6
  iintro ⟨H0, H1, H2, H3, H4, H5, H6⟩
  iframe

theorem body_obligation5 (c : Dev nD) : BodyObligation (dat5 (F := F) V c) (defs₀ (F := F)) Variants.none () Set.univ := fun t => by
  rw [bigSep_W5, bigSep_W5]
  exact sound_body5 V c t

end Cert.Kernel.Hand
end
-- ==== Proof.K.B6.lean ====
import proofs.«417545_j39908836114735_1_alg».proof.Proof.Gen.Kernel.Launch
import proofs.«417545_j39908836114735_1_alg».proof.Proof.Gen.Kernel.Skeleton
import proofs.«417545_j39908836114735_1_alg».proof.Proof.Gen.Kernel.Points
import proofs.«417545_j39908836114735_1_alg».proof.Proof.K.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk6 (c : Dev nD) (w : Fin cfg6.W) (t : Fin cfg6.N) := blk V cfg6 c w t

abbrev rows6 : Rect S2000x128 := Rect.unit (s := S2000x128) ![0, 0] S2000x128.size inb_S2000x128_S2000x128_0_0
abbrev wgt6 : Rect S128x128 := Rect.unit (s := S128x128) ![0, 0] S128x128.size inb_S128x128_S128x128_0_0

def out6_2 (x0 : Vec F S2000x128 .f32) (x1 : Vec F S128x128 .f32) : Vec F S2000x128 .f32 :=
  View.canon [⟨rows6, k6_pay1 (View.ld x0 rows6) (View.ld x1 wgt6)⟩]

theorem cover6_2 (p0 : Vec F S2000x128 .f32) (y : S2000x128.Idx) :
    ∃ pc ∈ ([⟨rows6, p0⟩] : List (View.Piece (Elt F) S2000x128 .f32)), y ∈ pc.1.set :=
  View.cover_of_tiled [⟨rows6, p0⟩] S2000x128.size (by rfl) y

set_option maxHeartbeats 1000000 in
/-- The body stores once, over the whole result buffer, so what is read back there is the stored value; the inputs are only read. -/
theorem sound_kernel6 (c : Dev nD) (E : Set ℕ) (i : grid6.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := by
  dsimp only [dat6]
theorem owed_eq6 (c : Dev nD) : ∀ k, (dat6 V c).owed k = 0 := fun k => by
  dsimp only [dat6]
theorem Phi_eq6 (c : Dev nD) (k) : (dat6 V c).Φ k = Pipeline.ΦA spec6 c := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) : ∀ t d, (dat6 V c).before 0 t d = iblk6 V c 0 t :=
  before_blk V _ (A_eq6 V c) 0 rfl (fun _ => rfl) (fun _ _ _ => rfl) (after6_0 V c)
theorem before6_1 (c : Dev nD) : ∀ t d, (dat6 V c).before 1 t d = iblk6 V c 1 t :=
  before_blk V _ (A_eq6 V c) 1 rfl (fun _ => rfl) (fun _ _ _ => rfl) (after6_1 V c)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- Each input holds its block at every point (`before_blk`), so `sound_kernel6` applies; the invariant and the owed tallies pass through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, Phi_eq6]
  rw [show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  iframe H0 H1
  isplitl [H2]; · iexists _; iexact H2
  iintro ⟨H0, H1, H2⟩
  iframe

theorem body_obligation6 (c : Dev nD) : BodyObligation (dat6 (F := F) V c) (defs₀ (F := F)) Variants.none () Set.univ := fun t => by
  rw [bigSep_W6, bigSep_W6]
  exact sound_body6 V c t

end Cert.Kernel.Hand
end
-- ==== Proof.K.B7.lean ====
import proofs.«417545_j39908836114735_1_alg».proof.Proof.Gen.Kernel.Launch
import proofs.«417545_j39908836114735_1_alg».proof.Proof.Gen.Kernel.Skeleton
import proofs.«417545_j39908836114735_1_alg».proof.Proof.Gen.Kernel.Points
import proofs.«417545_j39908836114735_1_alg».proof.Proof.K.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk7 (c : Dev nD) (w : Fin cfg7.W) (t : Fin cfg7.N) := blk V cfg7 c w t

abbrev featBox7 : Rect S2000x128 := Rect.unit (s := S2000x128) ![0, 0] S2000x128.size inb_S2000x128_S2000x128_0_0
abbrev nodeBox7 : Rect S2000x1 := Rect.unit (s := S2000x1) ![0, 0] S2000x1.size inb_S2000x1_S2000x1_0_0
abbrev chanBox7 : Rect S1x128 := Rect.unit (s := S1x128) ![0, 0] S1x128.size inb_S1x128_S1x128_0_0

def out7_6 (agg hw : Vec F S2000x128 .f32) (sn : Vec F S2000x1 .f32) (b sc sh : Vec F S1x128 .f32) : Vec F S2000x128 .f32 :=
  View.canon [⟨featBox7, k7_pay1 (View.ld agg featBox7) (View.ld hw featBox7) (View.ld sn nodeBox7)
    (View.ld b chanBox7) (View.ld sc chanBox7) (View.ld sh chanBox7)⟩]

theorem cover7_6 (p : Vec F S2000x128 .f32) (y : S2000x128.Idx) :
    ∃ pc ∈ ([⟨featBox7, p⟩] : List (View.Piece (Elt F) S2000x128 .f32)), y ∈ pc.1.set :=
  View.cover_of_tiled [⟨featBox7, p⟩] S2000x128.size (by rfl) y

set_option maxHeartbeats 1000000 in
/-- The body stores once, over the whole result buffer, so what is read back there is the stored value; the inputs are only read. -/
theorem sound_kernel7 (c : Dev nD) (E : Set ℕ) (i : grid7.Coords)
    (arg0 : Memref sig .tc .vmem S2000x128 .f32) (harg0 : arg0.IsWhole) (arg1 : Memref sig .tc .vmem S2000x128 .f32) (harg1 : arg1.IsWhole)
    (arg2 : Memref sig .tc .vmem S2000x1 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S2000x128 .f32) (harg6 : arg6.IsWhole)
    (x0 x1 : Vec F S2000x128 .f32) (x2 : Vec F S2000x1 .f32) (x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out7_6 x0 x1 x2 x3 x4 x5)) -∗ K ⟨⟩))
      ⊢ wp frame (wpE (defs₀ (F := F)) Variants.none c none) E (cc7__combine_kernel i arg0 harg0 arg1 harg1 arg2 harg2 arg3 harg3 arg4 harg4 arg5 harg5 arg6 harg6) K := by
  simp only [cc7__combine_kernel_eq_skeleton]; unfold cc7__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem q_eq7 (c : Dev nD) (w : Fin cfg7.W) : (dat7 V c).q w = fullShare := by
  dsimp only [dat7]
theorem owed_eq7 (c : Dev nD) : ∀ x y, (dat7 V c).owed x y = 0 := by
  intro x y; dsimp only [dat7]; rfl
theorem Phi_eq7 (c : Dev nD) (k : Fin (cfg7.N + 1)) : (dat7 V c).Φ k = Pipeline.ΦA spec7 c := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t
    = out7_6 (iblk7 V c 0 t) (iblk7 V c 1 t) (iblk7 V c 2 t) (iblk7 V c 3 t) (iblk7 V c 4 t) (iblk7 V c 5 t) := by dsimp only [dat7]

theorem before7_0 (c : Dev nD) : ∀ t d, (dat7 V c).before 0 t d = iblk7 V c 0 t :=
  before_blk V _ (A_eq7 V c) 0 rfl (fun _ => rfl) (fun _ _ _ => rfl) (after7_0 V c)
theorem before7_1 (c : Dev nD) : ∀ t d, (dat7 V c).before 1 t d = iblk7 V c 1 t :=
  before_blk V _ (A_eq7 V c) 1 rfl (fun _ => rfl) (fun _ _ _ => rfl) (after7_1 V c)
theorem before7_2 (c : Dev nD) : ∀ t d, (dat7 V c).before 2 t d = iblk7 V c 2 t :=
  before_blk V _ (A_eq7 V c) 2 rfl (fun _ => rfl) (fun _ _ _ => rfl) (after7_2 V c)
theorem before7_3 (c : Dev nD) : ∀ t d, (dat7 V c).before 3 t d = iblk7 V c 3 t :=
  before_blk V _ (A_eq7 V c) 3 rfl (fun _ => rfl) (fun _ _ _ => rfl) (after7_3 V c)
theorem before7_4 (c : Dev nD) : ∀ t d, (dat7 V c).before 4 t d = iblk7 V c 4 t :=
  before_blk V _ (A_eq7 V c) 4 rfl (fun _ => rfl) (fun _ _ _ => rfl) (after7_4 V c)
theorem before7_5 (c : Dev nD) : ∀ t d, (dat7 V c).before 5 t d = iblk7 V c 5 t :=
  before_blk V _ (A_eq7 V c) 5 rfl (fun _ => rfl) (fun _ _ _ => rfl) (after7_5 V c)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- Each input holds its block at every point (`before_blk`), so `sound_kernel7` applies; the invariant and the owed tallies pass through. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, Phi_eq7]
  rw [show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _
    (iblk7 V c 0 t) (iblk7 V c 1 t) (iblk7 V c 2 t) (iblk7 V c 3 t) (iblk7 V c 4 t) (iblk7 V c 5 t) _)
  iframe H0 H1 H2 H3 H4 H5
  isplitl [H6]; · iexists _; iexact H6
  iintro ⟨H0, H1, H2, H3, H4, H5, H6⟩
  iframe

theorem body_obligation7 (c : Dev nD) : BodyObligation (dat7 (F := F) V c) (defs₀ (F := F)) Variants.none () Set.univ := fun t => by
  rw [bigSep_W7, bigSep_W7]
  exact sound_body7 V c t

end Cert.Kernel.Hand
end
-- ==== Proof.K.B8.lean ====
import proofs.«417545_j39908836114735_1_alg».proof.Proof.Gen.Kernel.Launch
import proofs.«417545_j39908836114735_1_alg».proof.Proof.Gen.Kernel.Skeleton
import proofs.«417545_j39908836114735_1_alg».proof.Proof.Gen.Kernel.Points
import proofs.«417545_j39908836114735_1_alg».proof.Proof.K.Blk
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk8 (c : Dev nD) (w : Fin cfg8.W) (t : Fin cfg8.N) := blk V cfg8 c w t

abbrev rb8 : Rect S2000x1 := Rect.unit (s := S2000x1) ![0, 0] S2000x1.size inb_S2000x1_S2000x1_0_0
abbrev rx8 : Rect S2000x128 := Rect.unit (s := S2000x128) ![0, 0] S2000x128.size inb_S2000x128_S2000x128_0_0
abbrev rg8 : Rect S64x128 := Rect.unit (s := S64x128) ![0, 0] S64x128.size inb_S64x128_S64x128_0_0

def zero8 : Vec F S64x128 .f32 := k8_pay1 (F := F)

def step8 (b : Vec F S2000x1 .i32) (x : Vec F S2000x128 .f32) (a : Vec F S64x128 .f32) : Vec F S64x128 .f32 :=
  k8_pay2 b x a

theorem hz8 : (![0, 0] : Fin 2 → Nat) = fun _ => 0 :=
  funext fun a => match a with | ⟨0, _⟩ => rfl | ⟨1, _⟩ => rfl

theorem cover8 (p0 : Vec F S64x128 .f32) (L : List (View.Piece (Elt F) S64x128 .f32)) (y : S64x128.Idx) :
    ∃ pc ∈ ((⟨rg8, p0⟩ : View.Piece (Elt F) S64x128 .f32) :: L), y ∈ pc.1.set :=
  ⟨⟨rg8, p0⟩, by simp, View.mem_set_unit_zero hz8 inb_S64x128_S64x128_0_0 y⟩

/-- The accumulator after point `n`: every point adds its product to what the point before left, the first to zero. -/
def acc8 (c : Dev nD) : (n : ℕ) → n < cfg8.N → Vec F S64x128 .f32
  | 0, h => step8 (iblk8 V c 0 ⟨0, h⟩) (iblk8 V c 1 ⟨0, h⟩) zero8
  | n + 1, h => step8 (iblk8 V c 0 ⟨n + 1, h⟩) (iblk8 V c 1 ⟨n + 1, h⟩) (acc8 c n (Nat.lt_of_succ_lt h))

theorem acc8_zero (c : Dev nD) (h : 0 < cfg8.N) :
    acc8 V c 0 h = step8 (iblk8 V c 0 ⟨0, h⟩) (iblk8 V c 1 ⟨0, h⟩) zero8 := rfl

theorem acc8_succ (c : Dev nD) (n : ℕ) (h : n + 1 < cfg8.N) :
    acc8 V c (n + 1) h = step8 (iblk8 V c 0 ⟨n + 1, h⟩) (iblk8 V c 1 ⟨n + 1, h⟩) (acc8 V c n (Nat.lt_of_succ_lt h)) := rfl

theorem acc8_first (c : Dev nD) (t : Fin cfg8.N) (h0 : t.val = 0) :
    acc8 V c t.val t.isLt = step8 (iblk8 V c 0 t) (iblk8 V c 1 t) zero8 := by
  obtain ⟨n, hn⟩ := t
  cases n with
  | zero => rfl
  | succ n => exact absurd h0 (Nat.succ_ne_zero n)

theorem acc8_later (c : Dev nD) (t : Fin cfg8.N) (h0 : t.val ≠ 0) :
    acc8 V c t.val t.isLt
      = step8 (iblk8 V c 0 t) (iblk8 V c 1 t) (acc8 V c (t.val - 1) (Nat.lt_of_le_of_lt (Nat.sub_le _ _) t.isLt)) := by
  obtain ⟨n, hn⟩ := t
  cases n with
  | zero => exact absurd rfl h0
  | succ n => rfl

/-- What the scratch accumulator holds before point `n`: anything before the first, `acc8` of the point before afterwards. -/
def scr8 (c : Dev nD) : (n : ℕ) → n ≤ cfg8.N → sProp 𝕄
  | 0, _ => iprop(∃ a, owns (c : Thread nD τ) (Memref.whole cc8_scratch0) fullShare a)
  | n + 1, hn => owns (c : Thread nD τ) (Memref.whole cc8_scratch0) fullShare (acc8 V c n hn)

def Phi8 (c : Dev nD) (n : ℕ) (h : n ≤ cfg8.N) : sProp 𝕄 :=
  iprop((∃ r, prngReg c r) ∗ scr8 V c n h
    ∗ Pipeline.scopedRestBut (Ix := Unit) (Name := ℕ) (U := UR sig nD τ) (Lvl := ℕ) (Val := Elt F) spec8 c [cc8_scratch0])

theorem scr8_zero (c : Dev nD) (n : ℕ) (h : n ≤ cfg8.N) (hz : n = 0) :
    scr8 V c n h = iprop(∃ a, owns (c : Thread nD τ) (Memref.whole cc8_scratch0) fullShare a) := by
  subst hz; rfl

theorem scr8_pos (c : Dev nD) (n : ℕ) (h : n ≤ cfg8.N) (hz : n ≠ 0) :
    scr8 V c n h = owns (c : Thread nD τ) (Memref.whole cc8_scratch0) fullShare (acc8 V c (n - 1) (by omega)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c t.val t.isLt
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem q_eq8 (c : Dev nD) (w : Fin cfg8.W) : (dat8 V c).q w = fullShare := by
  dsimp only [dat8]

theorem owed_eq8 (c : Dev nD) : ∀ x y, (dat8 V c).owed x y = 0 := fun _ _ => rfl

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c t.val t.isLt := by dsimp only [dat8]

theorem before8_0 (c : Dev nD) : ∀ t d, (dat8 V c).before 0 t d = iblk8 V c 0 t :=
  before_blk V _ (A_eq8 V c) 0 rfl (fun _ => rfl) (fun _ _ _ => rfl) (after8_0 V c)
theorem before8_1 (c : Dev nD) : ∀ t d, (dat8 V c).before 1 t d = iblk8 V c 1 t :=
  before_blk V _ (A_eq8 V c) 1 rfl (fun _ => rfl) (fun _ _ _ => rfl) (after8_1 V c)

theorem Phi8_castSucc (c : Dev nD) (t : Fin cfg8.N) :
    (dat8 V c).Φ t.castSucc = Phi8 V c t.val (Nat.le_of_lt t.isLt) := by
  dsimp only [dat8]; try simp only [Fin.coe_castSucc]

/-- The body's reset test holds exactly at the first point. -/
theorem reset8_iff (n : Fin 50) :
    (Scalar.cmpi .ne (Scalar.extui (Scalar.cmpi .eq (BitVec.ofNat 32 n.val) 0#32) : BitVec 32) 0#32 = 1#1) ↔ n.val = 0 := by
  revert n; decide

set_option maxHeartbeats 4000000 in
theorem sound_kernel8_first (c : Dev nD) (E : Set ℕ) (i : grid8.Coords) (hi : (i 0).val = 0)
    (arg1 : Memref sig .tc .vmem S2000x1 .i32) (harg1 : arg1.IsWhole) (arg2 : Memref sig .tc .vmem S2000x128 .f32) (harg2 : arg2.IsWhole)
    (arg3 : Memref sig .tc .vmem S64x128 .f32) (harg3 : arg3.IsWhole) (arg4 : Memref sig .tc .vmem S64x128 .f32) (harg4 : arg4.IsWhole)
    (b : Vec F S2000x1 .i32) (x : Vec F S2000x128 .f32) (K : PUnit → sProp 𝕄) :
    iprop(owns (c : Thread nD τ) arg1 fullShare b ∗ owns (c : Thread nD τ) arg2 fullShare x
        ∗ (∃ d, owns (c : Thread nD τ) arg3 fullShare d) ∗ (∃ a, owns (c : Thread nD τ) arg4 fullShare a)
        ∗ (iprop(owns (c : Thread nD τ) arg1 fullShare b ∗ owns (c : Thread nD τ) arg2 fullShare x
            ∗ owns (c : Thread nD τ) arg3 fullShare (step8 b x zero8) ∗ owns (c : Thread nD τ) arg4 fullShare (step8 b x zero8)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f1, %hf1, H1⟩, ⟨%f2, %hf2, H2⟩, ⟨%d3, %f3, -, H3⟩, ⟨%a4, %f4, -, H4⟩, Hk⟩
  subst hf1; subst hf2
  have hC : (Scalar.cmpi .ne (Scalar.extui (Scalar.cmpi .eq (BitVec.ofNat 32 (i 0).val) 0#32) : BitVec 32) 0#32 = 1#1) :=
    (reset8_iff (i 0)).mpr hi
  sl_exec
  sl_step
  iapply Hk
  isplitl [H1]
  · iexists f1; isplitr; · ipureintro; rfl
    iexact H1
  isplitl [H2]
  · iexists f2; isplitr; · ipureintro; rfl
    iexact H2
  isplitl [H3] <;>
  · iexists _; isplitr
    swap; · iassumption
    ipureintro
    sl_unfold_words
    rw [View.read_writes_eq_canon _ _ _ (cover8 _ _)]
    simp only [View.canon_cons_unit_zero (S := S64x128) hz8, View.readCov_cons_toLoadRect, View.readAt_eq_ld,
      View.ld_unit_zero (S := S2000x1) hz8, View.ld_unit_zero (S := S2000x128) hz8, View.ld_unit_zero (S := S64x128) hz8,
      step8, zero8]

set_option maxHeartbeats 4000000 in
theorem sound_kernel8_later (c : Dev nD) (E : Set ℕ) (i : grid8.Coords) (hi : (i 0).val ≠ 0)
    (arg1 : Memref sig .tc .vmem S2000x1 .i32) (harg1 : arg1.IsWhole) (arg2 : Memref sig .tc .vmem S2000x128 .f32) (harg2 : arg2.IsWhole)
    (arg3 : Memref sig .tc .vmem S64x128 .f32) (harg3 : arg3.IsWhole) (arg4 : Memref sig .tc .vmem S64x128 .f32) (harg4 : arg4.IsWhole)
    (b : Vec F S2000x1 .i32) (x : Vec F S2000x128 .f32) (a : Vec F S64x128 .f32) (K : PUnit → sProp 𝕄) :
    iprop(owns (c : Thread nD τ) arg1 fullShare b ∗ owns (c : Thread nD τ) arg2 fullShare x
        ∗ (∃ d, owns (c : Thread nD τ) arg3 fullShare d) ∗ owns (c : Thread nD τ) arg4 fullShare a
        ∗ (iprop(owns (c : Thread nD τ) arg1 fullShare b ∗ owns (c : Thread nD τ) arg2 fullShare x
            ∗ owns (c : Thread nD τ) arg3 fullShare (step8 b x a) ∗ owns (c : Thread nD τ) arg4 fullShare (step8 b x a)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  have hC : ¬(Scalar.cmpi .ne (Scalar.extui (Scalar.cmpi .eq (BitVec.ofNat 32 (i 0).val) 0#32) : BitVec 32) 0#32 = 1#1) :=
    fun h => hi ((reset8_iff (i 0)).mp h)
  sl_exec
  sl_step
  iapply Hk
  isplitl [H1]
  · iexists f1; isplitr; · ipureintro; rfl
    iexact H1
  isplitl [H2]
  · iexists f2; isplitr; · ipureintro; rfl
    iexact H2
  isplitl [H3] <;>
  · iexists _; isplitr
    swap; · iassumption
    ipureintro
    sl_unfold_words
    rw [View.read_writes_eq_canon _ _ _ (cover8 _ _)]
    simp only [View.canon_cons_unit_zero (S := S64x128) hz8, View.readCov_cons_toLoadRect, View.readAt_eq_ld,
      View.ld_unit_zero (S := S2000x1) hz8, View.ld_unit_zero (S := S2000x128) hz8, View.ld_unit_zero (S := S64x128) hz8,
      step8, zero8]

theorem coords8_val : ∀ t : Fin cfg8.N, ((grid8.coords t) 0).val = t.val :=
  (by decide +kernel : ∀ t : Fin grid8.N, ((grid8.coords t) 0).val = t.val)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- Each input holds its block at every point (`before_blk`); the first point resets the accumulator, a later one continues from `acc8`. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl,
    show (dat8 V c).Φ t.succ = Phi8 V c (t.val + 1) t.isLt from rfl, Phi8_castSucc, after8_0, after8_1, after8_2]
  simp only [Phi8, scr8.eq_2]
  by_cases hz : t.val = 0
  · rw [scr8_zero V c _ _ hz, acc8_first V c t hz]
    iintro ⟨⟨Hg, ⟨%a, Hs⟩, Hr⟩, Ho, ⟨%d0, H0⟩, ⟨%d1, H1⟩, ⟨%d2, H2⟩⟩
    iapply (sound_kernel8_first c Set.univ (grid8.coords t) ((coords8_val t).trans hz) _ _ _ _ _ _ _ _ (iblk8 V c 0 t) (iblk8 V c 1 t) _)
    iframe H0 H1
    isplitl [H2]; · iexists _; iexact H2
    isplitl [Hs]; · iexists _; iexact Hs
    iintro ⟨H0, H1, H2, Hs⟩
    iframe
  · rw [scr8_pos V c _ _ hz, acc8_later V c t hz]
    iintro ⟨⟨Hg, Hs, Hr⟩, Ho, ⟨%d0, H0⟩, ⟨%d1, H1⟩, ⟨%d2, H2⟩⟩
    iapply (sound_kernel8_later c Set.univ (grid8.coords t) (fun h => hz ((coords8_val t).symm.trans h)) _ _ _ _ _ _ _ _ (iblk8 V c 0 t) (iblk8 V c 1 t) _ _)
    iframe H0 H1
    isplitl [H2]; · iexists _; iexact H2
    isplitl [Hs]; · iexact Hs
    iintro ⟨H0, H1, H2, Hs⟩
    iframe

theorem body_obligation8 (c : Dev nD) : BodyObligation (dat8 (F := F) V c) (defs₀ (F := F)) Variants.none () Set.univ := fun t => by
  rw [bigSep_W8, bigSep_W8]
  exact sound_body8 V c t

theorem Phi8_in (c : Dev nD) : iprop((∃ r, prngReg c r) ∗ Pipeline.scopedRest (Ix := Unit) (Name := ℕ) (U := UR sig nD τ) (Lvl := ℕ) spec8 c) ⊢ (dat8 V c).Φ 0 := by
  rw [show (dat8 V c).Φ 0 = Phi8 V c 0 (Nat.zero_le _) from rfl, Phi8, scr8_zero V c 0 _ rfl, scopedRest8_split]
  simp only [owns_whole]
  iintro ⟨Hg, Hs, Hr⟩
  iframe

theorem Phi8_out (c : Dev nD) : (dat8 V c).Φ (Fin.last cfg8.N) ⊢ (iprop((∃ r, prngReg c r) ∗ Pipeline.scopedRest (Ix := Unit) (Name := ℕ) (U := UR sig nD τ) (Lvl := ℕ) spec8 c) : sProp 𝕄) := by
  rw [show (dat8 V c).Φ (Fin.last cfg8.N) = Phi8 V c (Fin.last cfg8.N).val (Nat.le_of_lt_succ (Fin.last cfg8.N).isLt) from rfl,
    Phi8, scr8_pos V c _ _ (by rw [Fin.val_last]; have : cfg8.N = 50 := N_8; omega), scopedRest8_split, owns_whole]
  iintro ⟨Hg, Hs, Hr⟩
  isplitl [Hg]; · iexact Hg
  isplitl [Hs]; · iexists _; iexact Hs
  iexact Hr

end Cert.Kernel.Hand
end
-- ==== Proof.K.B9.lean ====
import proofs.«417545_j39908836114735_1_alg».proof.Proof.Gen.Kernel.Launch
import proofs.«417545_j39908836114735_1_alg».proof.Proof.Gen.Kernel.Skeleton
import proofs.«417545_j39908836114735_1_alg».proof.Proof.Gen.Kernel.Points
import proofs.«417545_j39908836114735_1_alg».proof.Proof.K.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev iblk9 (c : Dev nD) (w : Fin cfg9.W) (t : Fin cfg9.N) := blk V cfg9 c w t

abbrev whole64x128 : Rect S64x128 := Rect.unit (s := S64x128) ![0, 0] S64x128.size inb_S64x128_S64x128_0_0
abbrev whole128x128 : Rect S128x128 := Rect.unit (s := S128x128) ![0, 0] S128x128.size inb_S128x128_S128x128_0_0
abbrev whole1x128 : Rect S1x128 := Rect.unit (s := S1x128) ![0, 0] S1x128.size inb_S1x128_S1x128_0_0
abbrev whole128x16 : Rect S128x16 := Rect.unit (s := S128x16) ![0, 0] S128x16.size inb_S128x16_S128x16_0_0
abbrev whole1x16 : Rect S1x16 := Rect.unit (s := S1x16) ![0, 0] S1x16.size inb_S1x16_S1x16_0_0
abbrev whole128x1 : Rect S128x1 := Rect.unit (s := S128x1) ![0, 0] S128x1.size inb_S128x1_S128x1_0_0
abbrev whole1x1 : Rect S1x1 := Rect.unit (s := S1x1) ![0, 0] S1x1.size inb_S1x1_S1x1_0_0
abbrev whole64x16 : Rect S64x16 := Rect.unit (s := S64x16) ![0, 0] S64x16.size inb_S64x16_S64x16_0_0
abbrev whole64x1 : Rect S64x1 := Rect.unit (s := S64x1) ![0, 0] S64x1.size inb_S64x1_S64x1_0_0

def out9_9 (x0 : Vec F S64x128 .f32) (x1 : Vec F S128x128 .f32) (x2 : Vec F S1x128 .f32) (x3 : Vec F S128x16 .f32) (x4 : Vec F S1x16 .f32) :
    Vec F S64x16 .f32 :=
  View.canon [⟨whole64x16, k9_pay3 (View.ld x0 whole64x128) (View.ld x1 whole128x128) (View.ld x2 whole1x128) (View.ld x3 whole128x16) (View.ld x4 whole1x16)⟩]

def out9_10 (x0 : Vec F S64x128 .f32) (x5 : Vec F S128x128 .f32) (x6 : Vec F S1x128 .f32) (x7 : Vec F S128x1 .f32) (x8 : Vec F S1x1 .f32) :
    Vec F S64x1 .f32 :=
  View.canon [⟨whole64x1, k9_pay1 (k9_pay4 (View.ld x0 whole64x128) (View.ld x5 whole128x128) (View.ld x6 whole1x128) (View.ld x7 whole128x1)) (View.ld x8 whole1x1)⟩]

theorem cover9_9 (p0 : Vec F S64x16 .f32) (y : S64x16.Idx) :
    ∃ pc ∈ ([⟨whole64x16, p0⟩] : List (View.Piece (Elt F) S64x16 .f32)), y ∈ pc.1.set :=
  View.cover_of_tiled [⟨whole64x16, p0⟩] S64x16.size (by rfl) y

theorem cover9_10 (p0 : Vec F S64x1 .f32) (y : S64x1.Idx) :
    ∃ pc ∈ ([⟨whole64x1, p0⟩] : List (View.Piece (Elt F) S64x1 .f32)), y ∈ pc.1.set :=
  View.cover_of_tiled [⟨whole64x1, p0⟩] S64x1.size (by rfl) y

set_option maxHeartbeats 4000000 in
/-- Each output buffer is stored once, whole, so what is read back there is the stored value; the inputs are only read. -/
theorem sound_kernel9 (c : Dev nD) (E : Set ℕ) (i : grid9.Coords) (a0 : Memref sig .tc .vmem S64x128 .f32) (ha0 : a0.IsWhole) (a1 : Memref sig .tc .vmem S128x128 .f32) (ha1 : a1.IsWhole) (a2 : Memref sig .tc .vmem S1x128 .f32) (ha2 : a2.IsWhole) (a3 : Memref sig .tc .vmem S128x16 .f32) (ha3 : a3.IsWhole) (a4 : Memref sig .tc .vmem S1x16 .f32) (ha4 : a4.IsWhole) (a5 : Memref sig .tc .vmem S128x128 .f32) (ha5 : a5.IsWhole) (a6 : Memref sig .tc .vmem S1x128 .f32) (ha6 : a6.IsWhole) (a7 : Memref sig .tc .vmem S128x1 .f32) (ha7 : a7.IsWhole) (a8 : Memref sig .tc .vmem S1x1 .f32) (ha8 : a8.IsWhole) (a9 : Memref sig .tc .vmem S64x16 .f32) (ha9 : a9.IsWhole) (a10 : Memref sig .tc .vmem S64x1 .f32) (ha10 : a10.IsWhole)
    (x0 : Vec F S64x128 .f32) (x1 : Vec F S128x128 .f32) (x2 : Vec F S1x128 .f32) (x3 : Vec F S128x16 .f32) (x4 : Vec F S1x16 .f32) (x5 : Vec F S128x128 .f32) (x6 : Vec F S1x128 .f32) (x7 : Vec F S128x1 .f32) (x8 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (out9_9 x0 x1 x2 x3 x4) ∗ owns (c : Thread nD τ) a10 fullShare (out9_10 x0 x5 x6 x7 x8)) -∗ K ⟨⟩))
      ⊢ wp frame (wpE (defs₀ (F := F)) Variants.none c none) E (cc9__heads_kernel i a0 ha0 a1 ha1 a2 ha2 a3 ha3 a4 ha4 a5 ha5 a6 ha6 a7 ha7 a8 ha8 a9 ha9 a10 ha10) K := by
  simp only [cc9__heads_kernel_eq_skeleton]; unfold cc9__heads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover9_9 _)
  iexists _; isplitr
  swap; · iexact H10
  ipureintro
  exact View.read_writes_eq_canon _ _ _ (cover9_10 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => out9_9 (iblk9 V c 0 t) (iblk9 V c 1 t) (iblk9 V c 2 t) (iblk9 V c 3 t) (iblk9 V c 4 t)
    | ⟨10, _⟩ => out9_10 (iblk9 V c 0 t) (iblk9 V c 5 t) (iblk9 V c 6 t) (iblk9 V c 7 t) (iblk9 V c 8 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem q_eq9 (c : Dev nD) (w : Fin cfg9.W) : (dat9 V c).q w = fullShare := by
  dsimp only [dat9]

theorem owed_eq9 (c : Dev nD) (k : Fin (cfg9.N + 1)) : (dat9 V c).owed k = 0 := by
  dsimp only [dat9]

theorem Phi_eq9 (c : Dev nD) (k : Fin (cfg9.N + 1)) : (dat9 V c).Φ k = Pipeline.ΦA spec9 c := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = iblk9 V c 8 t := by dsimp only [dat9]
theorem after9_9 (c : Dev nD) (t : Fin cfg9.N) : (dat9 V c).after 9 t = out9_9 (iblk9 V c 0 t) (iblk9 V c 1 t) (iblk9 V c 2 t) (iblk9 V c 3 t) (iblk9 V c 4 t) := by dsimp only [dat9]
theorem after9_10 (c : Dev nD) (t : Fin cfg9.N) : (dat9 V c).after 10 t = out9_10 (iblk9 V c 0 t) (iblk9 V c 5 t) (iblk9 V c 6 t) (iblk9 V c 7 t) (iblk9 V c 8 t) := by dsimp only [dat9]

theorem before9_0 (c : Dev nD) : ∀ t d, (dat9 V c).before 0 t d = iblk9 V c 0 t :=
  before_blk V _ (A_eq9 V c) 0 rfl (fun _ => rfl) (fun _ _ _ => rfl) (after9_0 V c)
theorem before9_1 (c : Dev nD) : ∀ t d, (dat9 V c).before 1 t d = iblk9 V c 1 t :=
  before_blk V _ (A_eq9 V c) 1 rfl (fun _ => rfl) (fun _ _ _ => rfl) (after9_1 V c)
theorem before9_2 (c : Dev nD) : ∀ t d, (dat9 V c).before 2 t d = iblk9 V c 2 t :=
  before_blk V _ (A_eq9 V c) 2 rfl (fun _ => rfl) (fun _ _ _ => rfl) (after9_2 V c)
theorem before9_3 (c : Dev nD) : ∀ t d, (dat9 V c).before 3 t d = iblk9 V c 3 t :=
  before_blk V _ (A_eq9 V c) 3 rfl (fun _ => rfl) (fun _ _ _ => rfl) (after9_3 V c)
theorem before9_4 (c : Dev nD) : ∀ t d, (dat9 V c).before 4 t d = iblk9 V c 4 t :=
  before_blk V _ (A_eq9 V c) 4 rfl (fun _ => rfl) (fun _ _ _ => rfl) (after9_4 V c)
theorem before9_5 (c : Dev nD) : ∀ t d, (dat9 V c).before 5 t d = iblk9 V c 5 t :=
  before_blk V _ (A_eq9 V c) 5 rfl (fun _ => rfl) (fun _ _ _ => rfl) (after9_5 V c)
theorem before9_6 (c : Dev nD) : ∀ t d, (dat9 V c).before 6 t d = iblk9 V c 6 t :=
  before_blk V _ (A_eq9 V c) 6 rfl (fun _ => rfl) (fun _ _ _ => rfl) (after9_6 V c)
theorem before9_7 (c : Dev nD) : ∀ t d, (dat9 V c).before 7 t d = iblk9 V c 7 t :=
  before_blk V _ (A_eq9 V c) 7 rfl (fun _ => rfl) (fun _ _ _ => rfl) (after9_7 V c)
theorem before9_8 (c : Dev nD) : ∀ t d, (dat9 V c).before 8 t d = iblk9 V c 8 t :=
  before_blk V _ (A_eq9 V c) 8 rfl (fun _ => rfl) (fun _ _ _ => rfl) (after9_8 V c)

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d))
    ∗ (∃ d, owns (c : Thread nD τ) (st9_10 t) fullShare ((dat9 V c).before 10 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t)
    ∗ owns (c : Thread nD τ) (st9_10 t) fullShare ((dat9 V c).after 10 t))

/-- Each input holds its block at the point (`before_blk`), so `sound_kernel9` applies; the invariant and the owed tallies pass through. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7, before9_8, Phi_eq9]
  rw [show (dat9 V c).owesAt () t.succ = (dat9 V c).owesAt () t.castSucc from rfl,
    after9_0, after9_1, after9_2, after9_3, after9_4, after9_5, after9_6, after9_7, after9_8, after9_9, after9_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel9 c Set.univ _ _ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) (iblk9 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe

theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.K.Chain.lean ====
import proofs.«417545_j39908836114735_1_alg».proof.Proof.Gen.Kernel.Launch
import proofs.«417545_j39908836114735_1_alg».proof.Proof.Gen.Kernel.Skeleton
import proofs.«417545_j39908836114735_1_alg».proof.Proof.Gen.Kernel.Points
import proofs.«417545_j39908836114735_1_alg».proof.Proof.Gen.Kernel.Regions
import proofs.«417545_j39908836114735_1_alg».proof.Proof.K.B0
import proofs.«417545_j39908836114735_1_alg».proof.Proof.K.B1
import proofs.«417545_j39908836114735_1_alg».proof.Proof.K.B2
import proofs.«417545_j39908836114735_1_alg».proof.Proof.K.B3
import proofs.«417545_j39908836114735_1_alg».proof.Proof.K.B4
import proofs.«417545_j39908836114735_1_alg».proof.Proof.K.B5
import proofs.«417545_j39908836114735_1_alg».proof.Proof.K.B6
import proofs.«417545_j39908836114735_1_alg».proof.Proof.K.B7
import proofs.«417545_j39908836114735_1_alg».proof.Proof.K.B8
import proofs.«417545_j39908836114735_1_alg».proof.Proof.K.B9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ)

def W1 (c : Dev nD) : Valuation τ sig (Elt F) := Gen.V1 m c

def o2 (c : Dev nD) : Buf (Elt F) ((c : Thread nD τ).loc main_v37) := (dat0 (fun c b => W1 m c b) c).arrAt 2 cfg0.N

def W2 (c : Dev nD) : Valuation τ sig (Elt F) := Function.update (W1 m c) main_v37 (o2 m c)

def W3 (c : Dev nD) : Valuation τ sig (Elt F) := StableHlo.after hostOps1 (W2 m c)

def o4 (c : Dev nD) : Buf (Elt F) ((c : Thread nD τ).loc main_v59) := (dat1 (fun c b => W3 m c b) c).arrAt 6 cfg1.N

def W4 (c : Dev nD) : Valuation τ sig (Elt F) := Function.update (W3 m c) main_v59 (o4 m c)

def W5 (c : Dev nD) : Valuation τ sig (Elt F) := StableHlo.after hostOps2 (W4 m c)

def o6 (c : Dev nD) : Buf (Elt F) ((c : Thread nD τ).loc main_v62) := (dat2 (fun c b => W5 m c b) c).arrAt 2 cfg2.N

def W6 (c : Dev nD) : Valuation τ sig (Elt F) := Function.update (W5 m c) main_v62 (o6 m c)

def W7 (c : Dev nD) : Valuation τ sig (Elt F) := StableHlo.after hostOps3 (W6 m c)

def o8 (c : Dev nD) : Buf (Elt F) ((c : Thread nD τ).loc main_v84) := (dat3 (fun c b => W7 m c b) c).arrAt 6 cfg3.N

def W8 (c : Dev nD) : Valuation τ sig (Elt F) := Function.update (W7 m c) main_v84 (o8 m c)

def W9 (c : Dev nD) : Valuation τ sig (Elt F) := StableHlo.after hostOps4 (W8 m c)

def o10 (c : Dev nD) : Buf (Elt F) ((c : Thread nD τ).loc main_v87) := (dat4 (fun c b => W9 m c b) c).arrAt 2 cfg4.N

def W10 (c : Dev nD) : Valuation τ sig (Elt F) := Function.update (W9 m c) main_v87 (o10 m c)

def W11 (c : Dev nD) : Valuation τ sig (Elt F) := StableHlo.after hostOps5 (W10 m c)

def o12 (c : Dev nD) : Buf (Elt F) ((c : Thread nD τ).loc main_v109) := (dat5 (fun c b => W11 m c b) c).arrAt 6 cfg5.N

def W12 (c : Dev nD) : Valuation τ sig (Elt F) := Function.update (W11 m c) main_v109 (o12 m c)

def W13 (c : Dev nD) : Valuation τ sig (Elt F) := StableHlo.after hostOps6 (W12 m c)

def o14 (c : Dev nD) : Buf (Elt F) ((c : Thread nD τ).loc main_v112) := (dat6 (fun c b => W13 m c b) c).arrAt 2 cfg6.N

def W14 (c : Dev nD) : Valuation τ sig (Elt F) := Function.update (W13 m c) main_v112 (o14 m c)

def W15 (c : Dev nD) : Valuation τ sig (Elt F) := StableHlo.after hostOps7 (W14 m c)

def o16 (c : Dev nD) : Buf (Elt F) ((c : Thread nD τ).loc main_v134) := (dat7 (fun c b => W15 m c b) c).arrAt 6 cfg7.N

def W16 (c : Dev nD) : Valuation τ sig (Elt F) := Function.update (W15 m c) main_v134 (o16 m c)

def W17 (c : Dev nD) : Valuation τ sig (Elt F) := StableHlo.after hostOps8 (W16 m c)

def o18 (c : Dev nD) : Buf (Elt F) ((c : Thread nD τ).loc main_v136) := (dat8 (fun c b => W17 m c b) c).arrAt 2 cfg8.N

def W18 (c : Dev nD) : Valuation τ sig (Elt F) := Function.update (W17 m c) main_v136 (o18 m c)

def W19 (c : Dev nD) : Valuation τ sig (Elt F) := StableHlo.after hostOps9 (W18 m c)

def o20_0 (c : Dev nD) : Buf (Elt F) ((c : Thread nD τ).loc main_v141_0) := (dat9 (fun c b => W19 m c b) c).arrAt 9 cfg9.N

def o20_1 (c : Dev nD) : Buf (Elt F) ((c : Thread nD τ).loc main_v141_1) := (dat9 (fun c b => W19 m c b) c).arrAt 10 cfg9.N

def W20 (c : Dev nD) : Valuation τ sig (Elt F) := Function.update (Function.update (W19 m c) main_v141_0 (o20_0 m c)) main_v141_1 (o20_1 m c)

def outs : Gen.Outs (F := F) := fun _ r c =>
  if h : r = main_v37 then h ▸ o2 m c
  else if h : r = main_v59 then h ▸ o4 m c
  else if h : r = main_v62 then h ▸ o6 m c
  else if h : r = main_v84 then h ▸ o8 m c
  else if h : r = main_v87 then h ▸ o10 m c
  else if h : r = main_v109 then h ▸ o12 m c
  else if h : r = main_v112 then h ▸ o14 m c
  else if h : r = main_v134 then h ▸ o16 m c
  else if h : r = main_v136 then h ▸ o18 m c
  else if h : r = main_v141_0 then h ▸ o20_0 m c
  else if h : r = main_v141_1 then h ▸ o20_1 m c
  else m ((c : Thread nD τ).loc r)

theorem outs_main_v37 (J : ℕ) (c : Dev nD) : outs m J main_v37 c = o2 m c := by
  unfold outs; rw [dif_pos rfl]
theorem outs_main_v59 (J : ℕ) (c : Dev nD) : outs m J main_v59 c = o4 m c := by
  unfold outs; rw [dif_neg (show ¬ ((main_v59 : Ref sig .tc) = main_v37) by decide), dif_pos rfl]
theorem outs_main_v62 (J : ℕ) (c : Dev nD) : outs m J main_v62 c = o6 m c := by
  unfold outs; rw [dif_neg (show ¬ ((main_v62 : Ref sig .tc) = main_v37) by decide), dif_neg (show ¬ ((main_v62 : Ref sig .tc) = main_v59) by decide), dif_pos rfl]
theorem outs_main_v84 (J : ℕ) (c : Dev nD) : outs m J main_v84 c = o8 m c := by
  unfold outs; rw [dif_neg (show ¬ ((main_v84 : Ref sig .tc) = main_v37) by decide), dif_neg (show ¬ ((main_v84 : Ref sig .tc) = main_v59) by decide), dif_neg (show ¬ ((main_v84 : Ref sig .tc) = main_v62) by decide), dif_pos rfl]
theorem outs_main_v87 (J : ℕ) (c : Dev nD) : outs m J main_v87 c = o10 m c := by
  unfold outs; rw [dif_neg (show ¬ ((main_v87 : Ref sig .tc) = main_v37) by decide), dif_neg (show ¬ ((main_v87 : Ref sig .tc) = main_v59) by decide), dif_neg (show ¬ ((main_v87 : Ref sig .tc) = main_v62) by decide), dif_neg (show ¬ ((main_v87 : Ref sig .tc) = main_v84) by decide), dif_pos rfl]
theorem outs_main_v109 (J : ℕ) (c : Dev nD) : outs m J main_v109 c = o12 m c := by
  unfold outs; rw [dif_neg (show ¬ ((main_v109 : Ref sig .tc) = main_v37) by decide), dif_neg (show ¬ ((main_v109 : Ref sig .tc) = main_v59) by decide), dif_neg (show ¬ ((main_v109 : Ref sig .tc) = main_v62) by decide), dif_neg (show ¬ ((main_v109 : Ref sig .tc) = main_v84) by decide), dif_neg (show ¬ ((main_v109 : Ref sig .tc) = main_v87) by decide), dif_pos rfl]
theorem outs_main_v112 (J : ℕ) (c : Dev nD) : outs m J main_v112 c = o14 m c := by
  unfold outs; rw [dif_neg (show ¬ ((main_v112 : Ref sig .tc) = main_v37) by decide), dif_neg (show ¬ ((main_v112 : Ref sig .tc) = main_v59) by decide), dif_neg (show ¬ ((main_v112 : Ref sig .tc) = main_v62) by decide), dif_neg (show ¬ ((main_v112 : Ref sig .tc) = main_v84) by decide), dif_neg (show ¬ ((main_v112 : Ref sig .tc) = main_v87) by decide), dif_neg (show ¬ ((main_v112 : Ref sig .tc) = main_v109) by decide), dif_pos rfl]
theorem outs_main_v134 (J : ℕ) (c : Dev nD) : outs m J main_v134 c = o16 m c := by
  unfold outs; rw [dif_neg (show ¬ ((main_v134 : Ref sig .tc) = main_v37) by decide), dif_neg (show ¬ ((main_v134 : Ref sig .tc) = main_v59) by decide), dif_neg (show ¬ ((main_v134 : Ref sig .tc) = main_v62) by decide), dif_neg (show ¬ ((main_v134 : Ref sig .tc) = main_v84) by decide), dif_neg (show ¬ ((main_v134 : Ref sig .tc) = main_v87) by decide), dif_neg (show ¬ ((main_v134 : Ref sig .tc) = main_v109) by decide), dif_neg (show ¬ ((main_v134 : Ref sig .tc) = main_v112) by decide), dif_pos rfl]
theorem outs_main_v136 (J : ℕ) (c : Dev nD) : outs m J main_v136 c = o18 m c := by
  unfold outs; rw [dif_neg (show ¬ ((main_v136 : Ref sig .tc) = main_v37) by decide), dif_neg (show ¬ ((main_v136 : Ref sig .tc) = main_v59) by decide), dif_neg (show ¬ ((main_v136 : Ref sig .tc) = main_v62) by decide), dif_neg (show ¬ ((main_v136 : Ref sig .tc) = main_v84) by decide), dif_neg (show ¬ ((main_v136 : Ref sig .tc) = main_v87) by decide), dif_neg (show ¬ ((main_v136 : Ref sig .tc) = main_v109) by decide), dif_neg (show ¬ ((main_v136 : Ref sig .tc) = main_v112) by decide), dif_neg (show ¬ ((main_v136 : Ref sig .tc) = main_v134) by decide), dif_pos rfl]
theorem outs_main_v141_0 (J : ℕ) (c : Dev nD) : outs m J main_v141_0 c = o20_0 m c := by
  unfold outs; rw [dif_neg (show ¬ ((main_v141_0 : Ref sig .tc) = main_v37) by decide), dif_neg (show ¬ ((main_v141_0 : Ref sig .tc) = main_v59) by decide), dif_neg (show ¬ ((main_v141_0 : Ref sig .tc) = main_v62) by decide), dif_neg (show ¬ ((main_v141_0 : Ref sig .tc) = main_v84) by decide), dif_neg (show ¬ ((main_v141_0 : Ref sig .tc) = main_v87) by decide), dif_neg (show ¬ ((main_v141_0 : Ref sig .tc) = main_v109) by decide), dif_neg (show ¬ ((main_v141_0 : Ref sig .tc) = main_v112) by decide), dif_neg (show ¬ ((main_v141_0 : Ref sig .tc) = main_v134) by decide), dif_neg (show ¬ ((main_v141_0 : Ref sig .tc) = main_v136) by decide), dif_pos rfl]
theorem outs_main_v141_1 (J : ℕ) (c : Dev nD) : outs m J main_v141_1 c = o20_1 m c := by
  unfold outs; rw [dif_neg (show ¬ ((main_v141_1 : Ref sig .tc) = main_v37) by decide), dif_neg (show ¬ ((main_v141_1 : Ref sig .tc) = main_v59) by decide), dif_neg (show ¬ ((main_v141_1 : Ref sig .tc) = main_v62) by decide), dif_neg (show ¬ ((main_v141_1 : Ref sig .tc) = main_v84) by decide), dif_neg (show ¬ ((main_v141_1 : Ref sig .tc) = main_v87) by decide), dif_neg (show ¬ ((main_v141_1 : Ref sig .tc) = main_v109) by decide), dif_neg (show ¬ ((main_v141_1 : Ref sig .tc) = main_v112) by decide), dif_neg (show ¬ ((main_v141_1 : Ref sig .tc) = main_v134) by decide), dif_neg (show ¬ ((main_v141_1 : Ref sig .tc) = main_v136) by decide), dif_neg (show ¬ ((main_v141_1 : Ref sig .tc) = main_v141_0) by decide), dif_pos rfl]

theorem V1_eq (c : Dev nD) : Gen.V1 m c = W1 m c := rfl
theorem V2_eq (c : Dev nD) : Gen.V2 m (outs m) c = W2 m c := by
  show Function.update (Gen.V1 m c) main_v37 (outs m 2 main_v37 c) = _
  rw [V1_eq, outs_main_v37]; rfl
theorem V3_eq (c : Dev nD) : Gen.V3 m (outs m) c = W3 m c := by
  show StableHlo.after hostOps1 (Gen.V2 m (outs m) c) = _
  rw [V2_eq]; rfl
theorem V4_eq (c : Dev nD) : Gen.V4 m (outs m) c = W4 m c := by
  show Function.update (Gen.V3 m (outs m) c) main_v59 (outs m 4 main_v59 c) = _
  rw [V3_eq, outs_main_v59]; rfl
theorem V5_eq (c : Dev nD) : Gen.V5 m (outs m) c = W5 m c := by
  show StableHlo.after hostOps2 (Gen.V4 m (outs m) c) = _
  rw [V4_eq]; rfl
theorem V6_eq (c : Dev nD) : Gen.V6 m (outs m) c = W6 m c := by
  show Function.update (Gen.V5 m (outs m) c) main_v62 (outs m 6 main_v62 c) = _
  rw [V5_eq, outs_main_v62]; rfl
theorem V7_eq (c : Dev nD) : Gen.V7 m (outs m) c = W7 m c := by
  show StableHlo.after hostOps3 (Gen.V6 m (outs m) c) = _
  rw [V6_eq]; rfl
theorem V8_eq (c : Dev nD) : Gen.V8 m (outs m) c = W8 m c := by
  show Function.update (Gen.V7 m (outs m) c) main_v84 (outs m 8 main_v84 c) = _
  rw [V7_eq, outs_main_v84]; rfl
theorem V9_eq (c : Dev nD) : Gen.V9 m (outs m) c = W9 m c := by
  show StableHlo.after hostOps4 (Gen.V8 m (outs m) c) = _
  rw [V8_eq]; rfl
theorem V10_eq (c : Dev nD) : Gen.V10 m (outs m) c = W10 m c := by
  show Function.update (Gen.V9 m (outs m) c) main_v87 (outs m 10 main_v87 c) = _
  rw [V9_eq, outs_main_v87]; rfl
theorem V11_eq (c : Dev nD) : Gen.V11 m (outs m) c = W11 m c := by
  show StableHlo.after hostOps5 (Gen.V10 m (outs m) c) = _
  rw [V10_eq]; rfl
theorem V12_eq (c : Dev nD) : Gen.V12 m (outs m) c = W12 m c := by
  show Function.update (Gen.V11 m (outs m) c) main_v109 (outs m 12 main_v109 c) = _
  rw [V11_eq, outs_main_v109]; rfl
theorem V13_eq (c : Dev nD) : Gen.V13 m (outs m) c = W13 m c := by
  show StableHlo.after hostOps6 (Gen.V12 m (outs m) c) = _
  rw [V12_eq]; rfl
theorem V14_eq (c : Dev nD) : Gen.V14 m (outs m) c = W14 m c := by
  show Function.update (Gen.V13 m (outs m) c) main_v112 (outs m 14 main_v112 c) = _
  rw [V13_eq, outs_main_v112]; rfl
theorem V15_eq (c : Dev nD) : Gen.V15 m (outs m) c = W15 m c := by
  show StableHlo.after hostOps7 (Gen.V14 m (outs m) c) = _
  rw [V14_eq]; rfl
theorem V16_eq (c : Dev nD) : Gen.V16 m (outs m) c = W16 m c := by
  show Function.update (Gen.V15 m (outs m) c) main_v134 (outs m 16 main_v134 c) = _
  rw [V15_eq, outs_main_v134]; rfl
theorem V17_eq (c : Dev nD) : Gen.V17 m (outs m) c = W17 m c := by
  show StableHlo.after hostOps8 (Gen.V16 m (outs m) c) = _
  rw [V16_eq]; rfl
theorem V18_eq (c : Dev nD) : Gen.V18 m (outs m) c = W18 m c := by
  show Function.update (Gen.V17 m (outs m) c) main_v136 (outs m 18 main_v136 c) = _
  rw [V17_eq, outs_main_v136]; rfl
theorem V19_eq (c : Dev nD) : Gen.V19 m (outs m) c = W19 m c := by
  show StableHlo.after hostOps9 (Gen.V18 m (outs m) c) = _
  rw [V18_eq]; rfl
theorem V20_eq (c : Dev nD) : Gen.V20 m (outs m) c = W20 m c := by
  show Function.update (Function.update (Gen.V19 m (outs m) c) main_v141_0 (outs m 20 main_v141_0 c)) main_v141_1 (outs m 20 main_v141_1 c) = _
  rw [V19_eq, outs_main_v141_0, outs_main_v141_1]; rfl

def pdats : (p : Fin 10) → (c : Dev nD) → Dat τ (Elt F) Unit ℕ (UR sig nD τ) ℕ (cfgs p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c
  | ⟨5, _⟩ => fun c => dat5 (fun c b => W11 m c b) c
  | ⟨6, _⟩ => fun c => dat6 (fun c b => W13 m c b) c
  | ⟨7, _⟩ => fun c => dat7 (fun c b => W15 m c b) c
  | ⟨8, _⟩ => fun c => dat8 (fun c b => W17 m c b) c
  | ⟨9, _⟩ => fun c => dat9 (fun c b => W19 m c b) c

abbrev R (c : Dev nD) : sProp 𝕄 := iprop((∃ r, prngReg c r) ∗ ∃ W, owes (c : Thread nD τ) (0 : CellTallies nD τ sig Unit) W)

section Dues

variable {cfg : Cfg sig Λ₀} {c : Dev nD} (dat : Dat τ (Elt F) Unit ℕ (UR sig nD τ) ℕ cfg c)

theorem owesAt_intro (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Dat.owesAt Pipeline.owesWithin Dat.bound
  rw [h0, hrec]
  iintro ⟨%W, H⟩
  iexists W
  isplitr
  · ipureintro; exact fun _ _ => Or.inl trivial
  iexact H

theorem owesAt_elim (t : Fin (cfg.N + 1)) (h0 : dat.owed t = 0) :
    dat.owesAt () t ⊢ (iprop(∃ W, owes (c : Thread nD τ) (0 : CellTallies nD τ sig Unit) W) : sProp 𝕄) := by
  unfold Dat.owesAt Pipeline.owesWithin
  rw [h0]
  iintro ⟨%W, -, H⟩
  iexists W
  iexact H

end Dues

end Cert.Kernel.Hand
-- ==== Proof.K.Seg.lean ====
import proofs.«417545_j39908836114735_1_alg».proof.Proof.K.Chain
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

section Arrays

variable {cfg : Cfg sig Λ₀} {c : Dev nD} (dat : Dat τ (Elt F) Unit ℕ (UR sig nD τ) ℕ cfg c)

-- an input window's array is the same at every point
theorem arrAt_input {V : Valuation τ sig (Elt F)} (hA : ∀ w, dat.A w = V (Pipeline.arrRef cfg.spec w)) {w : Fin cfg.W}
    (hw : (cfg.win w).isOut = false) (t : ℕ) : dat.arrAt w t = V (Pipeline.arrRef cfg.spec w) :=
  (dat.arrAt_in w hw t).trans (hA w)

-- distinct windows have distinct arrays, so overwriting one array leaves the others' agreement alone
theorem arrAt_update (hw : Pipeline.WinFacts cfg.spec) (G : Valuation τ sig (Elt F)) (wo w : Fin cfg.W) (n : ℕ)
    (h : w ≠ wo → dat.arrAt w n = G (Pipeline.arrRef cfg.spec w)) :
    dat.arrAt w n = Function.update G (Pipeline.arrRef cfg.spec wo) (dat.arrAt wo n) (Pipeline.arrRef cfg.spec w) := by
  by_cases e : w = wo
  · subst e; exact (Function.update_self (Proc.devRef (τ := τ) .tc (Pipeline.arrRef cfg.spec w)) (dat.arrAt w n) G).symm
  · exact (h e).trans (Function.update_of_ne (StableHlo.devRef_ne_of_ne fun e' => e (hw.arr_inj e')) _ _).symm

-- a buffer that is no window's array is not the overwritten one
theorem update_off (G : Valuation τ sig (Elt F)) (wo : Fin cfg.W) (x) {b : Ref sig .tc}
    (hb : b ∉ Finset.univ.image (Pipeline.arrRef cfg.spec)) : Function.update G (Pipeline.arrRef cfg.spec wo) x b = G b :=
  Function.update_of_ne (StableHlo.devRef_ne_of_ne fun e => hb (Finset.mem_image.mpr ⟨wo, Finset.mem_univ _, e.symm⟩)) _ _

end Arrays

section Region

variable {p : Fin 10} (L : Pipeline.LaunchFacts (nD := nD) (τ := τ) cfgs p) (Wa Wb : Dev nD → Valuation τ sig (Elt F))
  (hbody : ∀ c, BodyObligation (pdats m p c) (defs₀ (F := F)) Variants.none () Set.univ)
  (hq : ∀ c w, (pdats m p c).q w = fullShare)
  (hA : ∀ c w, (pdats m p c).A w = Wa c (Pipeline.arrRef (cfgs p).spec w))
  (howed : ∀ c t, (pdats m p c).owed t = 0)
  (hrec : ∀ c, (pdats m p c).recorded 0 = Set.univ)
  (hin : ∀ c, iprop((∃ r, prngReg c r) ∗ Pipeline.scopedRest (Ix := Unit) (Name := ℕ) (U := UR sig nD τ) (Lvl := ℕ) (cfgs p).spec c) ⊢ (pdats m p c).Φ 0)
  (hout : ∀ c, (pdats m p c).Φ (Fin.last (cfgs p).N) ⊢ iprop((∃ r, prngReg c r) ∗ Pipeline.scopedRest (Ix := Unit) (Name := ℕ) (U := UR sig nD τ) (Lvl := ℕ) (cfgs p).spec c))

set_option backward.isDefEq.respectTransparency.types false in
-- entered with the unscoped buffers at `Wa`, left with them at `Wb`, which has the arrays at their final contents
def regOf (hF : ∀ c w, (pdats m p c).arrAt w (cfgs p).N = Wb c (Pipeline.arrRef (cfgs p).spec w))
    (hrest : ∀ c (b : Ref sig .tc), b ∉ Finset.univ.image (Pipeline.arrRef (cfgs p).spec) → Wb c b = Wa c b) :
    Pipeline.RegionSeg (pcfgs (F := F)) Gen.adm (pdats m) () defs₀ Variants.none (fun _ => ∅) (fun _ _ => 0) p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ (fun _ => ∅) (fun _ _ => 0) p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wa c b)
  hentry c := by
    have hsplit := Pipeline.arrays_of_unscopedBufs (p := p) (pcfgs (F := F)) Gen.adm (pdats m) L.win L.arr_whole c
      ((pdats m p c).share_full (hq c)) (fun b => Wa c b) (hA c)
    rw [Pipeline.unscopedBufs_held] at hsplit
    rw [Pipeline.ownSems0_none]
    iintro ⟨⟨Hbufs, Hgen, Hdue⟩, -, -⟩
    imodintro
    ihave Hparts := hsplit $$ Hbufs
    icases Hparts with ⟨Harr, Hoth⟩
    isplitl [Harr]; · iexact Harr
    isplitr
    · unfold Pipeline.prefHeld; rw [show (Finset.univ : Finset (Fin 0)) = ∅ from rfl, BI.bigSep_empty]; iempintro
    isplitl [Hdue]
    · iapply owesAt_intro (pdats m p c) 0 (howed c 0) (hrec c); iexact Hdue
    isplitl [Hgen]; · iexact Hgen
    iexact Hoth
  hin c := by
    refine .trans ?_ (hin c)
    iintro ⟨Hgen, -, Hscoped⟩
    isplitl [Hgen] <;> iassumption
  hout c := by
    rw [Pipeline.ownSems0_none]
    refine (hout c).trans ?_
    iintro ⟨Hgen, Hscoped⟩
    isplitl [Hgen]; · iexact Hgen
    isplitr; · iempintro
    iexact Hscoped
  hexit c := by
    have hjoin := Pipeline.unscopedBufs_of_arrays (p := p) (pcfgs (F := F)) Gen.adm (Ix := Unit) (Name := ℕ) (U := UR sig nD τ) (Lvl := ℕ)
      L.win L.arr_whole c (pdats m) ((pdats m p c).share_full (hq c))
      (fun b => Wa c b) (fun b => Wb c b) ((pdats m p c).arrAt · (cfgs p).N) (hF c) (hrest c)
    rw [Pipeline.unscopedBufs_held] at hjoin
    iintro ⟨Harr, Hdue, Hgen, Hoth⟩
    imodintro
    isplitl [Harr Hoth]
    · iapply hjoin; isplitl [Harr] <;> iassumption
    isplitl [Hgen]; · iexact Hgen
    iapply owesAt_elim (pdats m p c) _ (howed c _); iexact Hdue

-- the usual region: one result window `wo`, and `Wb` is `Wa` overwritten at its array by what the region leaves there
def regUpd (wo : Fin (cfgs p).W) (hio : ∀ w, w ≠ wo → ((cfgs p).win w).isOut = false)
    (hWb : ∀ c, Wb c = Function.update (Wa c) (Pipeline.arrRef (cfgs p).spec wo) ((pdats m p c).arrAt wo (cfgs p).N)) :
    Pipeline.RegionSeg (pcfgs (F := F)) Gen.adm (pdats m) () defs₀ Variants.none (fun _ => ∅) (fun _ _ => 0) p :=
  regOf m L Wa Wb hbody hq hA howed hrec hin hout
    (fun c w => (arrAt_update _ L.win _ wo w _ fun h => arrAt_input _ (hA c) (hio w h) _).trans (congrFun (hWb c) _).symm)
    (fun c b hb => (congrFun (hWb c) b).trans (update_off _ wo _ hb))

end Region

section Invariant

variable {p : Fin 10} (hΦ : ∀ c k, (pdats m p c).Φ k = Pipeline.ΦA (cfgs p).spec c)
include hΦ

-- an invariant that is `ΦA` at every point is entered from its two parts and gives them back
theorem ΦA_in (c : Dev nD) : iprop((∃ r, prngReg c r) ∗ Pipeline.scopedRest (Ix := Unit) (Name := ℕ) (U := UR sig nD τ) (Lvl := ℕ) (cfgs p).spec c) ⊢ (pdats m p c).Φ 0 := by
  rw [hΦ]; unfold Pipeline.ΦA
  iintro ⟨Hgen, Hscoped⟩
  isplitl [Hscoped] <;> iassumption

theorem ΦA_out (c : Dev nD) : (pdats m p c).Φ (Fin.last (cfgs p).N)
    ⊢ iprop((∃ r, prngReg c r) ∗ Pipeline.scopedRest (Ix := Unit) (Name := ℕ) (U := UR sig nD τ) (Lvl := ℕ) (cfgs p).spec c) := by
  rw [hΦ]; unfold Pipeline.ΦA
  iintro ⟨Hscoped, Hgen⟩
  isplitl [Hgen] <;> iassumption

end Invariant

end Cert.Kernel.Hand
-- ==== Proof.K.S0.lean ====
import proofs.«417545_j39908836114735_1_alg».proof.Proof.K.Seg
noncomputable section
namespace Cert.Kernel.Hand
open Cert.Kernel Cert.Kernel.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg0 : Pipeline.RegionSeg (pcfgs (F := F)) Gen.adm (pdats m) () defs₀ Variants.none (fun _ => ∅) (fun _ _ => 0) 0 :=
  let V (c : Dev nD) (b : Ref sig .tc) := W1 m c b
  regUpd m launch0 (W1 m) (W2 m) (body_obligation0 V) (q_eq0 V) (A_eq0 V) (owed_eq0 V) (fun _ => rfl)
    (ΦA_in m (Phi_eq0 V)) (ΦA_out m (Phi_eq0 V)) (2 : Fin cfg0.W) (by decide) fun _ => rfl

theorem enter0 (c : Dev nD) :
    iprop(StableHlo.held (c : Thread nD τ) (Pipeline.ucRefs τ sig) (Gen.V1 m c) ∗ (R c : sProp 𝕄)) ⊢ (reg0 m).pre c := by
  rw [V1_eq]; exact .rfl

theorem leave0 (c : Dev nD) :
    (reg0 m).post c ⊢ iprop(StableHlo.held (c : Thread nD τ) (Pipeline.ucRefs τ sig) (Gen.V2 m (outs m) c) ∗ (R c : sProp 𝕄)) := by
  rw [V2_eq]; exact .rfl

end Cert.Kernel.Hand
-- ==== Proof.K.S1.lean ====
import proofs.«417545_j39908836114735_1_alg».proof.Proof.K.Seg
noncomputable section
namespace Cert.Kernel.Hand
open Cert.Kernel Cert.Kernel.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg1 : Pipeline.RegionSeg (pcfgs (F := F)) Gen.adm (pdats m) () defs₀ Variants.none (fun _ => ∅) (fun _ _ => 0) 1 :=
  let V (c : Dev nD) (b : Ref sig .tc) := W3 m c b
  regUpd m launch1 (W3 m) (W4 m) (body_obligation1 V) (q_eq1 V) (A_eq1 V) (fun c t => funext (owed_eq1 V c t)) (fun _ => rfl)
    (ΦA_in m (Phi_eq1 V)) (ΦA_out m (Phi_eq1 V)) (6 : Fin cfg1.W) (by decide) fun _ => rfl

theorem enter1 (c : Dev nD) :
    iprop(StableHlo.held (c : Thread nD τ) (Pipeline.ucRefs τ sig) (Gen.V3 m (outs m) c) ∗ (R c : sProp 𝕄)) ⊢ (reg1 m).pre c := by
  rw [V3_eq]; exact .rfl

theorem leave1 (c : Dev nD) :
    (reg1 m).post c ⊢ iprop(StableHlo.held (c : Thread nD τ) (Pipeline.ucRefs τ sig) (Gen.V4 m (outs m) c) ∗ (R c : sProp 𝕄)) := by
  rw [V4_eq]; exact .rfl

end Cert.Kernel.Hand
-- ==== Proof.K.S2.lean ====
import proofs.«417545_j39908836114735_1_alg».proof.Proof.K.Seg
noncomputable section
namespace Cert.Kernel.Hand
open Cert.Kernel Cert.Kernel.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg2 : Pipeline.RegionSeg (pcfgs (F := F)) Gen.adm (pdats m) () defs₀ Variants.none (fun _ => ∅) (fun _ _ => 0) 2 :=
  let V (c : Dev nD) (b : Ref sig .tc) := W5 m c b
  regUpd m launch2 (W5 m) (W6 m) (body_obligation2 V) (q_eq2 V) (A_eq2 V) (owed_eq2 V) (fun _ => rfl)
    (ΦA_in m (Phi_eq2 V)) (ΦA_out m (Phi_eq2 V)) (2 : Fin cfg2.W) (by decide) fun _ => rfl

theorem enter2 (c : Dev nD) :
    iprop(StableHlo.held (c : Thread nD τ) (Pipeline.ucRefs τ sig) (Gen.V5 m (outs m) c) ∗ (R c : sProp 𝕄)) ⊢ (reg2 m).pre c := by
  rw [V5_eq]; exact .rfl

theorem leave2 (c : Dev nD) :
    (reg2 m).post c ⊢ iprop(StableHlo.held (c : Thread nD τ) (Pipeline.ucRefs τ sig) (Gen.V6 m (outs m) c) ∗ (R c : sProp 𝕄)) := by
  rw [V6_eq]; exact .rfl

end Cert.Kernel.Hand
-- ==== Proof.K.S3.lean ====
import proofs.«417545_j39908836114735_1_alg».proof.Proof.K.Seg
noncomputable section
namespace Cert.Kernel.Hand
open Cert.Kernel Cert.Kernel.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg3 : Pipeline.RegionSeg (pcfgs (F := F)) Gen.adm (pdats m) () defs₀ Variants.none (fun _ => ∅) (fun _ _ => 0) 3 :=
  let V (c : Dev nD) (b : Ref sig .tc) := W7 m c b
  regUpd m launch3 (W7 m) (W8 m) (body_obligation3 V) (q_eq3 V) (A_eq3 V) (fun c t => funext (owed_eq3 V c t)) (fun _ => rfl)
    (ΦA_in m (Phi_eq3 V)) (ΦA_out m (Phi_eq3 V)) (6 : Fin cfg3.W) (by decide) fun _ => rfl

theorem enter3 (c : Dev nD) :
    iprop(StableHlo.held (c : Thread nD τ) (Pipeline.ucRefs τ sig) (Gen.V7 m (outs m) c) ∗ (R c : sProp 𝕄)) ⊢ (reg3 m).pre c := by
  rw [V7_eq]; exact .rfl

theorem leave3 (c : Dev nD) :
    (reg3 m).post c ⊢ iprop(StableHlo.held (c : Thread nD τ) (Pipeline.ucRefs τ sig) (Gen.V8 m (outs m) c) ∗ (R c : sProp 𝕄)) := by
  rw [V8_eq]; exact .rfl

end Cert.Kernel.Hand
-- ==== Proof.K.S4.lean ====
import proofs.«417545_j39908836114735_1_alg».proof.Proof.K.Seg
noncomputable section
namespace Cert.Kernel.Hand
open Cert.Kernel Cert.Kernel.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg4 : Pipeline.RegionSeg (pcfgs (F := F)) Gen.adm (pdats m) () defs₀ Variants.none (fun _ => ∅) (fun _ _ => 0) 4 :=
  let V (c : Dev nD) (b : Ref sig .tc) := W9 m c b
  regUpd m launch4 (W9 m) (W10 m) (body_obligation4 V) (q_eq4 V) (A_eq4 V) (owed_eq4 V) (fun _ => rfl)
    (ΦA_in m (Phi_eq4 V)) (ΦA_out m (Phi_eq4 V)) (2 : Fin cfg4.W) (by decide) fun _ => rfl

theorem enter4 (c : Dev nD) :
    iprop(StableHlo.held (c : Thread nD τ) (Pipeline.ucRefs τ sig) (Gen.V9 m (outs m) c) ∗ (R c : sProp 𝕄)) ⊢ (reg4 m).pre c := by
  rw [V9_eq]; exact .rfl

theorem leave4 (c : Dev nD) :
    (reg4 m).post c ⊢ iprop(StableHlo.held (c : Thread nD τ) (Pipeline.ucRefs τ sig) (Gen.V10 m (outs m) c) ∗ (R c : sProp 𝕄)) := by
  rw [V10_eq]; exact .rfl

end Cert.Kernel.Hand
-- ==== Proof.K.S5.lean ====
import proofs.«417545_j39908836114735_1_alg».proof.Proof.K.Seg
noncomputable section
namespace Cert.Kernel.Hand
open Cert.Kernel Cert.Kernel.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg5 : Pipeline.RegionSeg (pcfgs (F := F)) Gen.adm (pdats m) () defs₀ Variants.none (fun _ => ∅) (fun _ _ => 0) 5 :=
  let V (c : Dev nD) (b : Ref sig .tc) := W11 m c b
  regUpd m launch5 (W11 m) (W12 m) (body_obligation5 V) (q_eq5 V) (A_eq5 V) (fun c t => funext (owed_eq5 V c t)) (fun _ => rfl)
    (ΦA_in m (Phi_eq5 V)) (ΦA_out m (Phi_eq5 V)) (6 : Fin cfg5.W) (by decide) fun _ => rfl

theorem enter5 (c : Dev nD) :
    iprop(StableHlo.held (c : Thread nD τ) (Pipeline.ucRefs τ sig) (Gen.V11 m (outs m) c) ∗ (R c : sProp 𝕄)) ⊢ (reg5 m).pre c := by
  rw [V11_eq]; exact .rfl

theorem leave5 (c : Dev nD) :
    (reg5 m).post c ⊢ iprop(StableHlo.held (c : Thread nD τ) (Pipeline.ucRefs τ sig) (Gen.V12 m (outs m) c) ∗ (R c : sProp 𝕄)) := by
  rw [V12_eq]; exact .rfl

end Cert.Kernel.Hand
-- ==== Proof.K.S6.lean ====
import proofs.«417545_j39908836114735_1_alg».proof.Proof.K.Seg
noncomputable section
namespace Cert.Kernel.Hand
open Cert.Kernel Cert.Kernel.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg6 : Pipeline.RegionSeg (pcfgs (F := F)) Gen.adm (pdats m) () defs₀ Variants.none (fun _ => ∅) (fun _ _ => 0) 6 :=
  let V (c : Dev nD) (b : Ref sig .tc) := W13 m c b
  regUpd m launch6 (W13 m) (W14 m) (body_obligation6 V) (q_eq6 V) (A_eq6 V) (owed_eq6 V) (fun _ => rfl)
    (ΦA_in m (Phi_eq6 V)) (ΦA_out m (Phi_eq6 V)) (2 : Fin cfg6.W) (by decide) fun _ => rfl

theorem enter6 (c : Dev nD) :
    iprop(StableHlo.held (c : Thread nD τ) (Pipeline.ucRefs τ sig) (Gen.V13 m (outs m) c) ∗ (R c : sProp 𝕄)) ⊢ (reg6 m).pre c := by
  rw [V13_eq]; exact .rfl

theorem leave6 (c : Dev nD) :
    (reg6 m).post c ⊢ iprop(StableHlo.held (c : Thread nD τ) (Pipeline.ucRefs τ sig) (Gen.V14 m (outs m) c) ∗ (R c : sProp 𝕄)) := by
  rw [V14_eq]; exact .rfl

end Cert.Kernel.Hand
-- ==== Proof.K.S7.lean ====
import proofs.«417545_j39908836114735_1_alg».proof.Proof.K.Seg
noncomputable section
namespace Cert.Kernel.Hand
open Cert.Kernel Cert.Kernel.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg7 : Pipeline.RegionSeg (pcfgs (F := F)) Gen.adm (pdats m) () defs₀ Variants.none (fun _ => ∅) (fun _ _ => 0) 7 :=
  let V (c : Dev nD) (b : Ref sig .tc) := W15 m c b
  regUpd m launch7 (W15 m) (W16 m) (body_obligation7 V) (q_eq7 V) (A_eq7 V) (fun c t => funext (owed_eq7 V c t)) (fun _ => rfl)
    (ΦA_in m (Phi_eq7 V)) (ΦA_out m (Phi_eq7 V)) (6 : Fin cfg7.W) (by decide) fun _ => rfl

theorem enter7 (c : Dev nD) :
    iprop(StableHlo.held (c : Thread nD τ) (Pipeline.ucRefs τ sig) (Gen.V15 m (outs m) c) ∗ (R c : sProp 𝕄)) ⊢ (reg7 m).pre c := by
  rw [V15_eq]; exact .rfl

theorem leave7 (c : Dev nD) :
    (reg7 m).post c ⊢ iprop(StableHlo.held (c : Thread nD τ) (Pipeline.ucRefs τ sig) (Gen.V16 m (outs m) c) ∗ (R c : sProp 𝕄)) := by
  rw [V16_eq]; exact .rfl

end Cert.Kernel.Hand
-- ==== Proof.K.S8.lean ====
import proofs.«417545_j39908836114735_1_alg».proof.Proof.K.Seg
noncomputable section
namespace Cert.Kernel.Hand
open Cert.Kernel Cert.Kernel.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg8 : Pipeline.RegionSeg (pcfgs (F := F)) Gen.adm (pdats m) () defs₀ Variants.none (fun _ => ∅) (fun _ _ => 0) 8 :=
  let V (c : Dev nD) (b : Ref sig .tc) := W17 m c b
  regUpd m launch8 (W17 m) (W18 m) (body_obligation8 V) (q_eq8 V) (A_eq8 V) (fun c t => funext (owed_eq8 V c t)) (fun _ => rfl)
    (Phi8_in V) (Phi8_out V) (2 : Fin cfg8.W) (by decide) fun _ => rfl

theorem enter8 (c : Dev nD) :
    iprop(StableHlo.held (c : Thread nD τ) (Pipeline.ucRefs τ sig) (Gen.V17 m (outs m) c) ∗ (R c : sProp 𝕄)) ⊢ (reg8 m).pre c := by
  rw [V17_eq]; exact .rfl

theorem leave8 (c : Dev nD) :
    (reg8 m).post c ⊢ iprop(StableHlo.held (c : Thread nD τ) (Pipeline.ucRefs τ sig) (Gen.V18 m (outs m) c) ∗ (R c : sProp 𝕄)) := by
  rw [V18_eq]; exact .rfl

end Cert.Kernel.Hand
-- ==== Proof.K.S9.lean ====
import proofs.«417545_j39908836114735_1_alg».proof.Proof.K.Seg
noncomputable section
namespace Cert.Kernel.Hand
open Cert.Kernel Cert.Kernel.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg9 : Pipeline.RegionSeg (pcfgs (F := F)) Gen.adm (pdats m) () defs₀ Variants.none (fun _ => ∅) (fun _ _ => 0) 9 :=
  let V (c : Dev nD) (b : Ref sig .tc) := W19 m c b
  regOf m launch9 (W19 m) (W20 m) (body_obligation9 V) (q_eq9 V) (A_eq9 V) (owed_eq9 V) (fun _ => rfl) (ΦA_in m (Phi_eq9 V)) (ΦA_out m (Phi_eq9 V))
    (fun c w => arrAt_update _ launch9.win _ 10 w _ fun h => arrAt_update _ launch9.win _ 9 w _ fun h' => arrAt_input _ (A_eq9 V c)
      ((by decide : ∀ w : Fin cfg9.W, w ≠ 10 → w ≠ 9 → (cfg9.win w).isOut = false) w h h') _)
    (fun c b hb => (update_off (cfg := cfg9) _ 10 _ hb).trans (update_off (cfg := cfg9) _ 9 _ hb))

theorem enter9 (c : Dev nD) :
    iprop(StableHlo.held (c : Thread nD τ) (Pipeline.ucRefs τ sig) (Gen.V19 m (outs m) c) ∗ (R c : sProp 𝕄)) ⊢ (reg9 m).pre c := by
  rw [V19_eq]; exact .rfl

theorem leave9 (c : Dev nD) :
    (reg9 m).post c ⊢ iprop(StableHlo.held (c : Thread nD τ) (Pipeline.ucRefs τ sig) (Gen.V20 m (outs m) c) ∗ (R c : sProp 𝕄)) := by
  rw [V20_eq]; exact .rfl

end Cert.Kernel.Hand
-- ==== Proof.K.Run.lean ====
import proofs.«417545_j39908836114735_1_alg».proof.Proof.Gen.Kernel.Launch
import proofs.«417545_j39908836114735_1_alg».proof.Proof.Gen.Kernel.Skeleton
import proofs.«417545_j39908836114735_1_alg».proof.Proof.Gen.Kernel.Points
import proofs.«417545_j39908836114735_1_alg».proof.Proof.Gen.Kernel.Regions
import proofs.«417545_j39908836114735_1_alg».proof.Proof.K.Chain
import proofs.«417545_j39908836114735_1_alg».proof.Proof.K.S0
import proofs.«417545_j39908836114735_1_alg».proof.Proof.K.S1
import proofs.«417545_j39908836114735_1_alg».proof.Proof.K.S2
import proofs.«417545_j39908836114735_1_alg».proof.Proof.K.S3
import proofs.«417545_j39908836114735_1_alg».proof.Proof.K.S4
import proofs.«417545_j39908836114735_1_alg».proof.Proof.K.S5
import proofs.«417545_j39908836114735_1_alg».proof.Proof.K.S6
import proofs.«417545_j39908836114735_1_alg».proof.Proof.K.S7
import proofs.«417545_j39908836114735_1_alg».proof.Proof.K.S8
import proofs.«417545_j39908836114735_1_alg».proof.Proof.K.S9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ)

abbrev E : Fin 11 → Dev nD → sProp 𝕄 := fun _ c => R c

theorem R_dues (c : Dev nD) : (R c : sProp 𝕄) ⊢ iprop(∃ W, owes (c : Thread nD τ) (0 : CellTallies nD τ sig Unit) W) := by
  iintro ⟨-, H⟩; iexact H

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev u₀ : UR sig nD τ := initOf (Pipeline.cells cfgs cellOf_inj) (Pipeline.launchToks cfgs cellOf_inj)

theorem launch_ghost : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  rw [BI.bigSep_emp_const]
  iintro Hu
  imodintro
  isplitl [Hu]
  · iapply (show (ownU u₀ : sProp 𝕄) ⊢ BI.own (emb₁ u₀) from .rfl); iexact Hu
  iempintro

variable (ρ : Dev nD → PrngReg)

set_option backward.isDefEq.respectTransparency.types false in

theorem run_main : θ_run defs (onTc (τ := τ) (main (F := F))) ⟨m, fun _ => 0, ρ⟩ (fun r => ∀ c : Dev nD,
      r.2.mem ((c.tc : Thread nD τ).loc main_v141_0) = W20 m c main_v141_0
      ∧ r.2.mem ((c.tc : Thread nD τ).loc main_v141_1) = W20 m c main_v141_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine Pipeline.θ_run_regions_kit_dev (pcfgs (F := F)) Gen.adm (pdats m) () cellOf_inj emb₁ defs₀ Variants.none (fun _ => ∅) (fun _ _ => 0) m ρ main
    (Gen.segs m (outs m) Variants.none (fun _ => ∅) (fun _ _ => 0) (E (F := F)) () (pdats m) (reg0 m) (reg1 m) (reg2 m) (reg3 m) (reg4 m) (reg5 m) (reg6 m) (reg7 m) (reg8 m) (reg9 m))
    (fun c Q => by
      rewrite [main_chain c, Pipeline.Seg.run_eq_chain,
        show ((Gen.segs m (outs m) Variants.none (fun _ => ∅) (fun _ _ => 0) (E (F := F)) () (pdats m) (reg0 m) (reg1 m) (reg2 m) (reg3 m) (reg4 m) (reg5 m) (reg6 m) (reg7 m) (reg8 m) (reg9 m)) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (fun c => by simp only [Gen.segs, Pipeline.Seg.pipes_host, Pipeline.Seg.pipes_region, Pipeline.Seg.pipes_nil]; decide)
    0 (fun _ _ => rfl) (fun _ => (BI.emp : sProp 𝕄)) u₀ launch_ghost
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V20 m (outs m) c))
    (hch := fun c => ⟨.rfl, enter0 m c, leave0 m c, enter1 m c, leave1 m c, enter2 m c, leave2 m c, enter3 m c, leave3 m c, enter4 m c, leave4 m c, enter5 m c, leave5 m c, enter6 m c, leave6 m c, enter7 m c, leave7 m c, enter8 m c, leave8 m c, enter9 m c, (leave9 m c).trans (sep_mono .rfl (R_dues c))⟩)
    (hinit := ?_)
    (QY := fun c s => s.mem ((c.tc : Thread nD τ).loc main_v141_0) = W20 m c main_v141_0 ∧ s.mem ((c.tc : Thread nD τ).loc main_v141_1) = W20 m c main_v141_1 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16))
    (hfin := fun c s' => ?_) (hQ := fun _ h => h)
  ·

    refine Pipeline.initEach (fun _ => ∅) (fun _ _ => 0) fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hbufs, -, Hdue, -, Hgen, -⟩, -⟩
    imodintro
    isplitl [Hbufs]; · iexact Hbufs
    isplitl [Hgen]; · iexists _; iexact Hgen
    iexists ∅; iexact Hdue
  ·
    unfold StableHlo.held
    iintro ⟨Hh, HSI⟩
    ihave Hr := (pointsTo_read_all (Pipeline.ucRefs τ sig) (fun b => ((c : Thread nD τ).1, b)) (Gen.V20 m (outs m) c) s') $$ [Hh HSI]
    · isplitl [Hh] <;> iassumption
    icases Hr with ⟨%h, HSI⟩
    imodintro
    isplitr
    · ipureintro
      exact ⟨(h (Proc.devRef .tc main_v141_0) (mem_uc main_v141_0 (by decide))).trans (congrFun (V20_eq m c) _),
        (h (Proc.devRef .tc main_v141_1) (mem_uc main_v141_1 (by decide))).trans (congrFun (V20_eq m c) _),
        (h (Proc.devRef .tc main_arg0) (mem_uc main_arg0 (by decide))).trans (Gen.V20_main_arg0 m (outs m) c),
        (h (Proc.devRef .tc main_arg1) (mem_uc main_arg1 (by decide))).trans (Gen.V20_main_arg1 m (outs m) c),
        (h (Proc.devRef .tc main_arg2) (mem_uc main_arg2 (by decide))).trans (Gen.V20_main_arg2 m (outs m) c),
        (h (Proc.devRef .tc main_arg3) (mem_uc main_arg3 (by decide))).trans (Gen.V20_main_arg3 m (outs m) c),
        (h (Proc.devRef .tc main_arg4) (mem_uc main_arg4 (by decide))).trans (Gen.V20_main_arg4 m (outs m) c),
        (h (Proc.devRef .tc main_arg5) (mem_uc main_arg5 (by decide))).trans (Gen.V20_main_arg5 m (outs m) c),
        (h (Proc.devRef .tc main_arg6) (mem_uc main_arg6 (by decide))).trans (Gen.V20_main_arg6 m (outs m) c),
        (h (Proc.devRef .tc main_arg7) (mem_uc main_arg7 (by decide))).trans (Gen.V20_main_arg7 m (outs m) c),
        (h (Proc.devRef .tc main_arg8) (mem_uc main_arg8 (by decide))).trans (Gen.V20_main_arg8 m (outs m) c),
        (h (Proc.devRef .tc main_arg9) (mem_uc main_arg9 (by decide))).trans (Gen.V20_main_arg9 m (outs m) c),
        (h (Proc.devRef .tc main_arg10) (mem_uc main_arg10 (by decide))).trans (Gen.V20_main_arg10 m (outs m) c),
        (h (Proc.devRef .tc main_arg11) (mem_uc main_arg11 (by decide))).trans (Gen.V20_main_arg11 m (outs m) c),
        (h (Proc.devRef .tc main_arg12) (mem_uc main_arg12 (by decide))).trans (Gen.V20_main_arg12 m (outs m) c),
        (h (Proc.devRef .tc main_arg13) (mem_uc main_arg13 (by decide))).trans (Gen.V20_main_arg13 m (outs m) c),
        (h (Proc.devRef .tc main_arg14) (mem_uc main_arg14 (by decide))).trans (Gen.V20_main_arg14 m (outs m) c),
        (h (Proc.devRef .tc main_arg15) (mem_uc main_arg15 (by decide))).trans (Gen.V20_main_arg15 m (outs m) c),
        (h (Proc.devRef .tc main_arg16) (mem_uc main_arg16 (by decide))).trans (Gen.V20_main_arg16 m (outs m) c)⟩
    · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs (onTc (τ := τ) (main (F := F))) ⟨m, fun _ => 0, ρ⟩).mono (fun r hr c => (hr c).2.2) (run_main m ρ)

end Cert.Kernel.Hand
-- ==== Proof.KI.Blk.lean ====
import proofs.«417545_j39908836114735_1_alg».proof.Proof.Gen.KernelIdeal.Launch
import Idealize.ShloMosaic.Lib.Pipeline.FrameBody
noncomputable section
namespace Cert.KernelIdeal.Hand
open Cert.KernelIdeal Cert.KernelIdeal.Gen
open Idealize.ShloMosaic Idealize.ShloMosaic.TcCoe
open Idealize.ShloMosaic.Pipeline (Dat Cfg)
variable {F : FTy → Type} [FloatOps F]
variable (V : (c : Dev nD) → (b : Ref sig .tc) → Buf (Elt F) ((c : Thread nD τ).loc b))

/-- Window `w`'s block at point `t` of its array as `V` gives it. -/
def blk (cfg : Cfg sig Λ₀) (c : Dev nD) (w : Fin cfg.W) (t : Fin cfg.N) :
    ((cfg.win w).xblock (cfg.grid.coords t)).Idx → Elt F (cfg.win w).elt :=
  ((cfg.win w).blk t).view.read (Elt F) (V c (Pipeline.arrRef cfg.spec w))

/-- An input window that the body leaves as found holds, at every point, its block of the array `V` gives. -/
theorem before_blk {cfg : Cfg sig Λ₀} {c : Dev nD} (dat : Dat τ (Elt F) Unit ℕ (UR sig nD τ) ℕ cfg c)
    (hA : ∀ w, dat.A w = V c (Pipeline.arrRef cfg.spec w)) (w : Fin cfg.W)
    (hw : (cfg.win w).isOut = false) (hlive : ∀ i, cfg.idle w i = false)
    (hclip : ∀ t t' : Fin cfg.N, (cfg.win w).index t = (cfg.win w).index t' →
      (cfg.win w).clip (cfg.grid.coords t) = (cfg.win w).clip (cfg.grid.coords t'))
    (hkeep : ∀ t, (cfg.win w).cut (cfg.grid.coords t) (dat.after w t) = blk V cfg c w t) (t : Fin cfg.N) (d) :
    dat.before w t d = (cfg.win w).fill (cfg.grid.coords t) d (blk V cfg c w t) := by
  have hb : ∀ t, dat.blockOf w t = blk V cfg c w t := fun t => by unfold Dat.blockOf blk; rw [hA]
  rw [dat.before_in_eq_fetched w hw hlive hclip (fun t => (hkeep t).trans (hb t).symm) t d, Dat.fetched, hb]

end Cert.KernelIdeal.Hand
end
-- ==== Proof.KI.B0.lean ====
import proofs.«417545_j39908836114735_1_alg».proof.Proof.Gen.KernelIdeal.Launch
import proofs.«417545_j39908836114735_1_alg».proof.Proof.Gen.KernelIdeal.Skeleton
import proofs.«417545_j39908836114735_1_alg».proof.Proof.Gen.KernelIdeal.Points
import proofs.«417545_j39908836114735_1_alg».proof.Proof.KI.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk0 (c : Dev nD) (w : Fin cfg0.W) (t : Fin cfg0.N) := blk V cfg0 c w t

abbrev rows0 : Rect S2000x128 := Rect.unit (s := S2000x128) ![0, 0] S2000x128.size inb_S2000x128_S2000x128_0_0
abbrev wgt0 : Rect S128x128 := Rect.unit (s := S128x128) ![0, 0] S128x128.size inb_S128x128_S128x128_0_0

def out0_2 (x0 : Vec F S2000x128 .f32) (x1 : Vec F S128x128 .f32) : Vec F S2000x128 .f32 :=
  View.canon [⟨rows0, k0_pay1 (View.ld x0 rows0) (View.ld x1 wgt0)⟩]

theorem cover0_2 (p0 : Vec F S2000x128 .f32) (y : S2000x128.Idx) :
    ∃ pc ∈ ([⟨rows0, p0⟩] : List (View.Piece (Elt F) S2000x128 .f32)), y ∈ pc.1.set :=
  View.cover_of_tiled [⟨rows0, p0⟩] S2000x128.size (by rfl) y

set_option maxHeartbeats 1000000 in
/-- The body stores once, over the whole result buffer, so what is read back there is the stored value; the inputs are only read. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) : ∀ k, (dat0 V c).owed k = 0 := fun k => by
  dsimp only [dat0]
theorem Phi_eq0 (c : Dev nD) (k) : (dat0 V c).Φ k = Pipeline.ΦA spec0 c := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) : ∀ t d, (dat0 V c).before 0 t d = iblk0 V c 0 t :=
  before_blk V _ (A_eq0 V c) 0 rfl (fun _ => rfl) (fun _ _ _ => rfl) (after0_0 V c)
theorem before0_1 (c : Dev nD) : ∀ t d, (dat0 V c).before 1 t d = iblk0 V c 1 t :=
  before_blk V _ (A_eq0 V c) 1 rfl (fun _ => rfl) (fun _ _ _ => rfl) (after0_1 V c)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- Each input holds its block at every point (`before_blk`), so `sound_kernel0` applies; the invariant and the owed tallies pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, Phi_eq0]
  rw [show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand
end
-- ==== Proof.KI.B1.lean ====
import proofs.«417545_j39908836114735_1_alg».proof.Proof.Gen.KernelIdeal.Launch
import proofs.«417545_j39908836114735_1_alg».proof.Proof.Gen.KernelIdeal.Skeleton
import proofs.«417545_j39908836114735_1_alg».proof.Proof.Gen.KernelIdeal.Points
import proofs.«417545_j39908836114735_1_alg».proof.Proof.KI.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk1 (c : Dev nD) (w : Fin cfg1.W) (t : Fin cfg1.N) := blk V cfg1 c w t

abbrev featBox1 : Rect S2000x128 := Rect.unit (s := S2000x128) ![0, 0] S2000x128.size inb_S2000x128_S2000x128_0_0
abbrev nodeBox1 : Rect S2000x1 := Rect.unit (s := S2000x1) ![0, 0] S2000x1.size inb_S2000x1_S2000x1_0_0
abbrev chanBox1 : Rect S1x128 := Rect.unit (s := S1x128) ![0, 0] S1x128.size inb_S1x128_S1x128_0_0

def out1_6 (agg hw : Vec F S2000x128 .f32) (sn : Vec F S2000x1 .f32) (b sc sh : Vec F S1x128 .f32) : Vec F S2000x128 .f32 :=
  View.canon [⟨featBox1, k1_pay1 (View.ld agg featBox1) (View.ld hw featBox1) (View.ld sn nodeBox1)
    (View.ld b chanBox1) (View.ld sc chanBox1) (View.ld sh chanBox1)⟩]

theorem cover1_6 (p : Vec F S2000x128 .f32) (y : S2000x128.Idx) :
    ∃ pc ∈ ([⟨featBox1, p⟩] : List (View.Piece (Elt F) S2000x128 .f32)), y ∈ pc.1.set :=
  View.cover_of_tiled [⟨featBox1, p⟩] S2000x128.size (by rfl) y

set_option maxHeartbeats 1000000 in
/-- The body stores once, over the whole result buffer, so what is read back there is the stored value; the inputs are only read. -/
theorem sound_kernel1 (c : Dev nD) (E : Set ℕ) (i : grid1.Coords)
    (arg0 : Memref sig .tc .vmem S2000x128 .f32) (harg0 : arg0.IsWhole) (arg1 : Memref sig .tc .vmem S2000x128 .f32) (harg1 : arg1.IsWhole)
    (arg2 : Memref sig .tc .vmem S2000x1 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S2000x128 .f32) (harg6 : arg6.IsWhole)
    (x0 x1 : Vec F S2000x128 .f32) (x2 : Vec F S2000x1 .f32) (x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out1_6 x0 x1 x2 x3 x4 x5)) -∗ K ⟨⟩))
      ⊢ wp frame (wpE (defs₀ (F := F)) Variants.none c none) E (cc1__combine_kernel i arg0 harg0 arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) : ∀ x y, (dat1 V c).owed x y = 0 := by
  intro x y; dsimp only [dat1]; rfl
theorem Phi_eq1 (c : Dev nD) (k : Fin (cfg1.N + 1)) : (dat1 V c).Φ k = Pipeline.ΦA spec1 c := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) : ∀ t d, (dat1 V c).before 0 t d = iblk1 V c 0 t :=
  before_blk V _ (A_eq1 V c) 0 rfl (fun _ => rfl) (fun _ _ _ => rfl) (after1_0 V c)
theorem before1_1 (c : Dev nD) : ∀ t d, (dat1 V c).before 1 t d = iblk1 V c 1 t :=
  before_blk V _ (A_eq1 V c) 1 rfl (fun _ => rfl) (fun _ _ _ => rfl) (after1_1 V c)
theorem before1_2 (c : Dev nD) : ∀ t d, (dat1 V c).before 2 t d = iblk1 V c 2 t :=
  before_blk V _ (A_eq1 V c) 2 rfl (fun _ => rfl) (fun _ _ _ => rfl) (after1_2 V c)
theorem before1_3 (c : Dev nD) : ∀ t d, (dat1 V c).before 3 t d = iblk1 V c 3 t :=
  before_blk V _ (A_eq1 V c) 3 rfl (fun _ => rfl) (fun _ _ _ => rfl) (after1_3 V c)
theorem before1_4 (c : Dev nD) : ∀ t d, (dat1 V c).before 4 t d = iblk1 V c 4 t :=
  before_blk V _ (A_eq1 V c) 4 rfl (fun _ => rfl) (fun _ _ _ => rfl) (after1_4 V c)
theorem before1_5 (c : Dev nD) : ∀ t d, (dat1 V c).before 5 t d = iblk1 V c 5 t :=
  before_blk V _ (A_eq1 V c) 5 rfl (fun _ => rfl) (fun _ _ _ => rfl) (after1_5 V c)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- Each input holds its block at every point (`before_blk`), so `sound_kernel1` applies; the invariant and the owed tallies pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, Phi_eq1]
  rw [show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand
end
-- ==== Proof.KI.B2.lean ====
import proofs.«417545_j39908836114735_1_alg».proof.Proof.Gen.KernelIdeal.Launch
import proofs.«417545_j39908836114735_1_alg».proof.Proof.Gen.KernelIdeal.Skeleton
import proofs.«417545_j39908836114735_1_alg».proof.Proof.Gen.KernelIdeal.Points
import proofs.«417545_j39908836114735_1_alg».proof.Proof.KI.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk2 (c : Dev nD) (w : Fin cfg2.W) (t : Fin cfg2.N) := blk V cfg2 c w t

abbrev rows2 : Rect S2000x128 := Rect.unit (s := S2000x128) ![0, 0] S2000x128.size inb_S2000x128_S2000x128_0_0
abbrev wgt2 : Rect S128x128 := Rect.unit (s := S128x128) ![0, 0] S128x128.size inb_S128x128_S128x128_0_0

def out2_2 (x0 : Vec F S2000x128 .f32) (x1 : Vec F S128x128 .f32) : Vec F S2000x128 .f32 :=
  View.canon [⟨rows2, k2_pay1 (View.ld x0 rows2) (View.ld x1 wgt2)⟩]

theorem cover2_2 (p0 : Vec F S2000x128 .f32) (y : S2000x128.Idx) :
    ∃ pc ∈ ([⟨rows2, p0⟩] : List (View.Piece (Elt F) S2000x128 .f32)), y ∈ pc.1.set :=
  View.cover_of_tiled [⟨rows2, p0⟩] S2000x128.size (by rfl) y

set_option maxHeartbeats 1000000 in
/-- The body stores once, over the whole result buffer, so what is read back there is the stored value; the inputs are only read. -/
theorem sound_kernel2 (c : Dev nD) (E : Set ℕ) (i : grid2.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) : ∀ k, (dat2 V c).owed k = 0 := fun k => by
  dsimp only [dat2]
theorem Phi_eq2 (c : Dev nD) (k) : (dat2 V c).Φ k = Pipeline.ΦA spec2 c := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) : ∀ t d, (dat2 V c).before 0 t d = iblk2 V c 0 t :=
  before_blk V _ (A_eq2 V c) 0 rfl (fun _ => rfl) (fun _ _ _ => rfl) (after2_0 V c)
theorem before2_1 (c : Dev nD) : ∀ t d, (dat2 V c).before 1 t d = iblk2 V c 1 t :=
  before_blk V _ (A_eq2 V c) 1 rfl (fun _ => rfl) (fun _ _ _ => rfl) (after2_1 V c)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- Each input holds its block at every point (`before_blk`), so `sound_kernel2` applies; the invariant and the owed tallies pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, Phi_eq2]
  rw [show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand
end
-- ==== Proof.KI.B3.lean ====
import proofs.«417545_j39908836114735_1_alg».proof.Proof.Gen.KernelIdeal.Launch
import proofs.«417545_j39908836114735_1_alg».proof.Proof.Gen.KernelIdeal.Skeleton
import proofs.«417545_j39908836114735_1_alg».proof.Proof.Gen.KernelIdeal.Points
import proofs.«417545_j39908836114735_1_alg».proof.Proof.KI.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk3 (c : Dev nD) (w : Fin cfg3.W) (t : Fin cfg3.N) := blk V cfg3 c w t

abbrev featBox3 : Rect S2000x128 := Rect.unit (s := S2000x128) ![0, 0] S2000x128.size inb_S2000x128_S2000x128_0_0
abbrev nodeBox3 : Rect S2000x1 := Rect.unit (s := S2000x1) ![0, 0] S2000x1.size inb_S2000x1_S2000x1_0_0
abbrev chanBox3 : Rect S1x128 := Rect.unit (s := S1x128) ![0, 0] S1x128.size inb_S1x128_S1x128_0_0

def out3_6 (agg hw : Vec F S2000x128 .f32) (sn : Vec F S2000x1 .f32) (b sc sh : Vec F S1x128 .f32) : Vec F S2000x128 .f32 :=
  View.canon [⟨featBox3, k3_pay1 (View.ld agg featBox3) (View.ld hw featBox3) (View.ld sn nodeBox3)
    (View.ld b chanBox3) (View.ld sc chanBox3) (View.ld sh chanBox3)⟩]

theorem cover3_6 (p : Vec F S2000x128 .f32) (y : S2000x128.Idx) :
    ∃ pc ∈ ([⟨featBox3, p⟩] : List (View.Piece (Elt F) S2000x128 .f32)), y ∈ pc.1.set :=
  View.cover_of_tiled [⟨featBox3, p⟩] S2000x128.size (by rfl) y

set_option maxHeartbeats 1000000 in
/-- The body stores once, over the whole result buffer, so what is read back there is the stored value; the inputs are only read. -/
theorem sound_kernel3 (c : Dev nD) (E : Set ℕ) (i : grid3.Coords)
    (arg0 : Memref sig .tc .vmem S2000x128 .f32) (harg0 : arg0.IsWhole) (arg1 : Memref sig .tc .vmem S2000x128 .f32) (harg1 : arg1.IsWhole)
    (arg2 : Memref sig .tc .vmem S2000x1 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S2000x128 .f32) (harg6 : arg6.IsWhole)
    (x0 x1 : Vec F S2000x128 .f32) (x2 : Vec F S2000x1 .f32) (x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out3_6 x0 x1 x2 x3 x4 x5)) -∗ K ⟨⟩))
      ⊢ wp frame (wpE (defs₀ (F := F)) Variants.none c none) E (cc3__combine_kernel i arg0 harg0 arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) : ∀ x y, (dat3 V c).owed x y = 0 := by
  intro x y; dsimp only [dat3]; rfl
theorem Phi_eq3 (c : Dev nD) (k : Fin (cfg3.N + 1)) : (dat3 V c).Φ k = Pipeline.ΦA spec3 c := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

theorem before3_0 (c : Dev nD) : ∀ t d, (dat3 V c).before 0 t d = iblk3 V c 0 t :=
  before_blk V _ (A_eq3 V c) 0 rfl (fun _ => rfl) (fun _ _ _ => rfl) (after3_0 V c)
theorem before3_1 (c : Dev nD) : ∀ t d, (dat3 V c).before 1 t d = iblk3 V c 1 t :=
  before_blk V _ (A_eq3 V c) 1 rfl (fun _ => rfl) (fun _ _ _ => rfl) (after3_1 V c)
theorem before3_2 (c : Dev nD) : ∀ t d, (dat3 V c).before 2 t d = iblk3 V c 2 t :=
  before_blk V _ (A_eq3 V c) 2 rfl (fun _ => rfl) (fun _ _ _ => rfl) (after3_2 V c)
theorem before3_3 (c : Dev nD) : ∀ t d, (dat3 V c).before 3 t d = iblk3 V c 3 t :=
  before_blk V _ (A_eq3 V c) 3 rfl (fun _ => rfl) (fun _ _ _ => rfl) (after3_3 V c)
theorem before3_4 (c : Dev nD) : ∀ t d, (dat3 V c).before 4 t d = iblk3 V c 4 t :=
  before_blk V _ (A_eq3 V c) 4 rfl (fun _ => rfl) (fun _ _ _ => rfl) (after3_4 V c)
theorem before3_5 (c : Dev nD) : ∀ t d, (dat3 V c).before 5 t d = iblk3 V c 5 t :=
  before_blk V _ (A_eq3 V c) 5 rfl (fun _ => rfl) (fun _ _ _ => rfl) (after3_5 V c)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- Each input holds its block at every point (`before_blk`), so `sound_kernel3` applies; the invariant and the owed tallies pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, Phi_eq3]
  rw [show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  iintro ⟨H0, H1, H2, H3, H4, H5, H6⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand
end
-- ==== Proof.KI.B4.lean ====
import proofs.«417545_j39908836114735_1_alg».proof.Proof.Gen.KernelIdeal.Launch
import proofs.«417545_j39908836114735_1_alg».proof.Proof.Gen.KernelIdeal.Skeleton
import proofs.«417545_j39908836114735_1_alg».proof.Proof.Gen.KernelIdeal.Points
import proofs.«417545_j39908836114735_1_alg».proof.Proof.KI.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk4 (c : Dev nD) (w : Fin cfg4.W) (t : Fin cfg4.N) := blk V cfg4 c w t

abbrev rows4 : Rect S2000x128 := Rect.unit (s := S2000x128) ![0, 0] S2000x128.size inb_S2000x128_S2000x128_0_0
abbrev wgt4 : Rect S128x128 := Rect.unit (s := S128x128) ![0, 0] S128x128.size inb_S128x128_S128x128_0_0

def out4_2 (x0 : Vec F S2000x128 .f32) (x1 : Vec F S128x128 .f32) : Vec F S2000x128 .f32 :=
  View.canon [⟨rows4, k4_pay1 (View.ld x0 rows4) (View.ld x1 wgt4)⟩]

theorem cover4_2 (p0 : Vec F S2000x128 .f32) (y : S2000x128.Idx) :
    ∃ pc ∈ ([⟨rows4, p0⟩] : List (View.Piece (Elt F) S2000x128 .f32)), y ∈ pc.1.set :=
  View.cover_of_tiled [⟨rows4, p0⟩] S2000x128.size (by rfl) y

set_option maxHeartbeats 1000000 in
/-- The body stores once, over the whole result buffer, so what is read back there is the stored value; the inputs are only read. -/
theorem sound_kernel4 (c : Dev nD) (E : Set ℕ) (i : grid4.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) : ∀ k, (dat4 V c).owed k = 0 := fun k => by
  dsimp only [dat4]
theorem Phi_eq4 (c : Dev nD) (k) : (dat4 V c).Φ k = Pipeline.ΦA spec4 c := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) : ∀ t d, (dat4 V c).before 0 t d = iblk4 V c 0 t :=
  before_blk V _ (A_eq4 V c) 0 rfl (fun _ => rfl) (fun _ _ _ => rfl) (after4_0 V c)
theorem before4_1 (c : Dev nD) : ∀ t d, (dat4 V c).before 1 t d = iblk4 V c 1 t :=
  before_blk V _ (A_eq4 V c) 1 rfl (fun _ => rfl) (fun _ _ _ => rfl) (after4_1 V c)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- Each input holds its block at every point (`before_blk`), so `sound_kernel4` applies; the invariant and the owed tallies pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, Phi_eq4]
  rw [show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe

theorem body_obligation4 (c : Dev nD) : BodyObligation (dat4 (F := F) V c) (defs₀ (F := F)) Variants.none () Set.univ := fun t => by
  rw [bigSep_W4, bigSep_W4]
  exact sound_body4 V c t

end Cert.KernelIdeal.Hand
end
-- ==== Proof.KI.B5.lean ====
import proofs.«417545_j39908836114735_1_alg».proof.Proof.Gen.KernelIdeal.Launch
import proofs.«417545_j39908836114735_1_alg».proof.Proof.Gen.KernelIdeal.Skeleton
import proofs.«417545_j39908836114735_1_alg».proof.Proof.Gen.KernelIdeal.Points
import proofs.«417545_j39908836114735_1_alg».proof.Proof.KI.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk5 (c : Dev nD) (w : Fin cfg5.W) (t : Fin cfg5.N) := blk V cfg5 c w t

abbrev featBox5 : Rect S2000x128 := Rect.unit (s := S2000x128) ![0, 0] S2000x128.size inb_S2000x128_S2000x128_0_0
abbrev nodeBox5 : Rect S2000x1 := Rect.unit (s := S2000x1) ![0, 0] S2000x1.size inb_S2000x1_S2000x1_0_0
abbrev chanBox5 : Rect S1x128 := Rect.unit (s := S1x128) ![0, 0] S1x128.size inb_S1x128_S1x128_0_0

def out5_6 (agg hw : Vec F S2000x128 .f32) (sn : Vec F S2000x1 .f32) (b sc sh : Vec F S1x128 .f32) : Vec F S2000x128 .f32 :=
  View.canon [⟨featBox5, k5_pay1 (View.ld agg featBox5) (View.ld hw featBox5) (View.ld sn nodeBox5)
    (View.ld b chanBox5) (View.ld sc chanBox5) (View.ld sh chanBox5)⟩]

theorem cover5_6 (p : Vec F S2000x128 .f32) (y : S2000x128.Idx) :
    ∃ pc ∈ ([⟨featBox5, p⟩] : List (View.Piece (Elt F) S2000x128 .f32)), y ∈ pc.1.set :=
  View.cover_of_tiled [⟨featBox5, p⟩] S2000x128.size (by rfl) y

set_option maxHeartbeats 1000000 in
/-- The body stores once, over the whole result buffer, so what is read back there is the stored value; the inputs are only read. -/
theorem sound_kernel5 (c : Dev nD) (E : Set ℕ) (i : grid5.Coords)
    (arg0 : Memref sig .tc .vmem S2000x128 .f32) (harg0 : arg0.IsWhole) (arg1 : Memref sig .tc .vmem S2000x128 .f32) (harg1 : arg1.IsWhole)
    (arg2 : Memref sig .tc .vmem S2000x1 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S2000x128 .f32) (harg6 : arg6.IsWhole)
    (x0 x1 : Vec F S2000x128 .f32) (x2 : Vec F S2000x1 .f32) (x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out5_6 x0 x1 x2 x3 x4 x5)) -∗ K ⟨⟩))
      ⊢ wp frame (wpE (defs₀ (F := F)) Variants.none c none) E (cc5__combine_kernel i arg0 harg0 arg1 harg1 arg2 harg2 arg3 harg3 arg4 harg4 arg5 harg5 arg6 harg6) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by
  dsimp only [dat5]
theorem owed_eq5 (c : Dev nD) : ∀ x y, (dat5 V c).owed x y = 0 := by
  intro x y; dsimp only [dat5]; rfl
theorem Phi_eq5 (c : Dev nD) (k : Fin (cfg5.N + 1)) : (dat5 V c).Φ k = Pipeline.ΦA spec5 c := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t
    = out5_6 (iblk5 V c 0 t) (iblk5 V c 1 t) (iblk5 V c 2 t) (iblk5 V c 3 t) (iblk5 V c 4 t) (iblk5 V c 5 t) := by dsimp only [dat5]

theorem before5_0 (c : Dev nD) : ∀ t d, (dat5 V c).before 0 t d = iblk5 V c 0 t :=
  before_blk V _ (A_eq5 V c) 0 rfl (fun _ => rfl) (fun _ _ _ => rfl) (after5_0 V c)
theorem before5_1 (c : Dev nD) : ∀ t d, (dat5 V c).before 1 t d = iblk5 V c 1 t :=
  before_blk V _ (A_eq5 V c) 1 rfl (fun _ => rfl) (fun _ _ _ => rfl) (after5_1 V c)
theorem before5_2 (c : Dev nD) : ∀ t d, (dat5 V c).before 2 t d = iblk5 V c 2 t :=
  before_blk V _ (A_eq5 V c) 2 rfl (fun _ => rfl) (fun _ _ _ => rfl) (after5_2 V c)
theorem before5_3 (c : Dev nD) : ∀ t d, (dat5 V c).before 3 t d = iblk5 V c 3 t :=
  before_blk V _ (A_eq5 V c) 3 rfl (fun _ => rfl) (fun _ _ _ => rfl) (after5_3 V c)
theorem before5_4 (c : Dev nD) : ∀ t d, (dat5 V c).before 4 t d = iblk5 V c 4 t :=
  before_blk V _ (A_eq5 V c) 4 rfl (fun _ => rfl) (fun _ _ _ => rfl) (after5_4 V c)
theorem before5_5 (c : Dev nD) : ∀ t d, (dat5 V c).before 5 t d = iblk5 V c 5 t :=
  before_blk V _ (A_eq5 V c) 5 rfl (fun _ => rfl) (fun _ _ _ => rfl) (after5_5 V c)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- Each input holds its block at every point (`before_blk`), so `sound_kernel5` applies; the invariant and the owed tallies pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, Phi_eq5]
  rw [show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _
    (iblk5 V c 0 t) (iblk5 V c 1 t) (iblk5 V c 2 t) (iblk5 V c 3 t) (iblk5 V c 4 t) (iblk5 V c 5 t) _)
  iframe H0 H1 H2 H3 H4 H5
  isplitl [H6]; · iexists _; iexact H6
  iintro ⟨H0, H1, H2, H3, H4, H5, H6⟩
  iframe

theorem body_obligation5 (c : Dev nD) : BodyObligation (dat5 (F := F) V c) (defs₀ (F := F)) Variants.none () Set.univ := fun t => by
  rw [bigSep_W5, bigSep_W5]
  exact sound_body5 V c t

end Cert.KernelIdeal.Hand
end
-- ==== Proof.KI.B6.lean ====
import proofs.«417545_j39908836114735_1_alg».proof.Proof.Gen.KernelIdeal.Launch
import proofs.«417545_j39908836114735_1_alg».proof.Proof.Gen.KernelIdeal.Skeleton
import proofs.«417545_j39908836114735_1_alg».proof.Proof.Gen.KernelIdeal.Points
import proofs.«417545_j39908836114735_1_alg».proof.Proof.KI.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk6 (c : Dev nD) (w : Fin cfg6.W) (t : Fin cfg6.N) := blk V cfg6 c w t

abbrev rows6 : Rect S2000x128 := Rect.unit (s := S2000x128) ![0, 0] S2000x128.size inb_S2000x128_S2000x128_0_0
abbrev wgt6 : Rect S128x128 := Rect.unit (s := S128x128) ![0, 0] S128x128.size inb_S128x128_S128x128_0_0

def out6_2 (x0 : Vec F S2000x128 .f32) (x1 : Vec F S128x128 .f32) : Vec F S2000x128 .f32 :=
  View.canon [⟨rows6, k6_pay1 (View.ld x0 rows6) (View.ld x1 wgt6)⟩]

theorem cover6_2 (p0 : Vec F S2000x128 .f32) (y : S2000x128.Idx) :
    ∃ pc ∈ ([⟨rows6, p0⟩] : List (View.Piece (Elt F) S2000x128 .f32)), y ∈ pc.1.set :=
  View.cover_of_tiled [⟨rows6, p0⟩] S2000x128.size (by rfl) y

set_option maxHeartbeats 1000000 in
/-- The body stores once, over the whole result buffer, so what is read back there is the stored value; the inputs are only read. -/
theorem sound_kernel6 (c : Dev nD) (E : Set ℕ) (i : grid6.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := by
  dsimp only [dat6]
theorem owed_eq6 (c : Dev nD) : ∀ k, (dat6 V c).owed k = 0 := fun k => by
  dsimp only [dat6]
theorem Phi_eq6 (c : Dev nD) (k) : (dat6 V c).Φ k = Pipeline.ΦA spec6 c := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) : ∀ t d, (dat6 V c).before 0 t d = iblk6 V c 0 t :=
  before_blk V _ (A_eq6 V c) 0 rfl (fun _ => rfl) (fun _ _ _ => rfl) (after6_0 V c)
theorem before6_1 (c : Dev nD) : ∀ t d, (dat6 V c).before 1 t d = iblk6 V c 1 t :=
  before_blk V _ (A_eq6 V c) 1 rfl (fun _ => rfl) (fun _ _ _ => rfl) (after6_1 V c)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- Each input holds its block at every point (`before_blk`), so `sound_kernel6` applies; the invariant and the owed tallies pass through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, Phi_eq6]
  rw [show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  iframe H0 H1
  isplitl [H2]; · iexists _; iexact H2
  iintro ⟨H0, H1, H2⟩
  iframe

theorem body_obligation6 (c : Dev nD) : BodyObligation (dat6 (F := F) V c) (defs₀ (F := F)) Variants.none () Set.univ := fun t => by
  rw [bigSep_W6, bigSep_W6]
  exact sound_body6 V c t

end Cert.KernelIdeal.Hand
end
-- ==== Proof.KI.B7.lean ====
import proofs.«417545_j39908836114735_1_alg».proof.Proof.Gen.KernelIdeal.Launch
import proofs.«417545_j39908836114735_1_alg».proof.Proof.Gen.KernelIdeal.Skeleton
import proofs.«417545_j39908836114735_1_alg».proof.Proof.Gen.KernelIdeal.Points
import proofs.«417545_j39908836114735_1_alg».proof.Proof.KI.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk7 (c : Dev nD) (w : Fin cfg7.W) (t : Fin cfg7.N) := blk V cfg7 c w t

abbrev featBox7 : Rect S2000x128 := Rect.unit (s := S2000x128) ![0, 0] S2000x128.size inb_S2000x128_S2000x128_0_0
abbrev nodeBox7 : Rect S2000x1 := Rect.unit (s := S2000x1) ![0, 0] S2000x1.size inb_S2000x1_S2000x1_0_0
abbrev chanBox7 : Rect S1x128 := Rect.unit (s := S1x128) ![0, 0] S1x128.size inb_S1x128_S1x128_0_0

def out7_6 (agg hw : Vec F S2000x128 .f32) (sn : Vec F S2000x1 .f32) (b sc sh : Vec F S1x128 .f32) : Vec F S2000x128 .f32 :=
  View.canon [⟨featBox7, k7_pay1 (View.ld agg featBox7) (View.ld hw featBox7) (View.ld sn nodeBox7)
    (View.ld b chanBox7) (View.ld sc chanBox7) (View.ld sh chanBox7)⟩]

theorem cover7_6 (p : Vec F S2000x128 .f32) (y : S2000x128.Idx) :
    ∃ pc ∈ ([⟨featBox7, p⟩] : List (View.Piece (Elt F) S2000x128 .f32)), y ∈ pc.1.set :=
  View.cover_of_tiled [⟨featBox7, p⟩] S2000x128.size (by rfl) y

set_option maxHeartbeats 1000000 in
/-- The body stores once, over the whole result buffer, so what is read back there is the stored value; the inputs are only read. -/
theorem sound_kernel7 (c : Dev nD) (E : Set ℕ) (i : grid7.Coords)
    (arg0 : Memref sig .tc .vmem S2000x128 .f32) (harg0 : arg0.IsWhole) (arg1 : Memref sig .tc .vmem S2000x128 .f32) (harg1 : arg1.IsWhole)
    (arg2 : Memref sig .tc .vmem S2000x1 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S2000x128 .f32) (harg6 : arg6.IsWhole)
    (x0 x1 : Vec F S2000x128 .f32) (x2 : Vec F S2000x1 .f32) (x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out7_6 x0 x1 x2 x3 x4 x5)) -∗ K ⟨⟩))
      ⊢ wp frame (wpE (defs₀ (F := F)) Variants.none c none) E (cc7__combine_kernel i arg0 harg0 arg1 harg1 arg2 harg2 arg3 harg3 arg4 harg4 arg5 harg5 arg6 harg6) K := by
  simp only [cc7__combine_kernel_eq_skeleton]; unfold cc7__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem q_eq7 (c : Dev nD) (w : Fin cfg7.W) : (dat7 V c).q w = fullShare := by
  dsimp only [dat7]
theorem owed_eq7 (c : Dev nD) : ∀ x y, (dat7 V c).owed x y = 0 := by
  intro x y; dsimp only [dat7]; rfl
theorem Phi_eq7 (c : Dev nD) (k : Fin (cfg7.N + 1)) : (dat7 V c).Φ k = Pipeline.ΦA spec7 c := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t
    = out7_6 (iblk7 V c 0 t) (iblk7 V c 1 t) (iblk7 V c 2 t) (iblk7 V c 3 t) (iblk7 V c 4 t) (iblk7 V c 5 t) := by dsimp only [dat7]

theorem before7_0 (c : Dev nD) : ∀ t d, (dat7 V c).before 0 t d = iblk7 V c 0 t :=
  before_blk V _ (A_eq7 V c) 0 rfl (fun _ => rfl) (fun _ _ _ => rfl) (after7_0 V c)
theorem before7_1 (c : Dev nD) : ∀ t d, (dat7 V c).before 1 t d = iblk7 V c 1 t :=
  before_blk V _ (A_eq7 V c) 1 rfl (fun _ => rfl) (fun _ _ _ => rfl) (after7_1 V c)
theorem before7_2 (c : Dev nD) : ∀ t d, (dat7 V c).before 2 t d = iblk7 V c 2 t :=
  before_blk V _ (A_eq7 V c) 2 rfl (fun _ => rfl) (fun _ _ _ => rfl) (after7_2 V c)
theorem before7_3 (c : Dev nD) : ∀ t d, (dat7 V c).before 3 t d = iblk7 V c 3 t :=
  before_blk V _ (A_eq7 V c) 3 rfl (fun _ => rfl) (fun _ _ _ => rfl) (after7_3 V c)
theorem before7_4 (c : Dev nD) : ∀ t d, (dat7 V c).before 4 t d = iblk7 V c 4 t :=
  before_blk V _ (A_eq7 V c) 4 rfl (fun _ => rfl) (fun _ _ _ => rfl) (after7_4 V c)
theorem before7_5 (c : Dev nD) : ∀ t d, (dat7 V c).before 5 t d = iblk7 V c 5 t :=
  before_blk V _ (A_eq7 V c) 5 rfl (fun _ => rfl) (fun _ _ _ => rfl) (after7_5 V c)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- Each input holds its block at every point (`before_blk`), so `sound_kernel7` applies; the invariant and the owed tallies pass through. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, Phi_eq7]
  rw [show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _
    (iblk7 V c 0 t) (iblk7 V c 1 t) (iblk7 V c 2 t) (iblk7 V c 3 t) (iblk7 V c 4 t) (iblk7 V c 5 t) _)
  iframe H0 H1 H2 H3 H4 H5
  isplitl [H6]; · iexists _; iexact H6
  iintro ⟨H0, H1, H2, H3, H4, H5, H6⟩
  iframe

theorem body_obligation7 (c : Dev nD) : BodyObligation (dat7 (F := F) V c) (defs₀ (F := F)) Variants.none () Set.univ := fun t => by
  rw [bigSep_W7, bigSep_W7]
  exact sound_body7 V c t

end Cert.KernelIdeal.Hand
end
-- ==== Proof.KI.B8.lean ====
import proofs.«417545_j39908836114735_1_alg».proof.Proof.Gen.KernelIdeal.Launch
import proofs.«417545_j39908836114735_1_alg».proof.Proof.Gen.KernelIdeal.Skeleton
import proofs.«417545_j39908836114735_1_alg».proof.Proof.Gen.KernelIdeal.Points
import proofs.«417545_j39908836114735_1_alg».proof.Proof.KI.Blk
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev iblk8 (c : Dev nD) (w : Fin cfg8.W) (t : Fin cfg8.N) := blk V cfg8 c w t

abbrev rb8 : Rect S2000x1 := Rect.unit (s := S2000x1) ![0, 0] S2000x1.size inb_S2000x1_S2000x1_0_0
abbrev rx8 : Rect S2000x128 := Rect.unit (s := S2000x128) ![0, 0] S2000x128.size inb_S2000x128_S2000x128_0_0
abbrev rg8 : Rect S64x128 := Rect.unit (s := S64x128) ![0, 0] S64x128.size inb_S64x128_S64x128_0_0

def zero8 : Vec F S64x128 .f32 := k8_pay1 (F := F)

def step8 (b : Vec F S2000x1 .i32) (x : Vec F S2000x128 .f32) (a : Vec F S64x128 .f32) : Vec F S64x128 .f32 :=
  k8_pay2 b x a

theorem hz8 : (![0, 0] : Fin 2 → Nat) = fun _ => 0 :=
  funext fun a => match a with | ⟨0, _⟩ => rfl | ⟨1, _⟩ => rfl

theorem cover8 (p0 : Vec F S64x128 .f32) (L : List (View.Piece (Elt F) S64x128 .f32)) (y : S64x128.Idx) :
    ∃ pc ∈ ((⟨rg8, p0⟩ : View.Piece (Elt F) S64x128 .f32) :: L), y ∈ pc.1.set :=
  ⟨⟨rg8, p0⟩, by simp, View.mem_set_unit_zero hz8 inb_S64x128_S64x128_0_0 y⟩

/-- The accumulator after point `n`: every point adds its product to what the point before left, the first to zero. -/
def acc8 (c : Dev nD) : (n : ℕ) → n < cfg8.N → Vec F S64x128 .f32
  | 0, h => step8 (iblk8 V c 0 ⟨0, h⟩) (iblk8 V c 1 ⟨0, h⟩) zero8
  | n + 1, h => step8 (iblk8 V c 0 ⟨n + 1, h⟩) (iblk8 V c 1 ⟨n + 1, h⟩) (acc8 c n (Nat.lt_of_succ_lt h))

theorem acc8_zero (c : Dev nD) (h : 0 < cfg8.N) :
    acc8 V c 0 h = step8 (iblk8 V c 0 ⟨0, h⟩) (iblk8 V c 1 ⟨0, h⟩) zero8 := rfl

theorem acc8_succ (c : Dev nD) (n : ℕ) (h : n + 1 < cfg8.N) :
    acc8 V c (n + 1) h = step8 (iblk8 V c 0 ⟨n + 1, h⟩) (iblk8 V c 1 ⟨n + 1, h⟩) (acc8 V c n (Nat.lt_of_succ_lt h)) := rfl

theorem acc8_first (c : Dev nD) (t : Fin cfg8.N) (h0 : t.val = 0) :
    acc8 V c t.val t.isLt = step8 (iblk8 V c 0 t) (iblk8 V c 1 t) zero8 := by
  obtain ⟨n, hn⟩ := t
  cases n with
  | zero => rfl
  | succ n => exact absurd h0 (Nat.succ_ne_zero n)

theorem acc8_later (c : Dev nD) (t : Fin cfg8.N) (h0 : t.val ≠ 0) :
    acc8 V c t.val t.isLt
      = step8 (iblk8 V c 0 t) (iblk8 V c 1 t) (acc8 V c (t.val - 1) (Nat.lt_of_le_of_lt (Nat.sub_le _ _) t.isLt)) := by
  obtain ⟨n, hn⟩ := t
  cases n with
  | zero => exact absurd rfl h0
  | succ n => rfl

/-- What the scratch accumulator holds before point `n`: anything before the first, `acc8` of the point before afterwards. -/
def scr8 (c : Dev nD) : (n : ℕ) → n ≤ cfg8.N → sProp 𝕄
  | 0, _ => iprop(∃ a, owns (c : Thread nD τ) (Memref.whole cc8_scratch0) fullShare a)
  | n + 1, hn => owns (c : Thread nD τ) (Memref.whole cc8_scratch0) fullShare (acc8 V c n hn)

def Phi8 (c : Dev nD) (n : ℕ) (h : n ≤ cfg8.N) : sProp 𝕄 :=
  iprop((∃ r, prngReg c r) ∗ scr8 V c n h
    ∗ Pipeline.scopedRestBut (Ix := Unit) (Name := ℕ) (U := UR sig nD τ) (Lvl := ℕ) (Val := Elt F) spec8 c [cc8_scratch0])

theorem scr8_zero (c : Dev nD) (n : ℕ) (h : n ≤ cfg8.N) (hz : n = 0) :
    scr8 V c n h = iprop(∃ a, owns (c : Thread nD τ) (Memref.whole cc8_scratch0) fullShare a) := by
  subst hz; rfl

theorem scr8_pos (c : Dev nD) (n : ℕ) (h : n ≤ cfg8.N) (hz : n ≠ 0) :
    scr8 V c n h = owns (c : Thread nD τ) (Memref.whole cc8_scratch0) fullShare (acc8 V c (n - 1) (by omega)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c t.val t.isLt
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem q_eq8 (c : Dev nD) (w : Fin cfg8.W) : (dat8 V c).q w = fullShare := by
  dsimp only [dat8]

theorem owed_eq8 (c : Dev nD) : ∀ x y, (dat8 V c).owed x y = 0 := fun _ _ => rfl

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c t.val t.isLt := by dsimp only [dat8]

theorem before8_0 (c : Dev nD) : ∀ t d, (dat8 V c).before 0 t d = iblk8 V c 0 t :=
  before_blk V _ (A_eq8 V c) 0 rfl (fun _ => rfl) (fun _ _ _ => rfl) (after8_0 V c)
theorem before8_1 (c : Dev nD) : ∀ t d, (dat8 V c).before 1 t d = iblk8 V c 1 t :=
  before_blk V _ (A_eq8 V c) 1 rfl (fun _ => rfl) (fun _ _ _ => rfl) (after8_1 V c)

theorem Phi8_castSucc (c : Dev nD) (t : Fin cfg8.N) :
    (dat8 V c).Φ t.castSucc = Phi8 V c t.val (Nat.le_of_lt t.isLt) := by
  dsimp only [dat8]; try simp only [Fin.coe_castSucc]

/-- The body's reset test holds exactly at the first point. -/
theorem reset8_iff (n : Fin 50) :
    (Scalar.cmpi .ne (Scalar.extui (Scalar.cmpi .eq (BitVec.ofNat 32 n.val) 0#32) : BitVec 32) 0#32 = 1#1) ↔ n.val = 0 := by
  revert n; decide

set_option maxHeartbeats 4000000 in
theorem sound_kernel8_first (c : Dev nD) (E : Set ℕ) (i : grid8.Coords) (hi : (i 0).val = 0)
    (arg1 : Memref sig .tc .vmem S2000x1 .i32) (harg1 : arg1.IsWhole) (arg2 : Memref sig .tc .vmem S2000x128 .f32) (harg2 : arg2.IsWhole)
    (arg3 : Memref sig .tc .vmem S64x128 .f32) (harg3 : arg3.IsWhole) (arg4 : Memref sig .tc .vmem S64x128 .f32) (harg4 : arg4.IsWhole)
    (b : Vec F S2000x1 .i32) (x : Vec F S2000x128 .f32) (K : PUnit → sProp 𝕄) :
    iprop(owns (c : Thread nD τ) arg1 fullShare b ∗ owns (c : Thread nD τ) arg2 fullShare x
        ∗ (∃ d, owns (c : Thread nD τ) arg3 fullShare d) ∗ (∃ a, owns (c : Thread nD τ) arg4 fullShare a)
        ∗ (iprop(owns (c : Thread nD τ) arg1 fullShare b ∗ owns (c : Thread nD τ) arg2 fullShare x
            ∗ owns (c : Thread nD τ) arg3 fullShare (step8 b x zero8) ∗ owns (c : Thread nD τ) arg4 fullShare (step8 b x zero8)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f1, %hf1, H1⟩, ⟨%f2, %hf2, H2⟩, ⟨%d3, %f3, -, H3⟩, ⟨%a4, %f4, -, H4⟩, Hk⟩
  subst hf1; subst hf2
  have hC : (Scalar.cmpi .ne (Scalar.extui (Scalar.cmpi .eq (BitVec.ofNat 32 (i 0).val) 0#32) : BitVec 32) 0#32 = 1#1) :=
    (reset8_iff (i 0)).mpr hi
  sl_exec
  sl_step
  iapply Hk
  isplitl [H1]
  · iexists f1; isplitr; · ipureintro; rfl
    iexact H1
  isplitl [H2]
  · iexists f2; isplitr; · ipureintro; rfl
    iexact H2
  isplitl [H3] <;>
  · iexists _; isplitr
    swap; · iassumption
    ipureintro
    sl_unfold_words
    rw [View.read_writes_eq_canon _ _ _ (cover8 _ _)]
    simp only [View.canon_cons_unit_zero (S := S64x128) hz8, View.readCov_cons_toLoadRect, View.readAt_eq_ld,
      View.ld_unit_zero (S := S2000x1) hz8, View.ld_unit_zero (S := S2000x128) hz8, View.ld_unit_zero (S := S64x128) hz8,
      step8, zero8]

set_option maxHeartbeats 4000000 in
theorem sound_kernel8_later (c : Dev nD) (E : Set ℕ) (i : grid8.Coords) (hi : (i 0).val ≠ 0)
    (arg1 : Memref sig .tc .vmem S2000x1 .i32) (harg1 : arg1.IsWhole) (arg2 : Memref sig .tc .vmem S2000x128 .f32) (harg2 : arg2.IsWhole)
    (arg3 : Memref sig .tc .vmem S64x128 .f32) (harg3 : arg3.IsWhole) (arg4 : Memref sig .tc .vmem S64x128 .f32) (harg4 : arg4.IsWhole)
    (b : Vec F S2000x1 .i32) (x : Vec F S2000x128 .f32) (a : Vec F S64x128 .f32) (K : PUnit → sProp 𝕄) :
    iprop(owns (c : Thread nD τ) arg1 fullShare b ∗ owns (c : Thread nD τ) arg2 fullShare x
        ∗ (∃ d, owns (c : Thread nD τ) arg3 fullShare d) ∗ owns (c : Thread nD τ) arg4 fullShare a
        ∗ (iprop(owns (c : Thread nD τ) arg1 fullShare b ∗ owns (c : Thread nD τ) arg2 fullShare x
            ∗ owns (c : Thread nD τ) arg3 fullShare (step8 b x a) ∗ owns (c : Thread nD τ) arg4 fullShare (step8 b x a)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  have hC : ¬(Scalar.cmpi .ne (Scalar.extui (Scalar.cmpi .eq (BitVec.ofNat 32 (i 0).val) 0#32) : BitVec 32) 0#32 = 1#1) :=
    fun h => hi ((reset8_iff (i 0)).mp h)
  sl_exec
  sl_step
  iapply Hk
  isplitl [H1]
  · iexists f1; isplitr; · ipureintro; rfl
    iexact H1
  isplitl [H2]
  · iexists f2; isplitr; · ipureintro; rfl
    iexact H2
  isplitl [H3] <;>
  · iexists _; isplitr
    swap; · iassumption
    ipureintro
    sl_unfold_words
    rw [View.read_writes_eq_canon _ _ _ (cover8 _ _)]
    simp only [View.canon_cons_unit_zero (S := S64x128) hz8, View.readCov_cons_toLoadRect, View.readAt_eq_ld,
      View.ld_unit_zero (S := S2000x1) hz8, View.ld_unit_zero (S := S2000x128) hz8, View.ld_unit_zero (S := S64x128) hz8,
      step8, zero8]

theorem coords8_val : ∀ t : Fin cfg8.N, ((grid8.coords t) 0).val = t.val :=
  (by decide +kernel : ∀ t : Fin grid8.N, ((grid8.coords t) 0).val = t.val)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- Each input holds its block at every point (`before_blk`); the first point resets the accumulator, a later one continues from `acc8`. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl,
    show (dat8 V c).Φ t.succ = Phi8 V c (t.val + 1) t.isLt from rfl, Phi8_castSucc, after8_0, after8_1, after8_2]
  simp only [Phi8, scr8.eq_2]
  by_cases hz : t.val = 0
  · rw [scr8_zero V c _ _ hz, acc8_first V c t hz]
    iintro ⟨⟨Hg, ⟨%a, Hs⟩, Hr⟩, Ho, ⟨%d0, H0⟩, ⟨%d1, H1⟩, ⟨%d2, H2⟩⟩
    iapply (sound_kernel8_first c Set.univ (grid8.coords t) ((coords8_val t).trans hz) _ _ _ _ _ _ _ _ (iblk8 V c 0 t) (iblk8 V c 1 t) _)
    iframe H0 H1
    isplitl [H2]; · iexists _; iexact H2
    isplitl [Hs]; · iexists _; iexact Hs
    iintro ⟨H0, H1, H2, Hs⟩
    iframe
  · rw [scr8_pos V c _ _ hz, acc8_later V c t hz]
    iintro ⟨⟨Hg, Hs, Hr⟩, Ho, ⟨%d0, H0⟩, ⟨%d1, H1⟩, ⟨%d2, H2⟩⟩
    iapply (sound_kernel8_later c Set.univ (grid8.coords t) (fun h => hz ((coords8_val t).symm.trans h)) _ _ _ _ _ _ _ _ (iblk8 V c 0 t) (iblk8 V c 1 t) _ _)
    iframe H0 H1
    isplitl [H2]; · iexists _; iexact H2
    isplitl [Hs]; · iexact Hs
    iintro ⟨H0, H1, H2, Hs⟩
    iframe

theorem body_obligation8 (c : Dev nD) : BodyObligation (dat8 (F := F) V c) (defs₀ (F := F)) Variants.none () Set.univ := fun t => by
  rw [bigSep_W8, bigSep_W8]
  exact sound_body8 V c t

theorem Phi8_in (c : Dev nD) : iprop((∃ r, prngReg c r) ∗ Pipeline.scopedRest (Ix := Unit) (Name := ℕ) (U := UR sig nD τ) (Lvl := ℕ) spec8 c) ⊢ (dat8 V c).Φ 0 := by
  rw [show (dat8 V c).Φ 0 = Phi8 V c 0 (Nat.zero_le _) from rfl, Phi8, scr8_zero V c 0 _ rfl, scopedRest8_split]
  simp only [owns_whole]
  iintro ⟨Hg, Hs, Hr⟩
  iframe

theorem Phi8_out (c : Dev nD) : (dat8 V c).Φ (Fin.last cfg8.N) ⊢ (iprop((∃ r, prngReg c r) ∗ Pipeline.scopedRest (Ix := Unit) (Name := ℕ) (U := UR sig nD τ) (Lvl := ℕ) spec8 c) : sProp 𝕄) := by
  rw [show (dat8 V c).Φ (Fin.last cfg8.N) = Phi8 V c (Fin.last cfg8.N).val (Nat.le_of_lt_succ (Fin.last cfg8.N).isLt) from rfl,
    Phi8, scr8_pos V c _ _ (by rw [Fin.val_last]; have : cfg8.N = 50 := N_8; omega), scopedRest8_split, owns_whole]
  iintro ⟨Hg, Hs, Hr⟩
  isplitl [Hg]; · iexact Hg
  isplitl [Hs]; · iexists _; iexact Hs
  iexact Hr

end Cert.KernelIdeal.Hand
end
-- ==== Proof.KI.B9.lean ====
import proofs.«417545_j39908836114735_1_alg».proof.Proof.Gen.KernelIdeal.Launch
import proofs.«417545_j39908836114735_1_alg».proof.Proof.Gen.KernelIdeal.Skeleton
import proofs.«417545_j39908836114735_1_alg».proof.Proof.Gen.KernelIdeal.Points
import proofs.«417545_j39908836114735_1_alg».proof.Proof.KI.Blk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev iblk9 (c : Dev nD) (w : Fin cfg9.W) (t : Fin cfg9.N) := blk V cfg9 c w t

abbrev whole64x128 : Rect S64x128 := Rect.unit (s := S64x128) ![0, 0] S64x128.size inb_S64x128_S64x128_0_0
abbrev whole128x128 : Rect S128x128 := Rect.unit (s := S128x128) ![0, 0] S128x128.size inb_S128x128_S128x128_0_0
abbrev whole1x128 : Rect S1x128 := Rect.unit (s := S1x128) ![0, 0] S1x128.size inb_S1x128_S1x128_0_0
abbrev whole128x16 : Rect S128x16 := Rect.unit (s := S128x16) ![0, 0] S128x16.size inb_S128x16_S128x16_0_0
abbrev whole1x16 : Rect S1x16 := Rect.unit (s := S1x16) ![0, 0] S1x16.size inb_S1x16_S1x16_0_0
abbrev whole128x1 : Rect S128x1 := Rect.unit (s := S128x1) ![0, 0] S128x1.size inb_S128x1_S128x1_0_0
abbrev whole1x1 : Rect S1x1 := Rect.unit (s := S1x1) ![0, 0] S1x1.size inb_S1x1_S1x1_0_0
abbrev whole64x16 : Rect S64x16 := Rect.unit (s := S64x16) ![0, 0] S64x16.size inb_S64x16_S64x16_0_0
abbrev whole64x1 : Rect S64x1 := Rect.unit (s := S64x1) ![0, 0] S64x1.size inb_S64x1_S64x1_0_0

def out9_9 (x0 : Vec F S64x128 .f32) (x1 : Vec F S128x128 .f32) (x2 : Vec F S1x128 .f32) (x3 : Vec F S128x16 .f32) (x4 : Vec F S1x16 .f32) :
    Vec F S64x16 .f32 :=
  View.canon [⟨whole64x16, k9_pay3 (View.ld x0 whole64x128) (View.ld x1 whole128x128) (View.ld x2 whole1x128) (View.ld x3 whole128x16) (View.ld x4 whole1x16)⟩]

def out9_10 (x0 : Vec F S64x128 .f32) (x5 : Vec F S128x128 .f32) (x6 : Vec F S1x128 .f32) (x7 : Vec F S128x1 .f32) (x8 : Vec F S1x1 .f32) :
    Vec F S64x1 .f32 :=
  View.canon [⟨whole64x1, k9_pay1 (k9_pay4 (View.ld x0 whole64x128) (View.ld x5 whole128x128) (View.ld x6 whole1x128) (View.ld x7 whole128x1)) (View.ld x8 whole1x1)⟩]

theorem cover9_9 (p0 : Vec F S64x16 .f32) (y : S64x16.Idx) :
    ∃ pc ∈ ([⟨whole64x16, p0⟩] : List (View.Piece (Elt F) S64x16 .f32)), y ∈ pc.1.set :=
  View.cover_of_tiled [⟨whole64x16, p0⟩] S64x16.size (by rfl) y

theorem cover9_10 (p0 : Vec F S64x1 .f32) (y : S64x1.Idx) :
    ∃ pc ∈ ([⟨whole64x1, p0⟩] : List (View.Piece (Elt F) S64x1 .f32)), y ∈ pc.1.set :=
  View.cover_of_tiled [⟨whole64x1, p0⟩] S64x1.size (by rfl) y

set_option maxHeartbeats 4000000 in
/-- Each output buffer is stored once, whole, so what is read back there is the stored value; the inputs are only read. -/
theorem sound_kernel9 (c : Dev nD) (E : Set ℕ) (i : grid9.Coords) (a0 : Memref sig .tc .vmem S64x128 .f32) (ha0 : a0.IsWhole) (a1 : Memref sig .tc .vmem S128x128 .f32) (ha1 : a1.IsWhole) (a2 : Memref sig .tc .vmem S1x128 .f32) (ha2 : a2.IsWhole) (a3 : Memref sig .tc .vmem S128x16 .f32) (ha3 : a3.IsWhole) (a4 : Memref sig .tc .vmem S1x16 .f32) (ha4 : a4.IsWhole) (a5 : Memref sig .tc .vmem S128x128 .f32) (ha5 : a5.IsWhole) (a6 : Memref sig .tc .vmem S1x128 .f32) (ha6 : a6.IsWhole) (a7 : Memref sig .tc .vmem S128x1 .f32) (ha7 : a7.IsWhole) (a8 : Memref sig .tc .vmem S1x1 .f32) (ha8 : a8.IsWhole) (a9 : Memref sig .tc .vmem S64x16 .f32) (ha9 : a9.IsWhole) (a10 : Memref sig .tc .vmem S64x1 .f32) (ha10 : a10.IsWhole)
    (x0 : Vec F S64x128 .f32) (x1 : Vec F S128x128 .f32) (x2 : Vec F S1x128 .f32) (x3 : Vec F S128x16 .f32) (x4 : Vec F S1x16 .f32) (x5 : Vec F S128x128 .f32) (x6 : Vec F S1x128 .f32) (x7 : Vec F S128x1 .f32) (x8 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (out9_9 x0 x1 x2 x3 x4) ∗ owns (c : Thread nD τ) a10 fullShare (out9_10 x0 x5 x6 x7 x8)) -∗ K ⟨⟩))
      ⊢ wp frame (wpE (defs₀ (F := F)) Variants.none c none) E (cc9__heads_kernel i a0 ha0 a1 ha1 a2 ha2 a3 ha3 a4 ha4 a5 ha5 a6 ha6 a7 ha7 a8 ha8 a9 ha9 a10 ha10) K := by
  simp only [cc9__heads_kernel_eq_skeleton]; unfold cc9__heads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover9_9 _)
  iexists _; isplitr
  swap; · iexact H10
  ipureintro
  exact View.read_writes_eq_canon _ _ _ (cover9_10 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => out9_9 (iblk9 V c 0 t) (iblk9 V c 1 t) (iblk9 V c 2 t) (iblk9 V c 3 t) (iblk9 V c 4 t)
    | ⟨10, _⟩ => out9_10 (iblk9 V c 0 t) (iblk9 V c 5 t) (iblk9 V c 6 t) (iblk9 V c 7 t) (iblk9 V c 8 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem q_eq9 (c : Dev nD) (w : Fin cfg9.W) : (dat9 V c).q w = fullShare := by
  dsimp only [dat9]

theorem owed_eq9 (c : Dev nD) (k : Fin (cfg9.N + 1)) : (dat9 V c).owed k = 0 := by
  dsimp only [dat9]

theorem Phi_eq9 (c : Dev nD) (k : Fin (cfg9.N + 1)) : (dat9 V c).Φ k = Pipeline.ΦA spec9 c := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = iblk9 V c 8 t := by dsimp only [dat9]
theorem after9_9 (c : Dev nD) (t : Fin cfg9.N) : (dat9 V c).after 9 t = out9_9 (iblk9 V c 0 t) (iblk9 V c 1 t) (iblk9 V c 2 t) (iblk9 V c 3 t) (iblk9 V c 4 t) := by dsimp only [dat9]
theorem after9_10 (c : Dev nD) (t : Fin cfg9.N) : (dat9 V c).after 10 t = out9_10 (iblk9 V c 0 t) (iblk9 V c 5 t) (iblk9 V c 6 t) (iblk9 V c 7 t) (iblk9 V c 8 t) := by dsimp only [dat9]

theorem before9_0 (c : Dev nD) : ∀ t d, (dat9 V c).before 0 t d = iblk9 V c 0 t :=
  before_blk V _ (A_eq9 V c) 0 rfl (fun _ => rfl) (fun _ _ _ => rfl) (after9_0 V c)
theorem before9_1 (c : Dev nD) : ∀ t d, (dat9 V c).before 1 t d = iblk9 V c 1 t :=
  before_blk V _ (A_eq9 V c) 1 rfl (fun _ => rfl) (fun _ _ _ => rfl) (after9_1 V c)
theorem before9_2 (c : Dev nD) : ∀ t d, (dat9 V c).before 2 t d = iblk9 V c 2 t :=
  before_blk V _ (A_eq9 V c) 2 rfl (fun _ => rfl) (fun _ _ _ => rfl) (after9_2 V c)
theorem before9_3 (c : Dev nD) : ∀ t d, (dat9 V c).before 3 t d = iblk9 V c 3 t :=
  before_blk V _ (A_eq9 V c) 3 rfl (fun _ => rfl) (fun _ _ _ => rfl) (after9_3 V c)
theorem before9_4 (c : Dev nD) : ∀ t d, (dat9 V c).before 4 t d = iblk9 V c 4 t :=
  before_blk V _ (A_eq9 V c) 4 rfl (fun _ => rfl) (fun _ _ _ => rfl) (after9_4 V c)
theorem before9_5 (c : Dev nD) : ∀ t d, (dat9 V c).before 5 t d = iblk9 V c 5 t :=
  before_blk V _ (A_eq9 V c) 5 rfl (fun _ => rfl) (fun _ _ _ => rfl) (after9_5 V c)
theorem before9_6 (c : Dev nD) : ∀ t d, (dat9 V c).before 6 t d = iblk9 V c 6 t :=
  before_blk V _ (A_eq9 V c) 6 rfl (fun _ => rfl) (fun _ _ _ => rfl) (after9_6 V c)
theorem before9_7 (c : Dev nD) : ∀ t d, (dat9 V c).before 7 t d = iblk9 V c 7 t :=
  before_blk V _ (A_eq9 V c) 7 rfl (fun _ => rfl) (fun _ _ _ => rfl) (after9_7 V c)
theorem before9_8 (c : Dev nD) : ∀ t d, (dat9 V c).before 8 t d = iblk9 V c 8 t :=
  before_blk V _ (A_eq9 V c) 8 rfl (fun _ => rfl) (fun _ _ _ => rfl) (after9_8 V c)

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d))
    ∗ (∃ d, owns (c : Thread nD τ) (st9_10 t) fullShare ((dat9 V c).before 10 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t)
    ∗ owns (c : Thread nD τ) (st9_10 t) fullShare ((dat9 V c).after 10 t))

/-- Each input holds its block at the point (`before_blk`), so `sound_kernel9` applies; the invariant and the owed tallies pass through. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7, before9_8, Phi_eq9]
  rw [show (dat9 V c).owesAt () t.succ = (dat9 V c).owesAt () t.castSucc from rfl,
    after9_0, after9_1, after9_2, after9_3, after9_4, after9_5, after9_6, after9_7, after9_8, after9_9, after9_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel9 c Set.univ _ _ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) (iblk9 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe

theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.KI.Chain.lean ====
import proofs.«417545_j39908836114735_1_alg».proof.Proof.Gen.KernelIdeal.Launch
import proofs.«417545_j39908836114735_1_alg».proof.Proof.Gen.KernelIdeal.Skeleton
import proofs.«417545_j39908836114735_1_alg».proof.Proof.Gen.KernelIdeal.Points
import proofs.«417545_j39908836114735_1_alg».proof.Proof.Gen.KernelIdeal.Regions
import proofs.«417545_j39908836114735_1_alg».proof.Proof.KI.B0
import proofs.«417545_j39908836114735_1_alg».proof.Proof.KI.B1
import proofs.«417545_j39908836114735_1_alg».proof.Proof.KI.B2
import proofs.«417545_j39908836114735_1_alg».proof.Proof.KI.B3
import proofs.«417545_j39908836114735_1_alg».proof.Proof.KI.B4
import proofs.«417545_j39908836114735_1_alg».proof.Proof.KI.B5
import proofs.«417545_j39908836114735_1_alg».proof.Proof.KI.B6
import proofs.«417545_j39908836114735_1_alg».proof.Proof.KI.B7
import proofs.«417545_j39908836114735_1_alg».proof.Proof.KI.B8
import proofs.«417545_j39908836114735_1_alg».proof.Proof.KI.B9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ)

def W1 (c : Dev nD) : Valuation τ sig (Elt F) := Gen.V1 m c

def o2 (c : Dev nD) : Buf (Elt F) ((c : Thread nD τ).loc main_v37) := (dat0 (fun c b => W1 m c b) c).arrAt 2 cfg0.N

def W2 (c : Dev nD) : Valuation τ sig (Elt F) := Function.update (W1 m c) main_v37 (o2 m c)

def W3 (c : Dev nD) : Valuation τ sig (Elt F) := StableHlo.after hostOps1 (W2 m c)

def o4 (c : Dev nD) : Buf (Elt F) ((c : Thread nD τ).loc main_v59) := (dat1 (fun c b => W3 m c b) c).arrAt 6 cfg1.N

def W4 (c : Dev nD) : Valuation τ sig (Elt F) := Function.update (W3 m c) main_v59 (o4 m c)

def W5 (c : Dev nD) : Valuation τ sig (Elt F) := StableHlo.after hostOps2 (W4 m c)

def o6 (c : Dev nD) : Buf (Elt F) ((c : Thread nD τ).loc main_v62) := (dat2 (fun c b => W5 m c b) c).arrAt 2 cfg2.N

def W6 (c : Dev nD) : Valuation τ sig (Elt F) := Function.update (W5 m c) main_v62 (o6 m c)

def W7 (c : Dev nD) : Valuation τ sig (Elt F) := StableHlo.after hostOps3 (W6 m c)

def o8 (c : Dev nD) : Buf (Elt F) ((c : Thread nD τ).loc main_v84) := (dat3 (fun c b => W7 m c b) c).arrAt 6 cfg3.N

def W8 (c : Dev nD) : Valuation τ sig (Elt F) := Function.update (W7 m c) main_v84 (o8 m c)

def W9 (c : Dev nD) : Valuation τ sig (Elt F) := StableHlo.after hostOps4 (W8 m c)

def o10 (c : Dev nD) : Buf (Elt F) ((c : Thread nD τ).loc main_v87) := (dat4 (fun c b => W9 m c b) c).arrAt 2 cfg4.N

def W10 (c : Dev nD) : Valuation τ sig (Elt F) := Function.update (W9 m c) main_v87 (o10 m c)

def W11 (c : Dev nD) : Valuation τ sig (Elt F) := StableHlo.after hostOps5 (W10 m c)

def o12 (c : Dev nD) : Buf (Elt F) ((c : Thread nD τ).loc main_v109) := (dat5 (fun c b => W11 m c b) c).arrAt 6 cfg5.N

def W12 (c : Dev nD) : Valuation τ sig (Elt F) := Function.update (W11 m c) main_v109 (o12 m c)

def W13 (c : Dev nD) : Valuation τ sig (Elt F) := StableHlo.after hostOps6 (W12 m c)

def o14 (c : Dev nD) : Buf (Elt F) ((c : Thread nD τ).loc main_v112) := (dat6 (fun c b => W13 m c b) c).arrAt 2 cfg6.N

def W14 (c : Dev nD) : Valuation τ sig (Elt F) := Function.update (W13 m c) main_v112 (o14 m c)

def W15 (c : Dev nD) : Valuation τ sig (Elt F) := StableHlo.after hostOps7 (W14 m c)

def o16 (c : Dev nD) : Buf (Elt F) ((c : Thread nD τ).loc main_v134) := (dat7 (fun c b => W15 m c b) c).arrAt 6 cfg7.N

def W16 (c : Dev nD) : Valuation τ sig (Elt F) := Function.update (W15 m c) main_v134 (o16 m c)

def W17 (c : Dev nD) : Valuation τ sig (Elt F) := StableHlo.after hostOps8 (W16 m c)

def o18 (c : Dev nD) : Buf (Elt F) ((c : Thread nD τ).loc main_v136) := (dat8 (fun c b => W17 m c b) c).arrAt 2 cfg8.N

def W18 (c : Dev nD) : Valuation τ sig (Elt F) := Function.update (W17 m c) main_v136 (o18 m c)

def W19 (c : Dev nD) : Valuation τ sig (Elt F) := StableHlo.after hostOps9 (W18 m c)

def o20_0 (c : Dev nD) : Buf (Elt F) ((c : Thread nD τ).loc main_v141_0) := (dat9 (fun c b => W19 m c b) c).arrAt 9 cfg9.N

def o20_1 (c : Dev nD) : Buf (Elt F) ((c : Thread nD τ).loc main_v141_1) := (dat9 (fun c b => W19 m c b) c).arrAt 10 cfg9.N

def W20 (c : Dev nD) : Valuation τ sig (Elt F) := Function.update (Function.update (W19 m c) main_v141_0 (o20_0 m c)) main_v141_1 (o20_1 m c)

def outs : Gen.Outs (F := F) := fun _ r c =>
  if h : r = main_v37 then h ▸ o2 m c
  else if h : r = main_v59 then h ▸ o4 m c
  else if h : r = main_v62 then h ▸ o6 m c
  else if h : r = main_v84 then h ▸ o8 m c
  else if h : r = main_v87 then h ▸ o10 m c
  else if h : r = main_v109 then h ▸ o12 m c
  else if h : r = main_v112 then h ▸ o14 m c
  else if h : r = main_v134 then h ▸ o16 m c
  else if h : r = main_v136 then h ▸ o18 m c
  else if h : r = main_v141_0 then h ▸ o20_0 m c
  else if h : r = main_v141_1 then h ▸ o20_1 m c
  else m ((c : Thread nD τ).loc r)

theorem outs_main_v37 (J : ℕ) (c : Dev nD) : outs m J main_v37 c = o2 m c := by
  unfold outs; rw [dif_pos rfl]
theorem outs_main_v59 (J : ℕ) (c : Dev nD) : outs m J main_v59 c = o4 m c := by
  unfold outs; rw [dif_neg (show ¬ ((main_v59 : Ref sig .tc) = main_v37) by decide), dif_pos rfl]
theorem outs_main_v62 (J : ℕ) (c : Dev nD) : outs m J main_v62 c = o6 m c := by
  unfold outs; rw [dif_neg (show ¬ ((main_v62 : Ref sig .tc) = main_v37) by decide), dif_neg (show ¬ ((main_v62 : Ref sig .tc) = main_v59) by decide), dif_pos rfl]
theorem outs_main_v84 (J : ℕ) (c : Dev nD) : outs m J main_v84 c = o8 m c := by
  unfold outs; rw [dif_neg (show ¬ ((main_v84 : Ref sig .tc) = main_v37) by decide), dif_neg (show ¬ ((main_v84 : Ref sig .tc) = main_v59) by decide), dif_neg (show ¬ ((main_v84 : Ref sig .tc) = main_v62) by decide), dif_pos rfl]
theorem outs_main_v87 (J : ℕ) (c : Dev nD) : outs m J main_v87 c = o10 m c := by
  unfold outs; rw [dif_neg (show ¬ ((main_v87 : Ref sig .tc) = main_v37) by decide), dif_neg (show ¬ ((main_v87 : Ref sig .tc) = main_v59) by decide), dif_neg (show ¬ ((main_v87 : Ref sig .tc) = main_v62) by decide), dif_neg (show ¬ ((main_v87 : Ref sig .tc) = main_v84) by decide), dif_pos rfl]
theorem outs_main_v109 (J : ℕ) (c : Dev nD) : outs m J main_v109 c = o12 m c := by
  unfold outs; rw [dif_neg (show ¬ ((main_v109 : Ref sig .tc) = main_v37) by decide), dif_neg (show ¬ ((main_v109 : Ref sig .tc) = main_v59) by decide), dif_neg (show ¬ ((main_v109 : Ref sig .tc) = main_v62) by decide), dif_neg (show ¬ ((main_v109 : Ref sig .tc) = main_v84) by decide), dif_neg (show ¬ ((main_v109 : Ref sig .tc) = main_v87) by decide), dif_pos rfl]
theorem outs_main_v112 (J : ℕ) (c : Dev nD) : outs m J main_v112 c = o14 m c := by
  unfold outs; rw [dif_neg (show ¬ ((main_v112 : Ref sig .tc) = main_v37) by decide), dif_neg (show ¬ ((main_v112 : Ref sig .tc) = main_v59) by decide), dif_neg (show ¬ ((main_v112 : Ref sig .tc) = main_v62) by decide), dif_neg (show ¬ ((main_v112 : Ref sig .tc) = main_v84) by decide), dif_neg (show ¬ ((main_v112 : Ref sig .tc) = main_v87) by decide), dif_neg (show ¬ ((main_v112 : Ref sig .tc) = main_v109) by decide), dif_pos rfl]
theorem outs_main_v134 (J : ℕ) (c : Dev nD) : outs m J main_v134 c = o16 m c := by
  unfold outs; rw [dif_neg (show ¬ ((main_v134 : Ref sig .tc) = main_v37) by decide), dif_neg (show ¬ ((main_v134 : Ref sig .tc) = main_v59) by decide), dif_neg (show ¬ ((main_v134 : Ref sig .tc) = main_v62) by decide), dif_neg (show ¬ ((main_v134 : Ref sig .tc) = main_v84) by decide), dif_neg (show ¬ ((main_v134 : Ref sig .tc) = main_v87) by decide), dif_neg (show ¬ ((main_v134 : Ref sig .tc) = main_v109) by decide), dif_neg (show ¬ ((main_v134 : Ref sig .tc) = main_v112) by decide), dif_pos rfl]
theorem outs_main_v136 (J : ℕ) (c : Dev nD) : outs m J main_v136 c = o18 m c := by
  unfold outs; rw [dif_neg (show ¬ ((main_v136 : Ref sig .tc) = main_v37) by decide), dif_neg (show ¬ ((main_v136 : Ref sig .tc) = main_v59) by decide), dif_neg (show ¬ ((main_v136 : Ref sig .tc) = main_v62) by decide), dif_neg (show ¬ ((main_v136 : Ref sig .tc) = main_v84) by decide), dif_neg (show ¬ ((main_v136 : Ref sig .tc) = main_v87) by decide), dif_neg (show ¬ ((main_v136 : Ref sig .tc) = main_v109) by decide), dif_neg (show ¬ ((main_v136 : Ref sig .tc) = main_v112) by decide), dif_neg (show ¬ ((main_v136 : Ref sig .tc) = main_v134) by decide), dif_pos rfl]
theorem outs_main_v141_0 (J : ℕ) (c : Dev nD) : outs m J main_v141_0 c = o20_0 m c := by
  unfold outs; rw [dif_neg (show ¬ ((main_v141_0 : Ref sig .tc) = main_v37) by decide), dif_neg (show ¬ ((main_v141_0 : Ref sig .tc) = main_v59) by decide), dif_neg (show ¬ ((main_v141_0 : Ref sig .tc) = main_v62) by decide), dif_neg (show ¬ ((main_v141_0 : Ref sig .tc) = main_v84) by decide), dif_neg (show ¬ ((main_v141_0 : Ref sig .tc) = main_v87) by decide), dif_neg (show ¬ ((main_v141_0 : Ref sig .tc) = main_v109) by decide), dif_neg (show ¬ ((main_v141_0 : Ref sig .tc) = main_v112) by decide), dif_neg (show ¬ ((main_v141_0 : Ref sig .tc) = main_v134) by decide), dif_neg (show ¬ ((main_v141_0 : Ref sig .tc) = main_v136) by decide), dif_pos rfl]
theorem outs_main_v141_1 (J : ℕ) (c : Dev nD) : outs m J main_v141_1 c = o20_1 m c := by
  unfold outs; rw [dif_neg (show ¬ ((main_v141_1 : Ref sig .tc) = main_v37) by decide), dif_neg (show ¬ ((main_v141_1 : Ref sig .tc) = main_v59) by decide), dif_neg (show ¬ ((main_v141_1 : Ref sig .tc) = main_v62) by decide), dif_neg (show ¬ ((main_v141_1 : Ref sig .tc) = main_v84) by decide), dif_neg (show ¬ ((main_v141_1 : Ref sig .tc) = main_v87) by decide), dif_neg (show ¬ ((main_v141_1 : Ref sig .tc) = main_v109) by decide), dif_neg (show ¬ ((main_v141_1 : Ref sig .tc) = main_v112) by decide), dif_neg (show ¬ ((main_v141_1 : Ref sig .tc) = main_v134) by decide), dif_neg (show ¬ ((main_v141_1 : Ref sig .tc) = main_v136) by decide), dif_neg (show ¬ ((main_v141_1 : Ref sig .tc) = main_v141_0) by decide), dif_pos rfl]

theorem V1_eq (c : Dev nD) : Gen.V1 m c = W1 m c := rfl
theorem V2_eq (c : Dev nD) : Gen.V2 m (outs m) c = W2 m c := by
  show Function.update (Gen.V1 m c) main_v37 (outs m 2 main_v37 c) = _
  rw [V1_eq, outs_main_v37]; rfl
theorem V3_eq (c : Dev nD) : Gen.V3 m (outs m) c = W3 m c := by
  show StableHlo.after hostOps1 (Gen.V2 m (outs m) c) = _
  rw [V2_eq]; rfl
theorem V4_eq (c : Dev nD) : Gen.V4 m (outs m) c = W4 m c := by
  show Function.update (Gen.V3 m (outs m) c) main_v59 (outs m 4 main_v59 c) = _
  rw [V3_eq, outs_main_v59]; rfl
theorem V5_eq (c : Dev nD) : Gen.V5 m (outs m) c = W5 m c := by
  show StableHlo.after hostOps2 (Gen.V4 m (outs m) c) = _
  rw [V4_eq]; rfl
theorem V6_eq (c : Dev nD) : Gen.V6 m (outs m) c = W6 m c := by
  show Function.update (Gen.V5 m (outs m) c) main_v62 (outs m 6 main_v62 c) = _
  rw [V5_eq, outs_main_v62]; rfl
theorem V7_eq (c : Dev nD) : Gen.V7 m (outs m) c = W7 m c := by
  show StableHlo.after hostOps3 (Gen.V6 m (outs m) c) = _
  rw [V6_eq]; rfl
theorem V8_eq (c : Dev nD) : Gen.V8 m (outs m) c = W8 m c := by
  show Function.update (Gen.V7 m (outs m) c) main_v84 (outs m 8 main_v84 c) = _
  rw [V7_eq, outs_main_v84]; rfl
theorem V9_eq (c : Dev nD) : Gen.V9 m (outs m) c = W9 m c := by
  show StableHlo.after hostOps4 (Gen.V8 m (outs m) c) = _
  rw [V8_eq]; rfl
theorem V10_eq (c : Dev nD) : Gen.V10 m (outs m) c = W10 m c := by
  show Function.update (Gen.V9 m (outs m) c) main_v87 (outs m 10 main_v87 c) = _
  rw [V9_eq, outs_main_v87]; rfl
theorem V11_eq (c : Dev nD) : Gen.V11 m (outs m) c = W11 m c := by
  show StableHlo.after hostOps5 (Gen.V10 m (outs m) c) = _
  rw [V10_eq]; rfl
theorem V12_eq (c : Dev nD) : Gen.V12 m (outs m) c = W12 m c := by
  show Function.update (Gen.V11 m (outs m) c) main_v109 (outs m 12 main_v109 c) = _
  rw [V11_eq, outs_main_v109]; rfl
theorem V13_eq (c : Dev nD) : Gen.V13 m (outs m) c = W13 m c := by
  show StableHlo.after hostOps6 (Gen.V12 m (outs m) c) = _
  rw [V12_eq]; rfl
theorem V14_eq (c : Dev nD) : Gen.V14 m (outs m) c = W14 m c := by
  show Function.update (Gen.V13 m (outs m) c) main_v112 (outs m 14 main_v112 c) = _
  rw [V13_eq, outs_main_v112]; rfl
theorem V15_eq (c : Dev nD) : Gen.V15 m (outs m) c = W15 m c := by
  show StableHlo.after hostOps7 (Gen.V14 m (outs m) c) = _
  rw [V14_eq]; rfl
theorem V16_eq (c : Dev nD) : Gen.V16 m (outs m) c = W16 m c := by
  show Function.update (Gen.V15 m (outs m) c) main_v134 (outs m 16 main_v134 c) = _
  rw [V15_eq, outs_main_v134]; rfl
theorem V17_eq (c : Dev nD) : Gen.V17 m (outs m) c = W17 m c := by
  show StableHlo.after hostOps8 (Gen.V16 m (outs m) c) = _
  rw [V16_eq]; rfl
theorem V18_eq (c : Dev nD) : Gen.V18 m (outs m) c = W18 m c := by
  show Function.update (Gen.V17 m (outs m) c) main_v136 (outs m 18 main_v136 c) = _
  rw [V17_eq, outs_main_v136]; rfl
theorem V19_eq (c : Dev nD) : Gen.V19 m (outs m) c = W19 m c := by
  show StableHlo.after hostOps9 (Gen.V18 m (outs m) c) = _
  rw [V18_eq]; rfl
theorem V20_eq (c : Dev nD) : Gen.V20 m (outs m) c = W20 m c := by
  show Function.update (Function.update (Gen.V19 m (outs m) c) main_v141_0 (outs m 20 main_v141_0 c)) main_v141_1 (outs m 20 main_v141_1 c) = _
  rw [V19_eq, outs_main_v141_0, outs_main_v141_1]; rfl

def pdats : (p : Fin 10) → (c : Dev nD) → Dat τ (Elt F) Unit ℕ (UR sig nD τ) ℕ (cfgs p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c
  | ⟨5, _⟩ => fun c => dat5 (fun c b => W11 m c b) c
  | ⟨6, _⟩ => fun c => dat6 (fun c b => W13 m c b) c
  | ⟨7, _⟩ => fun c => dat7 (fun c b => W15 m c b) c
  | ⟨8, _⟩ => fun c => dat8 (fun c b => W17 m c b) c
  | ⟨9, _⟩ => fun c => dat9 (fun c b => W19 m c b) c

abbrev R (c : Dev nD) : sProp 𝕄 := iprop((∃ r, prngReg c r) ∗ ∃ W, owes (c : Thread nD τ) (0 : CellTallies nD τ sig Unit) W)

section Dues

variable {cfg : Cfg sig Λ₀} {c : Dev nD} (dat : Dat τ (Elt F) Unit ℕ (UR sig nD τ) ℕ cfg c)

theorem owesAt_intro (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Dat.owesAt Pipeline.owesWithin Dat.bound
  rw [h0, hrec]
  iintro ⟨%W, H⟩
  iexists W
  isplitr
  · ipureintro; exact fun _ _ => Or.inl trivial
  iexact H

theorem owesAt_elim (t : Fin (cfg.N + 1)) (h0 : dat.owed t = 0) :
    dat.owesAt () t ⊢ (iprop(∃ W, owes (c : Thread nD τ) (0 : CellTallies nD τ sig Unit) W) : sProp 𝕄) := by
  unfold Dat.owesAt Pipeline.owesWithin
  rw [h0]
  iintro ⟨%W, -, H⟩
  iexists W
  iexact H

end Dues

end Cert.KernelIdeal.Hand
-- ==== Proof.KI.Seg.lean ====
import proofs.«417545_j39908836114735_1_alg».proof.Proof.KI.Chain
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

section Arrays

variable {cfg : Cfg sig Λ₀} {c : Dev nD} (dat : Dat τ (Elt F) Unit ℕ (UR sig nD τ) ℕ cfg c)

-- an input window's array is the same at every point
theorem arrAt_input {V : Valuation τ sig (Elt F)} (hA : ∀ w, dat.A w = V (Pipeline.arrRef cfg.spec w)) {w : Fin cfg.W}
    (hw : (cfg.win w).isOut = false) (t : ℕ) : dat.arrAt w t = V (Pipeline.arrRef cfg.spec w) :=
  (dat.arrAt_in w hw t).trans (hA w)

-- distinct windows have distinct arrays, so overwriting one array leaves the others' agreement alone
theorem arrAt_update (hw : Pipeline.WinFacts cfg.spec) (G : Valuation τ sig (Elt F)) (wo w : Fin cfg.W) (n : ℕ)
    (h : w ≠ wo → dat.arrAt w n = G (Pipeline.arrRef cfg.spec w)) :
    dat.arrAt w n = Function.update G (Pipeline.arrRef cfg.spec wo) (dat.arrAt wo n) (Pipeline.arrRef cfg.spec w) := by
  by_cases e : w = wo
  · subst e; exact (Function.update_self (Proc.devRef (τ := τ) .tc (Pipeline.arrRef cfg.spec w)) (dat.arrAt w n) G).symm
  · exact (h e).trans (Function.update_of_ne (StableHlo.devRef_ne_of_ne fun e' => e (hw.arr_inj e')) _ _).symm

-- a buffer that is no window's array is not the overwritten one
theorem update_off (G : Valuation τ sig (Elt F)) (wo : Fin cfg.W) (x) {b : Ref sig .tc}
    (hb : b ∉ Finset.univ.image (Pipeline.arrRef cfg.spec)) : Function.update G (Pipeline.arrRef cfg.spec wo) x b = G b :=
  Function.update_of_ne (StableHlo.devRef_ne_of_ne fun e => hb (Finset.mem_image.mpr ⟨wo, Finset.mem_univ _, e.symm⟩)) _ _

end Arrays

section Region

variable {p : Fin 10} (L : Pipeline.LaunchFacts (nD := nD) (τ := τ) cfgs p) (Wa Wb : Dev nD → Valuation τ sig (Elt F))
  (hbody : ∀ c, BodyObligation (pdats m p c) (defs₀ (F := F)) Variants.none () Set.univ)
  (hq : ∀ c w, (pdats m p c).q w = fullShare)
  (hA : ∀ c w, (pdats m p c).A w = Wa c (Pipeline.arrRef (cfgs p).spec w))
  (howed : ∀ c t, (pdats m p c).owed t = 0)
  (hrec : ∀ c, (pdats m p c).recorded 0 = Set.univ)
  (hin : ∀ c, iprop((∃ r, prngReg c r) ∗ Pipeline.scopedRest (Ix := Unit) (Name := ℕ) (U := UR sig nD τ) (Lvl := ℕ) (cfgs p).spec c) ⊢ (pdats m p c).Φ 0)
  (hout : ∀ c, (pdats m p c).Φ (Fin.last (cfgs p).N) ⊢ iprop((∃ r, prngReg c r) ∗ Pipeline.scopedRest (Ix := Unit) (Name := ℕ) (U := UR sig nD τ) (Lvl := ℕ) (cfgs p).spec c))

set_option backward.isDefEq.respectTransparency.types false in
-- entered with the unscoped buffers at `Wa`, left with them at `Wb`, which has the arrays at their final contents
def regOf (hF : ∀ c w, (pdats m p c).arrAt w (cfgs p).N = Wb c (Pipeline.arrRef (cfgs p).spec w))
    (hrest : ∀ c (b : Ref sig .tc), b ∉ Finset.univ.image (Pipeline.arrRef (cfgs p).spec) → Wb c b = Wa c b) :
    Pipeline.RegionSeg (pcfgs (F := F)) Gen.adm (pdats m) () defs₀ Variants.none (fun _ => ∅) (fun _ _ => 0) p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ (fun _ => ∅) (fun _ _ => 0) p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wa c b)
  hentry c := by
    have hsplit := Pipeline.arrays_of_unscopedBufs (p := p) (pcfgs (F := F)) Gen.adm (pdats m) L.win L.arr_whole c
      ((pdats m p c).share_full (hq c)) (fun b => Wa c b) (hA c)
    rw [Pipeline.unscopedBufs_held] at hsplit
    rw [Pipeline.ownSems0_none]
    iintro ⟨⟨Hbufs, Hgen, Hdue⟩, -, -⟩
    imodintro
    ihave Hparts := hsplit $$ Hbufs
    icases Hparts with ⟨Harr, Hoth⟩
    isplitl [Harr]; · iexact Harr
    isplitr
    · unfold Pipeline.prefHeld; rw [show (Finset.univ : Finset (Fin 0)) = ∅ from rfl, BI.bigSep_empty]; iempintro
    isplitl [Hdue]
    · iapply owesAt_intro (pdats m p c) 0 (howed c 0) (hrec c); iexact Hdue
    isplitl [Hgen]; · iexact Hgen
    iexact Hoth
  hin c := by
    refine .trans ?_ (hin c)
    iintro ⟨Hgen, -, Hscoped⟩
    isplitl [Hgen] <;> iassumption
  hout c := by
    rw [Pipeline.ownSems0_none]
    refine (hout c).trans ?_
    iintro ⟨Hgen, Hscoped⟩
    isplitl [Hgen]; · iexact Hgen
    isplitr; · iempintro
    iexact Hscoped
  hexit c := by
    have hjoin := Pipeline.unscopedBufs_of_arrays (p := p) (pcfgs (F := F)) Gen.adm (Ix := Unit) (Name := ℕ) (U := UR sig nD τ) (Lvl := ℕ)
      L.win L.arr_whole c (pdats m) ((pdats m p c).share_full (hq c))
      (fun b => Wa c b) (fun b => Wb c b) ((pdats m p c).arrAt · (cfgs p).N) (hF c) (hrest c)
    rw [Pipeline.unscopedBufs_held] at hjoin
    iintro ⟨Harr, Hdue, Hgen, Hoth⟩
    imodintro
    isplitl [Harr Hoth]
    · iapply hjoin; isplitl [Harr] <;> iassumption
    isplitl [Hgen]; · iexact Hgen
    iapply owesAt_elim (pdats m p c) _ (howed c _); iexact Hdue

-- the usual region: one result window `wo`, and `Wb` is `Wa` overwritten at its array by what the region leaves there
def regUpd (wo : Fin (cfgs p).W) (hio : ∀ w, w ≠ wo → ((cfgs p).win w).isOut = false)
    (hWb : ∀ c, Wb c = Function.update (Wa c) (Pipeline.arrRef (cfgs p).spec wo) ((pdats m p c).arrAt wo (cfgs p).N)) :
    Pipeline.RegionSeg (pcfgs (F := F)) Gen.adm (pdats m) () defs₀ Variants.none (fun _ => ∅) (fun _ _ => 0) p :=
  regOf m L Wa Wb hbody hq hA howed hrec hin hout
    (fun c w => (arrAt_update _ L.win _ wo w _ fun h => arrAt_input _ (hA c) (hio w h) _).trans (congrFun (hWb c) _).symm)
    (fun c b hb => (congrFun (hWb c) b).trans (update_off _ wo _ hb))

end Region

section Invariant

variable {p : Fin 10} (hΦ : ∀ c k, (pdats m p c).Φ k = Pipeline.ΦA (cfgs p).spec c)
include hΦ

-- an invariant that is `ΦA` at every point is entered from its two parts and gives them back
theorem ΦA_in (c : Dev nD) : iprop((∃ r, prngReg c r) ∗ Pipeline.scopedRest (Ix := Unit) (Name := ℕ) (U := UR sig nD τ) (Lvl := ℕ) (cfgs p).spec c) ⊢ (pdats m p c).Φ 0 := by
  rw [hΦ]; unfold Pipeline.ΦA
  iintro ⟨Hgen, Hscoped⟩
  isplitl [Hscoped] <;> iassumption

theorem ΦA_out (c : Dev nD) : (pdats m p c).Φ (Fin.last (cfgs p).N)
    ⊢ iprop((∃ r, prngReg c r) ∗ Pipeline.scopedRest (Ix := Unit) (Name := ℕ) (U := UR sig nD τ) (Lvl := ℕ) (cfgs p).spec c) := by
  rw [hΦ]; unfold Pipeline.ΦA
  iintro ⟨Hscoped, Hgen⟩
  isplitl [Hgen] <;> iassumption

end Invariant

end Cert.KernelIdeal.Hand
-- ==== Proof.KI.S0.lean ====
import proofs.«417545_j39908836114735_1_alg».proof.Proof.KI.Seg
noncomputable section
namespace Cert.KernelIdeal.Hand
open Cert.KernelIdeal Cert.KernelIdeal.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg0 : Pipeline.RegionSeg (pcfgs (F := F)) Gen.adm (pdats m) () defs₀ Variants.none (fun _ => ∅) (fun _ _ => 0) 0 :=
  let V (c : Dev nD) (b : Ref sig .tc) := W1 m c b
  regUpd m launch0 (W1 m) (W2 m) (body_obligation0 V) (q_eq0 V) (A_eq0 V) (owed_eq0 V) (fun _ => rfl)
    (ΦA_in m (Phi_eq0 V)) (ΦA_out m (Phi_eq0 V)) (2 : Fin cfg0.W) (by decide) fun _ => rfl

theorem enter0 (c : Dev nD) :
    iprop(StableHlo.held (c : Thread nD τ) (Pipeline.ucRefs τ sig) (Gen.V1 m c) ∗ (R c : sProp 𝕄)) ⊢ (reg0 m).pre c := by
  rw [V1_eq]; exact .rfl

theorem leave0 (c : Dev nD) :
    (reg0 m).post c ⊢ iprop(StableHlo.held (c : Thread nD τ) (Pipeline.ucRefs τ sig) (Gen.V2 m (outs m) c) ∗ (R c : sProp 𝕄)) := by
  rw [V2_eq]; exact .rfl

end Cert.KernelIdeal.Hand
-- ==== Proof.KI.S1.lean ====
import proofs.«417545_j39908836114735_1_alg».proof.Proof.KI.Seg
noncomputable section
namespace Cert.KernelIdeal.Hand
open Cert.KernelIdeal Cert.KernelIdeal.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg1 : Pipeline.RegionSeg (pcfgs (F := F)) Gen.adm (pdats m) () defs₀ Variants.none (fun _ => ∅) (fun _ _ => 0) 1 :=
  let V (c : Dev nD) (b : Ref sig .tc) := W3 m c b
  regUpd m launch1 (W3 m) (W4 m) (body_obligation1 V) (q_eq1 V) (A_eq1 V) (fun c t => funext (owed_eq1 V c t)) (fun _ => rfl)
    (ΦA_in m (Phi_eq1 V)) (ΦA_out m (Phi_eq1 V)) (6 : Fin cfg1.W) (by decide) fun _ => rfl

theorem enter1 (c : Dev nD) :
    iprop(StableHlo.held (c : Thread nD τ) (Pipeline.ucRefs τ sig) (Gen.V3 m (outs m) c) ∗ (R c : sProp 𝕄)) ⊢ (reg1 m).pre c := by
  rw [V3_eq]; exact .rfl

theorem leave1 (c : Dev nD) :
    (reg1 m).post c ⊢ iprop(StableHlo.held (c : Thread nD τ) (Pipeline.ucRefs τ sig) (Gen.V4 m (outs m) c) ∗ (R c : sProp 𝕄)) := by
  rw [V4_eq]; exact .rfl

end Cert.KernelIdeal.Hand
-- ==== Proof.KI.S2.lean ====
import proofs.«417545_j39908836114735_1_alg».proof.Proof.KI.Seg
noncomputable section
namespace Cert.KernelIdeal.Hand
open Cert.KernelIdeal Cert.KernelIdeal.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg2 : Pipeline.RegionSeg (pcfgs (F := F)) Gen.adm (pdats m) () defs₀ Variants.none (fun _ => ∅) (fun _ _ => 0) 2 :=
  let V (c : Dev nD) (b : Ref sig .tc) := W5 m c b
  regUpd m launch2 (W5 m) (W6 m) (body_obligation2 V) (q_eq2 V) (A_eq2 V) (owed_eq2 V) (fun _ => rfl)
    (ΦA_in m (Phi_eq2 V)) (ΦA_out m (Phi_eq2 V)) (2 : Fin cfg2.W) (by decide) fun _ => rfl

theorem enter2 (c : Dev nD) :
    iprop(StableHlo.held (c : Thread nD τ) (Pipeline.ucRefs τ sig) (Gen.V5 m (outs m) c) ∗ (R c : sProp 𝕄)) ⊢ (reg2 m).pre c := by
  rw [V5_eq]; exact .rfl

theorem leave2 (c : Dev nD) :
    (reg2 m).post c ⊢ iprop(StableHlo.held (c : Thread nD τ) (Pipeline.ucRefs τ sig) (Gen.V6 m (outs m) c) ∗ (R c : sProp 𝕄)) := by
  rw [V6_eq]; exact .rfl

end Cert.KernelIdeal.Hand
-- ==== Proof.KI.S3.lean ====
import proofs.«417545_j39908836114735_1_alg».proof.Proof.KI.Seg
noncomputable section
namespace Cert.KernelIdeal.Hand
open Cert.KernelIdeal Cert.KernelIdeal.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg3 : Pipeline.RegionSeg (pcfgs (F := F)) Gen.adm (pdats m) () defs₀ Variants.none (fun _ => ∅) (fun _ _ => 0) 3 :=
  let V (c : Dev nD) (b : Ref sig .tc) := W7 m c b
  regUpd m launch3 (W7 m) (W8 m) (body_obligation3 V) (q_eq3 V) (A_eq3 V) (fun c t => funext (owed_eq3 V c t)) (fun _ => rfl)
    (ΦA_in m (Phi_eq3 V)) (ΦA_out m (Phi_eq3 V)) (6 : Fin cfg3.W) (by decide) fun _ => rfl

theorem enter3 (c : Dev nD) :
    iprop(StableHlo.held (c : Thread nD τ) (Pipeline.ucRefs τ sig) (Gen.V7 m (outs m) c) ∗ (R c : sProp 𝕄)) ⊢ (reg3 m).pre c := by
  rw [V7_eq]; exact .rfl

theorem leave3 (c : Dev nD) :
    (reg3 m).post c ⊢ iprop(StableHlo.held (c : Thread nD τ) (Pipeline.ucRefs τ sig) (Gen.V8 m (outs m) c) ∗ (R c : sProp 𝕄)) := by
  rw [V8_eq]; exact .rfl

end Cert.KernelIdeal.Hand
-- ==== Proof.KI.S4.lean ====
import proofs.«417545_j39908836114735_1_alg».proof.Proof.KI.Seg
noncomputable section
namespace Cert.KernelIdeal.Hand
open Cert.KernelIdeal Cert.KernelIdeal.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg4 : Pipeline.RegionSeg (pcfgs (F := F)) Gen.adm (pdats m) () defs₀ Variants.none (fun _ => ∅) (fun _ _ => 0) 4 :=
  let V (c : Dev nD) (b : Ref sig .tc) := W9 m c b
  regUpd m launch4 (W9 m) (W10 m) (body_obligation4 V) (q_eq4 V) (A_eq4 V) (owed_eq4 V) (fun _ => rfl)
    (ΦA_in m (Phi_eq4 V)) (ΦA_out m (Phi_eq4 V)) (2 : Fin cfg4.W) (by decide) fun _ => rfl

theorem enter4 (c : Dev nD) :
    iprop(StableHlo.held (c : Thread nD τ) (Pipeline.ucRefs τ sig) (Gen.V9 m (outs m) c) ∗ (R c : sProp 𝕄)) ⊢ (reg4 m).pre c := by
  rw [V9_eq]; exact .rfl

theorem leave4 (c : Dev nD) :
    (reg4 m).post c ⊢ iprop(StableHlo.held (c : Thread nD τ) (Pipeline.ucRefs τ sig) (Gen.V10 m (outs m) c) ∗ (R c : sProp 𝕄)) := by
  rw [V10_eq]; exact .rfl

end Cert.KernelIdeal.Hand
-- ==== Proof.KI.S5.lean ====
import proofs.«417545_j39908836114735_1_alg».proof.Proof.KI.Seg
noncomputable section
namespace Cert.KernelIdeal.Hand
open Cert.KernelIdeal Cert.KernelIdeal.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg5 : Pipeline.RegionSeg (pcfgs (F := F)) Gen.adm (pdats m) () defs₀ Variants.none (fun _ => ∅) (fun _ _ => 0) 5 :=
  let V (c : Dev nD) (b : Ref sig .tc) := W11 m c b
  regUpd m launch5 (W11 m) (W12 m) (body_obligation5 V) (q_eq5 V) (A_eq5 V) (fun c t => funext (owed_eq5 V c t)) (fun _ => rfl)
    (ΦA_in m (Phi_eq5 V)) (ΦA_out m (Phi_eq5 V)) (6 : Fin cfg5.W) (by decide) fun _ => rfl

theorem enter5 (c : Dev nD) :
    iprop(StableHlo.held (c : Thread nD τ) (Pipeline.ucRefs τ sig) (Gen.V11 m (outs m) c) ∗ (R c : sProp 𝕄)) ⊢ (reg5 m).pre c := by
  rw [V11_eq]; exact .rfl

theorem leave5 (c : Dev nD) :
    (reg5 m).post c ⊢ iprop(StableHlo.held (c : Thread nD τ) (Pipeline.ucRefs τ sig) (Gen.V12 m (outs m) c) ∗ (R c : sProp 𝕄)) := by
  rw [V12_eq]; exact .rfl

end Cert.KernelIdeal.Hand
-- ==== Proof.KI.S6.lean ====
import proofs.«417545_j39908836114735_1_alg».proof.Proof.KI.Seg
noncomputable section
namespace Cert.KernelIdeal.Hand
open Cert.KernelIdeal Cert.KernelIdeal.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg6 : Pipeline.RegionSeg (pcfgs (F := F)) Gen.adm (pdats m) () defs₀ Variants.none (fun _ => ∅) (fun _ _ => 0) 6 :=
  let V (c : Dev nD) (b : Ref sig .tc) := W13 m c b
  regUpd m launch6 (W13 m) (W14 m) (body_obligation6 V) (q_eq6 V) (A_eq6 V) (owed_eq6 V) (fun _ => rfl)
    (ΦA_in m (Phi_eq6 V)) (ΦA_out m (Phi_eq6 V)) (2 : Fin cfg6.W) (by decide) fun _ => rfl

theorem enter6 (c : Dev nD) :
    iprop(StableHlo.held (c : Thread nD τ) (Pipeline.ucRefs τ sig) (Gen.V13 m (outs m) c) ∗ (R c : sProp 𝕄)) ⊢ (reg6 m).pre c := by
  rw [V13_eq]; exact .rfl

theorem leave6 (c : Dev nD) :
    (reg6 m).post c ⊢ iprop(StableHlo.held (c : Thread nD τ) (Pipeline.ucRefs τ sig) (Gen.V14 m (outs m) c) ∗ (R c : sProp 𝕄)) := by
  rw [V14_eq]; exact .rfl

end Cert.KernelIdeal.Hand
-- ==== Proof.KI.S7.lean ====
import proofs.«417545_j39908836114735_1_alg».proof.Proof.KI.Seg
noncomputable section
namespace Cert.KernelIdeal.Hand
open Cert.KernelIdeal Cert.KernelIdeal.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg7 : Pipeline.RegionSeg (pcfgs (F := F)) Gen.adm (pdats m) () defs₀ Variants.none (fun _ => ∅) (fun _ _ => 0) 7 :=
  let V (c : Dev nD) (b : Ref sig .tc) := W15 m c b
  regUpd m launch7 (W15 m) (W16 m) (body_obligation7 V) (q_eq7 V) (A_eq7 V) (fun c t => funext (owed_eq7 V c t)) (fun _ => rfl)
    (ΦA_in m (Phi_eq7 V)) (ΦA_out m (Phi_eq7 V)) (6 : Fin cfg7.W) (by decide) fun _ => rfl

theorem enter7 (c : Dev nD) :
    iprop(StableHlo.held (c : Thread nD τ) (Pipeline.ucRefs τ sig) (Gen.V15 m (outs m) c) ∗ (R c : sProp 𝕄)) ⊢ (reg7 m).pre c := by
  rw [V15_eq]; exact .rfl

theorem leave7 (c : Dev nD) :
    (reg7 m).post c ⊢ iprop(StableHlo.held (c : Thread nD τ) (Pipeline.ucRefs τ sig) (Gen.V16 m (outs m) c) ∗ (R c : sProp 𝕄)) := by
  rw [V16_eq]; exact .rfl

end Cert.KernelIdeal.Hand
-- ==== Proof.KI.S8.lean ====
import proofs.«417545_j39908836114735_1_alg».proof.Proof.KI.Seg
noncomputable section
namespace Cert.KernelIdeal.Hand
open Cert.KernelIdeal Cert.KernelIdeal.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg8 : Pipeline.RegionSeg (pcfgs (F := F)) Gen.adm (pdats m) () defs₀ Variants.none (fun _ => ∅) (fun _ _ => 0) 8 :=
  let V (c : Dev nD) (b : Ref sig .tc) := W17 m c b
  regUpd m launch8 (W17 m) (W18 m) (body_obligation8 V) (q_eq8 V) (A_eq8 V) (fun c t => funext (owed_eq8 V c t)) (fun _ => rfl)
    (Phi8_in V) (Phi8_out V) (2 : Fin cfg8.W) (by decide) fun _ => rfl

theorem enter8 (c : Dev nD) :
    iprop(StableHlo.held (c : Thread nD τ) (Pipeline.ucRefs τ sig) (Gen.V17 m (outs m) c) ∗ (R c : sProp 𝕄)) ⊢ (reg8 m).pre c := by
  rw [V17_eq]; exact .rfl

theorem leave8 (c : Dev nD) :
    (reg8 m).post c ⊢ iprop(StableHlo.held (c : Thread nD τ) (Pipeline.ucRefs τ sig) (Gen.V18 m (outs m) c) ∗ (R c : sProp 𝕄)) := by
  rw [V18_eq]; exact .rfl

end Cert.KernelIdeal.Hand
-- ==== Proof.KI.S9.lean ====
import proofs.«417545_j39908836114735_1_alg».proof.Proof.KI.Seg
noncomputable section
namespace Cert.KernelIdeal.Hand
open Cert.KernelIdeal Cert.KernelIdeal.Gen
open Idealize.ShloMosaic Idealize.ShloMosaic.TcCoe
open Idealize.SL Idealize.SL.BI Idealize.SL.BI.BIBase Idealize.SL.Sem
open scoped Idealize.SL.BI
variable {F : FTy → Type} [FloatOps F]
local notation "𝕄" => MT nD τ sig Unit (Elt F) ℕ (UR sig nD τ) ℕ
variable (m : (ℓ : Loc nD τ sig) → Buf (Elt F) ℓ)

def reg9 : Pipeline.RegionSeg (pcfgs (F := F)) Gen.adm (pdats m) () defs₀ Variants.none (fun _ => ∅) (fun _ _ => 0) 9 :=
  let V (c : Dev nD) (b : Ref sig .tc) := W19 m c b
  regOf m launch9 (W19 m) (W20 m) (body_obligation9 V) (q_eq9 V) (A_eq9 V) (owed_eq9 V) (fun _ => rfl) (ΦA_in m (Phi_eq9 V)) (ΦA_out m (Phi_eq9 V))
    (fun c w => arrAt_update _ launch9.win _ 10 w _ fun h => arrAt_update _ launch9.win _ 9 w _ fun h' => arrAt_input _ (A_eq9 V c)
      ((by decide : ∀ w : Fin cfg9.W, w ≠ 10 → w ≠ 9 → (cfg9.win w).isOut = false) w h h') _)
    (fun c b hb => (update_off (cfg := cfg9) _ 10 _ hb).trans (update_off (cfg := cfg9) _ 9 _ hb))

theorem enter9 (c : Dev nD) :
    iprop(StableHlo.held (c : Thread nD τ) (Pipeline.ucRefs τ sig) (Gen.V19 m (outs m) c) ∗ (R c : sProp 𝕄)) ⊢ (reg9 m).pre c := by
  rw [V19_eq]; exact .rfl

theorem leave9 (c : Dev nD) :
    (reg9 m).post c ⊢ iprop(StableHlo.held (c : Thread nD τ) (Pipeline.ucRefs τ sig) (Gen.V20 m (outs m) c) ∗ (R c : sProp 𝕄)) := by
  rw [V20_eq]; exact .rfl

end Cert.KernelIdeal.Hand
-- ==== Proof.KI.Run.lean ====
import proofs.«417545_j39908836114735_1_alg».proof.Proof.Gen.KernelIdeal.Launch
import proofs.«417545_j39908836114735_1_alg».proof.Proof.Gen.KernelIdeal.Skeleton
import proofs.«417545_j39908836114735_1_alg».proof.Proof.Gen.KernelIdeal.Points
import proofs.«417545_j39908836114735_1_alg».proof.Proof.Gen.KernelIdeal.Regions
import proofs.«417545_j39908836114735_1_alg».proof.Proof.KI.Chain
import proofs.«417545_j39908836114735_1_alg».proof.Proof.KI.S0
import proofs.«417545_j39908836114735_1_alg».proof.Proof.KI.S1
import proofs.«417545_j39908836114735_1_alg».proof.Proof.KI.S2
import proofs.«417545_j39908836114735_1_alg».proof.Proof.KI.S3
import proofs.«417545_j39908836114735_1_alg».proof.Proof.KI.S4
import proofs.«417545_j39908836114735_1_alg».proof.Proof.KI.S5
import proofs.«417545_j39908836114735_1_alg».proof.Proof.KI.S6
import proofs.«417545_j39908836114735_1_alg».proof.Proof.KI.S7
import proofs.«417545_j39908836114735_1_alg».proof.Proof.KI.S8
import proofs.«417545_j39908836114735_1_alg».proof.Proof.KI.S9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ)

abbrev E : Fin 11 → Dev nD → sProp 𝕄 := fun _ c => R c

theorem R_dues (c : Dev nD) : (R c : sProp 𝕄) ⊢ iprop(∃ W, owes (c : Thread nD τ) (0 : CellTallies nD τ sig Unit) W) := by
  iintro ⟨-, H⟩; iexact H

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev u₀ : UR sig nD τ := initOf (Pipeline.cells cfgs cellOf_inj) (Pipeline.launchToks cfgs cellOf_inj)

theorem launch_ghost : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  rw [BI.bigSep_emp_const]
  iintro Hu
  imodintro
  isplitl [Hu]
  · iapply (show (ownU u₀ : sProp 𝕄) ⊢ BI.own (emb₁ u₀) from .rfl); iexact Hu
  iempintro

variable (ρ : Dev nD → PrngReg)

set_option backward.isDefEq.respectTransparency.types false in

theorem run_main : θ_run defs (onTc (τ := τ) (main (F := F))) ⟨m, fun _ => 0, ρ⟩ (fun r => ∀ c : Dev nD,
      r.2.mem ((c.tc : Thread nD τ).loc main_v141_0) = W20 m c main_v141_0
      ∧ r.2.mem ((c.tc : Thread nD τ).loc main_v141_1) = W20 m c main_v141_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine Pipeline.θ_run_regions_kit_dev (pcfgs (F := F)) Gen.adm (pdats m) () cellOf_inj emb₁ defs₀ Variants.none (fun _ => ∅) (fun _ _ => 0) m ρ main
    (Gen.segs m (outs m) Variants.none (fun _ => ∅) (fun _ _ => 0) (E (F := F)) () (pdats m) (reg0 m) (reg1 m) (reg2 m) (reg3 m) (reg4 m) (reg5 m) (reg6 m) (reg7 m) (reg8 m) (reg9 m))
    (fun c Q => by
      rewrite [main_chain c, Pipeline.Seg.run_eq_chain,
        show ((Gen.segs m (outs m) Variants.none (fun _ => ∅) (fun _ _ => 0) (E (F := F)) () (pdats m) (reg0 m) (reg1 m) (reg2 m) (reg3 m) (reg4 m) (reg5 m) (reg6 m) (reg7 m) (reg8 m) (reg9 m)) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (fun c => by simp only [Gen.segs, Pipeline.Seg.pipes_host, Pipeline.Seg.pipes_region, Pipeline.Seg.pipes_nil]; decide)
    0 (fun _ _ => rfl) (fun _ => (BI.emp : sProp 𝕄)) u₀ launch_ghost
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V20 m (outs m) c))
    (hch := fun c => ⟨.rfl, enter0 m c, leave0 m c, enter1 m c, leave1 m c, enter2 m c, leave2 m c, enter3 m c, leave3 m c, enter4 m c, leave4 m c, enter5 m c, leave5 m c, enter6 m c, leave6 m c, enter7 m c, leave7 m c, enter8 m c, leave8 m c, enter9 m c, (leave9 m c).trans (sep_mono .rfl (R_dues c))⟩)
    (hinit := ?_)
    (QY := fun c s => s.mem ((c.tc : Thread nD τ).loc main_v141_0) = W20 m c main_v141_0 ∧ s.mem ((c.tc : Thread nD τ).loc main_v141_1) = W20 m c main_v141_1 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16))
    (hfin := fun c s' => ?_) (hQ := fun _ h => h)
  ·

    refine Pipeline.initEach (fun _ => ∅) (fun _ _ => 0) fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hbufs, -, Hdue, -, Hgen, -⟩, -⟩
    imodintro
    isplitl [Hbufs]; · iexact Hbufs
    isplitl [Hgen]; · iexists _; iexact Hgen
    iexists ∅; iexact Hdue
  ·
    unfold StableHlo.held
    iintro ⟨Hh, HSI⟩
    ihave Hr := (pointsTo_read_all (Pipeline.ucRefs τ sig) (fun b => ((c : Thread nD τ).1, b)) (Gen.V20 m (outs m) c) s') $$ [Hh HSI]
    · isplitl [Hh] <;> iassumption
    icases Hr with ⟨%h, HSI⟩
    imodintro
    isplitr
    · ipureintro
      exact ⟨(h (Proc.devRef .tc main_v141_0) (mem_uc main_v141_0 (by decide))).trans (congrFun (V20_eq m c) _),
        (h (Proc.devRef .tc main_v141_1) (mem_uc main_v141_1 (by decide))).trans (congrFun (V20_eq m c) _),
        (h (Proc.devRef .tc main_arg0) (mem_uc main_arg0 (by decide))).trans (Gen.V20_main_arg0 m (outs m) c),
        (h (Proc.devRef .tc main_arg1) (mem_uc main_arg1 (by decide))).trans (Gen.V20_main_arg1 m (outs m) c),
        (h (Proc.devRef .tc main_arg2) (mem_uc main_arg2 (by decide))).trans (Gen.V20_main_arg2 m (outs m) c),
        (h (Proc.devRef .tc main_arg3) (mem_uc main_arg3 (by decide))).trans (Gen.V20_main_arg3 m (outs m) c),
        (h (Proc.devRef .tc main_arg4) (mem_uc main_arg4 (by decide))).trans (Gen.V20_main_arg4 m (outs m) c),
        (h (Proc.devRef .tc main_arg5) (mem_uc main_arg5 (by decide))).trans (Gen.V20_main_arg5 m (outs m) c),
        (h (Proc.devRef .tc main_arg6) (mem_uc main_arg6 (by decide))).trans (Gen.V20_main_arg6 m (outs m) c),
        (h (Proc.devRef .tc main_arg7) (mem_uc main_arg7 (by decide))).trans (Gen.V20_main_arg7 m (outs m) c),
        (h (Proc.devRef .tc main_arg8) (mem_uc main_arg8 (by decide))).trans (Gen.V20_main_arg8 m (outs m) c),
        (h (Proc.devRef .tc main_arg9) (mem_uc main_arg9 (by decide))).trans (Gen.V20_main_arg9 m (outs m) c),
        (h (Proc.devRef .tc main_arg10) (mem_uc main_arg10 (by decide))).trans (Gen.V20_main_arg10 m (outs m) c),
        (h (Proc.devRef .tc main_arg11) (mem_uc main_arg11 (by decide))).trans (Gen.V20_main_arg11 m (outs m) c),
        (h (Proc.devRef .tc main_arg12) (mem_uc main_arg12 (by decide))).trans (Gen.V20_main_arg12 m (outs m) c),
        (h (Proc.devRef .tc main_arg13) (mem_uc main_arg13 (by decide))).trans (Gen.V20_main_arg13 m (outs m) c),
        (h (Proc.devRef .tc main_arg14) (mem_uc main_arg14 (by decide))).trans (Gen.V20_main_arg14 m (outs m) c),
        (h (Proc.devRef .tc main_arg15) (mem_uc main_arg15 (by decide))).trans (Gen.V20_main_arg15 m (outs m) c),
        (h (Proc.devRef .tc main_arg16) (mem_uc main_arg16 (by decide))).trans (Gen.V20_main_arg16 m (outs m) c)⟩
    · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs (onTc (τ := τ) (main (F := F))) ⟨m, fun _ => 0, ρ⟩).mono (fun r hr c => (hr c).2.2) (run_main m ρ)

end Cert.KernelIdeal.Hand
-- ==== Proof.KI.Keep.lean ====
/-
  Which buffers each item of the run leaves as it found them: a host stretch every buffer it does not write, a
  kernel region every buffer but its result array(s). Twenty cases, one per item.
-/
import proofs.«417545_j39908836114735_1_alg».proof.Proof.KI.Chain

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

theorem W1_keep (c : Dev nD) (r : Ref sig .tc) (h : r ∉ hostOps0_W) : W1 m c r = m ((c : Thread nD τ).loc r) := by
  rw [← V1_eq]; exact Gen.V1_of m c r h
theorem W2_keep (c : Dev nD) (r : Ref sig .tc) (h : r ∉ ([main_v37] : List (Ref sig .tc))) : W2 m c r = W1 m c r := by
  rw [← V2_eq, ← V1_eq]; exact Gen.V2_of m (outs m) c r h
theorem W3_keep (c : Dev nD) (r : Ref sig .tc) (h : r ∉ hostOps1_W) : W3 m c r = W2 m c r := by
  rw [← V3_eq, ← V2_eq]; exact Gen.V3_of m (outs m) c r h
theorem W4_keep (c : Dev nD) (r : Ref sig .tc) (h : r ∉ ([main_v59] : List (Ref sig .tc))) : W4 m c r = W3 m c r := by
  rw [← V4_eq, ← V3_eq]; exact Gen.V4_of m (outs m) c r h
theorem W5_keep (c : Dev nD) (r : Ref sig .tc) (h : r ∉ hostOps2_W) : W5 m c r = W4 m c r := by
  rw [← V5_eq, ← V4_eq]; exact Gen.V5_of m (outs m) c r h
theorem W6_keep (c : Dev nD) (r : Ref sig .tc) (h : r ∉ ([main_v62] : List (Ref sig .tc))) : W6 m c r = W5 m c r := by
  rw [← V6_eq, ← V5_eq]; exact Gen.V6_of m (outs m) c r h
theorem W7_keep (c : Dev nD) (r : Ref sig .tc) (h : r ∉ hostOps3_W) : W7 m c r = W6 m c r := by
  rw [← V7_eq, ← V6_eq]; exact Gen.V7_of m (outs m) c r h
theorem W8_keep (c : Dev nD) (r : Ref sig .tc) (h : r ∉ ([main_v84] : List (Ref sig .tc))) : W8 m c r = W7 m c r := by
  rw [← V8_eq, ← V7_eq]; exact Gen.V8_of m (outs m) c r h
theorem W9_keep (c : Dev nD) (r : Ref sig .tc) (h : r ∉ hostOps4_W) : W9 m c r = W8 m c r := by
  rw [← V9_eq, ← V8_eq]; exact Gen.V9_of m (outs m) c r h
theorem W10_keep (c : Dev nD) (r : Ref sig .tc) (h : r ∉ ([main_v87] : List (Ref sig .tc))) : W10 m c r = W9 m c r := by
  rw [← V10_eq, ← V9_eq]; exact Gen.V10_of m (outs m) c r h
theorem W11_keep (c : Dev nD) (r : Ref sig .tc) (h : r ∉ hostOps5_W) : W11 m c r = W10 m c r := by
  rw [← V11_eq, ← V10_eq]; exact Gen.V11_of m (outs m) c r h
theorem W12_keep (c : Dev nD) (r : Ref sig .tc) (h : r ∉ ([main_v109] : List (Ref sig .tc))) : W12 m c r = W11 m c r := by
  rw [← V12_eq, ← V11_eq]; exact Gen.V12_of m (outs m) c r h
theorem W13_keep (c : Dev nD) (r : Ref sig .tc) (h : r ∉ hostOps6_W) : W13 m c r = W12 m c r := by
  rw [← V13_eq, ← V12_eq]; exact Gen.V13_of m (outs m) c r h
theorem W14_keep (c : Dev nD) (r : Ref sig .tc) (h : r ∉ ([main_v112] : List (Ref sig .tc))) : W14 m c r = W13 m c r := by
  rw [← V14_eq, ← V13_eq]; exact Gen.V14_of m (outs m) c r h
theorem W15_keep (c : Dev nD) (r : Ref sig .tc) (h : r ∉ hostOps7_W) : W15 m c r = W14 m c r := by
  rw [← V15_eq, ← V14_eq]; exact Gen.V15_of m (outs m) c r h
theorem W16_keep (c : Dev nD) (r : Ref sig .tc) (h : r ∉ ([main_v134] : List (Ref sig .tc))) : W16 m c r = W15 m c r := by
  rw [← V16_eq, ← V15_eq]; exact Gen.V16_of m (outs m) c r h
theorem W17_keep (c : Dev nD) (r : Ref sig .tc) (h : r ∉ hostOps8_W) : W17 m c r = W16 m c r := by
  rw [← V17_eq, ← V16_eq]; exact Gen.V17_of m (outs m) c r h
theorem W18_keep (c : Dev nD) (r : Ref sig .tc) (h : r ∉ ([main_v136] : List (Ref sig .tc))) : W18 m c r = W17 m c r := by
  rw [← V18_eq, ← V17_eq]; exact Gen.V18_of m (outs m) c r h
theorem W19_keep (c : Dev nD) (r : Ref sig .tc) (h : r ∉ hostOps9_W) : W19 m c r = W18 m c r := by
  rw [← V19_eq, ← V18_eq]; exact Gen.V19_of m (outs m) c r h
theorem W20_keep (c : Dev nD) (r : Ref sig .tc) (h : r ∉ ([main_v141_0, main_v141_1] : List (Ref sig .tc))) : W20 m c r = W19 m c r := by
  rw [← V20_eq, ← V19_eq]; exact Gen.V20_of m (outs m) c r h

end Cert.KernelIdeal.Hand

end
-- ==== Proof.KI.Host.lean ====
import proofs.«417545_j39908836114735_1_alg».proof.Proof.Gen.KernelIdeal.Launch
import proofs.«417545_j39908836114735_1_alg».proof.Proof.Gen.KernelIdeal.Regions
import Idealize.ShloMosaic.Lib.StableHlo.Run
import proofs.«417545_j39908836114735_1_alg».proof.Proof.RefRead
set_option maxRecDepth 16384

noncomputable section
namespace Cert.KernelIdeal.Hand
open Cert.KernelIdeal Cert.KernelIdeal.Gen
open Idealize.ShloMosaic Idealize.ShloMosaic.TcCoe Idealize.SL.Sem Idealize.ShloMosaic.StableHlo
variable {F : FTy → Type} [FloatOps F]

variable (Vp : Valuation τ sig (Elt F))

theorem rd0_v1 : StableHlo.after hostOps0 Vp main_v1 = Cert.ReferenceIdeal.ReadP.val_main_v1 (F := F) (Vp main_arg1) := by
  simp only [hostOps0]
  after_results_simp
  rfl

theorem rd0_v3 : StableHlo.after hostOps0 Vp main_v3 = Cert.ReferenceIdeal.ReadP.val_main_v3 (F := F) (Vp main_arg1) := by
  simp only [hostOps0]
  after_results_simp
  rfl

set_option maxHeartbeats 1000000 in

theorem rd0_v26 : StableHlo.after hostOps0 Vp main_v26 = Cert.ReferenceIdeal.ReadP.val_main_v26 (F := F) (Vp main_arg1) := by
  simp only [hostOps0]
  after_results_simp
  rfl

set_option maxHeartbeats 1000000 in

theorem rd0_v28 : StableHlo.after hostOps0 Vp main_v28 = Cert.ReferenceIdeal.ReadP.val_main_v28 (F := F) (Vp main_arg1) := by
  simp only [hostOps0]
  after_results_simp
  rfl

theorem rd0_v36 : StableHlo.after hostOps0 Vp main_v36 = Cert.ReferenceIdeal.ReadP.val_main_v30 (F := F) (Vp main_arg3) := by
  simp only [hostOps0]
  after_results_simp
  rfl

def agg (h : (⟨Cert.ReferenceIdeal.S100000x128, .f32⟩ : BufTy).Contents (Elt F))
    (col row : (⟨Cert.ReferenceIdeal.S1600000, .i32⟩ : BufTy).Contents (Elt F))
    (w : (⟨Cert.ReferenceIdeal.S1600000x1, .f32⟩ : BufTy).Contents (Elt F)) : (⟨Cert.ReferenceIdeal.S100000x128, .f32⟩ : BufTy).Contents (Elt F) :=
  Host.scatterAdd Cert.ReferenceIdeal.scatter_S100000x128_S1600000x1_S1600000x128_1_0_0_1 (Cert.ReferenceIdeal.ReadP.val_main_v41 (F := F))
    (broadcastInDim Cert.ReferenceIdeal.S1600000x1 ![0] Cert.ReferenceIdeal.Gen.bcast_S1600000_S1600000x1_0 row)
    (mulf
      (Host.gather Cert.ReferenceIdeal.gather_S100000x128_S1600000x1_S1600000x128_1_0_n_n_0_1_1128 h
        (broadcastInDim Cert.ReferenceIdeal.S1600000x1 ![0] Cert.ReferenceIdeal.Gen.bcast_S1600000_S1600000x1_0
          (select (cmpi .slt col (Cert.ReferenceIdeal.ReadP.val_main_v32 (F := F))) (addi col (Cert.ReferenceIdeal.ReadP.val_main_v34 (F := F))) col)))
      (broadcastInDim Cert.ReferenceIdeal.S1600000x128 ![0, 1] Cert.ReferenceIdeal.Gen.bcast_S1600000x1_S1600000x128_0_1 w))

variable (x0 : (⟨Cert.ReferenceIdeal.S100000x128, .f32⟩ : BufTy).Contents (Elt F)) (x1 : (⟨Cert.ReferenceIdeal.S2x1600000, .i32⟩ : BufTy).Contents (Elt F))
  (x3 : (⟨Cert.ReferenceIdeal.S4x128x128, .f32⟩ : BufTy).Contents (Elt F)) (x4 x5 x6 x7 x8 : (⟨Cert.ReferenceIdeal.S4x128, .f32⟩ : BufTy).Contents (Elt F))

theorem agg_ref1 : agg (Cert.ReferenceIdeal.ReadP.val_main_v31 x0 x3) (Cert.ReferenceIdeal.ReadP.val_main_v1 x1) (Cert.ReferenceIdeal.ReadP.val_main_v3 x1) (Cert.ReferenceIdeal.ReadP.val_main_v26 x1)
    = Cert.ReferenceIdeal.ReadP.val_main_v43 (F := F) x0 x1 x3 := rfl

theorem rd1_v49 : StableHlo.after hostOps1 Vp main_v49
    = agg (F := F) (Vp main_v37) (Vp main_v1) (Vp main_v3) (Vp main_v26) := by
  simp only [hostOps1]
  after_results_simp
  rfl

theorem rd1_v49_ref (h1 : Vp main_v1 = Cert.ReferenceIdeal.ReadP.val_main_v1 (F := F) x1) (h3 : Vp main_v3 = Cert.ReferenceIdeal.ReadP.val_main_v3 (F := F) x1)
    (h26 : Vp main_v26 = Cert.ReferenceIdeal.ReadP.val_main_v26 (F := F) x1) (h37 : Vp main_v37 = Cert.ReferenceIdeal.ReadP.val_main_v31 (F := F) x0 x3) :
    StableHlo.after hostOps1 Vp main_v49 = Cert.ReferenceIdeal.ReadP.val_main_v43 (F := F) x0 x1 x3 := by
  rw [rd1_v49, h1, h3, h26, h37]; exact agg_ref1 x0 x1 x3

theorem rd2_v61 : StableHlo.after hostOps2 Vp main_v61 = Cert.ReferenceIdeal.ReadP.val_main_v75 (F := F) (Vp main_arg3) := by
  simp only [hostOps2]
  after_results_simp
  rfl

theorem rd3_v74 : StableHlo.after hostOps3 Vp main_v74
    = agg (F := F) (Vp main_v62) (Vp main_v1) (Vp main_v3) (Vp main_v26) := by
  simp only [hostOps3]
  after_results_simp
  rfl

theorem agg_ref2 : agg (Cert.ReferenceIdeal.ReadP.val_main_v76 x0 x1 x3 x4 x5 x6 x7 x8) (Cert.ReferenceIdeal.ReadP.val_main_v1 x1) (Cert.ReferenceIdeal.ReadP.val_main_v3 x1) (Cert.ReferenceIdeal.ReadP.val_main_v26 x1)
    = Cert.ReferenceIdeal.ReadP.val_main_v88 (F := F) x0 x1 x3 x4 x5 x6 x7 x8 := rfl

theorem rd3_v74_ref (h1 : Vp main_v1 = Cert.ReferenceIdeal.ReadP.val_main_v1 (F := F) x1) (h3 : Vp main_v3 = Cert.ReferenceIdeal.ReadP.val_main_v3 (F := F) x1)
    (h26 : Vp main_v26 = Cert.ReferenceIdeal.ReadP.val_main_v26 (F := F) x1)
    (hs : Vp main_v62 = Cert.ReferenceIdeal.ReadP.val_main_v76 (F := F) x0 x1 x3 x4 x5 x6 x7 x8) :
    StableHlo.after hostOps3 Vp main_v74 = Cert.ReferenceIdeal.ReadP.val_main_v88 (F := F) x0 x1 x3 x4 x5 x6 x7 x8 := by
  rw [rd3_v74, h1, h3, h26, hs]; exact agg_ref2 x0 x1 x3 x4 x5 x6 x7 x8

theorem rd4_v86 : StableHlo.after hostOps4 Vp main_v86 = Cert.ReferenceIdeal.ReadP.val_main_v120 (F := F) (Vp main_arg3) := by
  simp only [hostOps4]
  after_results_simp
  rfl

theorem rd5_v99 : StableHlo.after hostOps5 Vp main_v99
    = agg (F := F) (Vp main_v87) (Vp main_v1) (Vp main_v3) (Vp main_v26) := by
  simp only [hostOps5]
  after_results_simp
  rfl

theorem agg_ref3 : agg (Cert.ReferenceIdeal.ReadP.val_main_v121 x0 x1 x3 x4 x5 x6 x7 x8) (Cert.ReferenceIdeal.ReadP.val_main_v1 x1) (Cert.ReferenceIdeal.ReadP.val_main_v3 x1) (Cert.ReferenceIdeal.ReadP.val_main_v26 x1)
    = Cert.ReferenceIdeal.ReadP.val_main_v133 (F := F) x0 x1 x3 x4 x5 x6 x7 x8 := rfl

theorem rd5_v99_ref (h1 : Vp main_v1 = Cert.ReferenceIdeal.ReadP.val_main_v1 (F := F) x1) (h3 : Vp main_v3 = Cert.ReferenceIdeal.ReadP.val_main_v3 (F := F) x1)
    (h26 : Vp main_v26 = Cert.ReferenceIdeal.ReadP.val_main_v26 (F := F) x1)
    (hs : Vp main_v87 = Cert.ReferenceIdeal.ReadP.val_main_v121 (F := F) x0 x1 x3 x4 x5 x6 x7 x8) :
    StableHlo.after hostOps5 Vp main_v99 = Cert.ReferenceIdeal.ReadP.val_main_v133 (F := F) x0 x1 x3 x4 x5 x6 x7 x8 := by
  rw [rd5_v99, h1, h3, h26, hs]; exact agg_ref3 x0 x1 x3 x4 x5 x6 x7 x8

theorem rd6_v111 : StableHlo.after hostOps6 Vp main_v111 = Cert.ReferenceIdeal.ReadP.val_main_v165 (F := F) (Vp main_arg3) := by
  simp only [hostOps6]
  after_results_simp
  rfl

theorem rd7_v124 : StableHlo.after hostOps7 Vp main_v124
    = agg (F := F) (Vp main_v112) (Vp main_v1) (Vp main_v3) (Vp main_v26) := by
  simp only [hostOps7]
  after_results_simp
  rfl

theorem agg_ref4 : agg (Cert.ReferenceIdeal.ReadP.val_main_v166 x0 x1 x3 x4 x5 x6 x7 x8) (Cert.ReferenceIdeal.ReadP.val_main_v1 x1) (Cert.ReferenceIdeal.ReadP.val_main_v3 x1) (Cert.ReferenceIdeal.ReadP.val_main_v26 x1)
    = Cert.ReferenceIdeal.ReadP.val_main_v178 (F := F) x0 x1 x3 x4 x5 x6 x7 x8 := rfl

theorem rd7_v124_ref (h1 : Vp main_v1 = Cert.ReferenceIdeal.ReadP.val_main_v1 (F := F) x1) (h3 : Vp main_v3 = Cert.ReferenceIdeal.ReadP.val_main_v3 (F := F) x1)
    (h26 : Vp main_v26 = Cert.ReferenceIdeal.ReadP.val_main_v26 (F := F) x1)
    (hs : Vp main_v112 = Cert.ReferenceIdeal.ReadP.val_main_v166 (F := F) x0 x1 x3 x4 x5 x6 x7 x8) :
    StableHlo.after hostOps7 Vp main_v124 = Cert.ReferenceIdeal.ReadP.val_main_v178 (F := F) x0 x1 x3 x4 x5 x6 x7 x8 := by
  rw [rd7_v124, h1, h3, h26, hs]; exact agg_ref4 x0 x1 x3 x4 x5 x6 x7 x8

theorem rd8_v135 : StableHlo.after hostOps8 Vp main_v135 = shapeCast S100000x1 (Vp main_arg2) shapeCasts_S100000_S100000x1 := by
  simp only [hostOps8]
  after_results_simp
  rfl

theorem rd9_v137 : StableHlo.after hostOps9 Vp main_v137 = shapeCast S1x128 (Vp main_arg10) shapeCasts_S128_S1x128 := by
  simp only [hostOps9]
  after_results_simp
  rfl
theorem rd9_v138 : StableHlo.after hostOps9 Vp main_v138 = shapeCast S1x16 (Vp main_arg12) shapeCasts_S16_S1x16 := by
  simp only [hostOps9]
  after_results_simp
  rfl
theorem rd9_v139 : StableHlo.after hostOps9 Vp main_v139 = shapeCast S1x128 (Vp main_arg14) shapeCasts_S128_S1x128 := by
  simp only [hostOps9]
  after_results_simp
  rfl
theorem rd9_v140 : StableHlo.after hostOps9 Vp main_v140 = shapeCast S1x1 (Vp main_arg16) shapeCasts_S1_S1x1 := by
  simp only [hostOps9]
  after_results_simp
  rfl

end Cert.KernelIdeal.Hand
-- ==== Proof.Spec.lean ====
import Idealize.ShloMosaic.Lib.ValueIdx

noncomputable section

open scoped BigOperators

namespace Cert.Spec

open Idealize.ShloMosaic Idealize.ShloMosaic.ValueIdx

abbrev SN : Shape := ⟨2, ![100000, 128]⟩

abbrev SW : Shape := ⟨2, ![128, 128]⟩

abbrev SC : Shape := ⟨2, ![100000, 1]⟩

abbrev SR : Shape := ⟨2, ![1, 128]⟩

abbrev SG : Shape := ⟨2, ![64, 128]⟩

def mm (x : SN.Idx → EReal) (w : SW.Idx → EReal) : SN.Idx → EReal :=
  fun i => ∑ k : Fin 128, x (ix2 (i 0) k) * w (ix2 k (i 1))

def combine (agg hw : SN.Idx → EReal) (sn : SC.Idx → EReal) (b sc sh : SR.Idx → EReal) : SN.Idx → EReal :=
  fun i => max ((agg i + hw i * sn (ix2 (i 0) 0) + b (ix2 0 (i 1))) * sc (ix2 0 (i 1)) + sh (ix2 0 (i 1))) 0

def pool (batch : SC.Idx → BitVec 32) (h : SN.Idx → EReal) : SG.Idx → EReal :=
  fun i => ∑ n : Fin 100000, (if batch (ix2 n 0) = BitVec.ofNat 32 (i 0).val then (1 : EReal) else 0) * h (ix2 n (i 1))

def hidden (p : SG.Idx → EReal) (w1 : SW.Idx → EReal) (b1 : SR.Idx → EReal) (g : Fin 64) (k : Fin 128) : EReal :=
  max ((∑ j : Fin 128, p (ix2 g j) * w1 (ix2 j k)) + b1 (ix2 0 k)) 0

def logits (p : SG.Idx → EReal) (w1 : SW.Idx → EReal) (b1 : SR.Idx → EReal)
    (w2 : (⟨2, ![128, 16]⟩ : Shape).Idx → EReal) (b2 : (⟨2, ![1, 16]⟩ : Shape).Idx → EReal) :
    (⟨2, ![64, 16]⟩ : Shape).Idx → EReal :=
  fun i => (∑ k : Fin 128, hidden p w1 b1 (i 0) k * w2 (ix2 k (i 1))) + b2 (ix2 0 (i 1))

def novelty (p : SG.Idx → EReal) (w1 : SW.Idx → EReal) (b1 : SR.Idx → EReal)
    (w2 : (⟨2, ![128, 1]⟩ : Shape).Idx → EReal) (b2 : (⟨2, ![1, 1]⟩ : Shape).Idx → EReal) :
    (⟨2, ![64, 1]⟩ : Shape).Idx → EReal :=
  fun i => Ideal.logistic ((∑ k : Fin 128, hidden p w1 b1 (i 0) k * w2 (ix2 k (i 1))) + b2 (ix2 0 (i 1)))

theorem bn_two_ways (c : EReal) (s μ β : ℝ) :
    c * (s : EReal) + ((β : EReal) - (μ : EReal) * (s : EReal)) = (c - (μ : EReal)) * (s : EReal) + (β : EReal) := by
  induction c using EReal.rec with
  | bot =>
    rcases lt_trichotomy s 0 with hs | hs | hs
    · have h1 : (⊥ : EReal) * (s : EReal) = ⊤ := EReal.bot_mul_coe_of_neg hs
      have h2 : ((⊥ : EReal) - (μ : EReal)) = ⊥ := by simp
      rw [h2, h1]
      rw [show ((β : EReal) - (μ : EReal) * (s : EReal)) = ((β - μ * s : ℝ) : EReal) from by
        rw [EReal.coe_sub, EReal.coe_mul]]
      exact EReal.top_add_coe _
    · subst hs; simp
    · have h1 : (⊥ : EReal) * (s : EReal) = ⊥ := EReal.bot_mul_coe_of_pos hs
      have h2 : ((⊥ : EReal) - (μ : EReal)) = ⊥ := by simp
      rw [h2, h1]
      simp
  | coe r =>
    rw [← EReal.coe_mul, ← EReal.coe_mul, ← EReal.coe_sub, ← EReal.coe_add, ← EReal.coe_sub, ← EReal.coe_mul,
      ← EReal.coe_add]
    congr 1; ring
  | top =>
    rcases lt_trichotomy s 0 with hs | hs | hs
    · have h1 : (⊤ : EReal) * (s : EReal) = ⊥ := EReal.top_mul_coe_of_neg hs
      have h2 : ((⊤ : EReal) - (μ : EReal)) = ⊤ := by simp [EReal.top_sub_coe]
      rw [h2, h1]
      simp
    · subst hs; simp
    · have h1 : (⊤ : EReal) * (s : EReal) = ⊤ := EReal.top_mul_coe_of_pos hs
      have h2 : ((⊤ : EReal) - (μ : EReal)) = ⊤ := by simp [EReal.top_sub_coe]
      rw [h2, h1]
      rw [show ((β : EReal) - (μ : EReal) * (s : EReal)) = ((β - μ * s : ℝ) : EReal) from by
        rw [EReal.coe_sub, EReal.coe_mul]]
      exact EReal.top_add_coe _

end Cert.Spec

end
-- ==== Proof.KI.V8.lean ====
import proofs.«417545_j39908836114735_1_alg».proof.Proof.KI.B8
import proofs.«417545_j39908836114735_1_alg».proof.Proof.Spec
import Idealize.ShloMosaic.Lib.Pipeline.Value
import Idealize.ShloMosaic.Lib.ValueIdx
import Idealize.ShloMosaic.PureOps.Ideal.Laws

set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open scoped BigOperators

section Value8
variable (V : (c : Dev nD) → (b : Ref sig .tc) → Buf (Elt Ideal) ((c : Thread nD τ).loc b))

def hot8 (w : BitVec 32) (g : ℕ) : EReal := if w = BitVec.ofNat 32 g then 1 else 0

theorem sitofp_cmpi_eq (w1 w2 : BitVec 32) :
    (FloatOps.sitofp (F := Ideal) .f32 ((IntOp.cmpi .eq w1 w2).setWidth 32) : EReal) = if w1 = w2 then 1 else 0 := by
  show ((((IntOp.cmpi .eq w1 w2).setWidth 32).toInt : ℝ) : EReal) = _
  by_cases h : w1 = w2
  · have hc : IntOp.cmpi .eq w1 w2 = 1#1 := by simp [IntOp.cmpi, h]
    rw [hc, if_pos h]
    have h1 : ((1#1 : BitVec 1).setWidth 32).toInt = 1 := by decide
    rw [h1]; simp
  · have hb : (w1 == w2) = false := beq_eq_false_iff_ne.mpr h
    have hc : IntOp.cmpi .eq w1 w2 = 0#1 := by simp [IntOp.cmpi, hb]
    rw [hc, if_neg h]
    have h0 : ((0#1 : BitVec 1).setWidth 32).toInt = 0 := by decide
    rw [h0]; simp

theorem zero8_apply (j : S64x128.Idx) : (zero8 (F := Ideal)) j = 0 := by
  unfold zero8 k8_pay1
  simp only [shapeCast_self]
  exact Ideal.ofBits_zero_f32

abbrev rows8 : dot_S2000x64_S2000x128_S64x128_0_0_1_1_n_n.contr.Idx ≃ Fin 2000 :=
  contrEquiv1 dot_S2000x64_S2000x128_S64x128_0_0_1_1_n_n 2000 rfl rfl

theorem step8_apply (b : Vec Ideal S2000x1 .i32) (x : Vec Ideal S2000x128 .f32) (a : Vec Ideal S64x128 .f32) (j : S64x128.Idx) :
    step8 b x a j = a j + ∑ r : Fin 2000, hot8 (b (ix2 r 0)) (j 0).val * x (ix2 r (j 1)) := by
  unfold step8 k8_pay2
  simp only [shapeCast_self, matmul]
  rw [addf_apply, Ideal.matmul_constant_zero_apply, ← rows8.symm.sum_comp]
  congr 1
  refine Finset.sum_congr rfl fun r _ => ?_
  have hk : ((rows8.symm r) ⟨0, by decide⟩ : ℕ) = r.val := contrEquiv1_symm_val _ 2000 rfl rfl r
  congr 1
  · rw [truncf_apply, sitofp_apply, extui_apply]
    show FloatOps.sitofp (F := Ideal) .f32 ((IntOp.cmpi .eq _ _).setWidth 32) = _
    rw [sitofp_cmpi_eq, iota_single_apply]
    unfold hot8
    rw [broadcastTo_apply b _ _ (ix2 r 0) (fun a => by
      match a with
      | ⟨0, _⟩ => exact hk.symm
      | ⟨1, _⟩ => rfl)]
    rfl
  · rw [truncf_apply]
    refine congrArg x (Shape.idx_ext₂ ?_ ?_)
    · exact hk
    · rfl

theorem index8_0 : ∀ t : Fin cfg8.N, win8_0.index t 0 = t.val ∧ win8_0.index t 1 = 0 :=
  (by decide +kernel : ∀ t : Fin grid8.N, win8_0.index t 0 = t.val ∧ win8_0.index t 1 = 0)
theorem index8_1 : ∀ t : Fin cfg8.N, win8_1.index t 0 = t.val ∧ win8_1.index t 1 = 0 :=
  (by decide +kernel : ∀ t : Fin grid8.N, win8_1.index t 0 = t.val ∧ win8_1.index t 1 = 0)

theorem iblk8_0_apply (c : Dev nD) (t : Fin cfg8.N) (y : S2000x1.Idx) (k : Cert.Spec.SC.Idx)
    (hk0 : (k 0).val = 2000 * t.val + (y 0).val) (hk1 : (k 1).val = (y 1).val) :
    (iblk8 V c 0 t : Vec Ideal S2000x1 .i32) y = (V c main_v135 : Cert.Spec.SC.Idx → BitVec 32) k := by
  unfold iblk8 blk
  rw [View.read_apply]
  show (V c main_v135 : Cert.Spec.SC.Idx → BitVec 32) _ = _
  congr 1
  funext a
  apply Fin.ext
  match a with
  | ⟨0, _⟩ => show win8_0.index t 0 * 2000 + 1 * (y 0).val = (k 0).val; rw [(index8_0 t).1, hk0]; omega
  | ⟨1, _⟩ => show win8_0.index t 1 * 1 + 1 * (y 1).val = (k 1).val; rw [(index8_0 t).2, hk1]; omega

theorem iblk8_1_apply (c : Dev nD) (t : Fin cfg8.N) (y : S2000x128.Idx) (k : Cert.Spec.SN.Idx)
    (hk0 : (k 0).val = 2000 * t.val + (y 0).val) (hk1 : (k 1).val = (y 1).val) :
    (iblk8 V c 1 t : Vec Ideal S2000x128 .f32) y = (V c main_v134 : Cert.Spec.SN.Idx → EReal) k := by
  unfold iblk8 blk
  rw [View.read_apply]
  show (V c main_v134 : Cert.Spec.SN.Idx → EReal) _ = _
  congr 1
  funext a
  apply Fin.ext
  match a with
  | ⟨0, _⟩ => show win8_1.index t 0 * 2000 + 1 * (y 0).val = (k 0).val; rw [(index8_1 t).1, hk0]; omega
  | ⟨1, _⟩ => show win8_1.index t 1 * 128 + 1 * (y 1).val = (k 1).val; rw [(index8_1 t).2, hk1]; omega

def row8 (c : Dev nD) (j : S64x128.Idx) (m : ℕ) : EReal :=
  if hm : m < 100000 then
    hot8 ((V c main_v135 : Cert.Spec.SC.Idx → BitVec 32) (ix2 ⟨m, hm⟩ 0)) (j 0).val
      * (V c main_v134 : Cert.Spec.SN.Idx → EReal) (ix2 ⟨m, hm⟩ (j 1))
  else 0

theorem block8_sum (c : Dev nD) (t : Fin cfg8.N) (j : S64x128.Idx) :
    ∑ r : Fin 2000, hot8 ((iblk8 V c 0 t : Vec Ideal S2000x1 .i32) (ix2 r 0)) (j 0).val
        * (iblk8 V c 1 t : Vec Ideal S2000x128 .f32) (ix2 r (j 1))
      = ∑ r ∈ Finset.range 2000, row8 V c j (2000 * t.val + r) := by
  rw [← Fin.sum_univ_eq_sum_range (fun r => row8 V c j (2000 * t.val + r)) 2000]
  refine Finset.sum_congr rfl fun r _ => ?_
  have hN : cfg8.N = 50 := N_8
  have hm : 2000 * t.val + r.val < 100000 := by have := t.isLt; have := r.isLt; omega
  unfold row8
  rw [dif_pos hm, iblk8_0_apply V c t (ix2 r 0) (ix2 ⟨_, hm⟩ 0) rfl rfl,
    iblk8_1_apply V c t (ix2 r (j 1)) (ix2 ⟨_, hm⟩ (j 1)) rfl rfl]

theorem acc8_eq (c : Dev nD) : ∀ (n : ℕ) (h : n < cfg8.N) (j : S64x128.Idx),
    acc8 V c n h j = ∑ m ∈ Finset.range (2000 * (n + 1)), row8 V c j m
  | 0, h, j => by
    rw [acc8_zero, step8_apply, zero8_apply, zero_add, block8_sum]
    refine Finset.sum_congr rfl fun r _ => ?_
    show row8 V c j (2000 * 0 + r) = _
    rw [Nat.mul_zero, Nat.zero_add]
  | n + 1, h, j => by
    rw [acc8_succ, step8_apply, acc8_eq c n _ j, block8_sum,
      show 2000 * (n + 1 + 1) = 2000 * (n + 1) + 2000 from by ring, Finset.sum_range_add]

theorem acc8_last (c : Dev nD) (h : 49 < cfg8.N) :
    acc8 V c 49 h = Cert.Spec.pool (V c main_v135) (V c main_v134) := by
  funext j
  rw [acc8_eq]
  show ∑ m ∈ Finset.range 100000, row8 V c j m = ∑ n : Fin 100000, _
  rw [← Fin.sum_univ_eq_sum_range (fun m => row8 V c j m) 100000]
  refine Finset.sum_congr rfl fun n _ => ?_
  unfold row8 hot8
  rw [dif_pos n.isLt]

abbrev last8 : Fin cfg8.N := ⟨49, by decide⟩

theorem flushed8 (c : Dev nD) (t : Fin cfg8.N) (hf : (cfg8.win 2).flush t = true) :
    (dat8 V c).flushed 2 t = ((cfg8.win 2).blk t).view.read (Elt Ideal) (Cert.Spec.pool (V c main_v135) (V c main_v134)) := by
  have hN : cfg8.N = 50 := N_8
  have h49 : t.val = 49 := by have := (flush8_2 t).mp hf; have := t.isLt; omega
  obtain rfl : t = last8 := Fin.ext h49
  show (cfg8.win 2).cut (grid8.coords last8) ((dat8 V c).after 2 last8) = _
  rw [after8_2, acc8_last]
  have hz0 : ∀ a : Fin 2, win8_2.index last8 a * main_v136.ty.shape.size a = 0 := by decide +kernel
  have hz' : (fun a => win8_2.index last8 a * main_v136.ty.shape.size a) = fun _ => 0 := funext hz0
  exact (Memref.read_access_unit_zero (Elt Ideal) main_v136 hz' (fun a => by rw [congrFun hz' a]; simp) _).symm

theorem final8 (c : Dev nD) : (dat8 (F := Ideal) V c).arrAt 2 cfg8.N = Cert.Spec.pool (V c main_v135) (V c main_v134) :=
  (dat8 V c).arrAt_eq_of_cover 2 (Cert.Spec.pool (V c main_v135) (V c main_v134)) (flushed8 V c) fun i =>
    ⟨last8, (flush8_2 last8).mpr rfl, by
      show i ∈ ((View.whole main_v136).slice (win8_2.rect last8)).set
      rw [View.set_slice_whole]
      exact View.mem_set_unit_zero (funext (by decide +kernel : ∀ a, win8_2.index last8 a * main_v136.ty.shape.size a = 0)) _ i⟩

end Value8

end Cert.KernelIdeal.Hand
end
-- ==== Proof.KI.V9.lean ====
import proofs.«417545_j39908836114735_1_alg».proof.Proof.KI.B9
import proofs.«417545_j39908836114735_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

theorem hiddenProduct_apply (A : FVec Ideal S64x128 .bf16) (B : FVec Ideal S128x128 .bf16) (g : Fin 64) (o : Fin 128) :
    matmul dot_S64x128_S128x128_S64x128_1_0_0_1_n_n none A B (constant S64x128 .f32 0x00000000#32) (ix2 g o)
      = ∑ j : Fin 128, A (ix2 g j) * B (ix2 j o) := by
  show FloatOps.matmul dot_S64x128_S128x128_S64x128_1_0_0_1_n_n none A B _ (ix2 g o) = _
  rw [Ideal.matmul_constant_zero_apply, ← Equiv.sum_comp (contrEquiv1 dot_S64x128_S128x128_S64x128_1_0_0_1_n_n 128 rfl rfl).symm]
  refine Finset.sum_congr rfl fun j _ => ?_
  have cj := contrEquiv1_symm_val dot_S64x128_S128x128_S64x128_1_0_0_1_n_n 128 rfl rfl j
  have l : (dot_S64x128_S128x128_S64x128_1_0_0_1_n_n).lhsIdx (ix2 g o) ((contrEquiv1 dot_S64x128_S128x128_S64x128_1_0_0_1_n_n 128 rfl rfl).symm j) = ix2 g j := by
    funext ax; apply Fin.ext
    match ax with
    | ⟨0, _⟩ => simp [DotDims.lhsIdx, dot_S64x128_S128x128_S64x128_1_0_0_1_n_n] <;> rfl
    | ⟨1, _⟩ => simp [DotDims.lhsIdx, dot_S64x128_S128x128_S64x128_1_0_0_1_n_n]; exact cj
  have r : (dot_S64x128_S128x128_S64x128_1_0_0_1_n_n).rhsIdx (ix2 g o) ((contrEquiv1 dot_S64x128_S128x128_S64x128_1_0_0_1_n_n 128 rfl rfl).symm j) = ix2 j o := by
    funext ax; apply Fin.ext
    match ax with
    | ⟨0, _⟩ => simp [DotDims.rhsIdx, dot_S64x128_S128x128_S64x128_1_0_0_1_n_n]; exact cj
    | ⟨1, _⟩ => simp [DotDims.rhsIdx, dot_S64x128_S128x128_S64x128_1_0_0_1_n_n] <;> rfl
  rw [l, r]

theorem scoreProduct_apply (A : FVec Ideal S64x128 .bf16) (B : FVec Ideal S128x16 .bf16) (g : Fin 64) (o : Fin 16) :
    matmul dot_S64x128_S128x16_S64x16_1_0_0_1_n_n none A B (constant S64x16 .f32 0x00000000#32) (ix2 g o)
      = ∑ j : Fin 128, A (ix2 g j) * B (ix2 j o) := by
  show FloatOps.matmul dot_S64x128_S128x16_S64x16_1_0_0_1_n_n none A B _ (ix2 g o) = _
  rw [Ideal.matmul_constant_zero_apply, ← Equiv.sum_comp (contrEquiv1 dot_S64x128_S128x16_S64x16_1_0_0_1_n_n 128 rfl rfl).symm]
  refine Finset.sum_congr rfl fun j _ => ?_
  have cj := contrEquiv1_symm_val dot_S64x128_S128x16_S64x16_1_0_0_1_n_n 128 rfl rfl j
  have l : (dot_S64x128_S128x16_S64x16_1_0_0_1_n_n).lhsIdx (ix2 g o) ((contrEquiv1 dot_S64x128_S128x16_S64x16_1_0_0_1_n_n 128 rfl rfl).symm j) = ix2 g j := by
    funext ax; apply Fin.ext
    match ax with
    | ⟨0, _⟩ => simp [DotDims.lhsIdx, dot_S64x128_S128x16_S64x16_1_0_0_1_n_n] <;> rfl
    | ⟨1, _⟩ => simp [DotDims.lhsIdx, dot_S64x128_S128x16_S64x16_1_0_0_1_n_n]; exact cj
  have r : (dot_S64x128_S128x16_S64x16_1_0_0_1_n_n).rhsIdx (ix2 g o) ((contrEquiv1 dot_S64x128_S128x16_S64x16_1_0_0_1_n_n 128 rfl rfl).symm j) = ix2 j o := by
    funext ax; apply Fin.ext
    match ax with
    | ⟨0, _⟩ => simp [DotDims.rhsIdx, dot_S64x128_S128x16_S64x16_1_0_0_1_n_n]; exact cj
    | ⟨1, _⟩ => simp [DotDims.rhsIdx, dot_S64x128_S128x16_S64x16_1_0_0_1_n_n] <;> rfl
  rw [l, r]

theorem noveltyProduct_apply (A : FVec Ideal S64x128 .bf16) (B : FVec Ideal S128x1 .bf16) (g : Fin 64) (o : Fin 1) :
    matmul dot_S64x128_S128x1_S64x1_1_0_0_1_n_n none A B (constant S64x1 .f32 0x00000000#32) (ix2 g o)
      = ∑ j : Fin 128, A (ix2 g j) * B (ix2 j o) := by
  show FloatOps.matmul dot_S64x128_S128x1_S64x1_1_0_0_1_n_n none A B _ (ix2 g o) = _
  rw [Ideal.matmul_constant_zero_apply, ← Equiv.sum_comp (contrEquiv1 dot_S64x128_S128x1_S64x1_1_0_0_1_n_n 128 rfl rfl).symm]
  refine Finset.sum_congr rfl fun j _ => ?_
  have cj := contrEquiv1_symm_val dot_S64x128_S128x1_S64x1_1_0_0_1_n_n 128 rfl rfl j
  have l : (dot_S64x128_S128x1_S64x1_1_0_0_1_n_n).lhsIdx (ix2 g o) ((contrEquiv1 dot_S64x128_S128x1_S64x1_1_0_0_1_n_n 128 rfl rfl).symm j) = ix2 g j := by
    funext ax; apply Fin.ext
    match ax with
    | ⟨0, _⟩ => simp [DotDims.lhsIdx, dot_S64x128_S128x1_S64x1_1_0_0_1_n_n] <;> rfl
    | ⟨1, _⟩ => simp [DotDims.lhsIdx, dot_S64x128_S128x1_S64x1_1_0_0_1_n_n]; exact cj
  have r : (dot_S64x128_S128x1_S64x1_1_0_0_1_n_n).rhsIdx (ix2 g o) ((contrEquiv1 dot_S64x128_S128x1_S64x1_1_0_0_1_n_n 128 rfl rfl).symm j) = ix2 j o := by
    funext ax; apply Fin.ext
    match ax with
    | ⟨0, _⟩ => simp [DotDims.rhsIdx, dot_S64x128_S128x1_S64x1_1_0_0_1_n_n]; exact cj
    | ⟨1, _⟩ => simp [DotDims.rhsIdx, dot_S64x128_S128x1_S64x1_1_0_0_1_n_n] <;> rfl
  rw [l, r]

theorem pooledNarrow_apply (x0 : Vec Ideal S64x128 .f32) (j : S64x128.Idx) : k9_pay2 x0 j = x0 j := by
  unfold k9_pay2
  simp only [shapeCast_self]
  rw [truncf_apply]

theorem clipZero : (Scalar.ofBits (F := Ideal) .f32 0x00000000#32 : Ideal .f32) = (0 : EReal) := Ideal.ofBits_zero_f32

theorem hiddenLayer_apply (x0 : Vec Ideal S64x128 .f32) (w1 : Vec Ideal S128x128 .f32) (b1 : Vec Ideal S1x128 .f32) (g : Fin 64) (k : Fin 128) :
    maximumf (addf (matmul dot_S64x128_S128x128_S64x128_1_0_0_1_n_n none (k9_pay2 x0) (truncf .bf16 w1 bitsLt_bf16_f32) (constant S64x128 .f32 0x00000000#32))
        (broadcastTo S64x128 b1 broadcasts_S1x128_S64x128)) (broadcast S64x128 (Scalar.ofBits (F := Ideal) .f32 0x00000000#32)) (ix2 g k)
      = Cert.Spec.hidden x0 w1 b1 g k := by
  rw [maximumf_apply, addf_apply, hiddenProduct_apply, broadcastTo_1b_ab_apply, broadcast_apply, clipZero]
  unfold Cert.Spec.hidden
  simp only [pooledNarrow_apply, truncf_apply]

theorem scorePayload_apply (x0 : Vec Ideal S64x128 .f32) (x1 : Vec Ideal S128x128 .f32) (x2 : Vec Ideal S1x128 .f32)
    (x3 : Vec Ideal S128x16 .f32) (x4 : Vec Ideal S1x16 .f32) (g : Fin 64) (o : Fin 16) :
    k9_pay3 x0 x1 x2 x3 x4 (ix2 g o) = Cert.Spec.logits x0 x1 x2 x3 x4 (ix2 g o) := by
  unfold k9_pay3 Cert.Spec.logits
  simp only [shapeCast_self]
  rw [addf_apply, scoreProduct_apply, broadcastTo_1b_ab_apply]
  show _ = (∑ k : Fin 128, Cert.Spec.hidden x0 x1 x2 g k * x3 (ix2 k o)) + x4 (ix2 (0 : Fin 1) o)
  refine congrArg (· + x4 (ix2 (0 : Fin 1) o)) (Finset.sum_congr rfl fun k _ => ?_)
  rw [truncf_apply, truncf_apply, hiddenLayer_apply]

theorem noveltyPayload_apply (x0 : Vec Ideal S64x128 .f32) (x5 : Vec Ideal S128x128 .f32) (x6 : Vec Ideal S1x128 .f32)
    (x7 : Vec Ideal S128x1 .f32) (x8 : Vec Ideal S1x1 .f32) (g : Fin 64) (o : Fin 1) :
    k9_pay1 (k9_pay4 x0 x5 x6 x7) x8 (ix2 g o) = Cert.Spec.novelty x0 x5 x6 x7 x8 (ix2 g o) := by
  unfold k9_pay1 k9_pay4 Cert.Spec.novelty
  simp only [shapeCast_self]
  show Ideal.logistic _ = Ideal.logistic ((∑ k : Fin 128, Cert.Spec.hidden x0 x5 x6 g k * x7 (ix2 k o)) + x8 (ix2 (0 : Fin 1) o))
  refine congrArg Ideal.logistic ?_
  rw [addf_apply, noveltyProduct_apply, broadcastTo_1b_ab_apply]
  refine congrArg (· + x8 (ix2 (0 : Fin 1) o)) (Finset.sum_congr rfl fun k _ => ?_)
  rw [truncf_apply, truncf_apply, hiddenLayer_apply]

variable (V : (c : Dev nD) → (b : Ref sig .tc) → Buf (Elt Ideal) ((c : Thread nD τ).loc b))

theorem zeroOffsets : (![0, 0] : Fin 2 → Nat) = fun _ => 0 := funext fun a => by fin_cases a <;> rfl

theorem out9_9_eq (x0 : Vec Ideal S64x128 .f32) (x1 : Vec Ideal S128x128 .f32) (x2 : Vec Ideal S1x128 .f32)
    (x3 : Vec Ideal S128x16 .f32) (x4 : Vec Ideal S1x16 .f32) :
    out9_9 x0 x1 x2 x3 x4 = Cert.Spec.logits x0 x1 x2 x3 x4 := by
  unfold out9_9
  rw [View.canon_unit_zero zeroOffsets]
  simp only [View.ld_unit_zero (S := S64x128) zeroOffsets, View.ld_unit_zero (S := S128x128) zeroOffsets,
    View.ld_unit_zero (S := S1x128) zeroOffsets, View.ld_unit_zero (S := S128x16) zeroOffsets, View.ld_unit_zero (S := S1x16) zeroOffsets]
  funext j
  obtain ⟨g, o, rfl⟩ : ∃ (g : Fin 64) (o : Fin 16), j = ix2 g o := ⟨j 0, j 1, eq_ix2 j⟩
  exact scorePayload_apply x0 x1 x2 x3 x4 g o

theorem out9_10_eq (x0 : Vec Ideal S64x128 .f32) (x5 : Vec Ideal S128x128 .f32) (x6 : Vec Ideal S1x128 .f32)
    (x7 : Vec Ideal S128x1 .f32) (x8 : Vec Ideal S1x1 .f32) :
    out9_10 x0 x5 x6 x7 x8 = Cert.Spec.novelty x0 x5 x6 x7 x8 := by
  unfold out9_10
  rw [View.canon_unit_zero zeroOffsets]
  simp only [View.ld_unit_zero (S := S64x128) zeroOffsets, View.ld_unit_zero (S := S128x128) zeroOffsets,
    View.ld_unit_zero (S := S1x128) zeroOffsets, View.ld_unit_zero (S := S128x1) zeroOffsets, View.ld_unit_zero (S := S1x1) zeroOffsets]
  funext j
  obtain ⟨g, o, rfl⟩ : ∃ (g : Fin 64) (o : Fin 1), j = ix2 g o := ⟨j 0, j 1, eq_ix2 j⟩
  exact noveltyPayload_apply x0 x5 x6 x7 x8 g o

theorem blk9_0 (c : Dev nD) (t : Fin cfg9.N) : (iblk9 V c 0 t : S64x128.Idx → EReal) = (V c main_v136 : S64x128.Idx → EReal) :=
  Memref.read_access_unit_zero (Elt Ideal) main_v136 (funext ((by decide +kernel : ∀ t : Fin grid9.N, ∀ a, win9_0.index t a * main_v136.ty.shape.size a = 0) t)) _ _

theorem blk9_1 (c : Dev nD) (t : Fin cfg9.N) : (iblk9 V c 1 t : S128x128.Idx → EReal) = (V c main_arg9 : S128x128.Idx → EReal) :=
  Memref.read_access_unit_zero (Elt Ideal) main_arg9 (funext ((by decide +kernel : ∀ t : Fin grid9.N, ∀ a, win9_1.index t a * main_arg9.ty.shape.size a = 0) t)) _ _

theorem blk9_2 (c : Dev nD) (t : Fin cfg9.N) : (iblk9 V c 2 t : S1x128.Idx → EReal) = (V c main_v137 : S1x128.Idx → EReal) :=
  Memref.read_access_unit_zero (Elt Ideal) main_v137 (funext ((by decide +kernel : ∀ t : Fin grid9.N, ∀ a, win9_2.index t a * main_v137.ty.shape.size a = 0) t)) _ _

theorem blk9_3 (c : Dev nD) (t : Fin cfg9.N) : (iblk9 V c 3 t : S128x16.Idx → EReal) = (V c main_arg11 : S128x16.Idx → EReal) :=
  Memref.read_access_unit_zero (Elt Ideal) main_arg11 (funext ((by decide +kernel : ∀ t : Fin grid9.N, ∀ a, win9_3.index t a * main_arg11.ty.shape.size a = 0) t)) _ _

theorem blk9_4 (c : Dev nD) (t : Fin cfg9.N) : (iblk9 V c 4 t : S1x16.Idx → EReal) = (V c main_v138 : S1x16.Idx → EReal) :=
  Memref.read_access_unit_zero (Elt Ideal) main_v138 (funext ((by decide +kernel : ∀ t : Fin grid9.N, ∀ a, win9_4.index t a * main_v138.ty.shape.size a = 0) t)) _ _

theorem blk9_5 (c : Dev nD) (t : Fin cfg9.N) : (iblk9 V c 5 t : S128x128.Idx → EReal) = (V c main_arg13 : S128x128.Idx → EReal) :=
  Memref.read_access_unit_zero (Elt Ideal) main_arg13 (funext ((by decide +kernel : ∀ t : Fin grid9.N, ∀ a, win9_5.index t a * main_arg13.ty.shape.size a = 0) t)) _ _

theorem blk9_6 (c : Dev nD) (t : Fin cfg9.N) : (iblk9 V c 6 t : S1x128.Idx → EReal) = (V c main_v139 : S1x128.Idx → EReal) :=
  Memref.read_access_unit_zero (Elt Ideal) main_v139 (funext ((by decide +kernel : ∀ t : Fin grid9.N, ∀ a, win9_6.index t a * main_v139.ty.shape.size a = 0) t)) _ _

theorem blk9_7 (c : Dev nD) (t : Fin cfg9.N) : (iblk9 V c 7 t : S128x1.Idx → EReal) = (V c main_arg15 : S128x1.Idx → EReal) :=
  Memref.read_access_unit_zero (Elt Ideal) main_arg15 (funext ((by decide +kernel : ∀ t : Fin grid9.N, ∀ a, win9_7.index t a * main_arg15.ty.shape.size a = 0) t)) _ _

theorem blk9_8 (c : Dev nD) (t : Fin cfg9.N) : (iblk9 V c 8 t : S1x1.Idx → EReal) = (V c main_v140 : S1x1.Idx → EReal) :=
  Memref.read_access_unit_zero (Elt Ideal) main_v140 (funext ((by decide +kernel : ∀ t : Fin grid9.N, ∀ a, win9_8.index t a * main_v140.ty.shape.size a = 0) t)) _ _

theorem readWhole9_9 (t : Fin cfg9.N) (G : S64x16.Idx → EReal) : (((cfg9.win 9).blk t).view.read (Elt Ideal) G : S64x16.Idx → EReal) = G :=
  Memref.read_access_unit_zero (Elt Ideal) main_v141_0 (funext ((by decide +kernel : ∀ t : Fin grid9.N, ∀ a, win9_9.index t a * main_v141_0.ty.shape.size a = 0) t)) _ G

theorem memWhole9_9 (t : Fin cfg9.N) (i : S64x16.Idx) : i ∈ ((cfg9.win 9).blk t).view.set := by
  show i ∈ ((View.whole main_v141_0).slice (win9_9.rect t)).set
  rw [View.set_slice_whole]
  exact View.mem_set_unit_zero (funext ((by decide +kernel : ∀ t : Fin grid9.N, ∀ a, win9_9.index t a * main_v141_0.ty.shape.size a = 0) t)) _ i

theorem readWhole9_10 (t : Fin cfg9.N) (G : S64x1.Idx → EReal) : (((cfg9.win 10).blk t).view.read (Elt Ideal) G : S64x1.Idx → EReal) = G :=
  Memref.read_access_unit_zero (Elt Ideal) main_v141_1 (funext ((by decide +kernel : ∀ t : Fin grid9.N, ∀ a, win9_10.index t a * main_v141_1.ty.shape.size a = 0) t)) _ G

theorem memWhole9_10 (t : Fin cfg9.N) (i : S64x1.Idx) : i ∈ ((cfg9.win 10).blk t).view.set := by
  show i ∈ ((View.whole main_v141_1).slice (win9_10.rect t)).set
  rw [View.set_slice_whole]
  exact View.mem_set_unit_zero (funext ((by decide +kernel : ∀ t : Fin grid9.N, ∀ a, win9_10.index t a * main_v141_1.ty.shape.size a = 0) t)) _ i

theorem flushed9_9_eq (c : Dev nD) (t : Fin cfg9.N) :
    (dat9 (F := Ideal) V c).flushed 9 t = ((cfg9.win 9).blk t).view.read (Elt Ideal)
      (Cert.Spec.logits (V c main_v136) (V c main_arg9) (V c main_v137) (V c main_arg11) (V c main_v138)) := by
  show (cfg9.win 9).cut (grid9.coords t) ((dat9 V c).after 9 t) = _
  rw [after9_9]
  have e0 := blk9_0 V c t; have e1 := blk9_1 V c t; have e2 := blk9_2 V c t; have e3 := blk9_3 V c t; have e4 := blk9_4 V c t
  refine Eq.trans ?_ (readWhole9_9 t _).symm
  exact (out9_9_eq _ _ _ _ _).trans (by rw [e0, e1, e2, e3, e4])

theorem flushed9_10_eq (c : Dev nD) (t : Fin cfg9.N) :
    (dat9 (F := Ideal) V c).flushed 10 t = ((cfg9.win 10).blk t).view.read (Elt Ideal)
      (Cert.Spec.novelty (V c main_v136) (V c main_arg13) (V c main_v139) (V c main_arg15) (V c main_v140)) := by
  show (cfg9.win 10).cut (grid9.coords t) ((dat9 V c).after 10 t) = _
  rw [after9_10]
  have e0 := blk9_0 V c t; have e5 := blk9_5 V c t; have e6 := blk9_6 V c t; have e7 := blk9_7 V c t; have e8 := blk9_8 V c t
  refine Eq.trans ?_ (readWhole9_10 t _).symm
  exact (out9_10_eq _ _ _ _ _).trans (by rw [e0, e5, e6, e7, e8])

theorem final9_0 (c : Dev nD) : (dat9 (F := Ideal) V c).arrAt 9 cfg9.N
    = Cert.Spec.logits (V c main_v136) (V c main_arg9) (V c main_v137) (V c main_arg11) (V c main_v138) :=
  (dat9 (F := Ideal) V c).arrAt_eq_of_cover 9 _ (fun t _ => flushed9_9_eq V c t)
    (fun i => ⟨t9_0, flush9_9 t9_0, memWhole9_9 t9_0 i⟩)

theorem final9_1 (c : Dev nD) : (dat9 (F := Ideal) V c).arrAt 10 cfg9.N
    = Cert.Spec.novelty (V c main_v136) (V c main_arg13) (V c main_v139) (V c main_arg15) (V c main_v140) :=
  (dat9 (F := Ideal) V c).arrAt_eq_of_cover 10 _ (fun t _ => flushed9_10_eq V c t)
    (fun i => ⟨t9_0, flush9_10 t9_0, memWhole9_10 t9_0 i⟩)

end Cert.KernelIdeal.Hand
-- ==== Proof.Rows.lean ====
import proofs.«417545_j39908836114735_1_alg».proof.Proof.Gen.KernelIdeal.Launch
import proofs.«417545_j39908836114735_1_alg».proof.Proof.RefRead
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.Proof.Rows

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

theorem row_read {α : Type} (off : Fin 2 → Nat) (r : Fin 4) (h0 : off 0 = r.val) (h1 : off 1 = 0)
    (x : S4x128.Idx → α) (h : S4x128.Slices off S1x128) (c1 : S1x128.ShapeCasts S128) (c2 : S128.ShapeCasts S1x128)
    (j : Fin 128) :
    shapeCast S1x128 (shapeCast S128 (extractStridedSlice S1x128 off x h) c1) c2 (ix2 0 j) = x (ix2 r j) := by
  rw [shapeCast_apply _ c2 (ix2 0 j) (ix1 j)
        (by rw [Shape.rowMajor_val_two, Shape.rowMajor_val_one]; show j.val = 0 * 128 + j.val; omega),
      shapeCast_apply _ c1 (ix1 j) (ix2 0 j)
        (by rw [Shape.rowMajor_val_two, Shape.rowMajor_val_one]; show 0 * 128 + j.val = j.val; omega),
      extractStridedSlice_apply off x h (ix2 0 j) (ix2 r j) (fun a => match a with
        | ⟨0, _⟩ => by show r.val = off 0 + 0; omega
        | ⟨1, _⟩ => by show j.val = off 1 + j.val; omega)]

theorem eps_eq : Ideal.ofBits .f32 0x3727C5AC#32 = (((10995116 : ℝ) * (2 : ℝ) ^ (-40 : ℤ) : ℝ) : EReal) := by
  simp [Ideal.ofBits, Ideal.ieee, -EReal.coe_mul]

theorem eps_pos : ∃ e : ℝ, 0 < e ∧ Ideal.ofBits .f32 0x3727C5AC#32 = (e : EReal) :=
  ⟨(10995116 : ℝ) * (2 : ℝ) ^ (-40 : ℤ), by positivity, eps_eq⟩

theorem scale_real (g v : ℝ) (hv : 0 ≤ v) :
    ∃ s : ℝ, Ideal.div (g : EReal) (Ideal.sqrt ((v : EReal) + Ideal.ofBits .f32 0x3727C5AC#32)) = (s : EReal) := by
  obtain ⟨e, he, hE⟩ := eps_pos
  have hpos : 0 < v + e := by linarith
  refine ⟨g * (1 / Real.sqrt (v + e)), ?_⟩
  rw [hE, ← EReal.coe_add, Ideal.sqrt_coe, if_neg (not_lt.mpr hpos.le),
    Ideal.div_coe (Real.sqrt_pos.mpr hpos).ne', ← EReal.coe_mul]

local notation:65 a:65 " +ₑ " b:66 => HAdd.hAdd (α := EReal) (β := EReal) (γ := EReal) a b
local notation:65 a:65 " -ₑ " b:66 => HSub.hSub (α := EReal) (β := EReal) (γ := EReal) a b
local notation:70 a:70 " *ₑ " b:71 => HMul.hMul (α := EReal) (β := EReal) (γ := EReal) a b

theorem spread_const (s : Shape) (h : S_.BroadcastsInDim s ![]) (b : BitVec 32) (i : s.Idx) :
    broadcastInDim s ![] h (constant (F := Ideal) S_ .f32 b) i = Ideal.ofBits .f32 b :=
  broadcastInDim_apply _ h _ i (fun a => a.elim0) (fun a => a.elim0)

section Kernel
variable (Vp : Valuation τ sig (Elt Ideal))

theorem k_scale (l : Fin 4) (j : Fin 128) :
    StableHlo.after hostOps0 Vp main_v32 (ix2 l j)
      = Ideal.div (Vp main_arg5 (ix2 l j)) (Ideal.sqrt (Vp main_arg8 (ix2 l j) +ₑ Ideal.ofBits .f32 0x3727C5AC#32)) := by
  simp only [hostOps0]
  after_results_simp
  exact congrArg (fun e => Ideal.div (Vp main_arg5 (ix2 l j)) (Ideal.sqrt (Vp main_arg8 (ix2 l j) +ₑ e)))
    (spread_const S4x128 bcast_S_S4x128 0x3727C5AC#32 (ix2 l j))

theorem k_shift (l : Fin 4) (j : Fin 128) :
    StableHlo.after hostOps0 Vp main_v34 (ix2 l j)
      = Vp main_arg6 (ix2 l j) -ₑ Vp main_arg7 (ix2 l j) *ₑ StableHlo.after hostOps0 Vp main_v32 (ix2 l j) := by
  simp only [hostOps0]
  after_results_simp
  rfl

theorem k_row0_b (j : Fin 128) :
    StableHlo.after hostOps1 Vp main_v52 (ix2 0 j) = Vp main_arg4 (ix2 0 j) := by
  simp only [hostOps1]
  after_results_simp
  exact row_read _ 0 rfl rfl _ _ _ _ j

theorem k_row0_sc (j : Fin 128) :
    StableHlo.after hostOps1 Vp main_v55 (ix2 0 j) = Vp main_v32 (ix2 0 j) := by
  simp only [hostOps1]
  after_results_simp
  exact row_read _ 0 rfl rfl _ _ _ _ j

theorem k_row0_sh (j : Fin 128) :
    StableHlo.after hostOps1 Vp main_v58 (ix2 0 j) = Vp main_v34 (ix2 0 j) := by
  simp only [hostOps1]
  after_results_simp
  exact row_read _ 0 rfl rfl _ _ _ _ j

end Kernel

theorem idx_eq (k : S4x128.Idx) (r : Fin 4) (c : Fin 128) (h0 : (k 0).val = r.val) (h1 : (k 1).val = c.val % 128) :
    k = ix2 r c := by
  funext a
  match a with
  | ⟨0, _⟩ => exact Fin.ext h0
  | ⟨1, _⟩ => exact Fin.ext (h1.trans (Nat.mod_eq_of_lt c.isLt))

theorem r0_sn (x1 : S2x1600000.Idx → BitVec 32) (i : S100000x128.Idx) :
    val_main_v44 (F := Ideal) x1 i = val_main_v28 (F := Ideal) x1 (ix2 (i 0) 0) := by
  rw [val_main_v44_apply]
  refine congrArg (val_main_v28 (F := Ideal) x1) ?_
  funext a
  match a with
  | ⟨0, _⟩ => rfl
  | ⟨1, _⟩ => rfl

theorem r0_b (x4 : S4x128.Idx → EReal) (i : S100000x128.Idx) :
    val_main_v50 (F := Ideal) x4 i = x4 (ix2 0 (i 1)) := by
  rw [val_main_v50_apply, val_main_v49_apply, val_main_v48_apply, val_main_v47_apply]
  exact congrArg x4 (idx_eq _ 0 (i 1) (by rfl) (by rfl))

theorem r0_mu (x7 : S4x128.Idx → EReal) (i : S100000x128.Idx) :
    val_main_v55 (F := Ideal) x7 i = x7 (ix2 0 (i 1)) := by
  rw [val_main_v55_apply, val_main_v54_apply, val_main_v53_apply, val_main_v52_apply]
  exact congrArg x7 (idx_eq _ 0 (i 1) (by rfl) (by rfl))

theorem r0_be (x6 : S4x128.Idx → EReal) (i : S100000x128.Idx) :
    val_main_v71 (F := Ideal) x6 i = x6 (ix2 0 (i 1)) := by
  rw [val_main_v71_apply, val_main_v70_apply, val_main_v69_apply, val_main_v68_apply]
  exact congrArg x6 (idx_eq _ 0 (i 1) (by rfl) (by rfl))

theorem r0_sc (x5 x8 : S4x128.Idx → EReal) (i : S100000x128.Idx) :
    val_main_v66 (F := Ideal) x5 x8 i
      = Ideal.div (x5 (ix2 0 (i 1))) (Ideal.sqrt (x8 (ix2 0 (i 1)) + Ideal.ofBits .f32 0x3727C5AC#32)) := by
  rw [val_main_v66_apply, val_main_v65_apply, val_main_v64_apply, val_main_v63_apply, val_main_v62_apply, val_main_v61_apply, val_main_cst_8_apply,
    val_main_v58_apply, val_main_v57_apply, val_main_v60_apply, val_main_v59_apply,
    Ideal.hostDivf_def, Ideal.hostUnary_sqrt_def, Ideal.addf_def, Ideal.ofBits_def,
    idx_eq (idx_main_v57 (idx_main_v58 (idx_main_v65 (idx_main_v66 i)))) 0 (i 1) rfl rfl,
    idx_eq (idx_main_v59 (idx_main_v60 (idx_main_v65 (idx_main_v66 i)))) 0 (i 1) rfl rfl]

theorem r0_z (i : S100000x128.Idx) : val_main_call0_v0 (F := Ideal) i = 0 := by
  rw [val_main_call0_v0_apply, val_main_call0_cst_apply, Ideal.ofBits_def, Ideal.ofBits_zero_f32]

end Cert.Proof.Rows
-- ==== Proof.PreFacts.lean ====
import proofs.«417545_j39908836114735_1_alg».proof.Defs
import Idealize.ShloMosaic.Lib.ReduceAll
import Idealize.ShloMosaic.Lib.ValueIdx

noncomputable section

namespace Cert.Proof.PreFacts

open Idealize.ShloMosaic

instance scalarIdx_subsingleton : Subsingleton Cert.Pre_finite_inputs.S_.Idx :=
  ⟨fun a b => funext fun d => d.elim0⟩

theorem true_of_ofBool_eq_one {b : Bool} (h : BitVec.ofBool b = 1#1) : b = true := by
  cases b
  · exact absurd h (by decide)
  · rfl

theorem posInf_f32 : Ideal.ofBits .f32 0x7F800000#32 = (⊤ : EReal) := by
  simp [Ideal.ofBits, Ideal.ieee]

theorem zero_f32 : Ideal.ofBits .f32 0x00000000#32 = (0 : EReal) := by
  simp [Ideal.ofBits, Ideal.ieee]

theorem real_of_abs_lt_top (y : EReal) (h : max y (-y) < ⊤) : ∃ r : ℝ, y = (r : EReal) := by
  induction y using EReal.rec with
  | bot => simp at h
  | coe r => exact ⟨r, rfl⟩
  | top => simp at h

theorem entries_real_of_all_abs_lt_inf {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1)
    (e : Host.reduce IntOp.andi
          (cmpf .olt (Host.absf x)
            (broadcastInDim s ![] hb (constant Cert.Pre_finite_inputs.S_ .f32 0x7F800000#32)))
          init hr hu ValueIdx.ix0 = 1#1)
    (i : s.Idx) : ∃ r : ℝ, x i = (r : EReal) := by
  have h := Host.reduce_andi_all _ init hr hu ValueIdx.ix0 e i
  have h' : BitVec.ofBool (decide (max (x i) (-(x i)) < Ideal.ofBits .f32 0x7F800000#32)) = 1#1 := h
  rw [posInf_f32] at h'
  exact real_of_abs_lt_top (x i) (of_decide_eq_true (true_of_ofBool_eq_one h'))

theorem entries_nonneg_of_all_ge_zero {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1)
    (e : Host.reduce IntOp.andi
          (cmpf .oge x
            (broadcastInDim s ![] hb (constant Cert.Pre_finite_inputs.S_ .f32 0x00000000#32)))
          init hr hu ValueIdx.ix0 = 1#1)
    (i : s.Idx) : (0 : EReal) ≤ x i := by
  have h := Host.reduce_andi_all _ init hr hu ValueIdx.ix0 e i
  have h' : BitVec.ofBool (decide (Ideal.ofBits .f32 0x00000000#32 ≤ x i)) = 1#1 := h
  rw [zero_f32] at h'
  exact of_decide_eq_true (true_of_ofBool_eq_one h')

theorem bn_params_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg5) : Cert.KernelIdeal.S4x128.Idx → EReal) i = (r : EReal))
    ∧ (∀ i, ∃ r : ℝ, (m ((c.tc : Thread Cert.KernelIdeal.nD Cert.KernelIdeal.τ).loc Cert.KernelIdeal.main_arg6) : Cert.KernelIdeal.S4x128.Idx → EReal) i = (r : EReal))
    ∧ (∀ i, ∃ r : ℝ, (m ((c.tc : Thread Cert.KernelIdeal.nD Cert.KernelIdeal.τ).loc Cert.KernelIdeal.main_arg7) : Cert.KernelIdeal.S4x128.Idx → EReal) i = (r : EReal))
    ∧ (∀ i, ∃ r : ℝ, 0 ≤ r ∧ (m ((c.tc : Thread Cert.KernelIdeal.nD Cert.KernelIdeal.τ).loc Cert.KernelIdeal.main_arg8) : Cert.KernelIdeal.S4x128.Idx → EReal) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0

  obtain ⟨h0, hvar_nonneg⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, hvar⟩ := IntOp.andi_eq_one.1 h0
  obtain ⟨h0, hmean⟩ := IntOp.andi_eq_one.1 h0
  obtain ⟨h0, hshift⟩ := IntOp.andi_eq_one.1 h0
  obtain ⟨h0, hscale⟩ := IntOp.andi_eq_one.1 h0
  refine ⟨fun i => ?_, fun i => ?_, fun i => ?_, fun i => ?_⟩
  · exact entries_real_of_all_abs_lt_inf _ _ _ _ _ hscale i
  · exact entries_real_of_all_abs_lt_inf _ _ _ _ _ hshift i
  · exact entries_real_of_all_abs_lt_inf _ _ _ _ _ hmean i
  · obtain ⟨r, hr⟩ := entries_real_of_all_abs_lt_inf _ _ _ _ _ hvar i
    have hn := entries_nonneg_of_all_ge_zero _ _ _ _ _ hvar_nonneg i
    rw [hr] at hn
    exact ⟨r, EReal.coe_nonneg.1 hn, hr⟩

end Cert.Proof.PreFacts

end
-- ==== Proof.KI.BrBase.lean ====
import proofs.«417545_j39908836114735_1_alg».proof.Proof.KI.Chain
import proofs.«417545_j39908836114735_1_alg».proof.Proof.KI.Keep
import proofs.«417545_j39908836114735_1_alg».proof.Proof.KI.Host
import proofs.«417545_j39908836114735_1_alg».proof.Proof.Rows
import proofs.«417545_j39908836114735_1_alg».proof.Proof.PreFacts

noncomputable section
namespace Cert.KernelIdeal.Bridge
open Cert.KernelIdeal Cert.KernelIdeal.Gen Cert.KernelIdeal.Hand Cert.ReferenceIdeal.ReadP Cert.Proof.Rows
open Idealize.ShloMosaic Idealize.ShloMosaic.TcCoe Idealize.ShloMosaic.ValueIdx Idealize.SL.Sem

variable (m : (ℓ : Loc nD τ sig) → Buf (Elt Ideal) ℓ) (c : Dev nD)

local notation:65 a:65 " +ₑ " b:66 => HAdd.hAdd (α := EReal) (β := EReal) (γ := EReal) a b
local notation:65 a:65 " -ₑ " b:66 => HSub.hSub (α := EReal) (β := EReal) (γ := EReal) a b
local notation:70 a:70 " *ₑ " b:71 => HMul.hMul (α := EReal) (β := EReal) (γ := EReal) a b

-- Every buffer some item of the run writes between the first host stretch and the last combining call.
def written : List (Ref sig .tc) :=
  main_v37 :: hostOps1_W ++ main_v59 :: hostOps2_W ++ main_v62 :: hostOps3_W ++ main_v84 :: hostOps4_W ++
    main_v87 :: hostOps5_W ++ main_v109 :: hostOps6_W ++ main_v112 :: hostOps7_W

-- A valuation that, off the written buffers, is still what the first host stretch left.
def Kept (V : Valuation τ sig (Elt Ideal)) : Prop := ∀ r, r ∉ written → V r = W1 m c r

-- The batch-norm factor of layer l at channel j: scale / sqrt (variance + eps).
def fac (l : Fin 4) (j : Fin 128) : EReal :=
  Ideal.div ((m ((c : Thread nD τ).loc main_arg5) : S4x128.Idx → EReal) (ix2 l j)) (Ideal.sqrt ((m ((c : Thread nD τ).loc main_arg8) : S4x128.Idx → EReal) (ix2 l j) +ₑ Ideal.ofBits .f32 0x3727C5AC#32))

-- The batch-norm offset of layer l at channel j: shift - mean * factor.
def off (l : Fin 4) (j : Fin 128) : EReal := (m ((c : Thread nD τ).loc main_arg6) : S4x128.Idx → EReal) (ix2 l j) -ₑ (m ((c : Thread nD τ).loc main_arg7) : S4x128.Idx → EReal) (ix2 l j) *ₑ fac m c l j

section
variable {m c} {V V' : Valuation τ sig (Elt Ideal)} (hV : Kept m c V)
include hV

-- An item that writes only written buffers takes a kept valuation to a kept one.
theorem Kept.step {L : List (Ref sig .tc)} (hk : ∀ r, r ∉ L → V' r = V r) (s : L ⊆ written) : Kept m c V' :=
  fun r h => (hk r fun hr => h (s hr)).trans (hV r h)

-- The first host stretch leaves a buffer it does not write at its launch contents.
theorem Kept.arg (r : Ref sig .tc) (h0 : r ∉ hostOps0_W) (h : r ∉ written) : V r = m ((c : Thread nD τ).loc r) :=
  (hV r h).trans (W1_keep m c r h0)
-- The edge columns, the edge weights and the self weights are computed by the first host stretch from the edge list.
theorem Kept.v1 : V main_v1 = val_main_v1 (F := Ideal) (m ((c : Thread nD τ).loc main_arg1)) := (hV _ (by decide)).trans (rd0_v1 (Gen.V0 m c))
theorem Kept.v3 : V main_v3 = val_main_v3 (F := Ideal) (m ((c : Thread nD τ).loc main_arg1)) := (hV _ (by decide)).trans (rd0_v3 (Gen.V0 m c))
theorem Kept.v26 : V main_v26 = val_main_v26 (F := Ideal) (m ((c : Thread nD τ).loc main_arg1)) := (hV _ (by decide)).trans (rd0_v26 (Gen.V0 m c))
theorem Kept.v28 : V main_v28 = val_main_v28 (F := Ideal) (m ((c : Thread nD τ).loc main_arg1)) := (hV _ (by decide)).trans (rd0_v28 (Gen.V0 m c))
-- So are the factor and the offset of all four layers, from the four parameter arrays.
theorem Kept.scale (l : Fin 4) (j : Fin 128) : V main_v32 (ix2 l j) = fac m c l j :=
  (congrFun (hV _ (by decide)) _).trans (k_scale (Gen.V0 m c) l j)
theorem Kept.shift (l : Fin 4) (j : Fin 128) : V main_v34 (ix2 l j) = off m c l j :=
  (congrFun (hV _ (by decide)) _).trans ((k_shift (Gen.V0 m c) l j).trans (congrArg (fun e : EReal => _ -ₑ _ *ₑ e) (k_scale (Gen.V0 m c) l j)))

end

theorem k1 : Kept m c (W1 m c) := fun _ _ => rfl
theorem k2 : Kept m c (W2 m c) := (k1 m c).step (W2_keep m c) (by decide)
theorem k3 : Kept m c (W3 m c) := (k2 m c).step (W3_keep m c) (by decide)
theorem k4 : Kept m c (W4 m c) := (k3 m c).step (W4_keep m c) (by decide)
theorem k5 : Kept m c (W5 m c) := (k4 m c).step (W5_keep m c) (by decide)
theorem k6 : Kept m c (W6 m c) := (k5 m c).step (W6_keep m c) (by decide)
theorem k7 : Kept m c (W7 m c) := (k6 m c).step (W7_keep m c) (by decide)
theorem k8 : Kept m c (W8 m c) := (k7 m c).step (W8_keep m c) (by decide)
theorem k9 : Kept m c (W9 m c) := (k8 m c).step (W9_keep m c) (by decide)
theorem k10 : Kept m c (W10 m c) := (k9 m c).step (W10_keep m c) (by decide)
theorem k11 : Kept m c (W11 m c) := (k10 m c).step (W11_keep m c) (by decide)
theorem k12 : Kept m c (W12 m c) := (k11 m c).step (W12_keep m c) (by decide)
theorem k13 : Kept m c (W13 m c) := (k12 m c).step (W13_keep m c) (by decide)
theorem k14 : Kept m c (W14 m c) := (k13 m c).step (W14_keep m c) (by decide)
theorem k15 : Kept m c (W15 m c) := (k14 m c).step (W15_keep m c) (by decide)

-- Each weight matrix is sliced out of the stack by the host stretch just before its product.
theorem W1_v36 : W1 m c main_v36 = val_main_v30 (F := Ideal) (m ((c : Thread nD τ).loc main_arg3)) := rd0_v36 (Gen.V0 m c)
theorem W5_v61 : W5 m c main_v61 = val_main_v75 (F := Ideal) (m ((c : Thread nD τ).loc main_arg3)) :=
  (rd2_v61 (W4 m c)).trans (congrArg (val_main_v75 (F := Ideal)) ((k4 m c).arg main_arg3 (by decide) (by decide)))
theorem W9_v86 : W9 m c main_v86 = val_main_v120 (F := Ideal) (m ((c : Thread nD τ).loc main_arg3)) :=
  (rd4_v86 (W8 m c)).trans (congrArg (val_main_v120 (F := Ideal)) ((k8 m c).arg main_arg3 (by decide) (by decide)))
theorem W13_v111 : W13 m c main_v111 = val_main_v165 (F := Ideal) (m ((c : Thread nD τ).loc main_arg3)) :=
  (rd6_v111 (W12 m c)).trans (congrArg (val_main_v165 (F := Ideal)) ((k12 m c).arg main_arg3 (by decide) (by decide)))

-- A region's result is still in its buffer after the host stretch that follows the region.
theorem W3_prev : W3 m c main_v37 = o2 m c := (W3_keep m c main_v37 (by decide)).trans (Function.update_self ..)
theorem W5_prev : W5 m c main_v59 = o4 m c := (W5_keep m c main_v59 (by decide)).trans (Function.update_self ..)
theorem W7_prev : W7 m c main_v62 = o6 m c := (W7_keep m c main_v62 (by decide)).trans (Function.update_self ..)
theorem W9_prev : W9 m c main_v84 = o8 m c := (W9_keep m c main_v84 (by decide)).trans (Function.update_self ..)
theorem W11_prev : W11 m c main_v87 = o10 m c := (W11_keep m c main_v87 (by decide)).trans (Function.update_self ..)
theorem W13_prev : W13 m c main_v109 = o12 m c := (W13_keep m c main_v109 (by decide)).trans (Function.update_self ..)
theorem W15_prev : W15 m c main_v112 = o14 m c := (W15_keep m c main_v112 (by decide)).trans (Function.update_self ..)

-- Under the precondition the factor, the mean and the shift are real numbers.
theorem bn_real [Cert.Pre_finite_inputs.Facts] (h : Cert.Pre_KernelIdeal m) (l : Fin 4) (j : Fin 128) :
    ∃ s μ β : ℝ, fac m c l j = (s : EReal) ∧ (m ((c : Thread nD τ).loc main_arg7) : S4x128.Idx → EReal) (ix2 l j) = (μ : EReal) ∧ (m ((c : Thread nD τ).loc main_arg6) : S4x128.Idx → EReal) (ix2 l j) = (β : EReal) := by
  obtain ⟨h5, h6, h7, h8⟩ := Cert.Proof.PreFacts.bn_params_real m h c
  obtain ⟨g, hg⟩ := h5 (ix2 l j)
  obtain ⟨β, hβ⟩ := h6 (ix2 l j)
  obtain ⟨μ, hμ⟩ := h7 (ix2 l j)
  obtain ⟨v, hv, hv'⟩ := h8 (ix2 l j)
  obtain ⟨s, hs⟩ := scale_real g v hv
  exact ⟨s, μ, β, (congrArg₂ (fun a b : EReal => Ideal.div a (Ideal.sqrt (b + Ideal.ofBits .f32 0x3727C5AC#32))) hg hv').trans hs, hμ, hβ⟩

end Cert.KernelIdeal.Bridge
end
-- ==== Proof.KI.Cover.lean ====
import Idealize.ShloMosaic.Lib.ValueIdx
namespace Cert.KernelIdeal.Hand

-- Blocks of R rows tile the rows: an index lies in the block numbered by its row divided by R, at column block 0.
theorem rows_cover {R C : ℕ} (hR : 0 < R) {idx size i : Fin 2 → ℕ} (h0 : idx 0 = i 0 / R) (h1 : idx 1 = 0)
    (s0 : size 0 = R) (s1 : size 1 = C) (hi : i 1 < C) (a : Fin 2) :
    idx a * size a ≤ i a ∧ i a < idx a * size a + size a := by
  match a with
  | ⟨0, _⟩ =>
    show idx 0 * size 0 ≤ i 0 ∧ i 0 < idx 0 * size 0 + size 0
    rw [h0, s0]; exact ⟨Nat.div_mul_le_self _ _, Nat.lt_div_mul_add hR⟩
  | ⟨1, _⟩ =>
    show idx 1 * size 1 ≤ i 1 ∧ i 1 < idx 1 * size 1 + size 1
    rw [h1, s1, Nat.zero_mul, Nat.zero_add]; exact ⟨Nat.zero_le _, hi⟩

end Cert.KernelIdeal.Hand
-- ==== Proof.KI.V6.lean ====
import proofs.«417545_j39908836114735_1_alg».proof.Proof.KI.B6
import proofs.«417545_j39908836114735_1_alg».proof.Proof.Spec
import proofs.«417545_j39908836114735_1_alg».proof.Proof.KI.Cover
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window cellOf)
open scoped BigOperators

variable (V : (c : Dev nD) → (b : Ref sig .tc) → Buf (Elt Ideal) ((c : Thread nD τ).loc b))

theorem mmL6_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mmL6_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q

theorem mmR6_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem mmR6_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem pay6_apply (x0 : Vec Ideal S2000x128 .f32) (x1 : Vec Ideal S128x128 .f32) (j : S2000x128.Idx) :
    k6_pay1 (F := Ideal) x0 x1 j = ∑ k : Fin 128, x0 (ix2 (n0 := 2000) (n1 := 128) (j 0) k) * x1 (ix2 (n0 := 128) (n1 := 128) k (j 1)) := by
  unfold k6_pay1
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx j ((contrEquiv1 dot_S2000x128_S128x128_S2000x128_1_0_0_1_n_n 128 rfl rfl).symm k) = ix2 (n0 := 2000) (n1 := 128) (j 0) k := funext fun a => Fin.ext (by
    match a with
    | ⟨0, _⟩ => exact mmL6_0 _ _
    | ⟨1, _⟩ => exact (mmL6_1 _ _).trans hk)
  have er : dot_S2000x128_S128x128_S2000x128_1_0_0_1_n_n.rhsIdx j ((contrEquiv1 dot_S2000x128_S128x128_S2000x128_1_0_0_1_n_n 128 rfl rfl).symm k) = ix2 (n0 := 128) (n1 := 128) k (j 1) := funext fun a => Fin.ext (by
    match a with
    | ⟨0, _⟩ => exact (mmR6_0 _ _).trans hk
    | ⟨1, _⟩ => exact mmR6_1 _ _)
  rw [el, er]
  simp only [shapeCast_self]
  rfl

theorem zeroOff6 : (![0, 0] : Fin 2 → Nat) = fun _ => 0 := funext fun a => by fin_cases a <;> rfl

theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

set_option maxHeartbeats 1000000 in

theorem flushed6_2_eq (c : Dev nD) (t : Fin cfg6.N) :
    (dat6 (F := Ideal) V c).flushed 2 t
      = ((cfg6.win 2).blk t).view.read (Elt Ideal) (Cert.Spec.mm (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero zeroOff6]
  simp only [View.ld_unit_zero (S := S2000x128) zeroOff6, View.ld_unit_zero (S := S128x128) zeroOff6]
  obtain ⟨e0, e1, e2, e3, e4, e5⟩ := blockIdx6 t
  funext j
  show k6_pay1 (F := Ideal) (iblk6 V c 0 t) (iblk6 V c 1 t) j
    = Cert.Spec.mm (V c (Pipeline.arrRef spec6 0)) (V c (Pipeline.arrRef spec6 1)) (((cfg6.win 2).blk t).view.emb j)
  rw [pay6_apply]
  unfold Cert.Spec.mm
  refine Finset.sum_congr rfl fun k _ => ?_
  have hj0 : (j 0).val < 2000 := (j 0).isLt
  have hj1 : (j 1).val < 128 := (j 1).isLt
  have hk : k.val < 128 := k.isLt
  have h0 : ((cfg6.win 0).blk t).view.emb (ix2 (n0 := 2000) (n1 := 128) (j 0) k)
      = ix2 (n0 := 100000) (n1 := 128) ((((cfg6.win 2).blk t).view.emb j) 0) k := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 128 + 1 * k.val = k.val; omega
  have h1 : ((cfg6.win 1).blk t).view.emb (ix2 (n0 := 128) (n1 := 128) k (j 1))
      = ix2 (n0 := 128) (n1 := 128) k ((((cfg6.win 2).blk t).view.emb j) 1) := by
    funext a; apply Fin.ext
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega
  congr 1
  · exact congrArg (V c (Pipeline.arrRef spec6 0)) h0
  · exact congrArg (V c (Pipeline.arrRef spec6 1)) h1

theorem covered6_2 (i : S100000x128.Idx) :
    ∃ t : Fin cfg6.N, (cfg6.win 2).flush t = true ∧ i ∈ ((cfg6.win 2).blk t).view.set := by
  have hN : (i 0).val / 2000 < cfg6.N := Nat.div_lt_of_lt_mul (i 0).isLt
  refine ⟨⟨_, hN⟩, flush6_2 _, ?_⟩
  show i ∈ ((View.whole (Pipeline.arrRef spec6 2)).slice (win6_2.rect ⟨_, hN⟩)).set
  rw [View.set_slice_whole, Rect.mem_set_unit]
  exact rows_cover (R := 2000) (C := 128) (by decide) (blockIdx6 _).2.2.2.2.1 (blockIdx6 _).2.2.2.2.2 rfl rfl (i 1).isLt

theorem final6 (c : Dev nD) : (dat6 (F := Ideal) V c).arrAt 2 cfg6.N = Cert.Spec.mm (V c main_v109) (V c main_v111) :=
  (dat6 (F := Ideal) V c).arrAt_eq_of_cover 2 (Cert.Spec.mm (V c (Pipeline.arrRef spec6 0)) (V c (Pipeline.arrRef spec6 1)))
    (fun t _ => flushed6_2_eq V c t) (covered6_2)

end Cert.KernelIdeal.Hand
end
-- ==== Proof.KI.V7.lean ====
import proofs.«417545_j39908836114735_1_alg».proof.Proof.KI.B7
import proofs.«417545_j39908836114735_1_alg».proof.Proof.Spec
import proofs.«417545_j39908836114735_1_alg».proof.Proof.KI.Cover
import Idealize.ShloMosaic.Lib.Pipeline.Value
import Idealize.ShloMosaic.Lib.ValueLayout
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window cellOf)

theorem zeroOff7 : (![0, 0] : Fin 2 → Nat) = fun _ => 0 := funext fun a => by fin_cases a <;> rfl

theorem colBroadcast7_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem combine_entry7 (agg hw : Vec Ideal S2000x128 .f32) (sn : Vec Ideal S2000x1 .f32) (b sc sh : Vec Ideal S1x128 .f32)
    (p : Fin 2000) (q : Fin 128) :
    k7_pay1 agg hw sn b sc sh (ix2 p q)
      = max ((agg (ix2 p q) + hw (ix2 p q) * sn (ix2 p 0) + b (ix2 0 q)) * sc (ix2 0 q) + sh (ix2 0 q)) 0 := by
  unfold k7_pay1
  simp only [shapeCast_self]
  rw [maximumf_apply, addf_apply, mulf_apply, addf_apply, addf_apply, mulf_apply, broadcast_apply,
    colBroadcast7_apply, broadcastTo_1b_ab_apply, broadcastTo_1b_ab_apply, broadcastTo_1b_ab_apply]
  congr 1
  exact Ideal.ofBits_zero_f32

theorem idx_facts7 : ∀ t : Fin cfg7.N,
    win7_6.index t (0 : Fin 2) = t.val ∧ win7_6.index t (1 : Fin 2) = 0
    ∧ win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

variable (V : (c : Dev nD) → (b : Ref sig .tc) → Buf (Elt Ideal) ((c : Thread nD τ).loc b))

theorem combine_block7 (agg hw : Vec Ideal S2000x128 .f32) (sn : Vec Ideal S2000x1 .f32) (b sc sh : Vec Ideal S1x128 .f32)
    (j : S2000x128.Idx) :
    k7_pay1 agg hw sn b sc sh j
      = max ((agg j + hw j * sn (ix2 (j 0) 0) + b (ix2 0 (j 1))) * sc (ix2 0 (j 1)) + sh (ix2 0 (j 1))) 0 := by
  obtain ⟨p, q, rfl⟩ : ∃ p q, j = ix2 p q := ⟨j 0, j 1, eq_ix2 j⟩
  exact combine_entry7 agg hw sn b sc sh p q

theorem combine_at7 (A0 A1 : S100000x128.Idx → EReal) (A2 : S100000x1.Idx → EReal) (A3 A4 A5 : S1x128.Idx → EReal)
    (i0 i1 i : S100000x128.Idx) (i2 : S100000x1.Idx) (i3 i4 i5 : S1x128.Idx)
    (h0 : i0 = i) (h1 : i1 = i) (h2 : i2 = ix2 (i 0) 0) (h3 : i3 = ix2 0 (i 1)) (h4 : i4 = ix2 0 (i 1)) (h5 : i5 = ix2 0 (i 1)) :
    max ((A0 i0 + A1 i1 * A2 i2 + A3 i3) * A4 i4 + A5 i5) 0 = Cert.Spec.combine A0 A1 A2 A3 A4 A5 i := by
  subst h0 h1 h2 h3 h4 h5; rfl

def combined7 (c : Dev nD) : S100000x128.Idx → EReal :=
  Cert.Spec.combine (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))

set_option maxHeartbeats 1000000 in

theorem flushed7_6 (c : Dev nD) (t : Fin cfg7.N) :
    (dat7 V c).flushed 6 t = ((cfg7.win 6).blk t).view.read (Elt Ideal) (combined7 V c) := by
  show (cfg7.win 6).cut (grid7.coords t) ((dat7 V c).after 6 t) = _
  rw [after7_6]
  unfold out7_6
  rw [View.canon_unit_zero zeroOff7]
  simp only [View.ld_unit_zero (S := S2000x128) zeroOff7, View.ld_unit_zero (S := S2000x1) zeroOff7,
    View.ld_unit_zero (S := S1x128) zeroOff7]
  obtain ⟨e60, e61, e00, e01, e10, e11, e20, e21, e30, e31, e40, e41, e50, e51⟩ := idx_facts7 t
  funext j
  refine (combine_block7 _ _ _ _ _ _ j).trans ?_
  have h0 : ((cfg7.win 0).blk t).view.emb j = ((cfg7.win 6).blk t).view.emb j := by
    funext a; apply Fin.ext
    match a with
    | ⟨0, _⟩ => show win7_0.index t (0 : Fin 2) * 2000 + 1 * (j 0).val = win7_6.index t (0 : Fin 2) * 2000 + 1 * (j 0).val; omega
    | ⟨1, _⟩ => show win7_0.index t (1 : Fin 2) * 128 + 1 * (j 1).val = win7_6.index t (1 : Fin 2) * 128 + 1 * (j 1).val; omega
  have h1 : ((cfg7.win 1).blk t).view.emb j = ((cfg7.win 6).blk t).view.emb j := by
    funext a; apply Fin.ext
    match a with
    | ⟨0, _⟩ => show win7_1.index t (0 : Fin 2) * 2000 + 1 * (j 0).val = win7_6.index t (0 : Fin 2) * 2000 + 1 * (j 0).val; omega
    | ⟨1, _⟩ => show win7_1.index t (1 : Fin 2) * 128 + 1 * (j 1).val = win7_6.index t (1 : Fin 2) * 128 + 1 * (j 1).val; omega
  have h2 : ((cfg7.win 2).blk t).view.emb (ix2 (j 0 : Fin 2000) (0 : Fin 1)) = ix2 ((((cfg7.win 6).blk t).view.emb j) 0) (0 : Fin 1) := by
    funext a; apply Fin.ext
    match a with
    | ⟨0, _⟩ => show win7_2.index t (0 : Fin 2) * 2000 + 1 * (j 0).val = win7_6.index t (0 : Fin 2) * 2000 + 1 * (j 0).val; omega
    | ⟨1, _⟩ => show win7_2.index t (1 : Fin 2) * 1 + 1 * 0 = 0; omega
  have h3 : ((cfg7.win 3).blk t).view.emb (ix2 (0 : Fin 1) (j 1 : Fin 128)) = ix2 (0 : Fin 1) ((((cfg7.win 6).blk t).view.emb j) 1) := by
    funext a; apply Fin.ext
    match a with
    | ⟨0, _⟩ => show win7_3.index t (0 : Fin 2) * 1 + 1 * 0 = 0; omega
    | ⟨1, _⟩ => show win7_3.index t (1 : Fin 2) * 128 + 1 * (j 1).val = win7_6.index t (1 : Fin 2) * 128 + 1 * (j 1).val; omega
  have h4 : ((cfg7.win 4).blk t).view.emb (ix2 (0 : Fin 1) (j 1 : Fin 128)) = ix2 (0 : Fin 1) ((((cfg7.win 6).blk t).view.emb j) 1) := by
    funext a; apply Fin.ext
    match a with
    | ⟨0, _⟩ => show win7_4.index t (0 : Fin 2) * 1 + 1 * 0 = 0; omega
    | ⟨1, _⟩ => show win7_4.index t (1 : Fin 2) * 128 + 1 * (j 1).val = win7_6.index t (1 : Fin 2) * 128 + 1 * (j 1).val; omega
  have h5 : ((cfg7.win 5).blk t).view.emb (ix2 (0 : Fin 1) (j 1 : Fin 128)) = ix2 (0 : Fin 1) ((((cfg7.win 6).blk t).view.emb j) 1) := by
    funext a; apply Fin.ext
    match a with
    | ⟨0, _⟩ => show win7_5.index t (0 : Fin 2) * 1 + 1 * 0 = 0; omega
    | ⟨1, _⟩ => show win7_5.index t (1 : Fin 2) * 128 + 1 * (j 1).val = win7_6.index t (1 : Fin 2) * 128 + 1 * (j 1).val; omega
  exact combine_at7 (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))
    _ _ (((cfg7.win 6).blk t).view.emb j) _ _ _ _ h0 h1 h2 h3 h4 h5

theorem covered7_6 (i : S100000x128.Idx) :
    ∃ t : Fin cfg7.N, (cfg7.win 6).flush t = true ∧ i ∈ ((cfg7.win 6).blk t).view.set := by
  have hN : (i 0).val / 2000 < cfg7.N := Nat.div_lt_of_lt_mul (i 0).isLt
  refine ⟨⟨_, hN⟩, flush7_6 _, ?_⟩
  show i ∈ ((View.whole (Pipeline.arrRef spec7 6)).slice (win7_6.rect ⟨_, hN⟩)).set
  rw [View.set_slice_whole, Rect.mem_set_unit]
  exact rows_cover (R := 2000) (C := 128) (by decide) (idx_facts7 _).1 (idx_facts7 _).2.1 rfl rfl (i 1).isLt

theorem final7 (c : Dev nD) : (dat7 (F := Ideal) V c).arrAt 6 cfg7.N
    = Cert.Spec.combine (V c main_v124) (V c main_v112) (V c main_v28) (V c main_v127) (V c main_v130) (V c main_v133) :=
  (dat7 V c).arrAt_eq_of_cover 6 (combined7 V c) (fun t _ => flushed7_6 V c t) covered7_6

end Cert.KernelIdeal.Hand
end
-- ==== Proof.LibRowTake.lean ====
import Idealize.ShloMosaic.Lib.ValueIdx

noncomputable section

open scoped BigOperators

namespace Idealize.ShloMosaic.RowTake

open Idealize.ShloMosaic Idealize.ShloMosaic.ValueIdx

section Gather
variable {α : Type}

end Gather

section Scatter

abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

theorem rowScatter_start_row (idx : IVec ⟨2, ![R, 1]⟩ w) (e : Fin R) (c : Fin C) :
    (rowScatterDims N R C wf).start (ix2 e c) idx 0 = (idx (ix2 e 0)).toInt := by
  unfold ScatterDims.start
  rw [dif_pos (show (0 : Fin 2) ∈ ([0] : List (Fin 2)) from List.mem_singleton.mpr rfl)]
  have hsi : (rowScatterDims N R C wf).siIdx (ix2 e c) ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowScatter_start_col (idx : IVec ⟨2, ![R, 1]⟩ w) (e : Fin R) (c : Fin C) :
    (rowScatterDims N R C wf).start (ix2 e c) idx 1 = 0 := by
  unfold ScatterDims.start
  rw [dif_neg (show (1 : Fin 2) ∉ ([0] : List (Fin 2)) from by decide)]

theorem rowScatter_mem_sKept (a : Fin 2) : a ∈ (rowScatterDims N R C wf).sKept ↔ a ∉ ([0] : List (Fin 2)) := by
  simp [ScatterDims.sKept, Shape.kept, List.mem_filter, List.mem_finRange]

theorem rowScatter_window_row (e : Fin R) (c : Fin C) : (rowScatterDims N R C wf).window (ix2 e c) 0 = 0 := by
  unfold ScatterDims.window
  rw [dif_neg (fun h => ((rowScatter_mem_sKept wf 0).mp h) (List.mem_singleton.mpr rfl))]

theorem rowScatter_window_col (e : Fin R) (c : Fin C) : (rowScatterDims N R C wf).window (ix2 e c) 1 = c.val := by
  unfold ScatterDims.window
  rw [dif_pos ((rowScatter_mem_sKept wf 1).mpr (by decide))]
  rfl

theorem rowScatter_lands (idx : IVec ⟨2, ![R, 1]⟩ w) (e : Fin R) (c : Fin C) (n : Fin N) (c' : Fin C) :
    (rowScatterDims N R C wf).resultIdx? (ix2 e c) idx = some (ix2 n c')
      ↔ (idx (ix2 e 0)).toInt = (n.val : Int) ∧ c = c' := by

  have h0 : (rowScatterDims N R C wf).start (ix2 e c) idx 0 + ((rowScatterDims N R C wf).window (ix2 e c) 0 : Nat)
      = (idx (ix2 e 0)).toInt := by
    rw [rowScatter_start_row, rowScatter_window_row, Nat.cast_zero, Int.add_zero]
  have h1 : (rowScatterDims N R C wf).start (ix2 e c) idx 1 + ((rowScatterDims N R C wf).window (ix2 e c) 1 : Nat)
      = (c.val : Int) := by
    rw [rowScatter_start_col, rowScatter_window_col, Int.zero_add]
  have hN : (⟨2, ![N, C]⟩ : Shape).size 0 = N := rfl
  have hC : (⟨2, ![N, C]⟩ : Shape).size 1 = C := rfl
  unfold ScatterDims.resultIdx?
  constructor
  · intro h
    by_cases hall : ∀ a, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat)
    · rw [dif_pos hall] at h
      have heq := Option.some.inj h

      have e0 : ((rowScatterDims N R C wf).start (ix2 e c) idx 0
          + ((rowScatterDims N R C wf).window (ix2 e c) 0 : Nat)).toNat = n.val :=
        congrArg (fun f => (f 0).val) heq
      have e1 : ((rowScatterDims N R C wf).start (ix2 e c) idx 1
          + ((rowScatterDims N R C wf).window (ix2 e c) 1 : Nat)).toNat = c'.val :=
        congrArg (fun f => (f 1).val) heq
      have p0 := (hall 0).1
      rw [h0] at e0 p0
      rw [h1] at e1
      refine ⟨by omega, Fin.ext (by omega)⟩
    · rw [dif_neg hall] at h
      exact absurd h (by simp)
  · rintro ⟨hi, rfl⟩
    have hall : ∀ a, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat) := by
      rw [Fin.forall_fin_two, h0, h1, hN, hC, hi]
      have := n.isLt
      have := c.isLt
      omega
    rw [dif_pos hall]
    congr 1
    funext a
    refine Fin.ext ?_
    match a with
    | ⟨0, _⟩ =>
      exact (show ((rowScatterDims N R C wf).start (ix2 e c) idx 0
          + ((rowScatterDims N R C wf).window (ix2 e c) 0 : Nat)).toNat = n.val by rw [h0, hi]; exact Int.toNat_natCast _)
    | ⟨1, _⟩ =>
      exact (show ((rowScatterDims N R C wf).start (ix2 e c) idx 1
          + ((rowScatterDims N R C wf).window (ix2 e c) 1 : Nat)).toNat = c.val by rw [h1]; exact Int.toNat_natCast _)

theorem rowScatterAdd_apply (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowScatterDims N R C wf) x idx upd (ix2 n c)
      = x (ix2 n c) + ∑ e : Fin R, if (idx (ix2 e 0)).toInt = (n.val : Int) then upd (ix2 e c) else 0 := by
  unfold Ideal.hostScatterAdd
  congr 1

  rw [Finset.sum_filter, sum_idx2]
  refine Finset.sum_congr rfl (fun e _ => ?_)

  rw [Finset.sum_eq_single c]
  · by_cases hi : (idx (ix2 e 0)).toInt = (n.val : Int)
    · rw [if_pos ((rowScatter_lands wf idx e c n c).mpr ⟨hi, rfl⟩), if_pos hi]
    · rw [if_neg (fun h => hi ((rowScatter_lands wf idx e c n c).mp h).1), if_neg hi]
  · intro b _ hb
    exact if_neg (fun h => hb ((rowScatter_lands wf idx e b n c).mp h).2)
  · intro h
    exact absurd (Finset.mem_univ c) h

end Scatter

end Idealize.ShloMosaic.RowTake

end
-- ==== Proof.RefSpec.lean ====
import proofs.«417545_j39908836114735_1_alg».proof.Proof.RefRead
import proofs.«417545_j39908836114735_1_alg».proof.Proof.Spec
import proofs.«417545_j39908836114735_1_alg».proof.Proof.LibRowTake
import Idealize.ShloMosaic.Lib.ValueIdx
import Idealize.ShloMosaic.Lib.IdealHost
import Idealize.ShloMosaic.PureOps.Ideal.Laws

noncomputable section

open scoped BigOperators

namespace Cert.Proof.RefSpec

open Idealize.ShloMosaic Idealize.ShloMosaic.ValueIdx
open Cert.ReferenceIdeal (dot_S100000x128_S128x128_S100000x128_1_0_0_1_n_n)
open Cert.ReferenceIdeal.ReadP (lhs_main_v31_0 lhs_main_v31_1 rhs_main_v31_0 rhs_main_v31_1)

abbrev channelOfContr :
    dot_S100000x128_S128x128_S100000x128_1_0_0_1_n_n.contr.Idx ≃ Fin 128 :=
  contrEquiv1 dot_S100000x128_S128x128_S100000x128_1_0_0_1_n_n 128 rfl rfl

theorem featureIdx_at (i : Cert.Spec.SN.Idx) (k : Fin 128) :
    dot_S100000x128_S128x128_S100000x128_1_0_0_1_n_n.lhsIdx i (channelOfContr.symm k) = ix2 (i 0) k := by
  have hk := contrEquiv1_symm_val dot_S100000x128_S128x128_S100000x128_1_0_0_1_n_n 128 rfl rfl k
  funext a
  refine Fin.ext ?_
  match a with
  | ⟨0, _⟩ => exact lhs_main_v31_0 _ _
  | ⟨1, _⟩ => exact (lhs_main_v31_1 _ _).trans hk

theorem weightIdx_at (i : Cert.Spec.SN.Idx) (k : Fin 128) :
    dot_S100000x128_S128x128_S100000x128_1_0_0_1_n_n.rhsIdx i (channelOfContr.symm k) = ix2 k (i 1) := by
  have hk := contrEquiv1_symm_val dot_S100000x128_S128x128_S100000x128_1_0_0_1_n_n 128 rfl rfl k
  funext a
  refine Fin.ext ?_
  match a with
  | ⟨0, _⟩ => exact (rhs_main_v31_0 _ _).trans hk
  | ⟨1, _⟩ => exact rhs_main_v31_1 _ _

theorem mm_eq_dot (x : Cert.Spec.SN.Idx → EReal) (w : Cert.Spec.SW.Idx → EReal) :
    Cert.Spec.mm x w
      = Host.dotGeneral (F := Ideal) (φ₁ := .f32) (φ₂ := .f32)
          dot_S100000x128_S128x128_S100000x128_1_0_0_1_n_n none x w := by
  funext i
  simp only [Host.dotGeneral]
  rw [Ideal.dotGeneral_apply, ← Equiv.sum_comp channelOfContr.symm]
  unfold Cert.Spec.mm
  refine Finset.sum_congr rfl fun k _ => ?_
  rw [featureIdx_at, weightIdx_at]
  rfl

open Cert.ReferenceIdeal (scatter_S64x128_S100000x1_S100000x128_1_0_0_1)

theorem toInt_graphWord (g : ℕ) (hg : g < 64) : (BitVec.ofNat 32 g).toInt = (g : Int) := by
  have hn : (BitVec.ofNat 32 g).toNat = g := by
    rw [BitVec.toNat_ofNat]; exact Nat.mod_eq_of_lt (by omega)
  rw [BitVec.toInt_eq_toNat_of_lt (by rw [hn]; omega), hn]

theorem eq_graphWord_iff (w : BitVec 32) (g : ℕ) (hg : g < 64) :
    w = BitVec.ofNat 32 g ↔ w.toInt = (g : Int) :=
  ⟨fun h => h ▸ toInt_graphWord g hg, fun h => BitVec.eq_of_toInt_eq (h.trans (toInt_graphWord g hg).symm)⟩

theorem poolScatter_is_rowScatter :
    scatter_S64x128_S100000x1_S100000x128_1_0_0_1
      = RowTake.rowScatterDims 64 100000 128
          Cert.ReferenceIdeal.Facts₀.scatter_S64x128_S100000x1_S100000x128_1_0_0_1_wf := rfl

theorem poolStart_eq_zero (j : Cert.Spec.SG.Idx) :
    Cert.ReferenceIdeal.ReadP.val_main_v209 (F := Ideal) j = (0 : EReal) := by
  rw [Cert.ReferenceIdeal.ReadP.val_main_v209_apply, Cert.ReferenceIdeal.ReadP.val_main_cst_21_apply]
  exact Ideal.ofBits_zero_f32

theorem poolColumn_at (x2 : Cert.ReferenceIdeal.S100000.Idx → BitVec 32) (n : Fin 100000) :
    Cert.ReferenceIdeal.ReadP.val_main_v210 (F := Ideal) x2 (ix2 n 0) = x2 (ix1 n) := by
  rw [Cert.ReferenceIdeal.ReadP.val_main_v210_apply]
  congr 1
  funext a
  match a with
  | ⟨0, _⟩ => rfl

theorem pool_eq_scatter (x2 : Cert.ReferenceIdeal.S100000.Idx → BitVec 32) (b2d : Cert.Spec.SC.Idx → BitVec 32)
    (hb : ∀ n : Fin 100000, b2d (ix2 n 0) = x2 (ix1 n)) (h : Cert.Spec.SN.Idx → EReal) :
    Cert.Spec.pool b2d h
      = Host.scatterAdd (F := Ideal) (φ := .f32) scatter_S64x128_S100000x1_S100000x128_1_0_0_1
          (Cert.ReferenceIdeal.ReadP.val_main_v209 (F := Ideal))
          (Cert.ReferenceIdeal.ReadP.val_main_v210 (F := Ideal) x2) h := by
  funext i
  obtain ⟨g, c, rfl⟩ : ∃ (g : Fin 64) (c : Fin 128), i = ix2 g c := ⟨i 0, i 1, eq_ix2 i⟩
  show _ = Ideal.hostScatterAdd scatter_S64x128_S100000x1_S100000x128_1_0_0_1
      (Cert.ReferenceIdeal.ReadP.val_main_v209 (F := Ideal))
      (Cert.ReferenceIdeal.ReadP.val_main_v210 (F := Ideal) x2) h (ix2 g c)
  rw [poolScatter_is_rowScatter, RowTake.rowScatterAdd_apply, poolStart_eq_zero, zero_add]
  unfold Cert.Spec.pool
  refine Finset.sum_congr rfl fun e _ => ?_
  rw [poolColumn_at, ← hb e]
  show (if b2d (ix2 e 0) = BitVec.ofNat 32 g.val then (1 : EReal) else 0) * h (ix2 e c)
      = if (b2d (ix2 e 0)).toInt = (g.val : Int) then h (ix2 e c) else 0
  by_cases hc : b2d (ix2 e 0) = BitVec.ofNat 32 g.val
  · rw [if_pos hc, if_pos ((eq_graphWord_iff _ _ g.isLt).1 hc), one_mul]
  · rw [if_neg hc, if_neg (fun ht => hc ((eq_graphWord_iff _ _ g.isLt).2 ht)), zero_mul]

open Cert.ReferenceIdeal (S64x128 S128x128 S128 S128x16 S16 S64x16 S128x1 S1 S64x1
  dot_S64x128_S128x128_S64x128_1_0_0_1_n_n dot_S64x128_S128x16_S64x16_1_0_0_1_n_n dot_S64x128_S128x1_S64x1_1_0_0_1_n_n)
open Cert.ReferenceIdeal (ReadP.val_main_v211 ReadP.val_main_v214 ReadP.val_main_v219 ReadP.val_main_v223 ReadP.val_main_v228
  ReadP.val_main_v232 ReadP.val_main_v234 ReadP.val_main_call4_v0 ReadP.val_main_call5_v0 ReadP.val_main_v220 ReadP.val_main_v235)

section Heads
variable {F : FTy → Type} [FloatOps F]

def logitsRef (p : FVec F S64x128 .f32) (x9 : FVec F S128x128 .f32) (x10 : FVec F S128 .f32)
    (x11 : FVec F S128x16 .f32) (x12 : FVec F S16 .f32) : FVec F S64x16 .f32 :=
  addf (Host.dotGeneral dot_S64x128_S128x16_S64x16_1_0_0_1_n_n none
      (maximumf (addf (Host.dotGeneral dot_S64x128_S128x128_S64x128_1_0_0_1_n_n none p x9) (ReadP.val_main_v214 (F := F) x10))
        (ReadP.val_main_call4_v0 (F := F))) x11)
    (ReadP.val_main_v219 (F := F) x12)

def noveltyPreRef (p : FVec F S64x128 .f32) (x13 : FVec F S128x128 .f32) (x14 : FVec F S128 .f32)
    (x15 : FVec F S128x1 .f32) (x16 : FVec F S1 .f32) : FVec F S64x1 .f32 :=
  addf (Host.dotGeneral dot_S64x128_S128x1_S64x1_1_0_0_1_n_n none
      (maximumf (addf (Host.dotGeneral dot_S64x128_S128x128_S64x128_1_0_0_1_n_n none p x13) (ReadP.val_main_v223 (F := F) x14))
        (ReadP.val_main_call5_v0 (F := F))) x15)
    (ReadP.val_main_v228 (F := F) x16)

def noveltyRef (p : FVec F S64x128 .f32) (x13 : FVec F S128x128 .f32) (x14 : FVec F S128 .f32)
    (x15 : FVec F S128x1 .f32) (x16 : FVec F S1 .f32) : FVec F S64x1 .f32 :=
  Host.divf (ReadP.val_main_v234 (F := F))
    (addf (ReadP.val_main_v232 (F := F)) (Host.exp (Host.negf (noveltyPreRef p x13 x14 x15 x16))))

theorem val_main_v220_eq_logitsRef
    (x0 : FVec F Cert.ReferenceIdeal.S100000x128 .f32) (x1 : IVec Cert.ReferenceIdeal.S2x1600000 32)
    (x2 : IVec Cert.ReferenceIdeal.S100000 32) (x3 : FVec F Cert.ReferenceIdeal.S4x128x128 .f32)
    (x4 x5 x6 x7 x8 : FVec F Cert.ReferenceIdeal.S4x128 .f32)
    (x9 : FVec F S128x128 .f32) (x10 : FVec F S128 .f32) (x11 : FVec F S128x16 .f32) (x12 : FVec F S16 .f32) :
    ReadP.val_main_v220 (F := F) x0 x1 x2 x3 x4 x5 x6 x7 x8 x9 x10 x11 x12
      = logitsRef (ReadP.val_main_v211 (F := F) x0 x1 x2 x3 x4 x5 x6 x7 x8) x9 x10 x11 x12 := rfl

theorem val_main_v235_eq_noveltyRef
    (x0 : FVec F Cert.ReferenceIdeal.S100000x128 .f32) (x1 : IVec Cert.ReferenceIdeal.S2x1600000 32)
    (x2 : IVec Cert.ReferenceIdeal.S100000 32) (x3 : FVec F Cert.ReferenceIdeal.S4x128x128 .f32)
    (x4 x5 x6 x7 x8 : FVec F Cert.ReferenceIdeal.S4x128 .f32)
    (x13 : FVec F S128x128 .f32) (x14 : FVec F S128 .f32) (x15 : FVec F S128x1 .f32) (x16 : FVec F S1 .f32) :
    ReadP.val_main_v235 (F := F) x0 x1 x2 x3 x4 x5 x6 x7 x8 x13 x14 x15 x16
      = noveltyRef (ReadP.val_main_v211 (F := F) x0 x1 x2 x3 x4 x5 x6 x7 x8) x13 x14 x15 x16 := rfl

end Heads

theorem dot_apply_of_axes {m k n : ℕ}
    (D : DotDims ⟨2, ![m, k]⟩ ⟨2, ![k, n]⟩ ⟨2, ![m, n]⟩) (hr : D.contr.rank = 1)
    (hs : D.contr.size ⟨0, by omega⟩ = k)
    (l0 : ∀ (i : (⟨2, ![m, n]⟩ : Shape).Idx) (q : D.contr.Idx), (D.lhsIdx i q 0).val = (i 0).val)
    (l1 : ∀ (i : (⟨2, ![m, n]⟩ : Shape).Idx) (q : D.contr.Idx), (D.lhsIdx i q 1).val = (q ⟨0, by omega⟩).val)
    (r0 : ∀ (i : (⟨2, ![m, n]⟩ : Shape).Idx) (q : D.contr.Idx), (D.rhsIdx i q 0).val = (q ⟨0, by omega⟩).val)
    (r1 : ∀ (i : (⟨2, ![m, n]⟩ : Shape).Idx) (q : D.contr.Idx), (D.rhsIdx i q 1).val = (i 1).val)
    (a : FVec Ideal ⟨2, ![m, k]⟩ .f32) (b : FVec Ideal ⟨2, ![k, n]⟩ .f32) (r : Fin m) (c : Fin n) :
    Host.dotGeneral D none a b (ix2 r c) = ∑ j : Fin k, a (ix2 r j) * b (ix2 j c) := by
  simp only [Host.dotGeneral]
  rw [Ideal.dotGeneral_apply, ← Equiv.sum_comp (contrEquiv1 D k hr hs).symm]
  refine Finset.sum_congr rfl fun j _ => ?_
  have hj := contrEquiv1_symm_val D k hr hs j
  have el : D.lhsIdx (ix2 r c) ((contrEquiv1 D k hr hs).symm j) = ix2 r j := by
    funext d
    refine Fin.ext ?_
    match d with
    | ⟨0, _⟩ => exact l0 _ _
    | ⟨1, _⟩ => exact (l1 _ _).trans hj
  have er : D.rhsIdx (ix2 r c) ((contrEquiv1 D k hr hs).symm j) = ix2 j c := by
    funext d
    refine Fin.ext ?_
    match d with
    | ⟨0, _⟩ => exact (r0 _ _).trans hj
    | ⟨1, _⟩ => exact r1 _ _
  rw [el, er]

theorem clipFloor4_at (j : S64x128.Idx) : ReadP.val_main_call4_v0 (F := Ideal) j = (0 : EReal) := by
  rw [Cert.ReferenceIdeal.ReadP.val_main_call4_v0_apply, Cert.ReferenceIdeal.ReadP.val_main_call4_cst_apply]
  exact Ideal.ofBits_zero_f32

theorem clipFloor5_at (j : S64x128.Idx) : ReadP.val_main_call5_v0 (F := Ideal) j = (0 : EReal) := by
  rw [Cert.ReferenceIdeal.ReadP.val_main_call5_v0_apply, Cert.ReferenceIdeal.ReadP.val_main_call5_cst_apply]
  exact Ideal.ofBits_zero_f32

theorem onesInner_at (j : S64x1.Idx) : ReadP.val_main_v232 (F := Ideal) j = (1 : EReal) := by
  rw [Cert.ReferenceIdeal.ReadP.val_main_v232_apply, Cert.ReferenceIdeal.ReadP.val_main_cst_22_apply]
  exact Ideal.ofBits_one_f32

theorem onesOuter_at (j : S64x1.Idx) : ReadP.val_main_v234 (F := Ideal) j = (1 : EReal) := by
  rw [Cert.ReferenceIdeal.ReadP.val_main_v234_apply, Cert.ReferenceIdeal.ReadP.val_main_cst_23_apply]
  exact Ideal.ofBits_one_f32

theorem bias1Logits_at (x10 : FVec Ideal S128 .f32) (g : Fin 64) (k : Fin 128) :
    ReadP.val_main_v214 (F := Ideal) x10 (ix2 g k) = x10 (ix1 k) := by
  rw [Cert.ReferenceIdeal.ReadP.val_main_v214_apply, Cert.ReferenceIdeal.ReadP.val_main_v213_apply]
  congr 1
  funext d
  match d with
  | ⟨0, _⟩ => rfl

theorem bias2Logits_at (x12 : FVec Ideal S16 .f32) (g : Fin 64) (k : Fin 16) :
    ReadP.val_main_v219 (F := Ideal) x12 (ix2 g k) = x12 (ix1 k) := by
  rw [Cert.ReferenceIdeal.ReadP.val_main_v219_apply, Cert.ReferenceIdeal.ReadP.val_main_v218_apply]
  congr 1
  funext d
  match d with
  | ⟨0, _⟩ => rfl

theorem bias1Novelty_at (x14 : FVec Ideal S128 .f32) (g : Fin 64) (k : Fin 128) :
    ReadP.val_main_v223 (F := Ideal) x14 (ix2 g k) = x14 (ix1 k) := by
  rw [Cert.ReferenceIdeal.ReadP.val_main_v223_apply, Cert.ReferenceIdeal.ReadP.val_main_v222_apply]
  congr 1
  funext d
  match d with
  | ⟨0, _⟩ => rfl

theorem bias2Novelty_at (x16 : FVec Ideal S1 .f32) (g : Fin 64) (k : Fin 1) :
    ReadP.val_main_v228 (F := Ideal) x16 (ix2 g k) = x16 (ix1 k) := by
  rw [Cert.ReferenceIdeal.ReadP.val_main_v228_apply, Cert.ReferenceIdeal.ReadP.val_main_v227_apply]
  congr 1
  funext d
  match d with
  | ⟨0, _⟩ => exact Subsingleton.elim (α := Fin 1) _ _

theorem hiddenRef_at (p : FVec Ideal S64x128 .f32) (w1 : FVec Ideal S128x128 .f32) (b1r : Cert.Spec.SR.Idx → EReal)
    (bias : FVec Ideal S64x128 .f32) (hbias : ∀ (g : Fin 64) (k : Fin 128), bias (ix2 g k) = b1r (ix2 0 k))
    (z : FVec Ideal S64x128 .f32) (hz : ∀ j, z j = (0 : EReal)) (g : Fin 64) (k : Fin 128) :
    maximumf (addf (Host.dotGeneral dot_S64x128_S128x128_S64x128_1_0_0_1_n_n none p w1) bias) z (ix2 g k)
      = Cert.Spec.hidden p w1 b1r g k := by
  rw [maximumf_apply, addf_apply,
    dot_apply_of_axes dot_S64x128_S128x128_S64x128_1_0_0_1_n_n rfl rfl
      Cert.ReferenceIdeal.ReadP.lhs_main_v212_0 Cert.ReferenceIdeal.ReadP.lhs_main_v212_1
      Cert.ReferenceIdeal.ReadP.rhs_main_v212_0 Cert.ReferenceIdeal.ReadP.rhs_main_v212_1,
    hbias, hz]
  rfl

theorem logits_eq (p : Cert.Spec.SG.Idx → EReal) (x9 : Cert.Spec.SW.Idx → EReal) (x10 : S128.Idx → EReal)
    (b1r : Cert.Spec.SR.Idx → EReal) (hb1 : ∀ k : Fin 128, b1r (ix2 0 k) = x10 (ix1 k))
    (x11 : (⟨2, ![128, 16]⟩ : Shape).Idx → EReal) (x12 : S16.Idx → EReal)
    (b2r : (⟨2, ![1, 16]⟩ : Shape).Idx → EReal) (hb2 : ∀ k : Fin 16, b2r (ix2 0 k) = x12 (ix1 k)) :
    Cert.Spec.logits p x9 b1r x11 b2r = logitsRef (F := Ideal) p x9 x10 x11 x12 := by
  funext i
  obtain ⟨g, c, rfl⟩ : ∃ (g : Fin 64) (c : Fin 16), i = ix2 g c := ⟨i 0, i 1, eq_ix2 i⟩
  unfold logitsRef
  rw [addf_apply,
    dot_apply_of_axes dot_S64x128_S128x16_S64x16_1_0_0_1_n_n rfl rfl
      Cert.ReferenceIdeal.ReadP.lhs_main_v217_0 Cert.ReferenceIdeal.ReadP.lhs_main_v217_1
      Cert.ReferenceIdeal.ReadP.rhs_main_v217_0 Cert.ReferenceIdeal.ReadP.rhs_main_v217_1,
    bias2Logits_at, ← hb2 c]
  unfold Cert.Spec.logits
  refine congrArg₂ (· + ·) (Finset.sum_congr rfl fun k _ => ?_) rfl
  rw [hiddenRef_at p x9 b1r _ (fun g k => (bias1Logits_at x10 g k).trans (hb1 k).symm) _ clipFloor4_at]

theorem noveltyPre_at (p : Cert.Spec.SG.Idx → EReal) (x13 : Cert.Spec.SW.Idx → EReal) (x14 : S128.Idx → EReal)
    (b1r : Cert.Spec.SR.Idx → EReal) (hb1 : ∀ k : Fin 128, b1r (ix2 0 k) = x14 (ix1 k))
    (x15 : (⟨2, ![128, 1]⟩ : Shape).Idx → EReal) (x16 : S1.Idx → EReal)
    (b2r : (⟨2, ![1, 1]⟩ : Shape).Idx → EReal) (hb2 : ∀ k : Fin 1, b2r (ix2 0 k) = x16 (ix1 k))
    (g : Fin 64) (c : Fin 1) :
    noveltyPreRef (F := Ideal) p x13 x14 x15 x16 (ix2 g c)
      = (∑ k : Fin 128, Cert.Spec.hidden p x13 b1r g k * x15 (ix2 k c)) + b2r (ix2 0 c) := by
  unfold noveltyPreRef
  rw [addf_apply,
    dot_apply_of_axes dot_S64x128_S128x1_S64x1_1_0_0_1_n_n rfl rfl
      Cert.ReferenceIdeal.ReadP.lhs_main_v226_0 Cert.ReferenceIdeal.ReadP.lhs_main_v226_1
      Cert.ReferenceIdeal.ReadP.rhs_main_v226_0 Cert.ReferenceIdeal.ReadP.rhs_main_v226_1,
    bias2Novelty_at, ← hb2 c]
  refine congrArg₂ (· + ·) (Finset.sum_congr rfl fun k _ => ?_) rfl
  rw [hiddenRef_at p x13 b1r _ (fun g k => (bias1Novelty_at x14 g k).trans (hb1 k).symm) _ clipFloor5_at]

theorem novelty_eq (p : Cert.Spec.SG.Idx → EReal) (x13 : Cert.Spec.SW.Idx → EReal) (x14 : S128.Idx → EReal)
    (b1r : Cert.Spec.SR.Idx → EReal) (hb1 : ∀ k : Fin 128, b1r (ix2 0 k) = x14 (ix1 k))
    (x15 : (⟨2, ![128, 1]⟩ : Shape).Idx → EReal) (x16 : S1.Idx → EReal)
    (b2r : (⟨2, ![1, 1]⟩ : Shape).Idx → EReal) (hb2 : ∀ k : Fin 1, b2r (ix2 0 k) = x16 (ix1 k)) :
    Cert.Spec.novelty p x13 b1r x15 b2r = noveltyRef (F := Ideal) p x13 x14 x15 x16 := by
  funext i
  obtain ⟨g, c, rfl⟩ : ∃ (g : Fin 64) (c : Fin 1), i = ix2 g c := ⟨i 0, i 1, eq_ix2 i⟩
  show _ = Ideal.div (ReadP.val_main_v234 (F := Ideal) (ix2 g c))
      (ReadP.val_main_v232 (F := Ideal) (ix2 g c)
        + Ideal.exp (-(noveltyPreRef (F := Ideal) p x13 x14 x15 x16 (ix2 g c))))
  rw [onesOuter_at, onesInner_at, noveltyPre_at p x13 x14 b1r hb1 x15 x16 b2r hb2 g c]
  rfl

end Cert.Proof.RefSpec

end
-- ==== Proof.Layer.lean ====
import proofs.«417545_j39908836114735_1_alg».proof.Proof.Spec

noncomputable section

namespace Cert.Layer

open Idealize.ShloMosaic Idealize.ShloMosaic.ValueIdx Cert.Spec

theorem combine_eq_ref
    (agg hw : SN.Idx → EReal) (sn : SC.Idx → EReal) (b sc sh : SR.Idx → EReal)
    (snB bB muB scB beB zB : SN.Idx → EReal)
    (hsn : ∀ i, snB i = sn (ix2 (i 0) 0))
    (hb : ∀ i, bB i = b (ix2 0 (i 1)))
    (hsc : ∀ i, scB i = sc (ix2 0 (i 1)))
    (hsh : ∀ i, sh (ix2 0 (i 1)) = beB i - muB i * scB i)
    (hreal : ∀ i, ∃ s μ β : ℝ, scB i = (s : EReal) ∧ muB i = (μ : EReal) ∧ beB i = (β : EReal))
    (hz : ∀ i, zB i = 0) :
    Cert.Spec.combine agg hw sn b sc sh
      = fun i => max ((((agg i + hw i * snB i) + bB i) - muB i) * scB i + beB i) (zB i) := by
  funext i
  obtain ⟨s, μ, β, h1, h2, h3⟩ := hreal i
  show max ((agg i + hw i * sn (ix2 (i 0) 0) + b (ix2 0 (i 1))) * sc (ix2 0 (i 1)) + sh (ix2 0 (i 1))) 0 = _
  rw [hsh i, ← hsc i, ← hsn i, ← hb i, hz i, h1, h2, h3]
  exact congrArg (fun z => max z 0) (bn_two_ways _ s μ β)

end Cert.Layer

end
-- ==== Proof.Rows3.lean ====
/-
  Layer 3's rows of the batch-norm parameters, read entry by entry on both sides: what the kernel program's
  [1, 128] arrays before the layer's combine step hold, and what the reference program's row arrays, repeated down
  the 100000 nodes, hold, in terms of the [4, 128] parameters at (3, channel). The statements and arguments are
  layer 0's (Rows.lean) with row 3 in place of row 0.
-/
import proofs.«417545_j39908836114735_1_alg».proof.Proof.Rows

set_option maxRecDepth 16384

noncomputable section

namespace Cert.Proof.Rows

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

/-! ## The kernel program's host stretch before layer 3's combine -/

section Kernel
variable (Vp : Valuation τ sig (Elt Ideal))

/-- Before layer 3's combine: row 3 of the bias. -/
theorem k_row3_b (j : Fin 128) :
    StableHlo.after hostOps7 Vp main_v127 (ix2 0 j) = Vp main_arg4 (ix2 3 j) := by
  simp only [hostOps7]
  after_results_simp
  exact row_read _ 3 rfl rfl _ _ _ _ j

/-- Before layer 3's combine: row 3 of the factor. -/
theorem k_row3_sc (j : Fin 128) :
    StableHlo.after hostOps7 Vp main_v130 (ix2 0 j) = Vp main_v32 (ix2 3 j) := by
  simp only [hostOps7]
  after_results_simp
  exact row_read _ 3 rfl rfl _ _ _ _ j

/-- Before layer 3's combine: row 3 of the offset. -/
theorem k_row3_sh (j : Fin 128) :
    StableHlo.after hostOps7 Vp main_v133 (ix2 0 j) = Vp main_v34 (ix2 3 j) := by
  simp only [hostOps7]
  after_results_simp
  exact row_read _ 3 rfl rfl _ _ _ _ j

end Kernel

/-! ## The reference program's rows in layer 3 -/

/-- The self-loop weight of node n, repeated along the channels. -/
theorem r3_sn (x1 : S2x1600000.Idx → BitVec 32) (i : S100000x128.Idx) :
    val_main_v179 (F := Ideal) x1 i = val_main_v28 (F := Ideal) x1 (ix2 (i 0) 0) := by
  rw [val_main_v179_apply]
  refine congrArg (val_main_v28 (F := Ideal) x1) ?_
  funext a
  match a with
  | ⟨0, _⟩ => rfl
  | ⟨1, _⟩ => rfl

/-- Row 3 of the bias. -/
theorem r3_b (x4 : S4x128.Idx → EReal) (i : S100000x128.Idx) :
    val_main_v185 (F := Ideal) x4 i = x4 (ix2 3 (i 1)) := by
  rw [val_main_v185_apply, val_main_v184_apply, val_main_v183_apply, val_main_v182_apply]
  exact congrArg x4 (idx_eq _ 3 (i 1) (by rfl) (by rfl))

/-- Row 3 of the running mean. -/
theorem r3_mu (x7 : S4x128.Idx → EReal) (i : S100000x128.Idx) :
    val_main_v190 (F := Ideal) x7 i = x7 (ix2 3 (i 1)) := by
  rw [val_main_v190_apply, val_main_v189_apply, val_main_v188_apply, val_main_v187_apply]
  exact congrArg x7 (idx_eq _ 3 (i 1) (by rfl) (by rfl))

/-- Row 3 of the offset parameter beta. -/
theorem r3_be (x6 : S4x128.Idx → EReal) (i : S100000x128.Idx) :
    val_main_v206 (F := Ideal) x6 i = x6 (ix2 3 (i 1)) := by
  rw [val_main_v206_apply, val_main_v205_apply, val_main_v204_apply, val_main_v203_apply]
  exact congrArg x6 (idx_eq _ 3 (i 1) (by rfl) (by rfl))

/-- The layer's factor gamma / sqrt (var + eps), computed on row 3 and repeated down the nodes. -/
theorem r3_sc (x5 x8 : S4x128.Idx → EReal) (i : S100000x128.Idx) :
    val_main_v201 (F := Ideal) x5 x8 i
      = Ideal.div (x5 (ix2 3 (i 1))) (Ideal.sqrt (x8 (ix2 3 (i 1)) + Ideal.ofBits .f32 0x3727C5AC#32)) := by
  rw [val_main_v201_apply, val_main_v200_apply, val_main_v199_apply, val_main_v198_apply, val_main_v197_apply, val_main_v196_apply, val_main_cst_20_apply,
    val_main_v193_apply, val_main_v192_apply, val_main_v195_apply, val_main_v194_apply,
    Ideal.hostDivf_def, Ideal.hostUnary_sqrt_def, Ideal.addf_def, Ideal.ofBits_def,
    idx_eq (idx_main_v192 (idx_main_v193 (idx_main_v200 (idx_main_v201 i)))) 3 (i 1) rfl rfl,
    idx_eq (idx_main_v194 (idx_main_v195 (idx_main_v200 (idx_main_v201 i)))) 3 (i 1) rfl rfl]

/-- The array the layer's clip compares with is zero everywhere. -/
theorem r3_z (i : S100000x128.Idx) : val_main_call3_v0 (F := Ideal) i = 0 := by
  rw [val_main_call3_v0_apply, val_main_call3_cst_apply, Ideal.ofBits_def, Ideal.ofBits_zero_f32]

end Cert.Proof.Rows
-- ==== Proof.KI.V4.lean ====
import proofs.«417545_j39908836114735_1_alg».proof.Proof.KI.B4
import proofs.«417545_j39908836114735_1_alg».proof.Proof.Spec
import proofs.«417545_j39908836114735_1_alg».proof.Proof.KI.Cover
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window cellOf)
open scoped BigOperators

variable (V : (c : Dev nD) → (b : Ref sig .tc) → Buf (Elt Ideal) ((c : Thread nD τ).loc b))

theorem mmL4_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mmL4_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q

theorem mmR4_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem mmR4_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem pay4_apply (x0 : Vec Ideal S2000x128 .f32) (x1 : Vec Ideal S128x128 .f32) (j : S2000x128.Idx) :
    k4_pay1 (F := Ideal) x0 x1 j = ∑ k : Fin 128, x0 (ix2 (n0 := 2000) (n1 := 128) (j 0) k) * x1 (ix2 (n0 := 128) (n1 := 128) k (j 1)) := by
  unfold k4_pay1
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx j ((contrEquiv1 dot_S2000x128_S128x128_S2000x128_1_0_0_1_n_n 128 rfl rfl).symm k) = ix2 (n0 := 2000) (n1 := 128) (j 0) k := funext fun a => Fin.ext (by
    match a with
    | ⟨0, _⟩ => exact mmL4_0 _ _
    | ⟨1, _⟩ => exact (mmL4_1 _ _).trans hk)
  have er : dot_S2000x128_S128x128_S2000x128_1_0_0_1_n_n.rhsIdx j ((contrEquiv1 dot_S2000x128_S128x128_S2000x128_1_0_0_1_n_n 128 rfl rfl).symm k) = ix2 (n0 := 128) (n1 := 128) k (j 1) := funext fun a => Fin.ext (by
    match a with
    | ⟨0, _⟩ => exact (mmR4_0 _ _).trans hk
    | ⟨1, _⟩ => exact mmR4_1 _ _)
  rw [el, er]
  simp only [shapeCast_self]
  rfl

theorem zeroOff4 : (![0, 0] : Fin 2 → Nat) = fun _ => 0 := funext fun a => by fin_cases a <;> rfl

theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 1000000 in

theorem flushed4_2_eq (c : Dev nD) (t : Fin cfg4.N) :
    (dat4 (F := Ideal) V c).flushed 2 t
      = ((cfg4.win 2).blk t).view.read (Elt Ideal) (Cert.Spec.mm (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero zeroOff4]
  simp only [View.ld_unit_zero (S := S2000x128) zeroOff4, View.ld_unit_zero (S := S128x128) zeroOff4]
  obtain ⟨e0, e1, e2, e3, e4, e5⟩ := blockIdx4 t
  funext j
  show k4_pay1 (F := Ideal) (iblk4 V c 0 t) (iblk4 V c 1 t) j
    = Cert.Spec.mm (V c (Pipeline.arrRef spec4 0)) (V c (Pipeline.arrRef spec4 1)) (((cfg4.win 2).blk t).view.emb j)
  rw [pay4_apply]
  unfold Cert.Spec.mm
  refine Finset.sum_congr rfl fun k _ => ?_
  have hj0 : (j 0).val < 2000 := (j 0).isLt
  have hj1 : (j 1).val < 128 := (j 1).isLt
  have hk : k.val < 128 := k.isLt
  have h0 : ((cfg4.win 0).blk t).view.emb (ix2 (n0 := 2000) (n1 := 128) (j 0) k)
      = ix2 (n0 := 100000) (n1 := 128) ((((cfg4.win 2).blk t).view.emb j) 0) k := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  have h1 : ((cfg4.win 1).blk t).view.emb (ix2 (n0 := 128) (n1 := 128) k (j 1))
      = ix2 (n0 := 128) (n1 := 128) k ((((cfg4.win 2).blk t).view.emb j) 1) := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  congr 1
  · exact congrArg (V c (Pipeline.arrRef spec4 0)) h0
  · exact congrArg (V c (Pipeline.arrRef spec4 1)) h1

theorem covered4_2 (i : S100000x128.Idx) :
    ∃ t : Fin cfg4.N, (cfg4.win 2).flush t = true ∧ i ∈ ((cfg4.win 2).blk t).view.set := by
  have hN : (i 0).val / 2000 < cfg4.N := Nat.div_lt_of_lt_mul (i 0).isLt
  refine ⟨⟨_, hN⟩, flush4_2 _, ?_⟩
  show i ∈ ((View.whole (Pipeline.arrRef spec4 2)).slice (win4_2.rect ⟨_, hN⟩)).set
  rw [View.set_slice_whole, Rect.mem_set_unit]
  exact rows_cover (R := 2000) (C := 128) (by decide) (blockIdx4 _).2.2.2.2.1 (blockIdx4 _).2.2.2.2.2 rfl rfl (i 1).isLt

theorem final4 (c : Dev nD) : (dat4 (F := Ideal) V c).arrAt 2 cfg4.N = Cert.Spec.mm (V c main_v84) (V c main_v86) :=
  (dat4 (F := Ideal) V c).arrAt_eq_of_cover 2 (Cert.Spec.mm (V c (Pipeline.arrRef spec4 0)) (V c (Pipeline.arrRef spec4 1)))
    (fun t _ => flushed4_2_eq V c t) (covered4_2)

end Cert.KernelIdeal.Hand
end
-- ==== Proof.KI.V5.lean ====
import proofs.«417545_j39908836114735_1_alg».proof.Proof.KI.B5
import proofs.«417545_j39908836114735_1_alg».proof.Proof.Spec
import proofs.«417545_j39908836114735_1_alg».proof.Proof.KI.Cover
import Idealize.ShloMosaic.Lib.Pipeline.Value
import Idealize.ShloMosaic.Lib.ValueLayout
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window cellOf)

theorem zeroOff5 : (![0, 0] : Fin 2 → Nat) = fun _ => 0 := funext fun a => by fin_cases a <;> rfl

theorem colBroadcast5_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem combine_entry5 (agg hw : Vec Ideal S2000x128 .f32) (sn : Vec Ideal S2000x1 .f32) (b sc sh : Vec Ideal S1x128 .f32)
    (p : Fin 2000) (q : Fin 128) :
    k5_pay1 agg hw sn b sc sh (ix2 p q)
      = max ((agg (ix2 p q) + hw (ix2 p q) * sn (ix2 p 0) + b (ix2 0 q)) * sc (ix2 0 q) + sh (ix2 0 q)) 0 := by
  unfold k5_pay1
  simp only [shapeCast_self]
  rw [maximumf_apply, addf_apply, mulf_apply, addf_apply, addf_apply, mulf_apply, broadcast_apply,
    colBroadcast5_apply, broadcastTo_1b_ab_apply, broadcastTo_1b_ab_apply, broadcastTo_1b_ab_apply]
  congr 1
  exact Ideal.ofBits_zero_f32

theorem idx_facts5 : ∀ t : Fin cfg5.N,
    win5_6.index t (0 : Fin 2) = t.val ∧ win5_6.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

variable (V : (c : Dev nD) → (b : Ref sig .tc) → Buf (Elt Ideal) ((c : Thread nD τ).loc b))

theorem combine_block5 (agg hw : Vec Ideal S2000x128 .f32) (sn : Vec Ideal S2000x1 .f32) (b sc sh : Vec Ideal S1x128 .f32)
    (j : S2000x128.Idx) :
    k5_pay1 agg hw sn b sc sh j
      = max ((agg j + hw j * sn (ix2 (j 0) 0) + b (ix2 0 (j 1))) * sc (ix2 0 (j 1)) + sh (ix2 0 (j 1))) 0 := by
  obtain ⟨p, q, rfl⟩ : ∃ p q, j = ix2 p q := ⟨j 0, j 1, eq_ix2 j⟩
  exact combine_entry5 agg hw sn b sc sh p q

theorem combine_at5 (A0 A1 : S100000x128.Idx → EReal) (A2 : S100000x1.Idx → EReal) (A3 A4 A5 : S1x128.Idx → EReal)
    (i0 i1 i : S100000x128.Idx) (i2 : S100000x1.Idx) (i3 i4 i5 : S1x128.Idx)
    (h0 : i0 = i) (h1 : i1 = i) (h2 : i2 = ix2 (i 0) 0) (h3 : i3 = ix2 0 (i 1)) (h4 : i4 = ix2 0 (i 1)) (h5 : i5 = ix2 0 (i 1)) :
    max ((A0 i0 + A1 i1 * A2 i2 + A3 i3) * A4 i4 + A5 i5) 0 = Cert.Spec.combine A0 A1 A2 A3 A4 A5 i := by
  subst h0 h1 h2 h3 h4 h5; rfl

def combined5 (c : Dev nD) : S100000x128.Idx → EReal :=
  Cert.Spec.combine (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))

set_option maxHeartbeats 1000000 in

theorem flushed5_6 (c : Dev nD) (t : Fin cfg5.N) :
    (dat5 V c).flushed 6 t = ((cfg5.win 6).blk t).view.read (Elt Ideal) (combined5 V c) := by
  show (cfg5.win 6).cut (grid5.coords t) ((dat5 V c).after 6 t) = _
  rw [after5_6]
  unfold out5_6
  rw [View.canon_unit_zero zeroOff5]
  simp only [View.ld_unit_zero (S := S2000x128) zeroOff5, View.ld_unit_zero (S := S2000x1) zeroOff5,
    View.ld_unit_zero (S := S1x128) zeroOff5]
  obtain ⟨e60, e61, e00, e01, e10, e11, e20, e21, e30, e31, e40, e41, e50, e51⟩ := idx_facts5 t
  funext j
  refine (combine_block5 _ _ _ _ _ _ j).trans ?_
  have h0 : ((cfg5.win 0).blk t).view.emb j = ((cfg5.win 6).blk t).view.emb j := by
    funext a; apply Fin.ext
    match a with
    | ⟨0, _⟩ => show win5_0.index t (0 : Fin 2) * 2000 + 1 * (j 0).val = win5_6.index t (0 : Fin 2) * 2000 + 1 * (j 0).val; omega
    | ⟨1, _⟩ => show win5_0.index t (1 : Fin 2) * 128 + 1 * (j 1).val = win5_6.index t (1 : Fin 2) * 128 + 1 * (j 1).val; omega
  have h1 : ((cfg5.win 1).blk t).view.emb j = ((cfg5.win 6).blk t).view.emb j := by
    funext a; apply Fin.ext
    match a with
    | ⟨0, _⟩ => show win5_1.index t (0 : Fin 2) * 2000 + 1 * (j 0).val = win5_6.index t (0 : Fin 2) * 2000 + 1 * (j 0).val; omega
    | ⟨1, _⟩ => show win5_1.index t (1 : Fin 2) * 128 + 1 * (j 1).val = win5_6.index t (1 : Fin 2) * 128 + 1 * (j 1).val; omega
  have h2 : ((cfg5.win 2).blk t).view.emb (ix2 (j 0 : Fin 2000) (0 : Fin 1)) = ix2 ((((cfg5.win 6).blk t).view.emb j) 0) (0 : Fin 1) := by
    funext a; apply Fin.ext
    match a with
    | ⟨0, _⟩ => show win5_2.index t (0 : Fin 2) * 2000 + 1 * (j 0).val = win5_6.index t (0 : Fin 2) * 2000 + 1 * (j 0).val; omega
    | ⟨1, _⟩ => show win5_2.index t (1 : Fin 2) * 1 + 1 * 0 = 0; omega
  have h3 : ((cfg5.win 3).blk t).view.emb (ix2 (0 : Fin 1) (j 1 : Fin 128)) = ix2 (0 : Fin 1) ((((cfg5.win 6).blk t).view.emb j) 1) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_6.index t (1 : Fin 2) * 128 + 1 * (j 1).val; omega
  have h4 : ((cfg5.win 4).blk t).view.emb (ix2 (0 : Fin 1) (j 1 : Fin 128)) = ix2 (0 : Fin 1) ((((cfg5.win 6).blk t).view.emb j) 1) := by
    funext a; apply Fin.ext
    match a with
    | ⟨0, _⟩ => show win5_4.index t (0 : Fin 2) * 1 + 1 * 0 = 0; omega
    | ⟨1, _⟩ => show win5_4.index t (1 : Fin 2) * 128 + 1 * (j 1).val = win5_6.index t (1 : Fin 2) * 128 + 1 * (j 1).val; omega
  have h5 : ((cfg5.win 5).blk t).view.emb (ix2 (0 : Fin 1) (j 1 : Fin 128)) = ix2 (0 : Fin 1) ((((cfg5.win 6).blk t).view.emb j) 1) := by
    funext a; apply Fin.ext
    match a with
    | ⟨0, _⟩ => show win5_5.index t (0 : Fin 2) * 1 + 1 * 0 = 0; omega
    | ⟨1, _⟩ => show win5_5.index t (1 : Fin 2) * 128 + 1 * (j 1).val = win5_6.index t (1 : Fin 2) * 128 + 1 * (j 1).val; omega
  exact combine_at5 (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    _ _ (((cfg5.win 6).blk t).view.emb j) _ _ _ _ h0 h1 h2 h3 h4 h5

theorem covered5_6 (i : S100000x128.Idx) :
    ∃ t : Fin cfg5.N, (cfg5.win 6).flush t = true ∧ i ∈ ((cfg5.win 6).blk t).view.set := by
  have hN : (i 0).val / 2000 < cfg5.N := Nat.div_lt_of_lt_mul (i 0).isLt
  refine ⟨⟨_, hN⟩, flush5_6 _, ?_⟩
  show i ∈ ((View.whole (Pipeline.arrRef spec5 6)).slice (win5_6.rect ⟨_, hN⟩)).set
  rw [View.set_slice_whole, Rect.mem_set_unit]
  exact rows_cover (R := 2000) (C := 128) (by decide) (idx_facts5 _).1 (idx_facts5 _).2.1 rfl rfl (i 1).isLt

theorem final5 (c : Dev nD) : (dat5 (F := Ideal) V c).arrAt 6 cfg5.N
    = Cert.Spec.combine (V c main_v99) (V c main_v87) (V c main_v28) (V c main_v102) (V c main_v105) (V c main_v108) :=
  (dat5 V c).arrAt_eq_of_cover 6 (combined5 V c) (fun t _ => flushed5_6 V c t) covered5_6

end Cert.KernelIdeal.Hand
end
-- ==== Proof.Rows2.lean ====
/-
  Layer 2's rows of the batch-norm parameters, read entry by entry on both sides: what the kernel program's
  [1, 128] arrays before the layer's combine step hold, and what the reference program's row arrays, repeated down
  the 100000 nodes, hold, in terms of the [4, 128] parameters at (2, channel). The statements and arguments are
  layer 0's (Rows.lean) with row 2 in place of row 0.
-/
import proofs.«417545_j39908836114735_1_alg».proof.Proof.Rows

set_option maxRecDepth 16384

noncomputable section

namespace Cert.Proof.Rows

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

/-! ## The kernel program's host stretch before layer 2's combine -/

section Kernel
variable (Vp : Valuation τ sig (Elt Ideal))

/-- Before layer 2's combine: row 2 of the bias. -/
theorem k_row2_b (j : Fin 128) :
    StableHlo.after hostOps5 Vp main_v102 (ix2 0 j) = Vp main_arg4 (ix2 2 j) := by
  simp only [hostOps5]
  after_results_simp
  exact row_read _ 2 rfl rfl _ _ _ _ j

/-- Before layer 2's combine: row 2 of the factor. -/
theorem k_row2_sc (j : Fin 128) :
    StableHlo.after hostOps5 Vp main_v105 (ix2 0 j) = Vp main_v32 (ix2 2 j) := by
  simp only [hostOps5]
  after_results_simp
  exact row_read _ 2 rfl rfl _ _ _ _ j

/-- Before layer 2's combine: row 2 of the offset. -/
theorem k_row2_sh (j : Fin 128) :
    StableHlo.after hostOps5 Vp main_v108 (ix2 0 j) = Vp main_v34 (ix2 2 j) := by
  simp only [hostOps5]
  after_results_simp
  exact row_read _ 2 rfl rfl _ _ _ _ j

end Kernel

/-! ## The reference program's rows in layer 2 -/

/-- The self-loop weight of node n, repeated along the channels. -/
theorem r2_sn (x1 : S2x1600000.Idx → BitVec 32) (i : S100000x128.Idx) :
    val_main_v134 (F := Ideal) x1 i = val_main_v28 (F := Ideal) x1 (ix2 (i 0) 0) := by
  rw [val_main_v134_apply]
  refine congrArg (val_main_v28 (F := Ideal) x1) ?_
  funext a
  match a with
  | ⟨0, _⟩ => rfl
  | ⟨1, _⟩ => rfl

/-- Row 2 of the bias. -/
theorem r2_b (x4 : S4x128.Idx → EReal) (i : S100000x128.Idx) :
    val_main_v140 (F := Ideal) x4 i = x4 (ix2 2 (i 1)) := by
  rw [val_main_v140_apply, val_main_v139_apply, val_main_v138_apply, val_main_v137_apply]
  exact congrArg x4 (idx_eq _ 2 (i 1) (by rfl) (by rfl))

/-- Row 2 of the running mean. -/
theorem r2_mu (x7 : S4x128.Idx → EReal) (i : S100000x128.Idx) :
    val_main_v145 (F := Ideal) x7 i = x7 (ix2 2 (i 1)) := by
  rw [val_main_v145_apply, val_main_v144_apply, val_main_v143_apply, val_main_v142_apply]
  exact congrArg x7 (idx_eq _ 2 (i 1) (by rfl) (by rfl))

/-- Row 2 of the offset parameter beta. -/
theorem r2_be (x6 : S4x128.Idx → EReal) (i : S100000x128.Idx) :
    val_main_v161 (F := Ideal) x6 i = x6 (ix2 2 (i 1)) := by
  rw [val_main_v161_apply, val_main_v160_apply, val_main_v159_apply, val_main_v158_apply]
  exact congrArg x6 (idx_eq _ 2 (i 1) (by rfl) (by rfl))

/-- The layer's factor gamma / sqrt (var + eps), computed on row 2 and repeated down the nodes. -/
theorem r2_sc (x5 x8 : S4x128.Idx → EReal) (i : S100000x128.Idx) :
    val_main_v156 (F := Ideal) x5 x8 i
      = Ideal.div (x5 (ix2 2 (i 1))) (Ideal.sqrt (x8 (ix2 2 (i 1)) + Ideal.ofBits .f32 0x3727C5AC#32)) := by
  rw [val_main_v156_apply, val_main_v155_apply, val_main_v154_apply, val_main_v153_apply, val_main_v152_apply, val_main_v151_apply, val_main_cst_16_apply,
    val_main_v148_apply, val_main_v147_apply, val_main_v150_apply, val_main_v149_apply,
    Ideal.hostDivf_def, Ideal.hostUnary_sqrt_def, Ideal.addf_def, Ideal.ofBits_def,
    idx_eq (idx_main_v147 (idx_main_v148 (idx_main_v155 (idx_main_v156 i)))) 2 (i 1) rfl rfl,
    idx_eq (idx_main_v149 (idx_main_v150 (idx_main_v155 (idx_main_v156 i)))) 2 (i 1) rfl rfl]

/-- The array the layer's clip compares with is zero everywhere. -/
theorem r2_z (i : S100000x128.Idx) : val_main_call2_v0 (F := Ideal) i = 0 := by
  rw [val_main_call2_v0_apply, val_main_call2_cst_apply, Ideal.ofBits_def, Ideal.ofBits_zero_f32]

end Cert.Proof.Rows
-- ==== Proof.KI.V2.lean ====
import proofs.«417545_j39908836114735_1_alg».proof.Proof.KI.B2
import proofs.«417545_j39908836114735_1_alg».proof.Proof.Spec
import proofs.«417545_j39908836114735_1_alg».proof.Proof.KI.Cover
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window cellOf)
open scoped BigOperators

variable (V : (c : Dev nD) → (b : Ref sig .tc) → Buf (Elt Ideal) ((c : Thread nD τ).loc b))

theorem mmL2_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mmL2_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q

theorem mmR2_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem mmR2_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem pay2_apply (x0 : Vec Ideal S2000x128 .f32) (x1 : Vec Ideal S128x128 .f32) (j : S2000x128.Idx) :
    k2_pay1 (F := Ideal) x0 x1 j = ∑ k : Fin 128, x0 (ix2 (n0 := 2000) (n1 := 128) (j 0) k) * x1 (ix2 (n0 := 128) (n1 := 128) k (j 1)) := by
  unfold k2_pay1
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx j ((contrEquiv1 dot_S2000x128_S128x128_S2000x128_1_0_0_1_n_n 128 rfl rfl).symm k) = ix2 (n0 := 2000) (n1 := 128) (j 0) k := funext fun a => Fin.ext (by
    match a with
    | ⟨0, _⟩ => exact mmL2_0 _ _
    | ⟨1, _⟩ => exact (mmL2_1 _ _).trans hk)
  have er : dot_S2000x128_S128x128_S2000x128_1_0_0_1_n_n.rhsIdx j ((contrEquiv1 dot_S2000x128_S128x128_S2000x128_1_0_0_1_n_n 128 rfl rfl).symm k) = ix2 (n0 := 128) (n1 := 128) k (j 1) := funext fun a => Fin.ext (by
    match a with
    | ⟨0, _⟩ => exact (mmR2_0 _ _).trans hk
    | ⟨1, _⟩ => exact mmR2_1 _ _)
  rw [el, er]
  simp only [shapeCast_self]
  rfl

theorem zeroOff2 : (![0, 0] : Fin 2 → Nat) = fun _ => 0 := funext fun a => by fin_cases a <;> rfl

theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 1000000 in

theorem flushed2_2_eq (c : Dev nD) (t : Fin cfg2.N) :
    (dat2 (F := Ideal) V c).flushed 2 t
      = ((cfg2.win 2).blk t).view.read (Elt Ideal) (Cert.Spec.mm (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zeroOff2]
  simp only [View.ld_unit_zero (S := S2000x128) zeroOff2, View.ld_unit_zero (S := S128x128) zeroOff2]
  obtain ⟨e0, e1, e2, e3, e4, e5⟩ := blockIdx2 t
  funext j
  show k2_pay1 (F := Ideal) (iblk2 V c 0 t) (iblk2 V c 1 t) j
    = Cert.Spec.mm (V c (Pipeline.arrRef spec2 0)) (V c (Pipeline.arrRef spec2 1)) (((cfg2.win 2).blk t).view.emb j)
  rw [pay2_apply]
  unfold Cert.Spec.mm
  refine Finset.sum_congr rfl fun k _ => ?_
  have hj0 : (j 0).val < 2000 := (j 0).isLt
  have hj1 : (j 1).val < 128 := (j 1).isLt
  have hk : k.val < 128 := k.isLt
  have h0 : ((cfg2.win 0).blk t).view.emb (ix2 (n0 := 2000) (n1 := 128) (j 0) k)
      = ix2 (n0 := 100000) (n1 := 128) ((((cfg2.win 2).blk t).view.emb j) 0) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have h1 : ((cfg2.win 1).blk t).view.emb (ix2 (n0 := 128) (n1 := 128) k (j 1))
      = ix2 (n0 := 128) (n1 := 128) k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  congr 1
  · exact congrArg (V c (Pipeline.arrRef spec2 0)) h0
  · exact congrArg (V c (Pipeline.arrRef spec2 1)) h1

theorem covered2_2 (i : S100000x128.Idx) :
    ∃ t : Fin cfg2.N, (cfg2.win 2).flush t = true ∧ i ∈ ((cfg2.win 2).blk t).view.set := by
  have hN : (i 0).val / 2000 < cfg2.N := Nat.div_lt_of_lt_mul (i 0).isLt
  refine ⟨⟨_, hN⟩, flush2_2 _, ?_⟩
  show i ∈ ((View.whole (Pipeline.arrRef spec2 2)).slice (win2_2.rect ⟨_, hN⟩)).set
  rw [View.set_slice_whole, Rect.mem_set_unit]
  exact rows_cover (R := 2000) (C := 128) (by decide) (blockIdx2 _).2.2.2.2.1 (blockIdx2 _).2.2.2.2.2 rfl rfl (i 1).isLt

theorem final2 (c : Dev nD) : (dat2 (F := Ideal) V c).arrAt 2 cfg2.N = Cert.Spec.mm (V c main_v59) (V c main_v61) :=
  (dat2 (F := Ideal) V c).arrAt_eq_of_cover 2 (Cert.Spec.mm (V c (Pipeline.arrRef spec2 0)) (V c (Pipeline.arrRef spec2 1)))
    (fun t _ => flushed2_2_eq V c t) (covered2_2)

end Cert.KernelIdeal.Hand
end
-- ==== Proof.KI.V3.lean ====
import proofs.«417545_j39908836114735_1_alg».proof.Proof.KI.B3
import proofs.«417545_j39908836114735_1_alg».proof.Proof.Spec
import proofs.«417545_j39908836114735_1_alg».proof.Proof.KI.Cover
import Idealize.ShloMosaic.Lib.Pipeline.Value
import Idealize.ShloMosaic.Lib.ValueLayout
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window cellOf)

theorem zeroOff3 : (![0, 0] : Fin 2 → Nat) = fun _ => 0 := funext fun a => by fin_cases a <;> rfl

theorem colBroadcast3_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem combine_entry3 (agg hw : Vec Ideal S2000x128 .f32) (sn : Vec Ideal S2000x1 .f32) (b sc sh : Vec Ideal S1x128 .f32)
    (p : Fin 2000) (q : Fin 128) :
    k3_pay1 agg hw sn b sc sh (ix2 p q)
      = max ((agg (ix2 p q) + hw (ix2 p q) * sn (ix2 p 0) + b (ix2 0 q)) * sc (ix2 0 q) + sh (ix2 0 q)) 0 := by
  unfold k3_pay1
  simp only [shapeCast_self]
  rw [maximumf_apply, addf_apply, mulf_apply, addf_apply, addf_apply, mulf_apply, broadcast_apply,
    colBroadcast3_apply, broadcastTo_1b_ab_apply, broadcastTo_1b_ab_apply, broadcastTo_1b_ab_apply]
  congr 1
  exact Ideal.ofBits_zero_f32

theorem idx_facts3 : ∀ t : Fin cfg3.N,
    win3_6.index t (0 : Fin 2) = t.val ∧ win3_6.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

variable (V : (c : Dev nD) → (b : Ref sig .tc) → Buf (Elt Ideal) ((c : Thread nD τ).loc b))

theorem combine_block3 (agg hw : Vec Ideal S2000x128 .f32) (sn : Vec Ideal S2000x1 .f32) (b sc sh : Vec Ideal S1x128 .f32)
    (j : S2000x128.Idx) :
    k3_pay1 agg hw sn b sc sh j
      = max ((agg j + hw j * sn (ix2 (j 0) 0) + b (ix2 0 (j 1))) * sc (ix2 0 (j 1)) + sh (ix2 0 (j 1))) 0 := by
  obtain ⟨p, q, rfl⟩ : ∃ p q, j = ix2 p q := ⟨j 0, j 1, eq_ix2 j⟩
  exact combine_entry3 agg hw sn b sc sh p q

theorem combine_at3 (A0 A1 : S100000x128.Idx → EReal) (A2 : S100000x1.Idx → EReal) (A3 A4 A5 : S1x128.Idx → EReal)
    (i0 i1 i : S100000x128.Idx) (i2 : S100000x1.Idx) (i3 i4 i5 : S1x128.Idx)
    (h0 : i0 = i) (h1 : i1 = i) (h2 : i2 = ix2 (i 0) 0) (h3 : i3 = ix2 0 (i 1)) (h4 : i4 = ix2 0 (i 1)) (h5 : i5 = ix2 0 (i 1)) :
    max ((A0 i0 + A1 i1 * A2 i2 + A3 i3) * A4 i4 + A5 i5) 0 = Cert.Spec.combine A0 A1 A2 A3 A4 A5 i := by
  subst h0 h1 h2 h3 h4 h5; rfl

def combined3 (c : Dev nD) : S100000x128.Idx → EReal :=
  Cert.Spec.combine (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))

set_option maxHeartbeats 1000000 in

theorem flushed3_6 (c : Dev nD) (t : Fin cfg3.N) :
    (dat3 V c).flushed 6 t = ((cfg3.win 6).blk t).view.read (Elt Ideal) (combined3 V c) := by
  show (cfg3.win 6).cut (grid3.coords t) ((dat3 V c).after 6 t) = _
  rw [after3_6]
  unfold out3_6
  rw [View.canon_unit_zero zeroOff3]
  simp only [View.ld_unit_zero (S := S2000x128) zeroOff3, View.ld_unit_zero (S := S2000x1) zeroOff3,
    View.ld_unit_zero (S := S1x128) zeroOff3]
  obtain ⟨e60, e61, e00, e01, e10, e11, e20, e21, e30, e31, e40, e41, e50, e51⟩ := idx_facts3 t
  funext j
  refine (combine_block3 _ _ _ _ _ _ j).trans ?_
  have h0 : ((cfg3.win 0).blk t).view.emb j = ((cfg3.win 6).blk t).view.emb j := by
    funext a; apply Fin.ext
    match a with
    | ⟨0, _⟩ => show win3_0.index t (0 : Fin 2) * 2000 + 1 * (j 0).val = win3_6.index t (0 : Fin 2) * 2000 + 1 * (j 0).val; omega
    | ⟨1, _⟩ => show win3_0.index t (1 : Fin 2) * 128 + 1 * (j 1).val = win3_6.index t (1 : Fin 2) * 128 + 1 * (j 1).val; omega
  have h1 : ((cfg3.win 1).blk t).view.emb j = ((cfg3.win 6).blk t).view.emb j := by
    funext a; apply Fin.ext
    match a with
    | ⟨0, _⟩ => show win3_1.index t (0 : Fin 2) * 2000 + 1 * (j 0).val = win3_6.index t (0 : Fin 2) * 2000 + 1 * (j 0).val; omega
    | ⟨1, _⟩ => show win3_1.index t (1 : Fin 2) * 128 + 1 * (j 1).val = win3_6.index t (1 : Fin 2) * 128 + 1 * (j 1).val; omega
  have h2 : ((cfg3.win 2).blk t).view.emb (ix2 (j 0 : Fin 2000) (0 : Fin 1)) = ix2 ((((cfg3.win 6).blk t).view.emb j) 0) (0 : Fin 1) := by
    funext a; apply Fin.ext
    match a with
    | ⟨0, _⟩ => show win3_2.index t (0 : Fin 2) * 2000 + 1 * (j 0).val = win3_6.index t (0 : Fin 2) * 2000 + 1 * (j 0).val; omega
    | ⟨1, _⟩ => show win3_2.index t (1 : Fin 2) * 1 + 1 * 0 = 0; omega
  have h3 : ((cfg3.win 3).blk t).view.emb (ix2 (0 : Fin 1) (j 1 : Fin 128)) = ix2 (0 : Fin 1) ((((cfg3.win 6).blk t).view.emb j) 1) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_6.index t (1 : Fin 2) * 128 + 1 * (j 1).val; omega
  have h4 : ((cfg3.win 4).blk t).view.emb (ix2 (0 : Fin 1) (j 1 : Fin 128)) = ix2 (0 : Fin 1) ((((cfg3.win 6).blk t).view.emb j) 1) := by
    funext a; apply Fin.ext
    match a with
    | ⟨0, _⟩ => show win3_4.index t (0 : Fin 2) * 1 + 1 * 0 = 0; omega
    | ⟨1, _⟩ => show win3_4.index t (1 : Fin 2) * 128 + 1 * (j 1).val = win3_6.index t (1 : Fin 2) * 128 + 1 * (j 1).val; omega
  have h5 : ((cfg3.win 5).blk t).view.emb (ix2 (0 : Fin 1) (j 1 : Fin 128)) = ix2 (0 : Fin 1) ((((cfg3.win 6).blk t).view.emb j) 1) := by
    funext a; apply Fin.ext
    match a with
    | ⟨0, _⟩ => show win3_5.index t (0 : Fin 2) * 1 + 1 * 0 = 0; omega
    | ⟨1, _⟩ => show win3_5.index t (1 : Fin 2) * 128 + 1 * (j 1).val = win3_6.index t (1 : Fin 2) * 128 + 1 * (j 1).val; omega
  exact combine_at3 (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    _ _ (((cfg3.win 6).blk t).view.emb j) _ _ _ _ h0 h1 h2 h3 h4 h5

theorem covered3_6 (i : S100000x128.Idx) :
    ∃ t : Fin cfg3.N, (cfg3.win 6).flush t = true ∧ i ∈ ((cfg3.win 6).blk t).view.set := by
  have hN : (i 0).val / 2000 < cfg3.N := Nat.div_lt_of_lt_mul (i 0).isLt
  refine ⟨⟨_, hN⟩, flush3_6 _, ?_⟩
  show i ∈ ((View.whole (Pipeline.arrRef spec3 6)).slice (win3_6.rect ⟨_, hN⟩)).set
  rw [View.set_slice_whole, Rect.mem_set_unit]
  exact rows_cover (R := 2000) (C := 128) (by decide) (idx_facts3 _).1 (idx_facts3 _).2.1 rfl rfl (i 1).isLt

theorem final3 (c : Dev nD) : (dat3 (F := Ideal) V c).arrAt 6 cfg3.N
    = Cert.Spec.combine (V c main_v74) (V c main_v62) (V c main_v28) (V c main_v77) (V c main_v80) (V c main_v83) :=
  (dat3 V c).arrAt_eq_of_cover 6 (combined3 V c) (fun t _ => flushed3_6 V c t) covered3_6

end Cert.KernelIdeal.Hand
end
-- ==== Proof.Rows1.lean ====
/-
  Layer 1's rows of the batch-norm parameters, read entry by entry on both sides: what the kernel program's
  [1, 128] arrays before the layer's combine step hold, and what the reference program's row arrays, repeated down
  the 100000 nodes, hold, in terms of the [4, 128] parameters at (1, channel). The statements and arguments are
  layer 0's (Rows.lean) with row 1 in place of row 0.
-/
import proofs.«417545_j39908836114735_1_alg».proof.Proof.Rows

set_option maxRecDepth 16384

noncomputable section

namespace Cert.Proof.Rows

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

/-! ## The kernel program's host stretch before layer 1's combine -/

section Kernel
variable (Vp : Valuation τ sig (Elt Ideal))

/-- Before layer 1's combine: row 1 of the bias. -/
theorem k_row1_b (j : Fin 128) :
    StableHlo.after hostOps3 Vp main_v77 (ix2 0 j) = Vp main_arg4 (ix2 1 j) := by
  simp only [hostOps3]
  after_results_simp
  exact row_read _ 1 rfl rfl _ _ _ _ j

/-- Before layer 1's combine: row 1 of the factor. -/
theorem k_row1_sc (j : Fin 128) :
    StableHlo.after hostOps3 Vp main_v80 (ix2 0 j) = Vp main_v32 (ix2 1 j) := by
  simp only [hostOps3]
  after_results_simp
  exact row_read _ 1 rfl rfl _ _ _ _ j

/-- Before layer 1's combine: row 1 of the offset. -/
theorem k_row1_sh (j : Fin 128) :
    StableHlo.after hostOps3 Vp main_v83 (ix2 0 j) = Vp main_v34 (ix2 1 j) := by
  simp only [hostOps3]
  after_results_simp
  exact row_read _ 1 rfl rfl _ _ _ _ j

end Kernel

/-! ## The reference program's rows in layer 1 -/

/-- The self-loop weight of node n, repeated along the channels. -/
theorem r1_sn (x1 : S2x1600000.Idx → BitVec 32) (i : S100000x128.Idx) :
    val_main_v89 (F := Ideal) x1 i = val_main_v28 (F := Ideal) x1 (ix2 (i 0) 0) := by
  rw [val_main_v89_apply]
  refine congrArg (val_main_v28 (F := Ideal) x1) ?_
  funext a
  match a with
  | ⟨0, _⟩ => rfl
  | ⟨1, _⟩ => rfl

/-- Row 1 of the bias. -/
theorem r1_b (x4 : S4x128.Idx → EReal) (i : S100000x128.Idx) :
    val_main_v95 (F := Ideal) x4 i = x4 (ix2 1 (i 1)) := by
  rw [val_main_v95_apply, val_main_v94_apply, val_main_v93_apply, val_main_v92_apply]
  exact congrArg x4 (idx_eq _ 1 (i 1) (by rfl) (by rfl))

/-- Row 1 of the running mean. -/
theorem r1_mu (x7 : S4x128.Idx → EReal) (i : S100000x128.Idx) :
    val_main_v100 (F := Ideal) x7 i = x7 (ix2 1 (i 1)) := by
  rw [val_main_v100_apply, val_main_v99_apply, val_main_v98_apply, val_main_v97_apply]
  exact congrArg x7 (idx_eq _ 1 (i 1) (by rfl) (by rfl))

/-- Row 1 of the offset parameter beta. -/
theorem r1_be (x6 : S4x128.Idx → EReal) (i : S100000x128.Idx) :
    val_main_v116 (F := Ideal) x6 i = x6 (ix2 1 (i 1)) := by
  rw [val_main_v116_apply, val_main_v115_apply, val_main_v114_apply, val_main_v113_apply]
  exact congrArg x6 (idx_eq _ 1 (i 1) (by rfl) (by rfl))

/-- The layer's factor gamma / sqrt (var + eps), computed on row 1 and repeated down the nodes. -/
theorem r1_sc (x5 x8 : S4x128.Idx → EReal) (i : S100000x128.Idx) :
    val_main_v111 (F := Ideal) x5 x8 i
      = Ideal.div (x5 (ix2 1 (i 1))) (Ideal.sqrt (x8 (ix2 1 (i 1)) + Ideal.ofBits .f32 0x3727C5AC#32)) := by
  rw [val_main_v111_apply, val_main_v110_apply, val_main_v109_apply, val_main_v108_apply, val_main_v107_apply, val_main_v106_apply, val_main_cst_12_apply,
    val_main_v103_apply, val_main_v102_apply, val_main_v105_apply, val_main_v104_apply,
    Ideal.hostDivf_def, Ideal.hostUnary_sqrt_def, Ideal.addf_def, Ideal.ofBits_def,
    idx_eq (idx_main_v102 (idx_main_v103 (idx_main_v110 (idx_main_v111 i)))) 1 (i 1) rfl rfl,
    idx_eq (idx_main_v104 (idx_main_v105 (idx_main_v110 (idx_main_v111 i)))) 1 (i 1) rfl rfl]

/-- The array the layer's clip compares with is zero everywhere. -/
theorem r1_z (i : S100000x128.Idx) : val_main_call1_v0 (F := Ideal) i = 0 := by
  rw [val_main_call1_v0_apply, val_main_call1_cst_apply, Ideal.ofBits_def, Ideal.ofBits_zero_f32]

end Cert.Proof.Rows
-- ==== Proof.KI.V0.lean ====
import proofs.«417545_j39908836114735_1_alg».proof.Proof.KI.B0
import proofs.«417545_j39908836114735_1_alg».proof.Proof.Spec
import proofs.«417545_j39908836114735_1_alg».proof.Proof.KI.Cover
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window cellOf)
open scoped BigOperators

variable (V : (c : Dev nD) → (b : Ref sig .tc) → Buf (Elt Ideal) ((c : Thread nD τ).loc b))

theorem mmL0_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mmL0_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q

theorem mmR0_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem mmR0_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem pay0_apply (x0 : Vec Ideal S2000x128 .f32) (x1 : Vec Ideal S128x128 .f32) (j : S2000x128.Idx) :
    k0_pay1 (F := Ideal) x0 x1 j = ∑ k : Fin 128, x0 (ix2 (n0 := 2000) (n1 := 128) (j 0) k) * x1 (ix2 (n0 := 128) (n1 := 128) k (j 1)) := by
  unfold k0_pay1
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx j ((contrEquiv1 dot_S2000x128_S128x128_S2000x128_1_0_0_1_n_n 128 rfl rfl).symm k) = ix2 (n0 := 2000) (n1 := 128) (j 0) k := funext fun a => Fin.ext (by
    match a with
    | ⟨0, _⟩ => exact mmL0_0 _ _
    | ⟨1, _⟩ => exact (mmL0_1 _ _).trans hk)
  have er : dot_S2000x128_S128x128_S2000x128_1_0_0_1_n_n.rhsIdx j ((contrEquiv1 dot_S2000x128_S128x128_S2000x128_1_0_0_1_n_n 128 rfl rfl).symm k) = ix2 (n0 := 128) (n1 := 128) k (j 1) := funext fun a => Fin.ext (by
    match a with
    | ⟨0, _⟩ => exact (mmR0_0 _ _).trans hk
    | ⟨1, _⟩ => exact mmR0_1 _ _)
  rw [el, er]
  simp only [shapeCast_self]
  rfl

theorem zeroOff0 : (![0, 0] : Fin 2 → Nat) = fun _ => 0 := funext fun a => by fin_cases a <;> rfl

theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 1000000 in

theorem flushed0_2_eq (c : Dev nD) (t : Fin cfg0.N) :
    (dat0 (F := Ideal) V c).flushed 2 t
      = ((cfg0.win 2).blk t).view.read (Elt Ideal) (Cert.Spec.mm (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zeroOff0]
  simp only [View.ld_unit_zero (S := S2000x128) zeroOff0, View.ld_unit_zero (S := S128x128) zeroOff0]
  obtain ⟨e0, e1, e2, e3, e4, e5⟩ := blockIdx0 t
  funext j
  show k0_pay1 (F := Ideal) (iblk0 V c 0 t) (iblk0 V c 1 t) j
    = Cert.Spec.mm (V c (Pipeline.arrRef spec0 0)) (V c (Pipeline.arrRef spec0 1)) (((cfg0.win 2).blk t).view.emb j)
  rw [pay0_apply]
  unfold Cert.Spec.mm
  refine Finset.sum_congr rfl fun k _ => ?_
  have hj0 : (j 0).val < 2000 := (j 0).isLt
  have hj1 : (j 1).val < 128 := (j 1).isLt
  have hk : k.val < 128 := k.isLt
  have h0 : ((cfg0.win 0).blk t).view.emb (ix2 (n0 := 2000) (n1 := 128) (j 0) k)
      = ix2 (n0 := 100000) (n1 := 128) ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (ix2 (n0 := 128) (n1 := 128) k (j 1))
      = ix2 (n0 := 128) (n1 := 128) k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  congr 1
  · exact congrArg (V c (Pipeline.arrRef spec0 0)) h0
  · exact congrArg (V c (Pipeline.arrRef spec0 1)) h1

theorem covered0_2 (i : S100000x128.Idx) :
    ∃ t : Fin cfg0.N, (cfg0.win 2).flush t = true ∧ i ∈ ((cfg0.win 2).blk t).view.set := by
  have hN : (i 0).val / 2000 < cfg0.N := Nat.div_lt_of_lt_mul (i 0).isLt
  refine ⟨⟨_, hN⟩, flush0_2 _, ?_⟩
  show i ∈ ((View.whole (Pipeline.arrRef spec0 2)).slice (win0_2.rect ⟨_, hN⟩)).set
  rw [View.set_slice_whole, Rect.mem_set_unit]
  exact rows_cover (R := 2000) (C := 128) (by decide) (blockIdx0 _).2.2.2.2.1 (blockIdx0 _).2.2.2.2.2 rfl rfl (i 1).isLt

theorem final0 (c : Dev nD) : (dat0 (F := Ideal) V c).arrAt 2 cfg0.N = Cert.Spec.mm (V c main_arg0) (V c main_v36) :=
  (dat0 (F := Ideal) V c).arrAt_eq_of_cover 2 (Cert.Spec.mm (V c (Pipeline.arrRef spec0 0)) (V c (Pipeline.arrRef spec0 1)))
    (fun t _ => flushed0_2_eq V c t) (covered0_2)

end Cert.KernelIdeal.Hand
end
-- ==== Proof.KI.V1.lean ====
import proofs.«417545_j39908836114735_1_alg».proof.Proof.KI.B1
import proofs.«417545_j39908836114735_1_alg».proof.Proof.Spec
import proofs.«417545_j39908836114735_1_alg».proof.Proof.KI.Cover
import Idealize.ShloMosaic.Lib.Pipeline.Value
import Idealize.ShloMosaic.Lib.ValueLayout
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window cellOf)

theorem zeroOff1 : (![0, 0] : Fin 2 → Nat) = fun _ => 0 := funext fun a => by fin_cases a <;> rfl

theorem colBroadcast1_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem combine_entry1 (agg hw : Vec Ideal S2000x128 .f32) (sn : Vec Ideal S2000x1 .f32) (b sc sh : Vec Ideal S1x128 .f32)
    (p : Fin 2000) (q : Fin 128) :
    k1_pay1 agg hw sn b sc sh (ix2 p q)
      = max ((agg (ix2 p q) + hw (ix2 p q) * sn (ix2 p 0) + b (ix2 0 q)) * sc (ix2 0 q) + sh (ix2 0 q)) 0 := by
  unfold k1_pay1
  simp only [shapeCast_self]
  rw [maximumf_apply, addf_apply, mulf_apply, addf_apply, addf_apply, mulf_apply, broadcast_apply,
    colBroadcast1_apply, broadcastTo_1b_ab_apply, broadcastTo_1b_ab_apply, broadcastTo_1b_ab_apply]
  congr 1
  exact Ideal.ofBits_zero_f32

theorem idx_facts1 : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

variable (V : (c : Dev nD) → (b : Ref sig .tc) → Buf (Elt Ideal) ((c : Thread nD τ).loc b))

theorem combine_block1 (agg hw : Vec Ideal S2000x128 .f32) (sn : Vec Ideal S2000x1 .f32) (b sc sh : Vec Ideal S1x128 .f32)
    (j : S2000x128.Idx) :
    k1_pay1 agg hw sn b sc sh j
      = max ((agg j + hw j * sn (ix2 (j 0) 0) + b (ix2 0 (j 1))) * sc (ix2 0 (j 1)) + sh (ix2 0 (j 1))) 0 := by
  obtain ⟨p, q, rfl⟩ : ∃ p q, j = ix2 p q := ⟨j 0, j 1, eq_ix2 j⟩
  exact combine_entry1 agg hw sn b sc sh p q

theorem combine_at1 (A0 A1 : S100000x128.Idx → EReal) (A2 : S100000x1.Idx → EReal) (A3 A4 A5 : S1x128.Idx → EReal)
    (i0 i1 i : S100000x128.Idx) (i2 : S100000x1.Idx) (i3 i4 i5 : S1x128.Idx)
    (h0 : i0 = i) (h1 : i1 = i) (h2 : i2 = ix2 (i 0) 0) (h3 : i3 = ix2 0 (i 1)) (h4 : i4 = ix2 0 (i 1)) (h5 : i5 = ix2 0 (i 1)) :
    max ((A0 i0 + A1 i1 * A2 i2 + A3 i3) * A4 i4 + A5 i5) 0 = Cert.Spec.combine A0 A1 A2 A3 A4 A5 i := by
  subst h0 h1 h2 h3 h4 h5; rfl

def combined1 (c : Dev nD) : S100000x128.Idx → EReal :=
  Cert.Spec.combine (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))

set_option maxHeartbeats 1000000 in

theorem flushed1_6 (c : Dev nD) (t : Fin cfg1.N) :
    (dat1 V c).flushed 6 t = ((cfg1.win 6).blk t).view.read (Elt Ideal) (combined1 V c) := by
  show (cfg1.win 6).cut (grid1.coords t) ((dat1 V c).after 6 t) = _
  rw [after1_6]
  unfold out1_6
  rw [View.canon_unit_zero zeroOff1]
  simp only [View.ld_unit_zero (S := S2000x128) zeroOff1, View.ld_unit_zero (S := S2000x1) zeroOff1,
    View.ld_unit_zero (S := S1x128) zeroOff1]
  obtain ⟨e60, e61, e00, e01, e10, e11, e20, e21, e30, e31, e40, e41, e50, e51⟩ := idx_facts1 t
  funext j
  refine (combine_block1 _ _ _ _ _ _ j).trans ?_
  have h0 : ((cfg1.win 0).blk t).view.emb j = ((cfg1.win 6).blk t).view.emb j := by
    funext a; apply Fin.ext
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 128 + 1 * (j 1).val = win1_6.index t (1 : Fin 2) * 128 + 1 * (j 1).val; omega
  have h1 : ((cfg1.win 1).blk t).view.emb j = ((cfg1.win 6).blk t).view.emb j := by
    funext a; apply Fin.ext
    match a with
    | ⟨0, _⟩ => show win1_1.index t (0 : Fin 2) * 2000 + 1 * (j 0).val = win1_6.index t (0 : Fin 2) * 2000 + 1 * (j 0).val; omega
    | ⟨1, _⟩ => show win1_1.index t (1 : Fin 2) * 128 + 1 * (j 1).val = win1_6.index t (1 : Fin 2) * 128 + 1 * (j 1).val; omega
  have h2 : ((cfg1.win 2).blk t).view.emb (ix2 (j 0 : Fin 2000) (0 : Fin 1)) = ix2 ((((cfg1.win 6).blk t).view.emb j) 0) (0 : Fin 1) := by
    funext a; apply Fin.ext
    match a with
    | ⟨0, _⟩ => show win1_2.index t (0 : Fin 2) * 2000 + 1 * (j 0).val = win1_6.index t (0 : Fin 2) * 2000 + 1 * (j 0).val; omega
    | ⟨1, _⟩ => show win1_2.index t (1 : Fin 2) * 1 + 1 * 0 = 0; omega
  have h3 : ((cfg1.win 3).blk t).view.emb (ix2 (0 : Fin 1) (j 1 : Fin 128)) = ix2 (0 : Fin 1) ((((cfg1.win 6).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_6.index t (1 : Fin 2) * 128 + 1 * (j 1).val; omega
  have h4 : ((cfg1.win 4).blk t).view.emb (ix2 (0 : Fin 1) (j 1 : Fin 128)) = ix2 (0 : Fin 1) ((((cfg1.win 6).blk t).view.emb j) 1) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_6.index t (1 : Fin 2) * 128 + 1 * (j 1).val; omega
  have h5 : ((cfg1.win 5).blk t).view.emb (ix2 (0 : Fin 1) (j 1 : Fin 128)) = ix2 (0 : Fin 1) ((((cfg1.win 6).blk t).view.emb j) 1) := by
    funext a; apply Fin.ext
    match a with
    | ⟨0, _⟩ => show win1_5.index t (0 : Fin 2) * 1 + 1 * 0 = 0; omega
    | ⟨1, _⟩ => show win1_5.index t (1 : Fin 2) * 128 + 1 * (j 1).val = win1_6.index t (1 : Fin 2) * 128 + 1 * (j 1).val; omega
  exact combine_at1 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    _ _ (((cfg1.win 6).blk t).view.emb j) _ _ _ _ h0 h1 h2 h3 h4 h5

theorem covered1_6 (i : S100000x128.Idx) :
    ∃ t : Fin cfg1.N, (cfg1.win 6).flush t = true ∧ i ∈ ((cfg1.win 6).blk t).view.set := by
  have hN : (i 0).val / 2000 < cfg1.N := Nat.div_lt_of_lt_mul (i 0).isLt
  refine ⟨⟨_, hN⟩, flush1_6 _, ?_⟩
  show i ∈ ((View.whole (Pipeline.arrRef spec1 6)).slice (win1_6.rect ⟨_, hN⟩)).set
  rw [View.set_slice_whole, Rect.mem_set_unit]
  exact rows_cover (R := 2000) (C := 128) (by decide) (idx_facts1 _).1 (idx_facts1 _).2.1 rfl rfl (i 1).isLt

theorem final1 (c : Dev nD) : (dat1 (F := Ideal) V c).arrAt 6 cfg1.N
    = Cert.Spec.combine (V c main_v49) (V c main_v37) (V c main_v28) (V c main_v52) (V c main_v55) (V c main_v58) :=
  (dat1 V c).arrAt_eq_of_cover 6 (combined1 V c) (fun t _ => flushed1_6 V c t) covered1_6

end Cert.KernelIdeal.Hand
end
-- ==== Proof.KI.Br0.lean ====
import proofs.«417545_j39908836114735_1_alg».proof.Proof.KI.BrBase
import proofs.«417545_j39908836114735_1_alg».proof.Proof.KI.V0
import proofs.«417545_j39908836114735_1_alg».proof.Proof.KI.V1
import proofs.«417545_j39908836114735_1_alg».proof.Proof.RefSpec
import proofs.«417545_j39908836114735_1_alg».proof.Proof.Layer
import proofs.«417545_j39908836114735_1_alg».proof.Proof.Rows

noncomputable section
namespace Cert.KernelIdeal.Bridge
open Cert.KernelIdeal Cert.KernelIdeal.Gen Cert.KernelIdeal.Hand Cert.ReferenceIdeal.ReadP Cert.Proof.Rows
open Idealize.ShloMosaic Idealize.ShloMosaic.TcCoe Idealize.ShloMosaic.ValueIdx Idealize.SL.Sem

variable (m : (ℓ : Loc nD τ sig) → Buf (Elt Ideal) ℓ) [Cert.Pre_finite_inputs.Facts]

-- The product is the unfused program's contraction of the same two arrays.
theorem hw0 (c : Dev nD) : o2 m c = val_main_v31 (F := Ideal) (m ((c : Thread nD τ).loc main_arg0)) (m ((c : Thread nD τ).loc main_arg3)) := by
  refine (final0 (fun c b => W1 m c b) c).trans ?_
  show Cert.Spec.mm (W1 m c main_arg0) (W1 m c main_v36) = _
  rw [(k1 m c).arg main_arg0 (by decide) (by decide), W1_v36 m c, Cert.Proof.RefSpec.mm_eq_dot]
  rfl

-- Summed along the edges with the same columns and weights it is the unfused program's neighbourhood sum.
theorem agg0 (c : Dev nD) : W3 m c main_v49 = val_main_v43 (F := Ideal) (m ((c : Thread nD τ).loc main_arg0)) (m ((c : Thread nD τ).loc main_arg1)) (m ((c : Thread nD τ).loc main_arg3)) :=
  rd1_v49_ref (W2 m c) _ _ _ (k2 m c).v1 (k2 m c).v3 (k2 m c).v26 ((Function.update_self ..).trans (hw0 m c))

-- The factor and the offset fold the batch norm, (x - mean) * factor + shift, as factor, mean and shift are real.
theorem out0 (h : Cert.Pre_KernelIdeal m) (c : Dev nD) : o4 m c = val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (final1 (fun c b => W3 m c b) c).trans ?_
  show Cert.Spec.combine (W3 m c main_v49) (W3 m c main_v37) (W3 m c main_v28) (W3 m c main_v52) (W3 m c main_v55) (W3 m c main_v58) = _
  rw [agg0 m c, W3_prev m c, hw0 m c, (k3 m c).v28]
  refine (Cert.Layer.combine_eq_ref _ _ _ _ _ _ (val_main_v44 (F := Ideal) (m ((c : Thread nD τ).loc main_arg1))) (val_main_v50 (F := Ideal) (m ((c : Thread nD τ).loc main_arg4))) (val_main_v55 (F := Ideal) (m ((c : Thread nD τ).loc main_arg7)))
    (val_main_v66 (F := Ideal) (m ((c : Thread nD τ).loc main_arg5)) (m ((c : Thread nD τ).loc main_arg8))) (val_main_v71 (F := Ideal) (m ((c : Thread nD τ).loc main_arg6))) (val_main_call0_v0 (F := Ideal))
    (r0_sn _) (fun i => ?_) (fun i => ?_) (fun i => ?_) (fun i => ?_) r0_z).trans ?_
  · exact (r0_b _ i).trans ((k_row0_b (W2 m c) (i 1)).trans (congrFun ((k2 m c).arg main_arg4 (by decide) (by decide)) _)).symm
  · exact (r0_sc _ _ i).trans ((k_row0_sc (W2 m c) (i 1)).trans ((k2 m c).scale 0 (i 1))).symm
  · rw [r0_be, r0_mu, r0_sc]
    exact (k_row0_sh (W2 m c) (i 1)).trans ((k2 m c).shift 0 (i 1))
  · rw [r0_sc, r0_mu, r0_be]
    exact bn_real m c h 0 (i 1)
  · funext i
    rw [val_main_v73_apply, val_main_v72_apply, val_main_v67_apply, val_main_v56_apply, val_main_v51_apply, val_main_v46_apply, val_main_v45_apply]
    rfl

end Cert.KernelIdeal.Bridge
end
-- ==== Proof.KI.Br1.lean ====
import proofs.«417545_j39908836114735_1_alg».proof.Proof.KI.BrBase
import proofs.«417545_j39908836114735_1_alg».proof.Proof.KI.V2
import proofs.«417545_j39908836114735_1_alg».proof.Proof.KI.V3
import proofs.«417545_j39908836114735_1_alg».proof.Proof.RefSpec
import proofs.«417545_j39908836114735_1_alg».proof.Proof.Layer
import proofs.«417545_j39908836114735_1_alg».proof.Proof.Rows1
import proofs.«417545_j39908836114735_1_alg».proof.Proof.KI.Br0

noncomputable section
namespace Cert.KernelIdeal.Bridge
open Cert.KernelIdeal Cert.KernelIdeal.Gen Cert.KernelIdeal.Hand Cert.ReferenceIdeal.ReadP Cert.Proof.Rows
open Idealize.ShloMosaic Idealize.ShloMosaic.TcCoe Idealize.ShloMosaic.ValueIdx Idealize.SL.Sem

variable (m : (ℓ : Loc nD τ sig) → Buf (Elt Ideal) ℓ) [Cert.Pre_finite_inputs.Facts]

-- The product is the unfused program's contraction of the same two arrays.
theorem hw1 (h : Cert.Pre_KernelIdeal m) (c : Dev nD) : o6 m c = val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (final2 (fun c b => W5 m c b) c).trans ?_
  show Cert.Spec.mm (W5 m c main_v59) (W5 m c main_v61) = _
  rw [W5_prev m c, out0 m h c, W5_v61 m c, Cert.Proof.RefSpec.mm_eq_dot]
  rfl

-- Summed along the edges with the same columns and weights it is the unfused program's neighbourhood sum.
theorem agg1 (h : Cert.Pre_KernelIdeal m) (c : Dev nD) : W7 m c main_v74 = val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  rd3_v74_ref (W6 m c) _ _ _ _ _ _ _ _ (k6 m c).v1 (k6 m c).v3 (k6 m c).v26 ((Function.update_self ..).trans (hw1 m h c))

-- The factor and the offset fold the batch norm, (x - mean) * factor + shift, as factor, mean and shift are real.
theorem out1 (h : Cert.Pre_KernelIdeal m) (c : Dev nD) : o8 m c = val_main_v118 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (final3 (fun c b => W7 m c b) c).trans ?_
  show Cert.Spec.combine (W7 m c main_v74) (W7 m c main_v62) (W7 m c main_v28) (W7 m c main_v77) (W7 m c main_v80) (W7 m c main_v83) = _
  rw [agg1 m h c, W7_prev m c, hw1 m h c, (k7 m c).v28]
  refine (Cert.Layer.combine_eq_ref _ _ _ _ _ _ (val_main_v89 (F := Ideal) (m ((c : Thread nD τ).loc main_arg1))) (val_main_v95 (F := Ideal) (m ((c : Thread nD τ).loc main_arg4))) (val_main_v100 (F := Ideal) (m ((c : Thread nD τ).loc main_arg7)))
    (val_main_v111 (F := Ideal) (m ((c : Thread nD τ).loc main_arg5)) (m ((c : Thread nD τ).loc main_arg8))) (val_main_v116 (F := Ideal) (m ((c : Thread nD τ).loc main_arg6))) (val_main_call1_v0 (F := Ideal))
    (r1_sn _) (fun i => ?_) (fun i => ?_) (fun i => ?_) (fun i => ?_) r1_z).trans ?_
  · exact (r1_b _ i).trans ((k_row1_b (W6 m c) (i 1)).trans (congrFun ((k6 m c).arg main_arg4 (by decide) (by decide)) _)).symm
  · exact (r1_sc _ _ i).trans ((k_row1_sc (W6 m c) (i 1)).trans ((k6 m c).scale 1 (i 1))).symm
  · rw [r1_be, r1_mu, r1_sc]
    exact (k_row1_sh (W6 m c) (i 1)).trans ((k6 m c).shift 1 (i 1))
  · rw [r1_sc, r1_mu, r1_be]
    exact bn_real m c h 1 (i 1)
  · funext i
    rw [val_main_v118_apply, val_main_v117_apply, val_main_v112_apply, val_main_v101_apply, val_main_v96_apply, val_main_v91_apply, val_main_v90_apply]
    rfl

end Cert.KernelIdeal.Bridge
end
-- ==== Proof.KI.Br2.lean ====
import proofs.«417545_j39908836114735_1_alg».proof.Proof.KI.BrBase
import proofs.«417545_j39908836114735_1_alg».proof.Proof.KI.V4
import proofs.«417545_j39908836114735_1_alg».proof.Proof.KI.V5
import proofs.«417545_j39908836114735_1_alg».proof.Proof.RefSpec
import proofs.«417545_j39908836114735_1_alg».proof.Proof.Layer
import proofs.«417545_j39908836114735_1_alg».proof.Proof.Rows2
import proofs.«417545_j39908836114735_1_alg».proof.Proof.KI.Br1

noncomputable section
namespace Cert.KernelIdeal.Bridge
open Cert.KernelIdeal Cert.KernelIdeal.Gen Cert.KernelIdeal.Hand Cert.ReferenceIdeal.ReadP Cert.Proof.Rows
open Idealize.ShloMosaic Idealize.ShloMosaic.TcCoe Idealize.ShloMosaic.ValueIdx Idealize.SL.Sem

variable (m : (ℓ : Loc nD τ sig) → Buf (Elt Ideal) ℓ) [Cert.Pre_finite_inputs.Facts]

-- The product is the unfused program's contraction of the same two arrays.
theorem hw2 (h : Cert.Pre_KernelIdeal m) (c : Dev nD) : o10 m c = val_main_v121 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (final4 (fun c b => W9 m c b) c).trans ?_
  show Cert.Spec.mm (W9 m c main_v84) (W9 m c main_v86) = _
  rw [W9_prev m c, out1 m h c, W9_v86 m c, Cert.Proof.RefSpec.mm_eq_dot]
  rfl

-- Summed along the edges with the same columns and weights it is the unfused program's neighbourhood sum.
theorem agg2 (h : Cert.Pre_KernelIdeal m) (c : Dev nD) : W11 m c main_v99 = val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  rd5_v99_ref (W10 m c) _ _ _ _ _ _ _ _ (k10 m c).v1 (k10 m c).v3 (k10 m c).v26 ((Function.update_self ..).trans (hw2 m h c))

-- The factor and the offset fold the batch norm, (x - mean) * factor + shift, as factor, mean and shift are real.
theorem out2 (h : Cert.Pre_KernelIdeal m) (c : Dev nD) : o12 m c = val_main_v163 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (final5 (fun c b => W11 m c b) c).trans ?_
  show Cert.Spec.combine (W11 m c main_v99) (W11 m c main_v87) (W11 m c main_v28) (W11 m c main_v102) (W11 m c main_v105) (W11 m c main_v108) = _
  rw [agg2 m h c, W11_prev m c, hw2 m h c, (k11 m c).v28]
  refine (Cert.Layer.combine_eq_ref _ _ _ _ _ _ (val_main_v134 (F := Ideal) (m ((c : Thread nD τ).loc main_arg1))) (val_main_v140 (F := Ideal) (m ((c : Thread nD τ).loc main_arg4))) (val_main_v145 (F := Ideal) (m ((c : Thread nD τ).loc main_arg7)))
    (val_main_v156 (F := Ideal) (m ((c : Thread nD τ).loc main_arg5)) (m ((c : Thread nD τ).loc main_arg8))) (val_main_v161 (F := Ideal) (m ((c : Thread nD τ).loc main_arg6))) (val_main_call2_v0 (F := Ideal))
    (r2_sn _) (fun i => ?_) (fun i => ?_) (fun i => ?_) (fun i => ?_) r2_z).trans ?_
  · exact (r2_b _ i).trans ((k_row2_b (W10 m c) (i 1)).trans (congrFun ((k10 m c).arg main_arg4 (by decide) (by decide)) _)).symm
  · exact (r2_sc _ _ i).trans ((k_row2_sc (W10 m c) (i 1)).trans ((k10 m c).scale 2 (i 1))).symm
  · rw [r2_be, r2_mu, r2_sc]
    exact (k_row2_sh (W10 m c) (i 1)).trans ((k10 m c).shift 2 (i 1))
  · rw [r2_sc, r2_mu, r2_be]
    exact bn_real m c h 2 (i 1)
  · funext i
    rw [val_main_v163_apply, val_main_v162_apply, val_main_v157_apply, val_main_v146_apply, val_main_v141_apply, val_main_v136_apply, val_main_v135_apply]
    rfl

end Cert.KernelIdeal.Bridge
end
-- ==== Proof.KI.Br3.lean ====
import proofs.«417545_j39908836114735_1_alg».proof.Proof.KI.BrBase
import proofs.«417545_j39908836114735_1_alg».proof.Proof.KI.V6
import proofs.«417545_j39908836114735_1_alg».proof.Proof.KI.V7
import proofs.«417545_j39908836114735_1_alg».proof.Proof.RefSpec
import proofs.«417545_j39908836114735_1_alg».proof.Proof.Layer
import proofs.«417545_j39908836114735_1_alg».proof.Proof.Rows3
import proofs.«417545_j39908836114735_1_alg».proof.Proof.KI.Br2

noncomputable section
namespace Cert.KernelIdeal.Bridge
open Cert.KernelIdeal Cert.KernelIdeal.Gen Cert.KernelIdeal.Hand Cert.ReferenceIdeal.ReadP Cert.Proof.Rows
open Idealize.ShloMosaic Idealize.ShloMosaic.TcCoe Idealize.ShloMosaic.ValueIdx Idealize.SL.Sem

variable (m : (ℓ : Loc nD τ sig) → Buf (Elt Ideal) ℓ) [Cert.Pre_finite_inputs.Facts]

-- The product is the unfused program's contraction of the same two arrays.
theorem hw3 (h : Cert.Pre_KernelIdeal m) (c : Dev nD) : o14 m c = val_main_v166 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (final6 (fun c b => W13 m c b) c).trans ?_
  show Cert.Spec.mm (W13 m c main_v109) (W13 m c main_v111) = _
  rw [W13_prev m c, out2 m h c, W13_v111 m c, Cert.Proof.RefSpec.mm_eq_dot]
  rfl

-- Summed along the edges with the same columns and weights it is the unfused program's neighbourhood sum.
theorem agg3 (h : Cert.Pre_KernelIdeal m) (c : Dev nD) : W15 m c main_v124 = val_main_v178 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  rd7_v124_ref (W14 m c) _ _ _ _ _ _ _ _ (k14 m c).v1 (k14 m c).v3 (k14 m c).v26 ((Function.update_self ..).trans (hw3 m h c))

-- The factor and the offset fold the batch norm, (x - mean) * factor + shift, as factor, mean and shift are real.
theorem out3 (h : Cert.Pre_KernelIdeal m) (c : Dev nD) : o16 m c = val_main_v208 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (final7 (fun c b => W15 m c b) c).trans ?_
  show Cert.Spec.combine (W15 m c main_v124) (W15 m c main_v112) (W15 m c main_v28) (W15 m c main_v127) (W15 m c main_v130) (W15 m c main_v133) = _
  rw [agg3 m h c, W15_prev m c, hw3 m h c, (k15 m c).v28]
  refine (Cert.Layer.combine_eq_ref _ _ _ _ _ _ (val_main_v179 (F := Ideal) (m ((c : Thread nD τ).loc main_arg1))) (val_main_v185 (F := Ideal) (m ((c : Thread nD τ).loc main_arg4))) (val_main_v190 (F := Ideal) (m ((c : Thread nD τ).loc main_arg7)))
    (val_main_v201 (F := Ideal) (m ((c : Thread nD τ).loc main_arg5)) (m ((c : Thread nD τ).loc main_arg8))) (val_main_v206 (F := Ideal) (m ((c : Thread nD τ).loc main_arg6))) (val_main_call3_v0 (F := Ideal))
    (r3_sn _) (fun i => ?_) (fun i => ?_) (fun i => ?_) (fun i => ?_) r3_z).trans ?_
  · exact (r3_b _ i).trans ((k_row3_b (W14 m c) (i 1)).trans (congrFun ((k14 m c).arg main_arg4 (by decide) (by decide)) _)).symm
  · exact (r3_sc _ _ i).trans ((k_row3_sc (W14 m c) (i 1)).trans ((k14 m c).scale 3 (i 1))).symm
  · rw [r3_be, r3_mu, r3_sc]
    exact (k_row3_sh (W14 m c) (i 1)).trans ((k14 m c).shift 3 (i 1))
  · rw [r3_sc, r3_mu, r3_be]
    exact bn_real m c h 3 (i 1)
  · funext i
    rw [val_main_v208_apply, val_main_v207_apply, val_main_v202_apply, val_main_v191_apply, val_main_v186_apply, val_main_v181_apply, val_main_v180_apply]
    rfl

end Cert.KernelIdeal.Bridge
end
-- ==== Proof.KI.BrT.lean ====
import proofs.«417545_j39908836114735_1_alg».proof.Defs
import proofs.«417545_j39908836114735_1_alg».proof.Proof.Gen.Pre_finite_inputs
import proofs.«417545_j39908836114735_1_alg».proof.Proof.KI.Keep
import proofs.«417545_j39908836114735_1_alg».proof.Proof.KI.Host
import proofs.«417545_j39908836114735_1_alg».proof.Proof.KI.V8
import proofs.«417545_j39908836114735_1_alg».proof.Proof.KI.V9
import proofs.«417545_j39908836114735_1_alg».proof.Proof.KI.Br3
import proofs.«417545_j39908836114735_1_alg».proof.Proof.RefSpec
import Idealize.ShloMosaic.Lib.Pipeline.Value
import Idealize.ShloMosaic.Lib.ValueIdx
set_option maxRecDepth 16384
noncomputable section
namespace Cert.KernelIdeal.Bridge
open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

theorem col_of_vec_at {α : Type} {n : Nat} (x : (⟨1, ![n]⟩ : Shape).Idx → α)
    (hc : (⟨1, ![n]⟩ : Shape).ShapeCasts ⟨2, ![n, 1]⟩) (k : Fin n) :
    shapeCast ⟨2, ![n, 1]⟩ x hc (ix2 k 0) = x (ix1 k) :=
  shapeCast_apply x hc (ix2 k 0) (ix1 k) (by
    rw [Shape.rowMajor_val_one, Shape.rowMajor_val_two]
    show k.val = k.val * 1 + 0
    omega)

theorem row_of_vec_at {α : Type} {n : Nat} (x : (⟨1, ![n]⟩ : Shape).Idx → α)
    (hc : (⟨1, ![n]⟩ : Shape).ShapeCasts ⟨2, ![1, n]⟩) (k : Fin n) :
    shapeCast ⟨2, ![1, n]⟩ x hc (ix2 0 k) = x (ix1 k) :=
  shapeCast_apply x hc (ix2 0 k) (ix1 k) (by
    rw [Shape.rowMajor_val_one, Shape.rowMajor_val_two]
    show k.val = 0 * n + k.val
    omega)

theorem launch_arg2_at16 (c : Dev nD) : W16 m c main_arg2 = m ((c : Thread nD τ).loc main_arg2) := by
  rw [W16_keep m c main_arg2 (by decide),
    W15_keep m c main_arg2 (by decide),
    W14_keep m c main_arg2 (by decide),
    W13_keep m c main_arg2 (by decide),
    W12_keep m c main_arg2 (by decide),
    W11_keep m c main_arg2 (by decide),
    W10_keep m c main_arg2 (by decide),
    W9_keep m c main_arg2 (by decide),
    W8_keep m c main_arg2 (by decide),
    W7_keep m c main_arg2 (by decide),
    W6_keep m c main_arg2 (by decide),
    W5_keep m c main_arg2 (by decide),
    W4_keep m c main_arg2 (by decide),
    W3_keep m c main_arg2 (by decide),
    W2_keep m c main_arg2 (by decide),
    W1_keep m c main_arg2 (by decide)]

theorem launch_arg10_at18 (c : Dev nD) : W18 m c main_arg10 = m ((c : Thread nD τ).loc main_arg10) := by
  rw [W18_keep m c main_arg10 (by decide),
    W17_keep m c main_arg10 (by decide),
    W16_keep m c main_arg10 (by decide),
    W15_keep m c main_arg10 (by decide),
    W14_keep m c main_arg10 (by decide),
    W13_keep m c main_arg10 (by decide),
    W12_keep m c main_arg10 (by decide),
    W11_keep m c main_arg10 (by decide),
    W10_keep m c main_arg10 (by decide),
    W9_keep m c main_arg10 (by decide),
    W8_keep m c main_arg10 (by decide),
    W7_keep m c main_arg10 (by decide),
    W6_keep m c main_arg10 (by decide),
    W5_keep m c main_arg10 (by decide),
    W4_keep m c main_arg10 (by decide),
    W3_keep m c main_arg10 (by decide),
    W2_keep m c main_arg10 (by decide),
    W1_keep m c main_arg10 (by decide)]

theorem launch_arg12_at18 (c : Dev nD) : W18 m c main_arg12 = m ((c : Thread nD τ).loc main_arg12) := by
  rw [W18_keep m c main_arg12 (by decide),
    W17_keep m c main_arg12 (by decide),
    W16_keep m c main_arg12 (by decide),
    W15_keep m c main_arg12 (by decide),
    W14_keep m c main_arg12 (by decide),
    W13_keep m c main_arg12 (by decide),
    W12_keep m c main_arg12 (by decide),
    W11_keep m c main_arg12 (by decide),
    W10_keep m c main_arg12 (by decide),
    W9_keep m c main_arg12 (by decide),
    W8_keep m c main_arg12 (by decide),
    W7_keep m c main_arg12 (by decide),
    W6_keep m c main_arg12 (by decide),
    W5_keep m c main_arg12 (by decide),
    W4_keep m c main_arg12 (by decide),
    W3_keep m c main_arg12 (by decide),
    W2_keep m c main_arg12 (by decide),
    W1_keep m c main_arg12 (by decide)]

theorem launch_arg14_at18 (c : Dev nD) : W18 m c main_arg14 = m ((c : Thread nD τ).loc main_arg14) := by
  rw [W18_keep m c main_arg14 (by decide),
    W17_keep m c main_arg14 (by decide),
    W16_keep m c main_arg14 (by decide),
    W15_keep m c main_arg14 (by decide),
    W14_keep m c main_arg14 (by decide),
    W13_keep m c main_arg14 (by decide),
    W12_keep m c main_arg14 (by decide),
    W11_keep m c main_arg14 (by decide),
    W10_keep m c main_arg14 (by decide),
    W9_keep m c main_arg14 (by decide),
    W8_keep m c main_arg14 (by decide),
    W7_keep m c main_arg14 (by decide),
    W6_keep m c main_arg14 (by decide),
    W5_keep m c main_arg14 (by decide),
    W4_keep m c main_arg14 (by decide),
    W3_keep m c main_arg14 (by decide),
    W2_keep m c main_arg14 (by decide),
    W1_keep m c main_arg14 (by decide)]

theorem launch_arg16_at18 (c : Dev nD) : W18 m c main_arg16 = m ((c : Thread nD τ).loc main_arg16) := by
  rw [W18_keep m c main_arg16 (by decide),
    W17_keep m c main_arg16 (by decide),
    W16_keep m c main_arg16 (by decide),
    W15_keep m c main_arg16 (by decide),
    W14_keep m c main_arg16 (by decide),
    W13_keep m c main_arg16 (by decide),
    W12_keep m c main_arg16 (by decide),
    W11_keep m c main_arg16 (by decide),
    W10_keep m c main_arg16 (by decide),
    W9_keep m c main_arg16 (by decide),
    W8_keep m c main_arg16 (by decide),
    W7_keep m c main_arg16 (by decide),
    W6_keep m c main_arg16 (by decide),
    W5_keep m c main_arg16 (by decide),
    W4_keep m c main_arg16 (by decide),
    W3_keep m c main_arg16 (by decide),
    W2_keep m c main_arg16 (by decide),
    W1_keep m c main_arg16 (by decide)]

theorem launch_arg9_at19 (c : Dev nD) : W19 m c main_arg9 = m ((c : Thread nD τ).loc main_arg9) := by
  rw [W19_keep m c main_arg9 (by decide),
    W18_keep m c main_arg9 (by decide),
    W17_keep m c main_arg9 (by decide),
    W16_keep m c main_arg9 (by decide),
    W15_keep m c main_arg9 (by decide),
    W14_keep m c main_arg9 (by decide),
    W13_keep m c main_arg9 (by decide),
    W12_keep m c main_arg9 (by decide),
    W11_keep m c main_arg9 (by decide),
    W10_keep m c main_arg9 (by decide),
    W9_keep m c main_arg9 (by decide),
    W8_keep m c main_arg9 (by decide),
    W7_keep m c main_arg9 (by decide),
    W6_keep m c main_arg9 (by decide),
    W5_keep m c main_arg9 (by decide),
    W4_keep m c main_arg9 (by decide),
    W3_keep m c main_arg9 (by decide),
    W2_keep m c main_arg9 (by decide),
    W1_keep m c main_arg9 (by decide)]

theorem launch_arg11_at19 (c : Dev nD) : W19 m c main_arg11 = m ((c : Thread nD τ).loc main_arg11) := by
  rw [W19_keep m c main_arg11 (by decide),
    W18_keep m c main_arg11 (by decide),
    W17_keep m c main_arg11 (by decide),
    W16_keep m c main_arg11 (by decide),
    W15_keep m c main_arg11 (by decide),
    W14_keep m c main_arg11 (by decide),
    W13_keep m c main_arg11 (by decide),
    W12_keep m c main_arg11 (by decide),
    W11_keep m c main_arg11 (by decide),
    W10_keep m c main_arg11 (by decide),
    W9_keep m c main_arg11 (by decide),
    W8_keep m c main_arg11 (by decide),
    W7_keep m c main_arg11 (by decide),
    W6_keep m c main_arg11 (by decide),
    W5_keep m c main_arg11 (by decide),
    W4_keep m c main_arg11 (by decide),
    W3_keep m c main_arg11 (by decide),
    W2_keep m c main_arg11 (by decide),
    W1_keep m c main_arg11 (by decide)]

theorem launch_arg13_at19 (c : Dev nD) : W19 m c main_arg13 = m ((c : Thread nD τ).loc main_arg13) := by
  rw [W19_keep m c main_arg13 (by decide),
    W18_keep m c main_arg13 (by decide),
    W17_keep m c main_arg13 (by decide),
    W16_keep m c main_arg13 (by decide),
    W15_keep m c main_arg13 (by decide),
    W14_keep m c main_arg13 (by decide),
    W13_keep m c main_arg13 (by decide),
    W12_keep m c main_arg13 (by decide),
    W11_keep m c main_arg13 (by decide),
    W10_keep m c main_arg13 (by decide),
    W9_keep m c main_arg13 (by decide),
    W8_keep m c main_arg13 (by decide),
    W7_keep m c main_arg13 (by decide),
    W6_keep m c main_arg13 (by decide),
    W5_keep m c main_arg13 (by decide),
    W4_keep m c main_arg13 (by decide),
    W3_keep m c main_arg13 (by decide),
    W2_keep m c main_arg13 (by decide),
    W1_keep m c main_arg13 (by decide)]

theorem launch_arg15_at19 (c : Dev nD) : W19 m c main_arg15 = m ((c : Thread nD τ).loc main_arg15) := by
  rw [W19_keep m c main_arg15 (by decide),
    W18_keep m c main_arg15 (by decide),
    W17_keep m c main_arg15 (by decide),
    W16_keep m c main_arg15 (by decide),
    W15_keep m c main_arg15 (by decide),
    W14_keep m c main_arg15 (by decide),
    W13_keep m c main_arg15 (by decide),
    W12_keep m c main_arg15 (by decide),
    W11_keep m c main_arg15 (by decide),
    W10_keep m c main_arg15 (by decide),
    W9_keep m c main_arg15 (by decide),
    W8_keep m c main_arg15 (by decide),
    W7_keep m c main_arg15 (by decide),
    W6_keep m c main_arg15 (by decide),
    W5_keep m c main_arg15 (by decide),
    W4_keep m c main_arg15 (by decide),
    W3_keep m c main_arg15 (by decide),
    W2_keep m c main_arg15 (by decide),
    W1_keep m c main_arg15 (by decide)]

theorem features_at17 (h : Cert.Pre_KernelIdeal m) (c : Dev nD) :
    W17 m c main_v134 = Cert.ReferenceIdeal.ReadP.val_main_v208 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W17_keep m c main_v134 (by decide)]
  unfold W16
  rw [Function.update_self]
  exact out3 m h c

theorem graphColumn_at17 (c : Dev nD) :
    W17 m c main_v135 = shapeCast S100000x1 (m ((c : Thread nD τ).loc main_arg2)) shapeCasts_S100000_S100000x1 := by
  unfold W17
  rw [rd8_v135, launch_arg2_at16 m c]

theorem pooled (h : Cert.Pre_KernelIdeal m) (c : Dev nD) :
    o18 m c = Cert.ReferenceIdeal.ReadP.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold o18
  rw [final8]
  show Cert.Spec.pool (W17 m c main_v135) (W17 m c main_v134) = _
  rw [features_at17 m h c, graphColumn_at17 m c]
  unfold Cert.ReferenceIdeal.ReadP.val_main_v211
  exact Cert.Proof.RefSpec.pool_eq_scatter (m ((c : Thread nD τ).loc main_arg2)) (shapeCast S100000x1 (m ((c : Thread nD τ).loc main_arg2)) shapeCasts_S100000_S100000x1)
    (fun n => col_of_vec_at (m ((c : Thread nD τ).loc main_arg2)) shapeCasts_S100000_S100000x1 n) (Cert.ReferenceIdeal.ReadP.val_main_v208 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))

theorem pooled_at19 (h : Cert.Pre_KernelIdeal m) (c : Dev nD) :
    W19 m c main_v136 = Cert.ReferenceIdeal.ReadP.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W19_keep m c main_v136 (by decide)]
  unfold W18
  rw [Function.update_self]
  exact pooled m h c

theorem biasRow_v137_at19 (c : Dev nD) :
    W19 m c main_v137 = shapeCast S1x128 (m ((c : Thread nD τ).loc main_arg10)) shapeCasts_S128_S1x128 := by
  unfold W19
  rw [rd9_v137, launch_arg10_at18 m c]
theorem biasRow_v138_at19 (c : Dev nD) :
    W19 m c main_v138 = shapeCast S1x16 (m ((c : Thread nD τ).loc main_arg12)) shapeCasts_S16_S1x16 := by
  unfold W19
  rw [rd9_v138, launch_arg12_at18 m c]
theorem biasRow_v139_at19 (c : Dev nD) :
    W19 m c main_v139 = shapeCast S1x128 (m ((c : Thread nD τ).loc main_arg14)) shapeCasts_S128_S1x128 := by
  unfold W19
  rw [rd9_v139, launch_arg14_at18 m c]
theorem biasRow_v140_at19 (c : Dev nD) :
    W19 m c main_v140 = shapeCast S1x1 (m ((c : Thread nD τ).loc main_arg16)) shapeCasts_S1_S1x1 := by
  unfold W19
  rw [rd9_v140, launch_arg16_at18 m c]

theorem scores0 (h : Cert.Pre_KernelIdeal m) (c : Dev nD) :
    o20_0 m c = Cert.ReferenceIdeal.ReadP.val_main_v220 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold o20_0
  rw [final9_0]
  show Cert.Spec.logits (W19 m c main_v136) (W19 m c main_arg9) (W19 m c main_v137) (W19 m c main_arg11) (W19 m c main_v138) = _
  rw [pooled_at19 m h c, launch_arg9_at19 m c, biasRow_v137_at19 m c, launch_arg11_at19 m c, biasRow_v138_at19 m c]
  rw [Cert.Proof.RefSpec.val_main_v220_eq_logitsRef]
  exact Cert.Proof.RefSpec.logits_eq (Cert.ReferenceIdeal.ReadP.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10))
    (shapeCast S1x128 (m ((c : Thread nD τ).loc main_arg10)) shapeCasts_S128_S1x128) (fun k => row_of_vec_at (m ((c : Thread nD τ).loc main_arg10)) shapeCasts_S128_S1x128 k)
    (m ((c : Thread nD τ).loc main_arg11)) (m ((c : Thread nD τ).loc main_arg12))
    (shapeCast S1x16 (m ((c : Thread nD τ).loc main_arg12)) shapeCasts_S16_S1x16) (fun k => row_of_vec_at (m ((c : Thread nD τ).loc main_arg12)) shapeCasts_S16_S1x16 k)

theorem scores1 (h : Cert.Pre_KernelIdeal m) (c : Dev nD) :
    o20_1 m c = Cert.ReferenceIdeal.ReadP.val_main_v235 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) := by
  unfold o20_1
  rw [final9_1]
  show Cert.Spec.novelty (W19 m c main_v136) (W19 m c main_arg13) (W19 m c main_v139) (W19 m c main_arg15) (W19 m c main_v140) = _
  rw [pooled_at19 m h c, launch_arg13_at19 m c, biasRow_v139_at19 m c, launch_arg15_at19 m c, biasRow_v140_at19 m c]
  rw [Cert.Proof.RefSpec.val_main_v235_eq_noveltyRef]
  exact Cert.Proof.RefSpec.novelty_eq (Cert.ReferenceIdeal.ReadP.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg13)) (m ((c : Thread nD τ).loc main_arg14))
    (shapeCast S1x128 (m ((c : Thread nD τ).loc main_arg14)) shapeCasts_S128_S1x128) (fun k => row_of_vec_at (m ((c : Thread nD τ).loc main_arg14)) shapeCasts_S128_S1x128 k)
    (m ((c : Thread nD τ).loc main_arg15)) (m ((c : Thread nD τ).loc main_arg16))
    (shapeCast S1x1 (m ((c : Thread nD τ).loc main_arg16)) shapeCasts_S1_S1x1) (fun k => row_of_vec_at (m ((c : Thread nD τ).loc main_arg16)) shapeCasts_S1_S1x1 k)

theorem res0 (h : Cert.Pre_KernelIdeal m) (c : Dev nD) :
    W20 m c main_v141_0 = Cert.ReferenceIdeal.ReadP.val_main_v220 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold W20
  rw [Function.update_of_ne (StableHlo.devRef_ne_of_ne (x := main_v141_0) (y := main_v141_1) (by decide)), Function.update_self]
  exact scores0 m h c

theorem res1 (h : Cert.Pre_KernelIdeal m) (c : Dev nD) :
    W20 m c main_v141_1 = Cert.ReferenceIdeal.ReadP.val_main_v235 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) := by
  unfold W20
  rw [Function.update_self]
  exact scores1 m h c

end Cert.KernelIdeal.Bridge
end
-- ==== Proof.RefRun0.lean ====
import proofs.«417545_j39908836114735_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

def opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_c (constantI S_ 32 0#32),
    unary main_c main_v11 (broadcastInDim S1600000 ![] bcast_S_S1600000 : (⟨S_, .i32⟩ : BufTy).Contents (Elt F) → (⟨S1600000, .i32⟩ : BufTy).Contents (Elt F)),
    binary main_v1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v10 main_v16 main_v17 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v18 (broadcastInDim S1600000 ![] bcast_S_S1600000 : (⟨S_, .i32⟩ : BufTy).Contents (Elt F) → (⟨S1600000, .i32⟩ : BufTy).Contents (Elt F)),
    binary main_v3 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v20 (broadcastInDim S1600000 ![] bcast_S_S1600000 : (⟨S_, .i32⟩ : BufTy).Contents (Elt F) → (⟨S1600000, .i32⟩ : BufTy).Contents (Elt F)),
    binary main_v3 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v10 main_v23 main_v24 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v17 main_v24 main_v25 (mulf : (⟨S1600000, .f32⟩ : BufTy).Contents (Elt F) → (⟨S1600000, .f32⟩ : BufTy).Contents (Elt F) → (⟨S1600000, .f32⟩ : BufTy).Contents (Elt F)) ]

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem opsA_fresh : ∀ op ∈ (opsA : List (HloOp τ sig (Elt F))), op.fresh = ∅ := by
  intro _ h; unfold opsA at h; (repeat (cases h with | head => rfl | tail _ h => ?_)); exact nomatch h

abbrev opsA_W : List (Ref sig .tc) :=
  [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25]

set_option maxRecDepth 8192 in
set_option maxHeartbeats 4000000 in
theorem opsA_writes : (opsA : List (HloOp τ sig (Elt F))).Forall fun op => op.writes ⊆ (opsA_W.map (Proc.devRef (τ := τ) .tc)).toFinset := by
  simp only [opsA, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem opsA_keeps (V : Valuation τ sig (Elt F)) (r : Ref sig .tc) (h : r ∉ opsA_W) :
    after opsA V (Proc.devRef .tc r) = V (Proc.devRef .tc r) :=
  after_of_writes_sub opsA V opsA_writes h

set_option maxRecDepth 8192 in
set_option maxHeartbeats 4000000 in

def opsB : List (HloOp τ sig (Elt F)) :=
  [ unary main_v25 main_v26 (broadcastInDim S1600000x1 ![0] bcast_S1600000_S1600000x1_0 : (⟨S1600000, .f32⟩ : BufTy).Contents (Elt F) → (⟨S1600000x1, .f32⟩ : BufTy).Contents (Elt F)),
    binary main_v10 main_v10 main_v27 (mulf : (⟨S100000, .f32⟩ : BufTy).Contents (Elt F) → (⟨S100000, .f32⟩ : BufTy).Contents (Elt F) → (⟨S100000, .f32⟩ : BufTy).Contents (Elt F)),
    unary main_v27 main_v28 (broadcastInDim S100000x1 ![0] bcast_S100000_S100000x1_0 : (⟨S100000, .f32⟩ : BufTy).Contents (Elt F) → (⟨S100000x1, .f32⟩ : BufTy).Contents (Elt F)),
    unary main_arg3 main_v29 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v29 main_v30 rfl shapeCasts_S1x128x128_S128x128,
    binary main_arg0 main_v30 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_5 (constantI S_ 32 0#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v26 main_v39 (broadcastInDim S1600000x128 ![0, 1] bcast_S1600000x1_S1600000x128_0_1 : (⟨S1600000x1, .f32⟩ : BufTy).Contents (Elt F) → (⟨S1600000x128, .f32⟩ : BufTy).Contents (Elt F)),
    binary main_v38 main_v39 main_v40 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v41 (broadcastInDim S100000x128 ![] bcast_S_S100000x128 : (⟨S_, .f32⟩ : BufTy).Contents (Elt F) → (⟨S100000x128, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v28 main_v44 (broadcastInDim S100000x128 ![0, 1] bcast_S100000x1_S100000x128_0_1 : (⟨S100000x1, .f32⟩ : BufTy).Contents (Elt F) → (⟨S100000x128, .f32⟩ : BufTy).Contents (Elt F)),
    binary main_v31 main_v44 main_v45 (mulf : (⟨S100000x128, .f32⟩ : BufTy).Contents (Elt F) → (⟨S100000x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    unary main_arg4 main_v47 ((extractStridedSlice S1x128 ![0, 0] · slices_S4x128_S1x128_0_0) : (⟨S4x128, .f32⟩ : BufTy).Contents (Elt F) → (⟨S1x128, .f32⟩ : BufTy).Contents (Elt F)),
    reshape main_v47 main_v48 rfl shapeCasts_S1x128_S128,
    unary main_v48 main_v49 (broadcastInDim S1x128 ![1] bcast_S128_S1x128_1 : (⟨S128, .f32⟩ : BufTy).Contents (Elt F) → (⟨S1x128, .f32⟩ : BufTy).Contents (Elt F)) ]

set_option maxRecDepth 8192 in
theorem opsB_sub : (opsB : List (HloOp τ sig (Elt F))).Forall fun op => op.bufs ⊆ tcRefs τ sig :=
  ⟨unary_bufs_sub .., binary_bufs_sub .., unary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub ..⟩

set_option maxRecDepth 8192 in
theorem opsB_fresh : ∀ op ∈ (opsB : List (HloOp τ sig (Elt F))), op.fresh = ∅ := by
  intro _ h; unfold opsB at h; (repeat (cases h with | head => rfl | tail _ h => ?_)); exact nomatch h

abbrev opsB_W : List (Ref sig .tc) :=
  [main_v26, main_v27, main_v28, main_v29, main_v30, main_v31, main_c_5, main_v32, main_v33, main_c_6, main_v34, main_v35, main_v36, main_v37, main_v38, main_v39, main_v40, main_cst_7, main_v41, main_v42, main_v43, main_v44, main_v45, main_v46, main_v47, main_v48, main_v49]

set_option maxRecDepth 8192 in
set_option maxHeartbeats 4000000 in
theorem opsB_writes : (opsB : List (HloOp τ sig (Elt F))).Forall fun op => op.writes ⊆ (opsB_W.map (Proc.devRef (τ := τ) .tc)).toFinset := by
  simp only [opsB, List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem opsB_keeps (V : Valuation τ sig (Elt F)) (r : Ref sig .tc) (h : r ∉ opsB_W) :
    after opsB V (Proc.devRef .tc r) = V (Proc.devRef .tc r) :=
  after_of_writes_sub opsB V opsB_writes h

set_option maxRecDepth 8192 in
set_option maxHeartbeats 4000000 in

def opsC : List (HloOp τ sig (Elt F)) :=
  [ unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v46 main_v50 main_v51 (addf : (⟨S100000x128, .f32⟩ : BufTy).Contents (Elt F) → (⟨S100000x128, .f32⟩ : BufTy).Contents (Elt F) → (⟨S100000x128, .f32⟩ : BufTy).Contents (Elt F)),
    unary main_arg7 main_v52 ((extractStridedSlice S1x128 ![0, 0] · slices_S4x128_S1x128_0_0) : (⟨S4x128, .f32⟩ : BufTy).Contents (Elt F) → (⟨S1x128, .f32⟩ : BufTy).Contents (Elt F)),
    reshape main_v52 main_v53 rfl shapeCasts_S1x128_S128,
    unary main_v53 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v51 main_v55 main_v56 (subf : (⟨S100000x128, .f32⟩ : BufTy).Contents (Elt F) → (⟨S100000x128, .f32⟩ : BufTy).Contents (Elt F) → (⟨S100000x128, .f32⟩ : BufTy).Contents (Elt F)),
    unary main_arg5 main_v57 ((extractStridedSlice S1x128 ![0, 0] · slices_S4x128_S1x128_0_0) : (⟨S4x128, .f32⟩ : BufTy).Contents (Elt F) → (⟨S1x128, .f32⟩ : BufTy).Contents (Elt F)),
    reshape main_v57 main_v58 rfl shapeCasts_S1x128_S128,
    unary main_arg8 main_v59 ((extractStridedSlice S1x128 ![0, 0] · slices_S4x128_S1x128_0_0) : (⟨S4x128, .f32⟩ : BufTy).Contents (Elt F) → (⟨S1x128, .f32⟩ : BufTy).Contents (Elt F)),
    reshape main_v59 main_v60 rfl shapeCasts_S1x128_S128,
    nullary main_cst_8 (constant S_ .f32 0x3727C5AC#32),
    unary main_cst_8 main_v61 (broadcastInDim S128 ![] bcast_S_S128 : (⟨S_, .f32⟩ : BufTy).Contents (Elt F) → (⟨S128, .f32⟩ : BufTy).Contents (Elt F)),
    binary main_v60 main_v61 main_v62 (addf : (⟨S128, .f32⟩ : BufTy).Contents (Elt F) → (⟨S128, .f32⟩ : BufTy).Contents (Elt F) → (⟨S128, .f32⟩ : BufTy).Contents (Elt F)),
    unary main_v62 main_v63 (Host.sqrt : (⟨S128, .f32⟩ : BufTy).Contents (Elt F) → (⟨S128, .f32⟩ : BufTy).Contents (Elt F)),
    binary main_v58 main_v63 main_v64 (Host.divf : (⟨S128, .f32⟩ : BufTy).Contents (Elt F) → (⟨S128, .f32⟩ : BufTy).Contents (Elt F) → (⟨S128, .f32⟩ : BufTy).Contents (Elt F)),
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v56 main_v66 main_v67 (mulf : (⟨S100000x128, .f32⟩ : BufTy).Contents (Elt F) → (⟨S100000x128, .f32⟩ : BufTy).Contents (Elt F) → (⟨S100000x128, .f32⟩ : BufTy).Contents (Elt F)),
    unary main_arg6 main_v68 ((extractStridedSlice S1x128 ![0, 0] · slices_S4x128_S1x128_0_0) : (⟨S4x128, .f32⟩ : BufTy).Contents (Elt F) → (⟨S1x128, .f32⟩ : BufTy).Contents (Elt F)),
    reshape main_v68 main_v69 rfl shapeCasts_S1x128_S128,
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v67 main_v71 main_v72 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v72) (TRef.of (T := ⟨S100000x128, .f32⟩) main_call0_v0) (TRef.of (T := ⟨S100000x128, .f32⟩) main_v73) maximumf,
    unary main_arg3 main_v74 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v74 main_v75 rfl shapeCasts_S1x128x128_S128x128,
    binary main_v73 main_v75 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

set_option maxRecDepth 8192 in
theorem opsC_sub : (opsC : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub ..⟩

set_option maxRecDepth 8192 in
theorem opsC_fresh : ∀ op ∈ (opsC : List (HloOp τ sig (Elt F))), op.fresh = ∅ := by
  intro _ h; unfold opsC at h; (repeat (cases h with | head => rfl | tail _ h => ?_)); exact nomatch h

abbrev opsC_W : List (Ref sig .tc) :=
  [main_v50, main_v51, main_v52, main_v53, main_v54, main_v55, main_v56, main_v57, main_v58, main_v59, main_v60, main_cst_8, main_v61, main_v62, main_v63, main_v64, main_v65, main_v66, main_v67, main_v68, main_v69, main_v70, main_v71, main_v72, main_call0_cst, main_call0_v0, main_v73, main_v74, main_v75, main_v76]

set_option maxRecDepth 8192 in
set_option maxHeartbeats 4000000 in
theorem opsC_writes : (opsC : List (HloOp τ sig (Elt F))).Forall fun op => op.writes ⊆ (opsC_W.map (Proc.devRef (τ := τ) .tc)).toFinset := by
  simp only [opsC, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem opsC_keeps (V : Valuation τ sig (Elt F)) (r : Ref sig .tc) (h : r ∉ opsC_W) :
    after opsC V (Proc.devRef .tc r) = V (Proc.devRef .tc r) :=
  after_of_writes_sub opsC V opsC_writes h

set_option maxRecDepth 8192 in
set_option maxHeartbeats 4000000 in

def opsD : List (HloOp τ sig (Elt F)) :=
  [ nullary main_c_9 (constantI S_ 32 0#32),
    unary main_c_9 main_v77 (broadcastInDim S1600000 ![] bcast_S_S1600000 : (⟨S_, .i32⟩ : BufTy).Contents (Elt F) → (⟨S1600000, .i32⟩ : BufTy).Contents (Elt F)),
    binary main_v1 main_v77 main_v78 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v79 (broadcastInDim S1600000 ![] bcast_S_S1600000 : (⟨S_, .i32⟩ : BufTy).Contents (Elt F) → (⟨S1600000, .i32⟩ : BufTy).Contents (Elt F)),
    binary main_v1 main_v79 main_v80 (addi : (⟨S1600000, .i32⟩ : BufTy).Contents (Elt F) → (⟨S1600000, .i32⟩ : BufTy).Contents (Elt F) → (⟨S1600000, .i32⟩ : BufTy).Contents (Elt F)),
    ternary main_v78 main_v80 main_v1 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v81 main_v82 (broadcastInDim S1600000x1 ![0] bcast_S1600000_S1600000x1_0 : (⟨S1600000, .i32⟩ : BufTy).Contents (Elt F) → (⟨S1600000x1, .i32⟩ : BufTy).Contents (Elt F)),
    binary main_v76 main_v82 main_v83 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v26 main_v84 (broadcastInDim S1600000x128 ![0, 1] bcast_S1600000x1_S1600000x128_0_1 : (⟨S1600000x1, .f32⟩ : BufTy).Contents (Elt F) → (⟨S1600000x128, .f32⟩ : BufTy).Contents (Elt F)),
    binary main_v83 main_v84 main_v85 (mulf : (⟨S1600000x128, .f32⟩ : BufTy).Contents (Elt F) → (⟨S1600000x128, .f32⟩ : BufTy).Contents (Elt F) → (⟨S1600000x128, .f32⟩ : BufTy).Contents (Elt F)),
    nullary main_cst_11 (constant S_ .f32 0x00000000#32),
    unary main_cst_11 main_v86 (broadcastInDim S100000x128 ![] bcast_S_S100000x128 : (⟨S_, .f32⟩ : BufTy).Contents (Elt F) → (⟨S100000x128, .f32⟩ : BufTy).Contents (Elt F)),
    unary main_v3 main_v87 (broadcastInDim S1600000x1 ![0] bcast_S1600000_S1600000x1_0 : (⟨S1600000, .i32⟩ : BufTy).Contents (Elt F) → (⟨S1600000x1, .i32⟩ : BufTy).Contents (Elt F)),
    ternary main_v86 main_v87 main_v85 main_v88 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v28 main_v89 (broadcastInDim S100000x128 ![0, 1] bcast_S100000x1_S100000x128_0_1 : (⟨S100000x1, .f32⟩ : BufTy).Contents (Elt F) → (⟨S100000x128, .f32⟩ : BufTy).Contents (Elt F)),
    binary main_v76 main_v89 main_v90 (mulf : (⟨S100000x128, .f32⟩ : BufTy).Contents (Elt F) → (⟨S100000x128, .f32⟩ : BufTy).Contents (Elt F) → (⟨S100000x128, .f32⟩ : BufTy).Contents (Elt F)),
    binary main_v88 main_v90 main_v91 (addf : (⟨S100000x128, .f32⟩ : BufTy).Contents (Elt F) → (⟨S100000x128, .f32⟩ : BufTy).Contents (Elt F) → (⟨S100000x128, .f32⟩ : BufTy).Contents (Elt F)),
    unary main_arg4 main_v92 ((extractStridedSlice S1x128 ![1, 0] · slices_S4x128_S1x128_1_0) : (⟨S4x128, .f32⟩ : BufTy).Contents (Elt F) → (⟨S1x128, .f32⟩ : BufTy).Contents (Elt F)),
    reshape main_v92 main_v93 rfl shapeCasts_S1x128_S128,
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v91 main_v95 main_v96 (addf : (⟨S100000x128, .f32⟩ : BufTy).Contents (Elt F) → (⟨S100000x128, .f32⟩ : BufTy).Contents (Elt F) → (⟨S100000x128, .f32⟩ : BufTy).Contents (Elt F)),
    unary main_arg7 main_v97 ((extractStridedSlice S1x128 ![1, 0] · slices_S4x128_S1x128_1_0) : (⟨S4x128, .f32⟩ : BufTy).Contents (Elt F) → (⟨S1x128, .f32⟩ : BufTy).Contents (Elt F)),
    reshape main_v97 main_v98 rfl shapeCasts_S1x128_S128,
    unary main_v98 main_v99 (broadcastInDim S1x128 ![1] bcast_S128_S1x128_1 : (⟨S128, .f32⟩ : BufTy).Contents (Elt F) → (⟨S1x128, .f32⟩ : BufTy).Contents (Elt F)),
    unary main_v99 main_v100 (broadcastInDim S100000x128 ![0, 1] bcast_S1x128_S100000x128_0_1 : (⟨S1x128, .f32⟩ : BufTy).Contents (Elt F) → (⟨S100000x128, .f32⟩ : BufTy).Contents (Elt F)),
    binary main_v96 main_v100 main_v101 (subf : (⟨S100000x128, .f32⟩ : BufTy).Contents (Elt F) → (⟨S100000x128, .f32⟩ : BufTy).Contents (Elt F) → (⟨S100000x128, .f32⟩ : BufTy).Contents (Elt F)),
    unary main_arg5 main_v102 ((extractStridedSlice S1x128 ![1, 0] · slices_S4x128_S1x128_1_0) : (⟨S4x128, .f32⟩ : BufTy).Contents (Elt F) → (⟨S1x128, .f32⟩ : BufTy).Contents (Elt F)),
    reshape main_v102 main_v103 rfl shapeCasts_S1x128_S128,
    unary main_arg8 main_v104 ((extractStridedSlice S1x128 ![1, 0] · slices_S4x128_S1x128_1_0) : (⟨S4x128, .f32⟩ : BufTy).Contents (Elt F) → (⟨S1x128, .f32⟩ : BufTy).Contents (Elt F)),
    reshape main_v104 main_v105 rfl shapeCasts_S1x128_S128 ]

set_option maxRecDepth 8192 in
theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub ..⟩

set_option maxRecDepth 8192 in
theorem opsD_fresh : ∀ op ∈ (opsD : List (HloOp τ sig (Elt F))), op.fresh = ∅ := by
  intro _ h; unfold opsD at h; (repeat (cases h with | head => rfl | tail _ h => ?_)); exact nomatch h

abbrev opsD_W : List (Ref sig .tc) :=
  [main_c_9, main_v77, main_v78, main_c_10, main_v79, main_v80, main_v81, main_v82, main_v83, main_v84, main_v85, main_cst_11, main_v86, main_v87, main_v88, main_v89, main_v90, main_v91, main_v92, main_v93, main_v94, main_v95, main_v96, main_v97, main_v98, main_v99, main_v100, main_v101, main_v102, main_v103, main_v104, main_v105]

set_option maxRecDepth 8192 in
set_option maxHeartbeats 4000000 in
theorem opsD_writes : (opsD : List (HloOp τ sig (Elt F))).Forall fun op => op.writes ⊆ (opsD_W.map (Proc.devRef (τ := τ) .tc)).toFinset := by
  simp only [opsD, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem opsD_keeps (V : Valuation τ sig (Elt F)) (r : Ref sig .tc) (h : r ∉ opsD_W) :
    after opsD V (Proc.devRef .tc r) = V (Proc.devRef .tc r) :=
  after_of_writes_sub opsD V opsD_writes h

set_option maxRecDepth 8192 in
set_option maxHeartbeats 4000000 in

def opsE : List (HloOp τ sig (Elt F)) :=
  [ nullary main_cst_12 (constant S_ .f32 0x3727C5AC#32),
    unary main_cst_12 main_v106 (broadcastInDim S128 ![] bcast_S_S128 : (⟨S_, .f32⟩ : BufTy).Contents (Elt F) → (⟨S128, .f32⟩ : BufTy).Contents (Elt F)),
    binary main_v105 main_v106 main_v107 (addf : (⟨S128, .f32⟩ : BufTy).Contents (Elt F) → (⟨S128, .f32⟩ : BufTy).Contents (Elt F) → (⟨S128, .f32⟩ : BufTy).Contents (Elt F)),
    unary main_v107 main_v108 (Host.sqrt : (⟨S128, .f32⟩ : BufTy).Contents (Elt F) → (⟨S128, .f32⟩ : BufTy).Contents (Elt F)),
    binary main_v103 main_v108 main_v109 (Host.divf : (⟨S128, .f32⟩ : BufTy).Contents (Elt F) → (⟨S128, .f32⟩ : BufTy).Contents (Elt F) → (⟨S128, .f32⟩ : BufTy).Contents (Elt F)),
    unary main_v109 main_v110 (broadcastInDim S1x128 ![1] bcast_S128_S1x128_1 : (⟨S128, .f32⟩ : BufTy).Contents (Elt F) → (⟨S1x128, .f32⟩ : BufTy).Contents (Elt F)),
    unary main_v110 main_v111 (broadcastInDim S100000x128 ![0, 1] bcast_S1x128_S100000x128_0_1 : (⟨S1x128, .f32⟩ : BufTy).Contents (Elt F) → (⟨S100000x128, .f32⟩ : BufTy).Contents (Elt F)),
    binary main_v101 main_v111 main_v112 (mulf : (⟨S100000x128, .f32⟩ : BufTy).Contents (Elt F) → (⟨S100000x128, .f32⟩ : BufTy).Contents (Elt F) → (⟨S100000x128, .f32⟩ : BufTy).Contents (Elt F)),
    unary main_arg6 main_v113 ((extractStridedSlice S1x128 ![1, 0] · slices_S4x128_S1x128_1_0) : (⟨S4x128, .f32⟩ : BufTy).Contents (Elt F) → (⟨S1x128, .f32⟩ : BufTy).Contents (Elt F)),
    reshape main_v113 main_v114 rfl shapeCasts_S1x128_S128,
    unary main_v114 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v112 main_v116 main_v117 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v117) (TRef.of (T := ⟨S100000x128, .f32⟩) main_call1_v0) (TRef.of (T := ⟨S100000x128, .f32⟩) main_v118) maximumf,
    unary main_arg3 main_v119 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v119 main_v120 rfl shapeCasts_S1x128x128_S128x128,
    binary main_v118 main_v120 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_13 (constantI S_ 32 0#32),
    unary main_c_13 main_v122 (broadcastInDim S1600000 ![] bcast_S_S1600000 : (⟨S_, .i32⟩ : BufTy).Contents (Elt F) → (⟨S1600000, .i32⟩ : BufTy).Contents (Elt F)),
    binary main_v1 main_v122 main_v123 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v124 (broadcastInDim S1600000 ![] bcast_S_S1600000 : (⟨S_, .i32⟩ : BufTy).Contents (Elt F) → (⟨S1600000, .i32⟩ : BufTy).Contents (Elt F)),
    binary main_v1 main_v124 main_v125 (addi : (⟨S1600000, .i32⟩ : BufTy).Contents (Elt F) → (⟨S1600000, .i32⟩ : BufTy).Contents (Elt F) → (⟨S1600000, .i32⟩ : BufTy).Contents (Elt F)),
    ternary main_v123 main_v125 main_v1 main_v126 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v126 main_v127 (broadcastInDim S1600000x1 ![0] bcast_S1600000_S1600000x1_0 : (⟨S1600000, .i32⟩ : BufTy).Contents (Elt F) → (⟨S1600000x1, .i32⟩ : BufTy).Contents (Elt F)),
    binary main_v121 main_v127 main_v128 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v26 main_v129 (broadcastInDim S1600000x128 ![0, 1] bcast_S1600000x1_S1600000x128_0_1 : (⟨S1600000x1, .f32⟩ : BufTy).Contents (Elt F) → (⟨S1600000x128, .f32⟩ : BufTy).Contents (Elt F)),
    binary main_v128 main_v129 main_v130 (mulf : (⟨S1600000x128, .f32⟩ : BufTy).Contents (Elt F) → (⟨S1600000x128, .f32⟩ : BufTy).Contents (Elt F) → (⟨S1600000x128, .f32⟩ : BufTy).Contents (Elt F)),
    nullary main_cst_15 (constant S_ .f32 0x00000000#32),
    unary main_cst_15 main_v131 (broadcastInDim S100000x128 ![] bcast_S_S100000x128 : (⟨S_, .f32⟩ : BufTy).Contents (Elt F) → (⟨S100000x128, .f32⟩ : BufTy).Contents (Elt F)),
    unary main_v3 main_v132 (broadcastInDim S1600000x1 ![0] bcast_S1600000_S1600000x1_0 : (⟨S1600000, .i32⟩ : BufTy).Contents (Elt F) → (⟨S1600000x1, .i32⟩ : BufTy).Contents (Elt F)),
    ternary main_v131 main_v132 main_v130 main_v133 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v28 main_v134 (broadcastInDim S100000x128 ![0, 1] bcast_S100000x1_S100000x128_0_1 : (⟨S100000x1, .f32⟩ : BufTy).Contents (Elt F) → (⟨S100000x128, .f32⟩ : BufTy).Contents (Elt F)),
    binary main_v121 main_v134 main_v135 (mulf : (⟨S100000x128, .f32⟩ : BufTy).Contents (Elt F) → (⟨S100000x128, .f32⟩ : BufTy).Contents (Elt F) → (⟨S100000x128, .f32⟩ : BufTy).Contents (Elt F)),
    binary main_v133 main_v135 main_v136 (addf : (⟨S100000x128, .f32⟩ : BufTy).Contents (Elt F) → (⟨S100000x128, .f32⟩ : BufTy).Contents (Elt F) → (⟨S100000x128, .f32⟩ : BufTy).Contents (Elt F)) ]

set_option maxRecDepth 8192 in
theorem opsE_sub : (opsE : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub ..⟩

set_option maxRecDepth 8192 in
theorem opsE_fresh : ∀ op ∈ (opsE : List (HloOp τ sig (Elt F))), op.fresh = ∅ := by
  intro _ h; unfold opsE at h; (repeat (cases h with | head => rfl | tail _ h => ?_)); exact nomatch h

abbrev opsE_W : List (Ref sig .tc) :=
  [main_cst_12, main_v106, main_v107, main_v108, main_v109, main_v110, main_v111, main_v112, main_v113, main_v114, main_v115, main_v116, main_v117, main_call1_cst, main_call1_v0, main_v118, main_v119, main_v120, main_v121, main_c_13, main_v122, main_v123, main_c_14, main_v124, main_v125, main_v126, main_v127, main_v128, main_v129, main_v130, main_cst_15, main_v131, main_v132, main_v133, main_v134, main_v135, main_v136]

set_option maxRecDepth 8192 in
set_option maxHeartbeats 4000000 in
theorem opsE_writes : (opsE : List (HloOp τ sig (Elt F))).Forall fun op => op.writes ⊆ (opsE_W.map (Proc.devRef (τ := τ) .tc)).toFinset := by
  simp only [opsE, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem opsE_keeps (V : Valuation τ sig (Elt F)) (r : Ref sig .tc) (h : r ∉ opsE_W) :
    after opsE V (Proc.devRef .tc r) = V (Proc.devRef .tc r) :=
  after_of_writes_sub opsE V opsE_writes h

set_option maxRecDepth 8192 in
set_option maxHeartbeats 4000000 in

def opsF : List (HloOp τ sig (Elt F)) :=
  [ unary main_arg4 main_v137 ((extractStridedSlice S1x128 ![2, 0] · slices_S4x128_S1x128_2_0) : (⟨S4x128, .f32⟩ : BufTy).Contents (Elt F) → (⟨S1x128, .f32⟩ : BufTy).Contents (Elt F)),
    reshape main_v137 main_v138 rfl shapeCasts_S1x128_S128,
    unary main_v138 main_v139 (broadcastInDim S1x128 ![1] bcast_S128_S1x128_1 : (⟨S128, .f32⟩ : BufTy).Contents (Elt F) → (⟨S1x128, .f32⟩ : BufTy).Contents (Elt F)),
    unary main_v139 main_v140 (broadcastInDim S100000x128 ![0, 1] bcast_S1x128_S100000x128_0_1 : (⟨S1x128, .f32⟩ : BufTy).Contents (Elt F) → (⟨S100000x128, .f32⟩ : BufTy).Contents (Elt F)),
    binary main_v136 main_v140 main_v141 (addf : (⟨S100000x128, .f32⟩ : BufTy).Contents (Elt F) → (⟨S100000x128, .f32⟩ : BufTy).Contents (Elt F) → (⟨S100000x128, .f32⟩ : BufTy).Contents (Elt F)),
    unary main_arg7 main_v142 ((extractStridedSlice S1x128 ![2, 0] · slices_S4x128_S1x128_2_0) : (⟨S4x128, .f32⟩ : BufTy).Contents (Elt F) → (⟨S1x128, .f32⟩ : BufTy).Contents (Elt F)),
    reshape main_v142 main_v143 rfl shapeCasts_S1x128_S128,
    unary main_v143 main_v144 (broadcastInDim S1x128 ![1] bcast_S128_S1x128_1 : (⟨S128, .f32⟩ : BufTy).Contents (Elt F) → (⟨S1x128, .f32⟩ : BufTy).Contents (Elt F)),
    unary main_v144 main_v145 (broadcastInDim S100000x128 ![0, 1] bcast_S1x128_S100000x128_0_1 : (⟨S1x128, .f32⟩ : BufTy).Contents (Elt F) → (⟨S100000x128, .f32⟩ : BufTy).Contents (Elt F)),
    binary main_v141 main_v145 main_v146 (subf : (⟨S100000x128, .f32⟩ : BufTy).Contents (Elt F) → (⟨S100000x128, .f32⟩ : BufTy).Contents (Elt F) → (⟨S100000x128, .f32⟩ : BufTy).Contents (Elt F)),
    unary main_arg5 main_v147 ((extractStridedSlice S1x128 ![2, 0] · slices_S4x128_S1x128_2_0) : (⟨S4x128, .f32⟩ : BufTy).Contents (Elt F) → (⟨S1x128, .f32⟩ : BufTy).Contents (Elt F)),
    reshape main_v147 main_v148 rfl shapeCasts_S1x128_S128,
    unary main_arg8 main_v149 ((extractStridedSlice S1x128 ![2, 0] · slices_S4x128_S1x128_2_0) : (⟨S4x128, .f32⟩ : BufTy).Contents (Elt F) → (⟨S1x128, .f32⟩ : BufTy).Contents (Elt F)),
    reshape main_v149 main_v150 rfl shapeCasts_S1x128_S128,
    nullary main_cst_16 (constant S_ .f32 0x3727C5AC#32),
    unary main_cst_16 main_v151 (broadcastInDim S128 ![] bcast_S_S128 : (⟨S_, .f32⟩ : BufTy).Contents (Elt F) → (⟨S128, .f32⟩ : BufTy).Contents (Elt F)),
    binary main_v150 main_v151 main_v152 (addf : (⟨S128, .f32⟩ : BufTy).Contents (Elt F) → (⟨S128, .f32⟩ : BufTy).Contents (Elt F) → (⟨S128, .f32⟩ : BufTy).Contents (Elt F)),
    unary main_v152 main_v153 (Host.sqrt : (⟨S128, .f32⟩ : BufTy).Contents (Elt F) → (⟨S128, .f32⟩ : BufTy).Contents (Elt F)),
    binary main_v148 main_v153 main_v154 (Host.divf : (⟨S128, .f32⟩ : BufTy).Contents (Elt F) → (⟨S128, .f32⟩ : BufTy).Contents (Elt F) → (⟨S128, .f32⟩ : BufTy).Contents (Elt F)),
    unary main_v154 main_v155 (broadcastInDim S1x128 ![1] bcast_S128_S1x128_1 : (⟨S128, .f32⟩ : BufTy).Contents (Elt F) → (⟨S1x128, .f32⟩ : BufTy).Contents (Elt F)),
    unary main_v155 main_v156 (broadcastInDim S100000x128 ![0, 1] bcast_S1x128_S100000x128_0_1 : (⟨S1x128, .f32⟩ : BufTy).Contents (Elt F) → (⟨S100000x128, .f32⟩ : BufTy).Contents (Elt F)),
    binary main_v146 main_v156 main_v157 (mulf : (⟨S100000x128, .f32⟩ : BufTy).Contents (Elt F) → (⟨S100000x128, .f32⟩ : BufTy).Contents (Elt F) → (⟨S100000x128, .f32⟩ : BufTy).Contents (Elt F)),
    unary main_arg6 main_v158 ((extractStridedSlice S1x128 ![2, 0] · slices_S4x128_S1x128_2_0) : (⟨S4x128, .f32⟩ : BufTy).Contents (Elt F) → (⟨S1x128, .f32⟩ : BufTy).Contents (Elt F)),
    reshape main_v158 main_v159 rfl shapeCasts_S1x128_S128,
    unary main_v159 main_v160 (broadcastInDim S1x128 ![1] bcast_S128_S1x128_1 : (⟨S128, .f32⟩ : BufTy).Contents (Elt F) → (⟨S1x128, .f32⟩ : BufTy).Contents (Elt F)) ]

set_option maxRecDepth 8192 in
theorem opsF_sub : (opsF : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub ..⟩

set_option maxRecDepth 8192 in
theorem opsF_fresh : ∀ op ∈ (opsF : List (HloOp τ sig (Elt F))), op.fresh = ∅ := by
  intro _ h; unfold opsF at h; (repeat (cases h with | head => rfl | tail _ h => ?_)); exact nomatch h

abbrev opsF_W : List (Ref sig .tc) :=
  [main_v137, main_v138, main_v139, main_v140, main_v141, main_v142, main_v143, main_v144, main_v145, main_v146, main_v147, main_v148, main_v149, main_v150, main_cst_16, main_v151, main_v152, main_v153, main_v154, main_v155, main_v156, main_v157, main_v158, main_v159, main_v160]

set_option maxRecDepth 8192 in
set_option maxHeartbeats 4000000 in
theorem opsF_writes : (opsF : List (HloOp τ sig (Elt F))).Forall fun op => op.writes ⊆ (opsF_W.map (Proc.devRef (τ := τ) .tc)).toFinset := by
  simp only [opsF, List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem opsF_keeps (V : Valuation τ sig (Elt F)) (r : Ref sig .tc) (h : r ∉ opsF_W) :
    after opsF V (Proc.devRef .tc r) = V (Proc.devRef .tc r) :=
  after_of_writes_sub opsF V opsF_writes h

set_option maxRecDepth 8192 in
set_option maxHeartbeats 4000000 in

def opsG : List (HloOp τ sig (Elt F)) :=
  [ unary main_v160 main_v161 (broadcastInDim S100000x128 ![0, 1] bcast_S1x128_S100000x128_0_1 : (⟨S1x128, .f32⟩ : BufTy).Contents (Elt F) → (⟨S100000x128, .f32⟩ : BufTy).Contents (Elt F)),
    binary main_v157 main_v161 main_v162 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v162) (TRef.of (T := ⟨S100000x128, .f32⟩) main_call2_v0) (TRef.of (T := ⟨S100000x128, .f32⟩) main_v163) maximumf,
    unary main_arg3 main_v164 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v164 main_v165 rfl shapeCasts_S1x128x128_S128x128,
    binary main_v163 main_v165 main_v166 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_17 (constantI S_ 32 0#32),
    unary main_c_17 main_v167 (broadcastInDim S1600000 ![] bcast_S_S1600000 : (⟨S_, .i32⟩ : BufTy).Contents (Elt F) → (⟨S1600000, .i32⟩ : BufTy).Contents (Elt F)),
    binary main_v1 main_v167 main_v168 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v169 (broadcastInDim S1600000 ![] bcast_S_S1600000 : (⟨S_, .i32⟩ : BufTy).Contents (Elt F) → (⟨S1600000, .i32⟩ : BufTy).Contents (Elt F)),
    binary main_v1 main_v169 main_v170 (addi : (⟨S1600000, .i32⟩ : BufTy).Contents (Elt F) → (⟨S1600000, .i32⟩ : BufTy).Contents (Elt F) → (⟨S1600000, .i32⟩ : BufTy).Contents (Elt F)),
    ternary main_v168 main_v170 main_v1 main_v171 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v171 main_v172 (broadcastInDim S1600000x1 ![0] bcast_S1600000_S1600000x1_0 : (⟨S1600000, .i32⟩ : BufTy).Contents (Elt F) → (⟨S1600000x1, .i32⟩ : BufTy).Contents (Elt F)),
    binary main_v166 main_v172 main_v173 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v26 main_v174 (broadcastInDim S1600000x128 ![0, 1] bcast_S1600000x1_S1600000x128_0_1 : (⟨S1600000x1, .f32⟩ : BufTy).Contents (Elt F) → (⟨S1600000x128, .f32⟩ : BufTy).Contents (Elt F)),
    binary main_v173 main_v174 main_v175 (mulf : (⟨S1600000x128, .f32⟩ : BufTy).Contents (Elt F) → (⟨S1600000x128, .f32⟩ : BufTy).Contents (Elt F) → (⟨S1600000x128, .f32⟩ : BufTy).Contents (Elt F)),
    nullary main_cst_19 (constant S_ .f32 0x00000000#32),
    unary main_cst_19 main_v176 (broadcastInDim S100000x128 ![] bcast_S_S100000x128 : (⟨S_, .f32⟩ : BufTy).Contents (Elt F) → (⟨S100000x128, .f32⟩ : BufTy).Contents (Elt F)),
    unary main_v3 main_v177 (broadcastInDim S1600000x1 ![0] bcast_S1600000_S1600000x1_0 : (⟨S1600000, .i32⟩ : BufTy).Contents (Elt F) → (⟨S1600000x1, .i32⟩ : BufTy).Contents (Elt F)),
    ternary main_v176 main_v177 main_v175 main_v178 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v28 main_v179 (broadcastInDim S100000x128 ![0, 1] bcast_S100000x1_S100000x128_0_1 : (⟨S100000x1, .f32⟩ : BufTy).Contents (Elt F) → (⟨S100000x128, .f32⟩ : BufTy).Contents (Elt F)),
    binary main_v166 main_v179 main_v180 (mulf : (⟨S100000x128, .f32⟩ : BufTy).Contents (Elt F) → (⟨S100000x128, .f32⟩ : BufTy).Contents (Elt F) → (⟨S100000x128, .f32⟩ : BufTy).Contents (Elt F)),
    binary main_v178 main_v180 main_v181 (addf : (⟨S100000x128, .f32⟩ : BufTy).Contents (Elt F) → (⟨S100000x128, .f32⟩ : BufTy).Contents (Elt F) → (⟨S100000x128, .f32⟩ : BufTy).Contents (Elt F)),
    unary main_arg4 main_v182 ((extractStridedSlice S1x128 ![3, 0] · slices_S4x128_S1x128_3_0) : (⟨S4x128, .f32⟩ : BufTy).Contents (Elt F) → (⟨S1x128, .f32⟩ : BufTy).Contents (Elt F)),
    reshape main_v182 main_v183 rfl shapeCasts_S1x128_S128,
    unary main_v183 main_v184 (broadcastInDim S1x128 ![1] bcast_S128_S1x128_1 : (⟨S128, .f32⟩ : BufTy).Contents (Elt F) → (⟨S1x128, .f32⟩ : BufTy).Contents (Elt F)),
    unary main_v184 main_v185 (broadcastInDim S100000x128 ![0, 1] bcast_S1x128_S100000x128_0_1 : (⟨S1x128, .f32⟩ : BufTy).Contents (Elt F) → (⟨S100000x128, .f32⟩ : BufTy).Contents (Elt F)),
    binary main_v181 main_v185 main_v186 (addf : (⟨S100000x128, .f32⟩ : BufTy).Contents (Elt F) → (⟨S100000x128, .f32⟩ : BufTy).Contents (Elt F) → (⟨S100000x128, .f32⟩ : BufTy).Contents (Elt F)) ]

set_option maxRecDepth 8192 in
theorem opsG_sub : (opsG : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub ..⟩

set_option maxRecDepth 8192 in
theorem opsG_fresh : ∀ op ∈ (opsG : List (HloOp τ sig (Elt F))), op.fresh = ∅ := by
  intro _ h; unfold opsG at h; (repeat (cases h with | head => rfl | tail _ h => ?_)); exact nomatch h

abbrev opsG_W : List (Ref sig .tc) :=
  [main_v161, main_v162, main_call2_cst, main_call2_v0, main_v163, main_v164, main_v165, main_v166, main_c_17, main_v167, main_v168, main_c_18, main_v169, main_v170, main_v171, main_v172, main_v173, main_v174, main_v175, main_cst_19, main_v176, main_v177, main_v178, main_v179, main_v180, main_v181, main_v182, main_v183, main_v184, main_v185, main_v186]

set_option maxRecDepth 8192 in
set_option maxHeartbeats 4000000 in
theorem opsG_writes : (opsG : List (HloOp τ sig (Elt F))).Forall fun op => op.writes ⊆ (opsG_W.map (Proc.devRef (τ := τ) .tc)).toFinset := by
  simp only [opsG, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem opsG_keeps (V : Valuation τ sig (Elt F)) (r : Ref sig .tc) (h : r ∉ opsG_W) :
    after opsG V (Proc.devRef .tc r) = V (Proc.devRef .tc r) :=
  after_of_writes_sub opsG V opsG_writes h

set_option maxRecDepth 8192 in
set_option maxHeartbeats 4000000 in

def opsH : List (HloOp τ sig (Elt F)) :=
  [ unary main_arg7 main_v187 ((extractStridedSlice S1x128 ![3, 0] · slices_S4x128_S1x128_3_0) : (⟨S4x128, .f32⟩ : BufTy).Contents (Elt F) → (⟨S1x128, .f32⟩ : BufTy).Contents (Elt F)),
    reshape main_v187 main_v188 rfl shapeCasts_S1x128_S128,
    unary main_v188 main_v189 (broadcastInDim S1x128 ![1] bcast_S128_S1x128_1 : (⟨S128, .f32⟩ : BufTy).Contents (Elt F) → (⟨S1x128, .f32⟩ : BufTy).Contents (Elt F)),
    unary main_v189 main_v190 (broadcastInDim S100000x128 ![0, 1] bcast_S1x128_S100000x128_0_1 : (⟨S1x128, .f32⟩ : BufTy).Contents (Elt F) → (⟨S100000x128, .f32⟩ : BufTy).Contents (Elt F)),
    binary main_v186 main_v190 main_v191 (subf : (⟨S100000x128, .f32⟩ : BufTy).Contents (Elt F) → (⟨S100000x128, .f32⟩ : BufTy).Contents (Elt F) → (⟨S100000x128, .f32⟩ : BufTy).Contents (Elt F)),
    unary main_arg5 main_v192 ((extractStridedSlice S1x128 ![3, 0] · slices_S4x128_S1x128_3_0) : (⟨S4x128, .f32⟩ : BufTy).Contents (Elt F) → (⟨S1x128, .f32⟩ : BufTy).Contents (Elt F)),
    reshape main_v192 main_v193 rfl shapeCasts_S1x128_S128,
    unary main_arg8 main_v194 ((extractStridedSlice S1x128 ![3, 0] · slices_S4x128_S1x128_3_0) : (⟨S4x128, .f32⟩ : BufTy).Contents (Elt F) → (⟨S1x128, .f32⟩ : BufTy).Contents (Elt F)),
    reshape main_v194 main_v195 rfl shapeCasts_S1x128_S128,
    nullary main_cst_20 (constant S_ .f32 0x3727C5AC#32),
    unary main_cst_20 main_v196 (broadcastInDim S128 ![] bcast_S_S128 : (⟨S_, .f32⟩ : BufTy).Contents (Elt F) → (⟨S128, .f32⟩ : BufTy).Contents (Elt F)),
    binary main_v195 main_v196 main_v197 (addf : (⟨S128, .f32⟩ : BufTy).Contents (Elt F) → (⟨S128, .f32⟩ : BufTy).Contents (Elt F) → (⟨S128, .f32⟩ : BufTy).Contents (Elt F)),
    unary main_v197 main_v198 (Host.sqrt : (⟨S128, .f32⟩ : BufTy).Contents (Elt F) → (⟨S128, .f32⟩ : BufTy).Contents (Elt F)),
    binary main_v193 main_v198 main_v199 (Host.divf : (⟨S128, .f32⟩ : BufTy).Contents (Elt F) → (⟨S128, .f32⟩ : BufTy).Contents (Elt F) → (⟨S128, .f32⟩ : BufTy).Contents (Elt F)),
    unary main_v199 main_v200 (broadcastInDim S1x128 ![1] bcast_S128_S1x128_1 : (⟨S128, .f32⟩ : BufTy).Contents (Elt F) → (⟨S1x128, .f32⟩ : BufTy).Contents (Elt F)),
    unary main_v200 main_v201 (broadcastInDim S100000x128 ![0, 1] bcast_S1x128_S100000x128_0_1 : (⟨S1x128, .f32⟩ : BufTy).Contents (Elt F) → (⟨S100000x128, .f32⟩ : BufTy).Contents (Elt F)),
    binary main_v191 main_v201 main_v202 (mulf : (⟨S100000x128, .f32⟩ : BufTy).Contents (Elt F) → (⟨S100000x128, .f32⟩ : BufTy).Contents (Elt F) → (⟨S100000x128, .f32⟩ : BufTy).Contents (Elt F)),
    unary main_arg6 main_v203 ((extractStridedSlice S1x128 ![3, 0] · slices_S4x128_S1x128_3_0) : (⟨S4x128, .f32⟩ : BufTy).Contents (Elt F) → (⟨S1x128, .f32⟩ : BufTy).Contents (Elt F)),
    reshape main_v203 main_v204 rfl shapeCasts_S1x128_S128,
    unary main_v204 main_v205 (broadcastInDim S1x128 ![1] bcast_S128_S1x128_1 : (⟨S128, .f32⟩ : BufTy).Contents (Elt F) → (⟨S1x128, .f32⟩ : BufTy).Contents (Elt F)),
    unary main_v205 main_v206 (broadcastInDim S100000x128 ![0, 1] bcast_S1x128_S100000x128_0_1 : (⟨S1x128, .f32⟩ : BufTy).Contents (Elt F) → (⟨S100000x128, .f32⟩ : BufTy).Contents (Elt F)),
    binary main_v202 main_v206 main_v207 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v207) (TRef.of (T := ⟨S100000x128, .f32⟩) main_call3_v0) (TRef.of (T := ⟨S100000x128, .f32⟩) main_v208) maximumf,
    nullary main_cst_21 (constant S_ .f32 0x00000000#32),
    unary main_cst_21 main_v209 (broadcastInDim S64x128 ![] bcast_S_S64x128 : (⟨S_, .f32⟩ : BufTy).Contents (Elt F) → (⟨S64x128, .f32⟩ : BufTy).Contents (Elt F)),
    unary main_arg2 main_v210 (broadcastInDim S100000x1 ![0] bcast_S100000_S100000x1_0 : (⟨S100000, .i32⟩ : BufTy).Contents (Elt F) → (⟨S100000x1, .i32⟩ : BufTy).Contents (Elt F)),
    ternary main_v209 main_v210 main_v208 main_v211 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    binary main_v211 main_arg9 main_v212 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    unary main_arg10 main_v213 (broadcastInDim S1x128 ![1] bcast_S128_S1x128_1 : (⟨S128, .f32⟩ : BufTy).Contents (Elt F) → (⟨S1x128, .f32⟩ : BufTy).Contents (Elt F)),
    unary main_v213 main_v214 (broadcastInDim S64x128 ![0, 1] bcast_S1x128_S64x128_0_1 : (⟨S1x128, .f32⟩ : BufTy).Contents (Elt F) → (⟨S64x128, .f32⟩ : BufTy).Contents (Elt F)),
    binary main_v212 main_v214 main_v215 (addf : (⟨S64x128, .f32⟩ : BufTy).Contents (Elt F) → (⟨S64x128, .f32⟩ : BufTy).Contents (Elt F) → (⟨S64x128, .f32⟩ : BufTy).Contents (Elt F)) ]

set_option maxRecDepth 8192 in
theorem opsH_sub : (opsH : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩

set_option maxRecDepth 8192 in
theorem opsH_fresh : ∀ op ∈ (opsH : List (HloOp τ sig (Elt F))), op.fresh = ∅ := by
  intro _ h; unfold opsH at h; (repeat (cases h with | head => rfl | tail _ h => ?_)); exact nomatch h

abbrev opsH_W : List (Ref sig .tc) :=
  [main_v187, main_v188, main_v189, main_v190, main_v191, main_v192, main_v193, main_v194, main_v195, main_cst_20, main_v196, main_v197, main_v198, main_v199, main_v200, main_v201, main_v202, main_v203, main_v204, main_v205, main_v206, main_v207, main_call3_cst, main_call3_v0, main_v208, main_cst_21, main_v209, main_v210, main_v211, main_v212, main_v213, main_v214, main_v215]

set_option maxRecDepth 8192 in
set_option maxHeartbeats 4000000 in
theorem opsH_writes : (opsH : List (HloOp τ sig (Elt F))).Forall fun op => op.writes ⊆ (opsH_W.map (Proc.devRef (τ := τ) .tc)).toFinset := by
  simp only [opsH, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem opsH_keeps (V : Valuation τ sig (Elt F)) (r : Ref sig .tc) (h : r ∉ opsH_W) :
    after opsH V (Proc.devRef .tc r) = V (Proc.devRef .tc r) :=
  after_of_writes_sub opsH V opsH_writes h

set_option maxRecDepth 8192 in
set_option maxHeartbeats 4000000 in

def opsI : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S64x128, .f32⟩) main_call4_v0) (broadcastInDim S64x128 ![] bcast_S_S64x128),
    TRef.binary (TRef.of (T := ⟨S64x128, .f32⟩) main_v215) (TRef.of (T := ⟨S64x128, .f32⟩) main_call4_v0) (TRef.of (T := ⟨S64x128, .f32⟩) main_v216) maximumf,
    binary main_v216 main_arg11 main_v217 ((fun l r => Host.dotGeneral dot_S64x128_S128x16_S64x16_1_0_0_1_n_n none l r) : (⟨S64x128, .f32⟩ : BufTy).Contents (Elt F) → (⟨S128x16, .f32⟩ : BufTy).Contents (Elt F) → (⟨S64x16, .f32⟩ : BufTy).Contents (Elt F)),
    unary main_arg12 main_v218 (broadcastInDim S1x16 ![1] bcast_S16_S1x16_1 : (⟨S16, .f32⟩ : BufTy).Contents (Elt F) → (⟨S1x16, .f32⟩ : BufTy).Contents (Elt F)),
    unary main_v218 main_v219 (broadcastInDim S64x16 ![0, 1] bcast_S1x16_S64x16_0_1 : (⟨S1x16, .f32⟩ : BufTy).Contents (Elt F) → (⟨S64x16, .f32⟩ : BufTy).Contents (Elt F)),
    binary main_v217 main_v219 main_v220 (addf : (⟨S64x16, .f32⟩ : BufTy).Contents (Elt F) → (⟨S64x16, .f32⟩ : BufTy).Contents (Elt F) → (⟨S64x16, .f32⟩ : BufTy).Contents (Elt F)),
    binary main_v211 main_arg13 main_v221 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    unary main_arg14 main_v222 (broadcastInDim S1x128 ![1] bcast_S128_S1x128_1 : (⟨S128, .f32⟩ : BufTy).Contents (Elt F) → (⟨S1x128, .f32⟩ : BufTy).Contents (Elt F)),
    unary main_v222 main_v223 (broadcastInDim S64x128 ![0, 1] bcast_S1x128_S64x128_0_1 : (⟨S1x128, .f32⟩ : BufTy).Contents (Elt F) → (⟨S64x128, .f32⟩ : BufTy).Contents (Elt F)),
    binary main_v221 main_v223 main_v224 (addf : (⟨S64x128, .f32⟩ : BufTy).Contents (Elt F) → (⟨S64x128, .f32⟩ : BufTy).Contents (Elt F) → (⟨S64x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S64x128, .f32⟩) main_call5_v0) (broadcastInDim S64x128 ![] bcast_S_S64x128),
    TRef.binary (TRef.of (T := ⟨S64x128, .f32⟩) main_v224) (TRef.of (T := ⟨S64x128, .f32⟩) main_call5_v0) (TRef.of (T := ⟨S64x128, .f32⟩) main_v225) maximumf,
    binary main_v225 main_arg15 main_v226 ((fun l r => Host.dotGeneral dot_S64x128_S128x1_S64x1_1_0_0_1_n_n none l r) : (⟨S64x128, .f32⟩ : BufTy).Contents (Elt F) → (⟨S128x1, .f32⟩ : BufTy).Contents (Elt F) → (⟨S64x1, .f32⟩ : BufTy).Contents (Elt F)),
    unary main_arg16 main_v227 (broadcastInDim S1x1 ![1] bcast_S1_S1x1_1 : (⟨S1, .f32⟩ : BufTy).Contents (Elt F) → (⟨S1x1, .f32⟩ : BufTy).Contents (Elt F)),
    unary main_v227 main_v228 (broadcastInDim S64x1 ![0, 1] bcast_S1x1_S64x1_0_1 : (⟨S1x1, .f32⟩ : BufTy).Contents (Elt F) → (⟨S64x1, .f32⟩ : BufTy).Contents (Elt F)),
    binary main_v226 main_v228 main_v229 (addf : (⟨S64x1, .f32⟩ : BufTy).Contents (Elt F) → (⟨S64x1, .f32⟩ : BufTy).Contents (Elt F) → (⟨S64x1, .f32⟩ : BufTy).Contents (Elt F)),
    unary main_v229 main_v230 (Host.negf : (⟨S64x1, .f32⟩ : BufTy).Contents (Elt F) → (⟨S64x1, .f32⟩ : BufTy).Contents (Elt F)),
    unary main_v230 main_v231 (Host.exp : (⟨S64x1, .f32⟩ : BufTy).Contents (Elt F) → (⟨S64x1, .f32⟩ : BufTy).Contents (Elt F)),
    nullary main_cst_22 (constant S_ .f32 0x3F800000#32),
    unary main_cst_22 main_v232 (broadcastInDim S64x1 ![] bcast_S_S64x1 : (⟨S_, .f32⟩ : BufTy).Contents (Elt F) → (⟨S64x1, .f32⟩ : BufTy).Contents (Elt F)),
    binary main_v232 main_v231 main_v233 (addf : (⟨S64x1, .f32⟩ : BufTy).Contents (Elt F) → (⟨S64x1, .f32⟩ : BufTy).Contents (Elt F) → (⟨S64x1, .f32⟩ : BufTy).Contents (Elt F)),
    nullary main_cst_23 (constant S_ .f32 0x3F800000#32),
    unary main_cst_23 main_v234 (broadcastInDim S64x1 ![] bcast_S_S64x1 : (⟨S_, .f32⟩ : BufTy).Contents (Elt F) → (⟨S64x1, .f32⟩ : BufTy).Contents (Elt F)),
    binary main_v234 main_v233 main_v235 (Host.divf : (⟨S64x1, .f32⟩ : BufTy).Contents (Elt F) → (⟨S64x1, .f32⟩ : BufTy).Contents (Elt F) → (⟨S64x1, .f32⟩ : BufTy).Contents (Elt F)) ]

set_option maxRecDepth 8192 in
theorem opsI_sub : (opsI : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

set_option maxRecDepth 8192 in
theorem opsI_fresh : ∀ op ∈ (opsI : List (HloOp τ sig (Elt F))), op.fresh = ∅ := by
  intro _ h; unfold opsI at h; (repeat (cases h with | head => rfl | tail _ h => ?_)); exact nomatch h

abbrev opsI_W : List (Ref sig .tc) :=
  [main_call4_cst, main_call4_v0, main_v216, main_v217, main_v218, main_v219, main_v220, main_v221, main_v222, main_v223, main_v224, main_call5_cst, main_call5_v0, main_v225, main_v226, main_v227, main_v228, main_v229, main_v230, main_v231, main_cst_22, main_v232, main_v233, main_cst_23, main_v234, main_v235]

set_option maxRecDepth 8192 in
set_option maxHeartbeats 4000000 in
theorem opsI_writes : (opsI : List (HloOp τ sig (Elt F))).Forall fun op => op.writes ⊆ (opsI_W.map (Proc.devRef (τ := τ) .tc)).toFinset := by
  simp only [opsI, List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem opsI_keeps (V : Valuation τ sig (Elt F)) (r : Ref sig .tc) (h : r ∉ opsI_W) :
    after opsI V (Proc.devRef .tc r) = V (Proc.devRef .tc r) :=
  after_of_writes_sub opsI V opsI_writes h

set_option maxRecDepth 8192 in
set_option maxHeartbeats 4000000 in
theorem main_part0_eq (c : Dev nD) : main_part0 (F := F) c = seq (opsA ++ opsB) := rfl

set_option maxRecDepth 8192 in
set_option maxHeartbeats 4000000 in
theorem main_part1_eq (c : Dev nD) : main_part1 (F := F) c = seq (opsC ++ opsD) := rfl

set_option maxRecDepth 8192 in
set_option maxHeartbeats 4000000 in
theorem main_part2_eq (c : Dev nD) : main_part2 (F := F) c = seq (opsE ++ opsF) := rfl

set_option maxRecDepth 8192 in
set_option maxHeartbeats 4000000 in
theorem main_part3_eq (c : Dev nD) : main_part3 (F := F) c = seq (opsG ++ opsH) := rfl

set_option maxRecDepth 8192 in
set_option maxHeartbeats 4000000 in
theorem main_part4_eq (c : Dev nD) : main_part4 (F := F) c = seq (opsI) := rfl

abbrev opsAll : List (HloOp τ sig (Elt F)) :=
  (opsA ++ opsB) ++ ((opsC ++ opsD) ++ ((opsE ++ opsF) ++ ((opsG ++ opsH) ++ opsI)))

theorem main_eq (c : Dev nD) : main (F := F) c = seq (opsAll (F := F)) := by
  unfold main
  rw [main_part0_eq c, main_part1_eq c, main_part2_eq c, main_part3_eq c, main_part4_eq c]
  simp only [opsAll, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig := by
  simp only [opsAll, List.forall_append]
  exact ⟨⟨opsA_sub, opsB_sub⟩, ⟨opsC_sub, opsD_sub⟩, ⟨opsE_sub, opsF_sub⟩, ⟨opsG_sub, opsH_sub⟩, opsI_sub⟩

theorem opsAll_fresh : ∀ op ∈ (opsAll : List (HloOp τ sig (Elt F))), op.fresh = ∅ := by
  intro op h
  simp only [opsAll, List.mem_append] at h
  rcases h with (h | h) | (h | h) | (h | h) | (h | h) | h
  exacts [opsA_fresh op h, opsB_fresh op h, opsC_fresh op h, opsD_fresh op h, opsE_fresh op h, opsF_fresh op h,
    opsG_fresh op h, opsH_fresh op h, opsI_fresh op h]

abbrev afterAll (V : Valuation τ sig (Elt F)) : Valuation τ sig (Elt F) :=
  after opsI (after opsH (after opsG (after opsF (after opsE (after opsD (after opsC (after opsB (after opsA V))))))))

theorem after_opsAll (V : Valuation τ sig (Elt F)) : after opsAll V = afterAll V := by
  simp only [opsAll, afterAll, StableHlo.after_append]

theorem run_stretches (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = afterAll (launchContents m c) (Proc.devRef .tc b) :=
  (θ_run defs _ _).mono (fun _ h c b => (h c b).trans (by rw [after_opsAll]))
    (run_seq scopedRefs_eq scopedSems_eq defs main (fun _ => opsAll) main_eq (fun _ => opsAll_sub) m ρ
      (fun _ => opsAll_fresh))

end Cert.ReferenceIdeal.Hand

end
-- ==== Proof.RefRun1.lean ====
import proofs.«417545_j39908836114735_1_alg».proof.Proof.RefRun0
import proofs.«417545_j39908836114735_1_alg».proof.Proof.RefRead

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

structure ArgsAt (V : Valuation τ sig (Elt F)) : Prop where
  a0 : V (Proc.devRef .tc main_arg0) = m ((c.tc : Thread nD τ).loc main_arg0)
  a1 : V (Proc.devRef .tc main_arg1) = m ((c.tc : Thread nD τ).loc main_arg1)
  a2 : V (Proc.devRef .tc main_arg2) = m ((c.tc : Thread nD τ).loc main_arg2)
  a3 : V (Proc.devRef .tc main_arg3) = m ((c.tc : Thread nD τ).loc main_arg3)
  a4 : V (Proc.devRef .tc main_arg4) = m ((c.tc : Thread nD τ).loc main_arg4)
  a5 : V (Proc.devRef .tc main_arg5) = m ((c.tc : Thread nD τ).loc main_arg5)
  a6 : V (Proc.devRef .tc main_arg6) = m ((c.tc : Thread nD τ).loc main_arg6)
  a7 : V (Proc.devRef .tc main_arg7) = m ((c.tc : Thread nD τ).loc main_arg7)
  a8 : V (Proc.devRef .tc main_arg8) = m ((c.tc : Thread nD τ).loc main_arg8)
  a9 : V (Proc.devRef .tc main_arg9) = m ((c.tc : Thread nD τ).loc main_arg9)
  a10 : V (Proc.devRef .tc main_arg10) = m ((c.tc : Thread nD τ).loc main_arg10)
  a11 : V (Proc.devRef .tc main_arg11) = m ((c.tc : Thread nD τ).loc main_arg11)
  a12 : V (Proc.devRef .tc main_arg12) = m ((c.tc : Thread nD τ).loc main_arg12)
  a13 : V (Proc.devRef .tc main_arg13) = m ((c.tc : Thread nD τ).loc main_arg13)
  a14 : V (Proc.devRef .tc main_arg14) = m ((c.tc : Thread nD τ).loc main_arg14)
  a15 : V (Proc.devRef .tc main_arg15) = m ((c.tc : Thread nD τ).loc main_arg15)
  a16 : V (Proc.devRef .tc main_arg16) = m ((c.tc : Thread nD τ).loc main_arg16)

theorem argsAt_launch : ArgsAt m c (launchContents m c) :=
  ⟨rfl, rfl, rfl, rfl, rfl, rfl, rfl, rfl, rfl, rfl, rfl, rfl, rfl, rfl, rfl, rfl, rfl⟩

structure At1 (V : Valuation τ sig (Elt F)) : Prop where
  args : ArgsAt m c V
  v1 : V (Proc.devRef .tc main_v1) = ReadP.val_main_v1 (F := F) (m ((c.tc : Thread nD τ).loc main_arg1))
  v3 : V (Proc.devRef .tc main_v3) = ReadP.val_main_v3 (F := F) (m ((c.tc : Thread nD τ).loc main_arg1))
  v10 : V (Proc.devRef .tc main_v10) = ReadP.val_main_v10 (F := F) (m ((c.tc : Thread nD τ).loc main_arg1))
  v25 : V (Proc.devRef .tc main_v25) = ReadP.val_main_v25 (F := F) (m ((c.tc : Thread nD τ).loc main_arg1))

set_option maxRecDepth 8192 in
set_option maxHeartbeats 4000000 in
theorem step1 (V : Valuation τ sig (Elt F)) (h : ArgsAt m c V) : At1 m c (after opsA V) where
  args := ⟨(opsA_keeps V main_arg0 (by decide)).trans h.a0,
    (opsA_keeps V main_arg1 (by decide)).trans h.a1,
    (opsA_keeps V main_arg2 (by decide)).trans h.a2,
    (opsA_keeps V main_arg3 (by decide)).trans h.a3,
    (opsA_keeps V main_arg4 (by decide)).trans h.a4,
    (opsA_keeps V main_arg5 (by decide)).trans h.a5,
    (opsA_keeps V main_arg6 (by decide)).trans h.a6,
    (opsA_keeps V main_arg7 (by decide)).trans h.a7,
    (opsA_keeps V main_arg8 (by decide)).trans h.a8,
    (opsA_keeps V main_arg9 (by decide)).trans h.a9,
    (opsA_keeps V main_arg10 (by decide)).trans h.a10,
    (opsA_keeps V main_arg11 (by decide)).trans h.a11,
    (opsA_keeps V main_arg12 (by decide)).trans h.a12,
    (opsA_keeps V main_arg13 (by decide)).trans h.a13,
    (opsA_keeps V main_arg14 (by decide)).trans h.a14,
    (opsA_keeps V main_arg15 (by decide)).trans h.a15,
    (opsA_keeps V main_arg16 (by decide)).trans h.a16⟩
  v1 := by
    unfold opsA; after_results_simp
    rw [h.a1]
    rfl
  v3 := by
    unfold opsA; after_results_simp
    rw [h.a1]
    rfl
  v10 := by
    unfold opsA; after_results_simp
    rw [h.a1]
    rfl
  v25 := by
    unfold opsA; after_results_simp
    rw [h.a1]
    rfl

structure At2 (V : Valuation τ sig (Elt F)) : Prop where
  args : ArgsAt m c V
  v1 : V (Proc.devRef .tc main_v1) = ReadP.val_main_v1 (F := F) (m ((c.tc : Thread nD τ).loc main_arg1))
  v3 : V (Proc.devRef .tc main_v3) = ReadP.val_main_v3 (F := F) (m ((c.tc : Thread nD τ).loc main_arg1))
  v26 : V (Proc.devRef .tc main_v26) = ReadP.val_main_v26 (F := F) (m ((c.tc : Thread nD τ).loc main_arg1))
  v28 : V (Proc.devRef .tc main_v28) = ReadP.val_main_v28 (F := F) (m ((c.tc : Thread nD τ).loc main_arg1))
  v46 : V (Proc.devRef .tc main_v46) = ReadP.val_main_v46 (F := F) (m ((c.tc : Thread nD τ).loc main_arg0)) (m ((c.tc : Thread nD τ).loc main_arg1)) (m ((c.tc : Thread nD τ).loc main_arg3))
  v49 : V (Proc.devRef .tc main_v49) = ReadP.val_main_v49 (F := F) (m ((c.tc : Thread nD τ).loc main_arg4))

set_option maxRecDepth 8192 in
set_option maxHeartbeats 4000000 in
theorem step2 (V : Valuation τ sig (Elt F)) (h : At1 m c V) : At2 m c (after opsB V) where
  args := ⟨(opsB_keeps V main_arg0 (by decide)).trans h.args.a0,
    (opsB_keeps V main_arg1 (by decide)).trans h.args.a1,
    (opsB_keeps V main_arg2 (by decide)).trans h.args.a2,
    (opsB_keeps V main_arg3 (by decide)).trans h.args.a3,
    (opsB_keeps V main_arg4 (by decide)).trans h.args.a4,
    (opsB_keeps V main_arg5 (by decide)).trans h.args.a5,
    (opsB_keeps V main_arg6 (by decide)).trans h.args.a6,
    (opsB_keeps V main_arg7 (by decide)).trans h.args.a7,
    (opsB_keeps V main_arg8 (by decide)).trans h.args.a8,
    (opsB_keeps V main_arg9 (by decide)).trans h.args.a9,
    (opsB_keeps V main_arg10 (by decide)).trans h.args.a10,
    (opsB_keeps V main_arg11 (by decide)).trans h.args.a11,
    (opsB_keeps V main_arg12 (by decide)).trans h.args.a12,
    (opsB_keeps V main_arg13 (by decide)).trans h.args.a13,
    (opsB_keeps V main_arg14 (by decide)).trans h.args.a14,
    (opsB_keeps V main_arg15 (by decide)).trans h.args.a15,
    (opsB_keeps V main_arg16 (by decide)).trans h.args.a16⟩
  v1 := (opsB_keeps V main_v1 (by decide)).trans h.v1
  v3 := (opsB_keeps V main_v3 (by decide)).trans h.v3
  v26 := by
    unfold opsB; after_results_simp
    rw [h.v25]
    rfl
  v28 := by
    unfold opsB; after_results_simp
    rw [h.v10]
    rfl
  v46 := by
    unfold opsB; after_results_simp
    rw [h.v3, h.args.a0, h.args.a3, h.v1, h.v25, h.v10]
    rfl
  v49 := by
    unfold opsB; after_results_simp
    rw [h.args.a4]
    rfl

structure At3 (V : Valuation τ sig (Elt F)) : Prop where
  args : ArgsAt m c V
  v1 : V (Proc.devRef .tc main_v1) = ReadP.val_main_v1 (F := F) (m ((c.tc : Thread nD τ).loc main_arg1))
  v3 : V (Proc.devRef .tc main_v3) = ReadP.val_main_v3 (F := F) (m ((c.tc : Thread nD τ).loc main_arg1))
  v26 : V (Proc.devRef .tc main_v26) = ReadP.val_main_v26 (F := F) (m ((c.tc : Thread nD τ).loc main_arg1))
  v28 : V (Proc.devRef .tc main_v28) = ReadP.val_main_v28 (F := F) (m ((c.tc : Thread nD τ).loc main_arg1))
  v76 : V (Proc.devRef .tc main_v76) = ReadP.val_main_v76 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

set_option maxRecDepth 8192 in
set_option maxHeartbeats 4000000 in
theorem step3 (V : Valuation τ sig (Elt F)) (h : At2 m c V) : At3 m c (after opsC V) where
  args := ⟨(opsC_keeps V main_arg0 (by decide)).trans h.args.a0,
    (opsC_keeps V main_arg1 (by decide)).trans h.args.a1,
    (opsC_keeps V main_arg2 (by decide)).trans h.args.a2,
    (opsC_keeps V main_arg3 (by decide)).trans h.args.a3,
    (opsC_keeps V main_arg4 (by decide)).trans h.args.a4,
    (opsC_keeps V main_arg5 (by decide)).trans h.args.a5,
    (opsC_keeps V main_arg6 (by decide)).trans h.args.a6,
    (opsC_keeps V main_arg7 (by decide)).trans h.args.a7,
    (opsC_keeps V main_arg8 (by decide)).trans h.args.a8,
    (opsC_keeps V main_arg9 (by decide)).trans h.args.a9,
    (opsC_keeps V main_arg10 (by decide)).trans h.args.a10,
    (opsC_keeps V main_arg11 (by decide)).trans h.args.a11,
    (opsC_keeps V main_arg12 (by decide)).trans h.args.a12,
    (opsC_keeps V main_arg13 (by decide)).trans h.args.a13,
    (opsC_keeps V main_arg14 (by decide)).trans h.args.a14,
    (opsC_keeps V main_arg15 (by decide)).trans h.args.a15,
    (opsC_keeps V main_arg16 (by decide)).trans h.args.a16⟩
  v1 := (opsC_keeps V main_v1 (by decide)).trans h.v1
  v3 := (opsC_keeps V main_v3 (by decide)).trans h.v3
  v26 := (opsC_keeps V main_v26 (by decide)).trans h.v26
  v28 := (opsC_keeps V main_v28 (by decide)).trans h.v28
  v76 := by
    unfold opsC; after_results_simp
    try simp only [TRef.ofBuf, TRef.toBuf, cast_eq]
    rw [h.v46, h.v49, h.args.a7, h.args.a5, h.args.a8, h.args.a6, h.args.a3]
    rfl

structure At4 (V : Valuation τ sig (Elt F)) : Prop where
  args : ArgsAt m c V
  v1 : V (Proc.devRef .tc main_v1) = ReadP.val_main_v1 (F := F) (m ((c.tc : Thread nD τ).loc main_arg1))
  v3 : V (Proc.devRef .tc main_v3) = ReadP.val_main_v3 (F := F) (m ((c.tc : Thread nD τ).loc main_arg1))
  v26 : V (Proc.devRef .tc main_v26) = ReadP.val_main_v26 (F := F) (m ((c.tc : Thread nD τ).loc main_arg1))
  v28 : V (Proc.devRef .tc main_v28) = ReadP.val_main_v28 (F := F) (m ((c.tc : Thread nD τ).loc main_arg1))
  v101 : V (Proc.devRef .tc main_v101) = ReadP.val_main_v101 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
  v103 : V (Proc.devRef .tc main_v103) = ReadP.val_main_v103 (F := F) (m ((c.tc : Thread nD τ).loc main_arg5))
  v105 : V (Proc.devRef .tc main_v105) = ReadP.val_main_v105 (F := F) (m ((c.tc : Thread nD τ).loc main_arg8))

set_option maxRecDepth 8192 in
set_option maxHeartbeats 4000000 in
theorem step4 (V : Valuation τ sig (Elt F)) (h : At3 m c V) : At4 m c (after opsD V) where
  args := ⟨(opsD_keeps V main_arg0 (by decide)).trans h.args.a0,
    (opsD_keeps V main_arg1 (by decide)).trans h.args.a1,
    (opsD_keeps V main_arg2 (by decide)).trans h.args.a2,
    (opsD_keeps V main_arg3 (by decide)).trans h.args.a3,
    (opsD_keeps V main_arg4 (by decide)).trans h.args.a4,
    (opsD_keeps V main_arg5 (by decide)).trans h.args.a5,
    (opsD_keeps V main_arg6 (by decide)).trans h.args.a6,
    (opsD_keeps V main_arg7 (by decide)).trans h.args.a7,
    (opsD_keeps V main_arg8 (by decide)).trans h.args.a8,
    (opsD_keeps V main_arg9 (by decide)).trans h.args.a9,
    (opsD_keeps V main_arg10 (by decide)).trans h.args.a10,
    (opsD_keeps V main_arg11 (by decide)).trans h.args.a11,
    (opsD_keeps V main_arg12 (by decide)).trans h.args.a12,
    (opsD_keeps V main_arg13 (by decide)).trans h.args.a13,
    (opsD_keeps V main_arg14 (by decide)).trans h.args.a14,
    (opsD_keeps V main_arg15 (by decide)).trans h.args.a15,
    (opsD_keeps V main_arg16 (by decide)).trans h.args.a16⟩
  v1 := (opsD_keeps V main_v1 (by decide)).trans h.v1
  v3 := (opsD_keeps V main_v3 (by decide)).trans h.v3
  v26 := (opsD_keeps V main_v26 (by decide)).trans h.v26
  v28 := (opsD_keeps V main_v28 (by decide)).trans h.v28
  v101 := by
    unfold opsD; after_results_simp
    rw [h.v3, h.v76, h.v1, h.v26, h.v28, h.args.a4, h.args.a7]
    rfl
  v103 := by
    unfold opsD; after_results_simp
    rw [h.args.a5]
    rfl
  v105 := by
    unfold opsD; after_results_simp
    rw [h.args.a8]
    rfl

structure At5 (V : Valuation τ sig (Elt F)) : Prop where
  args : ArgsAt m c V
  v1 : V (Proc.devRef .tc main_v1) = ReadP.val_main_v1 (F := F) (m ((c.tc : Thread nD τ).loc main_arg1))
  v3 : V (Proc.devRef .tc main_v3) = ReadP.val_main_v3 (F := F) (m ((c.tc : Thread nD τ).loc main_arg1))
  v26 : V (Proc.devRef .tc main_v26) = ReadP.val_main_v26 (F := F) (m ((c.tc : Thread nD τ).loc main_arg1))
  v28 : V (Proc.devRef .tc main_v28) = ReadP.val_main_v28 (F := F) (m ((c.tc : Thread nD τ).loc main_arg1))
  v136 : V (Proc.devRef .tc main_v136) = ReadP.val_main_v136 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

set_option maxRecDepth 8192 in
set_option maxHeartbeats 4000000 in
theorem step5 (V : Valuation τ sig (Elt F)) (h : At4 m c V) : At5 m c (after opsE V) where
  args := ⟨(opsE_keeps V main_arg0 (by decide)).trans h.args.a0,
    (opsE_keeps V main_arg1 (by decide)).trans h.args.a1,
    (opsE_keeps V main_arg2 (by decide)).trans h.args.a2,
    (opsE_keeps V main_arg3 (by decide)).trans h.args.a3,
    (opsE_keeps V main_arg4 (by decide)).trans h.args.a4,
    (opsE_keeps V main_arg5 (by decide)).trans h.args.a5,
    (opsE_keeps V main_arg6 (by decide)).trans h.args.a6,
    (opsE_keeps V main_arg7 (by decide)).trans h.args.a7,
    (opsE_keeps V main_arg8 (by decide)).trans h.args.a8,
    (opsE_keeps V main_arg9 (by decide)).trans h.args.a9,
    (opsE_keeps V main_arg10 (by decide)).trans h.args.a10,
    (opsE_keeps V main_arg11 (by decide)).trans h.args.a11,
    (opsE_keeps V main_arg12 (by decide)).trans h.args.a12,
    (opsE_keeps V main_arg13 (by decide)).trans h.args.a13,
    (opsE_keeps V main_arg14 (by decide)).trans h.args.a14,
    (opsE_keeps V main_arg15 (by decide)).trans h.args.a15,
    (opsE_keeps V main_arg16 (by decide)).trans h.args.a16⟩
  v1 := (opsE_keeps V main_v1 (by decide)).trans h.v1
  v3 := (opsE_keeps V main_v3 (by decide)).trans h.v3
  v26 := (opsE_keeps V main_v26 (by decide)).trans h.v26
  v28 := (opsE_keeps V main_v28 (by decide)).trans h.v28
  v136 := by
    unfold opsE; after_results_simp
    try simp only [TRef.ofBuf, TRef.toBuf, cast_eq]
    rw [h.v3, h.v101, h.v103, h.v105, h.args.a6, h.args.a3, h.v1, h.v26, h.v28]
    rfl

structure At6 (V : Valuation τ sig (Elt F)) : Prop where
  args : ArgsAt m c V
  v1 : V (Proc.devRef .tc main_v1) = ReadP.val_main_v1 (F := F) (m ((c.tc : Thread nD τ).loc main_arg1))
  v3 : V (Proc.devRef .tc main_v3) = ReadP.val_main_v3 (F := F) (m ((c.tc : Thread nD τ).loc main_arg1))
  v26 : V (Proc.devRef .tc main_v26) = ReadP.val_main_v26 (F := F) (m ((c.tc : Thread nD τ).loc main_arg1))
  v28 : V (Proc.devRef .tc main_v28) = ReadP.val_main_v28 (F := F) (m ((c.tc : Thread nD τ).loc main_arg1))
  v157 : V (Proc.devRef .tc main_v157) = ReadP.val_main_v157 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
  v160 : V (Proc.devRef .tc main_v160) = ReadP.val_main_v160 (F := F) (m ((c.tc : Thread nD τ).loc main_arg6))

set_option maxRecDepth 8192 in
set_option maxHeartbeats 4000000 in
theorem step6 (V : Valuation τ sig (Elt F)) (h : At5 m c V) : At6 m c (after opsF V) where
  args := ⟨(opsF_keeps V main_arg0 (by decide)).trans h.args.a0,
    (opsF_keeps V main_arg1 (by decide)).trans h.args.a1,
    (opsF_keeps V main_arg2 (by decide)).trans h.args.a2,
    (opsF_keeps V main_arg3 (by decide)).trans h.args.a3,
    (opsF_keeps V main_arg4 (by decide)).trans h.args.a4,
    (opsF_keeps V main_arg5 (by decide)).trans h.args.a5,
    (opsF_keeps V main_arg6 (by decide)).trans h.args.a6,
    (opsF_keeps V main_arg7 (by decide)).trans h.args.a7,
    (opsF_keeps V main_arg8 (by decide)).trans h.args.a8,
    (opsF_keeps V main_arg9 (by decide)).trans h.args.a9,
    (opsF_keeps V main_arg10 (by decide)).trans h.args.a10,
    (opsF_keeps V main_arg11 (by decide)).trans h.args.a11,
    (opsF_keeps V main_arg12 (by decide)).trans h.args.a12,
    (opsF_keeps V main_arg13 (by decide)).trans h.args.a13,
    (opsF_keeps V main_arg14 (by decide)).trans h.args.a14,
    (opsF_keeps V main_arg15 (by decide)).trans h.args.a15,
    (opsF_keeps V main_arg16 (by decide)).trans h.args.a16⟩
  v1 := (opsF_keeps V main_v1 (by decide)).trans h.v1
  v3 := (opsF_keeps V main_v3 (by decide)).trans h.v3
  v26 := (opsF_keeps V main_v26 (by decide)).trans h.v26
  v28 := (opsF_keeps V main_v28 (by decide)).trans h.v28
  v157 := by
    unfold opsF; after_results_simp
    rw [h.v136, h.args.a4, h.args.a7, h.args.a5, h.args.a8]
    rfl
  v160 := by
    unfold opsF; after_results_simp
    rw [h.args.a6]
    rfl

structure At7 (V : Valuation τ sig (Elt F)) : Prop where
  args : ArgsAt m c V
  v186 : V (Proc.devRef .tc main_v186) = ReadP.val_main_v186 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

set_option maxRecDepth 8192 in
set_option maxHeartbeats 4000000 in
theorem step7 (V : Valuation τ sig (Elt F)) (h : At6 m c V) : At7 m c (after opsG V) where
  args := ⟨(opsG_keeps V main_arg0 (by decide)).trans h.args.a0,
    (opsG_keeps V main_arg1 (by decide)).trans h.args.a1,
    (opsG_keeps V main_arg2 (by decide)).trans h.args.a2,
    (opsG_keeps V main_arg3 (by decide)).trans h.args.a3,
    (opsG_keeps V main_arg4 (by decide)).trans h.args.a4,
    (opsG_keeps V main_arg5 (by decide)).trans h.args.a5,
    (opsG_keeps V main_arg6 (by decide)).trans h.args.a6,
    (opsG_keeps V main_arg7 (by decide)).trans h.args.a7,
    (opsG_keeps V main_arg8 (by decide)).trans h.args.a8,
    (opsG_keeps V main_arg9 (by decide)).trans h.args.a9,
    (opsG_keeps V main_arg10 (by decide)).trans h.args.a10,
    (opsG_keeps V main_arg11 (by decide)).trans h.args.a11,
    (opsG_keeps V main_arg12 (by decide)).trans h.args.a12,
    (opsG_keeps V main_arg13 (by decide)).trans h.args.a13,
    (opsG_keeps V main_arg14 (by decide)).trans h.args.a14,
    (opsG_keeps V main_arg15 (by decide)).trans h.args.a15,
    (opsG_keeps V main_arg16 (by decide)).trans h.args.a16⟩
  v186 := by
    unfold opsG; after_results_simp
    try simp only [TRef.ofBuf, TRef.toBuf, cast_eq]
    rw [h.v3, h.v157, h.v160, h.args.a3, h.v1, h.v26, h.v28, h.args.a4]
    rfl

structure At8 (V : Valuation τ sig (Elt F)) : Prop where
  args : ArgsAt m c V
  v211 : V (Proc.devRef .tc main_v211) = ReadP.val_main_v211 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
  v215 : V (Proc.devRef .tc main_v215) = ReadP.val_main_v215 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

set_option maxRecDepth 8192 in
set_option maxHeartbeats 4000000 in
theorem step8 (V : Valuation τ sig (Elt F)) (h : At7 m c V) : At8 m c (after opsH V) where
  args := ⟨(opsH_keeps V main_arg0 (by decide)).trans h.args.a0,
    (opsH_keeps V main_arg1 (by decide)).trans h.args.a1,
    (opsH_keeps V main_arg2 (by decide)).trans h.args.a2,
    (opsH_keeps V main_arg3 (by decide)).trans h.args.a3,
    (opsH_keeps V main_arg4 (by decide)).trans h.args.a4,
    (opsH_keeps V main_arg5 (by decide)).trans h.args.a5,
    (opsH_keeps V main_arg6 (by decide)).trans h.args.a6,
    (opsH_keeps V main_arg7 (by decide)).trans h.args.a7,
    (opsH_keeps V main_arg8 (by decide)).trans h.args.a8,
    (opsH_keeps V main_arg9 (by decide)).trans h.args.a9,
    (opsH_keeps V main_arg10 (by decide)).trans h.args.a10,
    (opsH_keeps V main_arg11 (by decide)).trans h.args.a11,
    (opsH_keeps V main_arg12 (by decide)).trans h.args.a12,
    (opsH_keeps V main_arg13 (by decide)).trans h.args.a13,
    (opsH_keeps V main_arg14 (by decide)).trans h.args.a14,
    (opsH_keeps V main_arg15 (by decide)).trans h.args.a15,
    (opsH_keeps V main_arg16 (by decide)).trans h.args.a16⟩
  v211 := by
    unfold opsH; after_results_simp
    try simp only [TRef.ofBuf, TRef.toBuf, cast_eq]
    rw [h.args.a2, h.v186, h.args.a7, h.args.a5, h.args.a8, h.args.a6]
    rfl
  v215 := by
    unfold opsH; after_results_simp
    try simp only [TRef.ofBuf, TRef.toBuf, cast_eq]
    rw [h.args.a2, h.v186, h.args.a7, h.args.a5, h.args.a8, h.args.a6, h.args.a9, h.args.a10]
    rfl

structure At9 (V : Valuation τ sig (Elt F)) : Prop where
  args : ArgsAt m c V
  v220 : V (Proc.devRef .tc main_v220) = ReadP.val_main_v220 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  v235 : V (Proc.devRef .tc main_v235) = ReadP.val_main_v235 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16))

set_option maxRecDepth 8192 in
set_option maxHeartbeats 4000000 in
theorem step9 (V : Valuation τ sig (Elt F)) (h : At8 m c V) : At9 m c (after opsI V) where
  args := ⟨(opsI_keeps V main_arg0 (by decide)).trans h.args.a0,
    (opsI_keeps V main_arg1 (by decide)).trans h.args.a1,
    (opsI_keeps V main_arg2 (by decide)).trans h.args.a2,
    (opsI_keeps V main_arg3 (by decide)).trans h.args.a3,
    (opsI_keeps V main_arg4 (by decide)).trans h.args.a4,
    (opsI_keeps V main_arg5 (by decide)).trans h.args.a5,
    (opsI_keeps V main_arg6 (by decide)).trans h.args.a6,
    (opsI_keeps V main_arg7 (by decide)).trans h.args.a7,
    (opsI_keeps V main_arg8 (by decide)).trans h.args.a8,
    (opsI_keeps V main_arg9 (by decide)).trans h.args.a9,
    (opsI_keeps V main_arg10 (by decide)).trans h.args.a10,
    (opsI_keeps V main_arg11 (by decide)).trans h.args.a11,
    (opsI_keeps V main_arg12 (by decide)).trans h.args.a12,
    (opsI_keeps V main_arg13 (by decide)).trans h.args.a13,
    (opsI_keeps V main_arg14 (by decide)).trans h.args.a14,
    (opsI_keeps V main_arg15 (by decide)).trans h.args.a15,
    (opsI_keeps V main_arg16 (by decide)).trans h.args.a16⟩
  v220 := by
    unfold opsI; after_results_simp
    try simp only [TRef.ofBuf, TRef.toBuf, cast_eq]
    rw [h.v215, h.args.a11, h.args.a12]
    rfl
  v235 := by
    unfold opsI; after_results_simp
    try simp only [TRef.ofBuf, TRef.toBuf, cast_eq]
    rw [h.v211, h.args.a13, h.args.a14, h.args.a15, h.args.a16]
    rfl

theorem at_end : At9 m c (afterAll (launchContents m c)) :=
  step9 m c _ (step8 m c _ (step7 m c _ (step6 m c _ (step5 m c _ (step4 m c _ (step3 m c _ (step2 m c _ (step1 m c _ (argsAt_launch m c)))))))))

end Cert.ReferenceIdeal.Hand

end
-- ==== Proof.RefRun.lean ====
import proofs.«417545_j39908836114735_1_alg».proof.Proof.RefRun1

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v220) = ReadP.val_main_v220 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v235) = ReadP.val_main_v235 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
      have e := at_end m c
      ⟨(h c main_v220).trans e.v220, (h c main_v235).trans e.v235,
        (h c main_arg0).trans e.args.a0,
        (h c main_arg1).trans e.args.a1,
        (h c main_arg2).trans e.args.a2,
        (h c main_arg3).trans e.args.a3,
        (h c main_arg4).trans e.args.a4,
        (h c main_arg5).trans e.args.a5,
        (h c main_arg6).trans e.args.a6,
        (h c main_arg7).trans e.args.a7,
        (h c main_arg8).trans e.args.a8,
        (h c main_arg9).trans e.args.a9,
        (h c main_arg10).trans e.args.a10,
        (h c main_arg11).trans e.args.a11,
        (h c main_arg12).trans e.args.a12,
        (h c main_arg13).trans e.args.a13,
        (h c main_arg14).trans e.args.a14,
        (h c main_arg15).trans e.args.a15,
        (h c main_arg16).trans e.args.a16⟩)
    (run_stretches m ρ)

end Cert.ReferenceIdeal.Hand

end
-- ==== Proof.lean ====
import proofs.«417545_j39908836114735_1_alg».proof.Defs
import proofs.«417545_j39908836114735_1_alg».proof.Proof.Gen.Kernel
import proofs.«417545_j39908836114735_1_alg».proof.Proof.Gen.KernelIdeal
import proofs.«417545_j39908836114735_1_alg».proof.Proof.Gen.ReferenceIdeal
import proofs.«417545_j39908836114735_1_alg».proof.Proof.Gen.Pre_finite_inputs
import proofs.«417545_j39908836114735_1_alg».proof.Proof.K.Run
import proofs.«417545_j39908836114735_1_alg».proof.Proof.KI.Run
import proofs.«417545_j39908836114735_1_alg».proof.Proof.KI.BrT
import proofs.«417545_j39908836114735_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernel_ideal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2.2) (Cert.ReferenceIdeal.Hand.run (F := Ideal) m ρ)

theorem algebraic : Cert.algebraic_KernelIdeal_ReferenceIdeal := by
  intro m ρ m' ρ' hpre hagree
  refine ⟨fun c => Cert.ReferenceIdeal.ReadP.val_main_v220 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.ReadP.val_main_v235 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Bridge.res0 m hpre c), (h c).2.1.trans (Cert.KernelIdeal.Bridge.res1 m hpre c), (h c).2.2⟩)
      (Cert.KernelIdeal.Hand.run_main (F := Ideal) m ρ)
  · refine (θ_run Cert.ReferenceIdeal.defs _ _).mono (fun r h c => ?_) (Cert.ReferenceIdeal.Hand.run (F := Ideal) m' ρ')
    obtain ⟨h0, h1, hargs⟩ := h c
    obtain ⟨e0, e1, e2, e3, e4, e5, e6, e7, e8, e9, e10, e11, e12, e13, e14, e15, e16⟩ := hagree c
    refine ⟨?_, ?_, hargs⟩
    · rw [h0, e0, e1, e2, e3, e4, e5, e6, e7, e8, e9, e10, e11, e12]
    · rw [h1, e0, e1, e2, e3, e4, e5, e6, e7, e8, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
